-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v357)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v357) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v532) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x96 : Shape := ⟨2, ![100000, 96]⟩
abbrev S96x128 : Shape := ⟨2, ![96, 128]⟩
abbrev S128 : Shape := ⟨1, ![128]⟩
abbrev S128x128 : Shape := ⟨2, ![128, 128]⟩
abbrev S27x128 : Shape := ⟨2, ![27, 128]⟩
abbrev S100000x27 : Shape := ⟨2, ![100000, 27]⟩
abbrev S_ : Shape := ⟨0, ![]⟩

class Facts : Prop where
  bcast_S_S100000x96 : S_.BroadcastsInDim S100000x96 (![] : Fin 0 → Fin S100000x96.rank)
  reducesTo_S100000x96_S_d0_1 : S100000x96.ReducesTo [0, 1] S_
  h_S_ : 0 < S_.numel
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S27x128 : S_.BroadcastsInDim S27x128 (![] : Fin 0 → Fin S27x128.rank)
  reducesTo_S27x128_S_d0_1 : S27x128.ReducesTo [0, 1] S_
  bcast_S_S100000x27 : S_.BroadcastsInDim S100000x27 (![] : Fin 0 → Fin S100000x27.rank)
  reducesTo_S100000x27_S_d0_1 : S100000x27.ReducesTo [0, 1] S_

variable [Facts]

def fn_part3 {F : FTy → Type} [FloatOps F] (main_v47 : IVec S_ 1) (main_v49 : IVec S100000x27 1) (main_c_19 : IVec S_ 1) : IVec S_ 1 :=
  let main_v50 : IVec S_ 1 := (fun x v => Host.reduce IntOp.andi x v reducesTo_S100000x27_S_d0_1 h_S_) main_v49 main_c_19
  let main_v51 : IVec S_ 1 := andi main_v47 main_v50
  main_v51

def fn_part2 {F : FTy → Type} [FloatOps F] (main_arg7 : FVec F S128 .f32) (main_arg8 : FVec F S96x128 .f32) (main_arg9 : IVec S100000x27 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S96x128 .f32 := Host.absf main_arg8
  let main_cst_14 : FVec F S_ .f32 := constant S_ .f32 0x7F800000#32
  let main_v40 : FVec F S96x128 .f32 := broadcastInDim S96x128 ![] bcast_S_S96x128 main_cst_14
  let main_v41 : IVec S96x128 1 := cmpf .olt main_v39 main_v40
  let main_c_15 : IVec S_ 1 := constantI S_ 1 1#1
  let main_v42 : IVec S_ 1 := (fun x v => Host.reduce IntOp.andi x v reducesTo_S96x128_S_d0_1 h_S_) main_v41 main_c_15
  let main_v43 : IVec S_ 1 := andi main_v38 main_v42
  let main_c_16 : IVec S_ 32 := constantI S_ 32 0#32
  let main_v44 : IVec S100000x27 32 := broadcastInDim S100000x27 ![] bcast_S_S100000x27 main_c_16
  let main_v45 : IVec S100000x27 1 := cmpi .sge main_arg9 main_v44
  let main_c_17 : IVec S_ 1 := constantI S_ 1 1#1
  let main_v46 : IVec S_ 1 := (fun x v => Host.reduce IntOp.andi x v reducesTo_S100000x27_S_d0_1 h_S_) main_v45 main_c_17
  let main_v47 : IVec S_ 1 := andi main_v43 main_v46
  let main_c_18 : IVec S_ 32 := constantI S_ 32 100000#32
  let main_v48 : IVec S100000x27 32 := broadcastInDim S100000x27 ![] bcast_S_S100000x27 main_c_18
  let main_v49 : IVec S100000x27 1 := cmpi .slt main_arg9 main_v48
  let main_c_19 : IVec S_ 1 := constantI S_ 1 1#1
  fn_part3 (F := F) main_v47 main_v49 main_c_19

def fn_part1 {F : FTy → Type} [FloatOps F] (main_arg4 : FVec F S128x128 .f32) (main_arg5 : FVec F S27x128 .f32) (main_arg6 : FVec F S128 .f32) (main_arg7 : FVec F S128 .f32) (main_arg8 : FVec F S96x128 .f32) (main_arg9 : IVec S100000x27 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S27x128 .f32 := Host.absf main_arg5
  let main_cst_8 : FVec F S_ .f32 := constant S_ .f32 0x7F800000#32
  let main_v25 : FVec F S27x128 .f32 := broadcastInDim S27x128 ![] bcast_S_S27x128 main_cst_8
  let main_v26 : IVec S27x128 1 := cmpf .olt main_v24 main_v25
  let main_c_9 : IVec S_ 1 := constantI S_ 1 1#1
  let main_v27 : IVec S_ 1 := (fun x v => Host.reduce IntOp.andi x v reducesTo_S27x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S100000x96 .f32) (main_arg1 : FVec F S96x128 .f32) (main_arg2 : FVec F S128 .f32) (main_arg3 : FVec F S128 .f32) (main_arg4 : FVec F S128x128 .f32) (main_arg5 : FVec F S27x128 .f32) (main_arg6 : FVec F S128 .f32) (main_arg7 : FVec F S128 .f32) (main_arg8 : FVec F S96x128 .f32) (main_arg9 : IVec S100000x27 32) (main_arg10 : IVec S100000x27 1) : IVec S_ 1 :=
  let main_v0 : FVec F S100000x96 .f32 := Host.absf main_arg0
  let main_cst : FVec F S_ .f32 := constant S_ .f32 0x7F800000#32
  let main_v1 : FVec F S100000x96 .f32 := broadcastInDim S100000x96 ![] bcast_S_S100000x96 main_cst
  let main_v2 : IVec S100000x96 1 := cmpf .olt main_v0 main_v1
  let main_c : IVec S_ 1 := constantI S_ 1 1#1
  let main_v3 : IVec S_ 1 := (fun x v => Host.reduce IntOp.andi x v reducesTo_S100000x96_S_d0_1 h_S_) main_v2 main_c
  let main_v4 : FVec F S96x128 .f32 := Host.absf main_arg1
  let main_cst_0 : FVec F S_ .f32 := constant S_ .f32 0x7F800000#32
  let main_v5 : FVec F S96x128 .f32 := broadcastInDim S96x128 ![] bcast_S_S96x128 main_cst_0
  let main_v6 : IVec S96x128 1 := cmpf .olt main_v4 main_v5
  let main_c_1 : IVec S_ 1 := constantI S_ 1 1#1
  let main_v7 : IVec S_ 1 := (fun x v => Host.reduce IntOp.andi x v reducesTo_S96x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000x96 : Shape := ⟨2, ![100000, 96]⟩
abbrev S96x128 : Shape := ⟨2, ![96, 128]⟩
abbrev S128 : Shape := ⟨1, ![128]⟩
abbrev S128x128 : Shape := ⟨2, ![128, 128]⟩
abbrev S27x128 : Shape := ⟨2, ![27, 128]⟩
abbrev S100000x27 : Shape := ⟨2, ![100000, 27]⟩
abbrev S100000x128 : Shape := ⟨2, ![100000, 128]⟩
abbrev S25x2x128 : Shape := ⟨3, ![25, 2, 128]⟩
abbrev S4000x96 : Shape := ⟨2, ![4000, 96]⟩
abbrev S4000x128 : Shape := ⟨2, ![4000, 128]⟩
abbrev S1x2x128 : Shape := ⟨3, ![1, 2, 128]⟩
abbrev S1x128 : Shape := ⟨2, ![1, 128]⟩
abbrev S1x1x128 : Shape := ⟨3, ![1, 1, 128]⟩
abbrev S25x1x128 : Shape := ⟨3, ![25, 1, 128]⟩
abbrev S25x128 : Shape := ⟨2, ![25, 128]⟩
abbrev S_ : Shape := ⟨0, ![]⟩
abbrev S100000x1 : Shape := ⟨2, ![100000, 1]⟩
abbrev S100000 : Shape := ⟨1, ![100000]⟩
abbrev S1 : Shape := ⟨1, ![1]⟩
abbrev S1x1 : Shape := ⟨2, ![1, 1]⟩

abbrev nBuf : Space → Nat
  | .hbm => 973
  | .vmem => 27
  | .smem => 0
  | _ => 0

abbrev hbmTy0_0 (i : Nat) : BufTy := match i % 128 with
  | 0 => ⟨S100000x96, .f32⟩
  | 1 => ⟨S96x128, .f32⟩
  | 2 => ⟨S128, .f32⟩
  | 3 => ⟨S128, .f32⟩
  | 4 => ⟨S128x128, .f32⟩
  | 5 => ⟨S27x128, .f32⟩
  | 6 => ⟨S128, .f32⟩
  | 7 => ⟨S128, .f32⟩
  | 8 => ⟨S96x128, .f32⟩
  | 9 => ⟨S100000x27, .i32⟩
  | 10 => ⟨S100000x27, .i1⟩
  | 11 => ⟨S100000x128, .bf16⟩
  | 12 => ⟨S25x2x128, .f32⟩
  | 13 => ⟨S25x1x128, .f32⟩
  | 14 => ⟨S25x128, .f32⟩
  | 15 => ⟨S_, .f32⟩
  | 16 => ⟨S128, .f32⟩
  | 17 => ⟨S25x1x128, .f32⟩
  | 18 => ⟨S25x128, .f32⟩
  | 19 => ⟨S_, .f32⟩
  | 20 => ⟨S128, .f32⟩
  | 21 => ⟨S_, .f32⟩
  | 22 => ⟨S128, .f32⟩
  | 23 => ⟨S128, .f32⟩
  | 24 => ⟨S_, .f32⟩
  | 25 => ⟨S128, .f32⟩
  | 26 => ⟨S128, .f32⟩
  | 27 => ⟨S128, .f32⟩
  | 28 => ⟨S128, .f32⟩
  | 29 => ⟨S1x128, .f32⟩
  | 30 => ⟨S1x128, .f32⟩
  | 31 => ⟨S1x128, .f32⟩
  | 32 => ⟨S1x128, .f32⟩
  | 33 => ⟨S100000x128, .f32⟩
  | 34 => ⟨S100000x27, .f32⟩
  | 35 => ⟨S_, .f32⟩
  | 36 => ⟨S100000x128, .f32⟩
  | 37 => ⟨S100000x1, .i32⟩
  | 38 => ⟨S100000, .i32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S1, .i32⟩
  | 48 => ⟨S_, .i32⟩
  | 49 => ⟨S100000x1, .i32⟩
  | 50 => ⟨S100000x1, .i1⟩
  | 51 => ⟨S1x1, .i32⟩
  | 52 => ⟨S100000x1, .i32⟩
  | 53 => ⟨S100000x1, .i1⟩
  | 54 => ⟨S100000x1, .i1⟩
  | 55 => ⟨S_, .i1⟩
  | 56 => ⟨S100000, .i1⟩
  | 57 => ⟨S100000x128, .f32⟩
  | 58 => ⟨S100000x128, .i1⟩
  | 59 => ⟨S_, .f32⟩
  | 60 => ⟨S100000x128, .f32⟩
  | 61 => ⟨S100000x128, .f32⟩
  | 62 => ⟨S100000x1, .f32⟩
  | 63 => ⟨S100000x128, .f32⟩
  | 64 => ⟨S100000x128, .f32⟩
  | 65 => ⟨S1x128, .f32⟩
  | 66 => ⟨S128, .f32⟩
  | 67 => ⟨S1x128, .f32⟩
  | 68 => ⟨S100000x128, .f32⟩
  | 69 => ⟨S100000x128, .f32⟩
  | 70 => ⟨S100000x128, .f32⟩
  | 71 => ⟨S100000x1, .i32⟩
  | 72 => ⟨S100000, .i32⟩
  | 73 => ⟨S_, .i32⟩
  | 74 => ⟨S100000, .i32⟩
  | 75 => ⟨S100000, .i1⟩
  | 76 => ⟨S_, .i32⟩
  | 77 => ⟨S100000, .i32⟩
  | 78 => ⟨S100000, .i32⟩
  | 79 => ⟨S100000, .i32⟩
  | 80 => ⟨S100000x1, .i32⟩
  | 81 => ⟨S1, .i32⟩
  | 82 => ⟨S_, .i32⟩
  | 83 => ⟨S100000x1, .i32⟩
  | 84 => ⟨S100000x1, .i1⟩
  | 85 => ⟨S1x1, .i32⟩
  | 86 => ⟨S100000x1, .i32⟩
  | 87 => ⟨S100000x1, .i1⟩
  | 88 => ⟨S100000x1, .i1⟩
  | 89 => ⟨S_, .i1⟩
  | 90 => ⟨S100000, .i1⟩
  | 91 => ⟨S100000x128, .f32⟩
  | 92 => ⟨S100000x128, .i1⟩
  | 93 => ⟨S_, .f32⟩
  | 94 => ⟨S100000x128, .f32⟩
  | 95 => ⟨S100000x128, .f32⟩
  | 96 => ⟨S100000x1, .f32⟩
  | 97 => ⟨S100000x128, .f32⟩
  | 98 => ⟨S100000x128, .f32⟩
  | 99 => ⟨S1x128, .f32⟩
  | 100 => ⟨S128, .f32⟩
  | 101 => ⟨S1x128, .f32⟩
  | 102 => ⟨S100000x128, .f32⟩
  | 103 => ⟨S100000x128, .f32⟩
  | 104 => ⟨S100000x128, .f32⟩
  | 105 => ⟨S100000x1, .i32⟩
  | 106 => ⟨S100000, .i32⟩
  | 107 => ⟨S_, .i32⟩
  | 108 => ⟨S100000, .i32⟩
  | 109 => ⟨S100000, .i1⟩
  | 110 => ⟨S_, .i32⟩
  | 111 => ⟨S100000, .i32⟩
  | 112 => ⟨S100000, .i32⟩
  | 113 => ⟨S100000, .i32⟩
  | 114 => ⟨S100000x1, .i32⟩
  | 115 => ⟨S1, .i32⟩
  | 116 => ⟨S_, .i32⟩
  | 117 => ⟨S100000x1, .i32⟩
  | 118 => ⟨S100000x1, .i1⟩
  | 119 => ⟨S1x1, .i32⟩
  | 120 => ⟨S100000x1, .i32⟩
  | 121 => ⟨S100000x1, .i1⟩
  | 122 => ⟨S100000x1, .i1⟩
  | 123 => ⟨S_, .i1⟩
  | 124 => ⟨S100000, .i1⟩
  | 125 => ⟨S100000x128, .f32⟩
  | 126 => ⟨S100000x128, .i1⟩
  | 127 => ⟨S_, .f32⟩
  | _ => ⟨S100000x96, .f32⟩

abbrev hbmTy0_1 (i : Nat) : BufTy := match i % 128 with
  | 0 => ⟨S100000x128, .f32⟩
  | 1 => ⟨S100000x128, .f32⟩
  | 2 => ⟨S100000x1, .f32⟩
  | 3 => ⟨S100000x128, .f32⟩
  | 4 => ⟨S100000x128, .f32⟩
  | 5 => ⟨S1x128, .f32⟩
  | 6 => ⟨S128, .f32⟩
  | 7 => ⟨S1x128, .f32⟩
  | 8 => ⟨S100000x128, .f32⟩
  | 9 => ⟨S100000x128, .f32⟩
  | 10 => ⟨S100000x128, .f32⟩
  | 11 => ⟨S100000x1, .i32⟩
  | 12 => ⟨S100000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S1, .i32⟩
  | 22 => ⟨S_, .i32⟩
  | 23 => ⟨S100000x1, .i32⟩
  | 24 => ⟨S100000x1, .i1⟩
  | 25 => ⟨S1x1, .i32⟩
  | 26 => ⟨S100000x1, .i32⟩
  | 27 => ⟨S100000x1, .i1⟩
  | 28 => ⟨S100000x1, .i1⟩
  | 29 => ⟨S_, .i1⟩
  | 30 => ⟨S100000, .i1⟩
  | 31 => ⟨S100000x128, .f32⟩
  | 32 => ⟨S100000x128, .i1⟩
  | 33 => ⟨S_, .f32⟩
  | 34 => ⟨S100000x128, .f32⟩
  | 35 => ⟨S100000x128, .f32⟩
  | 36 => ⟨S100000x1, .f32⟩
  | 37 => ⟨S100000x128, .f32⟩
  | 38 => ⟨S100000x128, .f32⟩
  | 39 => ⟨S1x128, .f32⟩
  | 40 => ⟨S128, .f32⟩
  | 41 => ⟨S1x128, .f32⟩
  | 42 => ⟨S100000x128, .f32⟩
  | 43 => ⟨S100000x128, .f32⟩
  | 44 => ⟨S100000x128, .f32⟩
  | 45 => ⟨S100000x1, .i32⟩
  | 46 => ⟨S100000, .i32⟩
  | 47 => ⟨S_, .i32⟩
  | 48 => ⟨S100000, .i32⟩
  | 49 => ⟨S100000, .i1⟩
  | 50 => ⟨S_, .i32⟩
  | 51 => ⟨S100000, .i32⟩
  | 52 => ⟨S100000, .i32⟩
  | 53 => ⟨S100000, .i32⟩
  | 54 => ⟨S100000x1, .i32⟩
  | 55 => ⟨S1, .i32⟩
  | 56 => ⟨S_, .i32⟩
  | 57 => ⟨S100000x1, .i32⟩
  | 58 => ⟨S100000x1, .i1⟩
  | 59 => ⟨S1x1, .i32⟩
  | 60 => ⟨S100000x1, .i32⟩
  | 61 => ⟨S100000x1, .i1⟩
  | 62 => ⟨S100000x1, .i1⟩
  | 63 => ⟨S_, .i1⟩
  | 64 => ⟨S100000, .i1⟩
  | 65 => ⟨S100000x128, .f32⟩
  | 66 => ⟨S100000x128, .i1⟩
  | 67 => ⟨S_, .f32⟩
  | 68 => ⟨S100000x128, .f32⟩
  | 69 => ⟨S100000x128, .f32⟩
  | 70 => ⟨S100000x1, .f32⟩
  | 71 => ⟨S100000x128, .f32⟩
  | 72 => ⟨S100000x128, .f32⟩
  | 73 => ⟨S1x128, .f32⟩
  | 74 => ⟨S128, .f32⟩
  | 75 => ⟨S1x128, .f32⟩
  | 76 => ⟨S100000x128, .f32⟩
  | 77 => ⟨S100000x128, .f32⟩
  | 78 => ⟨S100000x128, .f32⟩
  | 79 => ⟨S100000x1, .i32⟩
  | 80 => ⟨S100000, .i32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S1, .i32⟩
  | 90 => ⟨S_, .i32⟩
  | 91 => ⟨S100000x1, .i32⟩
  | 92 => ⟨S100000x1, .i1⟩
  | 93 => ⟨S1x1, .i32⟩
  | 94 => ⟨S100000x1, .i32⟩
  | 95 => ⟨S100000x1, .i1⟩
  | 96 => ⟨S100000x1, .i1⟩
  | 97 => ⟨S_, .i1⟩
  | 98 => ⟨S100000, .i1⟩
  | 99 => ⟨S100000x128, .f32⟩
  | 100 => ⟨S100000x128, .i1⟩
  | 101 => ⟨S_, .f32⟩
  | 102 => ⟨S100000x128, .f32⟩
  | 103 => ⟨S100000x128, .f32⟩
  | 104 => ⟨S100000x1, .f32⟩
  | 105 => ⟨S100000x128, .f32⟩
  | 106 => ⟨S100000x128, .f32⟩
  | 107 => ⟨S1x128, .f32⟩
  | 108 => ⟨S128, .f32⟩
  | 109 => ⟨S1x128, .f32⟩
  | 110 => ⟨S100000x128, .f32⟩
  | 111 => ⟨S100000x128, .f32⟩
  | 112 => ⟨S100000x128, .f32⟩
  | 113 => ⟨S100000x1, .i32⟩
  | 114 => ⟨S100000, .i32⟩
  | 115 => ⟨S_, .i32⟩
  | 116 => ⟨S100000, .i32⟩
  | 117 => ⟨S100000, .i1⟩
  | 118 => ⟨S_, .i32⟩
  | 119 => ⟨S100000, .i32⟩
  | 120 => ⟨S100000, .i32⟩
  | 121 => ⟨S100000, .i32⟩
  | 122 => ⟨S100000x1, .i32⟩
  | 123 => ⟨S1, .i32⟩
  | 124 => ⟨S_, .i32⟩
  | 125 => ⟨S100000x1, .i32⟩
  | 126 => ⟨S100000x1, .i1⟩
  | 127 => ⟨S1x1, .i32⟩
  | _ => ⟨S100000x96, .f32⟩

abbrev hbmTy0_2 (i : Nat) : BufTy := match i % 128 with
  | 0 => ⟨S100000x1, .i32⟩
  | 1 => ⟨S100000x1, .i1⟩
  | 2 => ⟨S100000x1, .i1⟩
  | 3 => ⟨S_, .i1⟩
  | 4 => ⟨S100000, .i1⟩
  | 5 => ⟨S100000x128, .f32⟩
  | 6 => ⟨S100000x128, .i1⟩
  | 7 => ⟨S_, .f32⟩
  | 8 => ⟨S100000x128, .f32⟩
  | 9 => ⟨S100000x128, .f32⟩
  | 10 => ⟨S100000x1, .f32⟩
  | 11 => ⟨S100000x128, .f32⟩
  | 12 => ⟨S100000x128, .f32⟩
  | 13 => ⟨S1x128, .f32⟩
  | 14 => ⟨S128, .f32⟩
  | 15 => ⟨S1x128, .f32⟩
  | 16 => ⟨S100000x128, .f32⟩
  | 17 => ⟨S100000x128, .f32⟩
  | 18 => ⟨S100000x128, .f32⟩
  | 19 => ⟨S100000x1, .i32⟩
  | 20 => ⟨S100000, .i32⟩
  | 21 => ⟨S_, .i32⟩
  | 22 => ⟨S100000, .i32⟩
  | 23 => ⟨S100000, .i1⟩
  | 24 => ⟨S_, .i32⟩
  | 25 => ⟨S100000, .i32⟩
  | 26 => ⟨S100000, .i32⟩
  | 27 => ⟨S100000, .i32⟩
  | 28 => ⟨S100000x1, .i32⟩
  | 29 => ⟨S1, .i32⟩
  | 30 => ⟨S_, .i32⟩
  | 31 => ⟨S100000x1, .i32⟩
  | 32 => ⟨S100000x1, .i1⟩
  | 33 => ⟨S1x1, .i32⟩
  | 34 => ⟨S100000x1, .i32⟩
  | 35 => ⟨S100000x1, .i1⟩
  | 36 => ⟨S100000x1, .i1⟩
  | 37 => ⟨S_, .i1⟩
  | 38 => ⟨S100000, .i1⟩
  | 39 => ⟨S100000x128, .f32⟩
  | 40 => ⟨S100000x128, .i1⟩
  | 41 => ⟨S_, .f32⟩
  | 42 => ⟨S100000x128, .f32⟩
  | 43 => ⟨S100000x128, .f32⟩
  | 44 => ⟨S100000x1, .f32⟩
  | 45 => ⟨S100000x128, .f32⟩
  | 46 => ⟨S100000x128, .f32⟩
  | 47 => ⟨S1x128, .f32⟩
  | 48 => ⟨S128, .f32⟩
  | 49 => ⟨S1x128, .f32⟩
  | 50 => ⟨S100000x128, .f32⟩
  | 51 => ⟨S100000x128, .f32⟩
  | 52 => ⟨S100000x128, .f32⟩
  | 53 => ⟨S100000x1, .i32⟩
  | 54 => ⟨S100000, .i32⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S100000x1, .i32⟩
  | 63 => ⟨S1, .i32⟩
  | 64 => ⟨S_, .i32⟩
  | 65 => ⟨S100000x1, .i32⟩
  | 66 => ⟨S100000x1, .i1⟩
  | 67 => ⟨S1x1, .i32⟩
  | 68 => ⟨S100000x1, .i32⟩
  | 69 => ⟨S100000x1, .i1⟩
  | 70 => ⟨S100000x1, .i1⟩
  | 71 => ⟨S_, .i1⟩
  | 72 => ⟨S100000, .i1⟩
  | 73 => ⟨S100000x128, .f32⟩
  | 74 => ⟨S100000x128, .i1⟩
  | 75 => ⟨S_, .f32⟩
  | 76 => ⟨S100000x128, .f32⟩
  | 77 => ⟨S100000x128, .f32⟩
  | 78 => ⟨S100000x1, .f32⟩
  | 79 => ⟨S100000x128, .f32⟩
  | 80 => ⟨S100000x128, .f32⟩
  | 81 => ⟨S1x128, .f32⟩
  | 82 => ⟨S128, .f32⟩
  | 83 => ⟨S1x128, .f32⟩
  | 84 => ⟨S100000x128, .f32⟩
  | 85 => ⟨S100000x128, .f32⟩
  | 86 => ⟨S100000x128, .f32⟩
  | 87 => ⟨S100000x1, .i32⟩
  | 88 => ⟨S100000, .i32⟩
  | 89 => ⟨S_, .i32⟩
  | 90 => ⟨S100000, .i32⟩
  | 91 => ⟨S100000, .i1⟩
  | 92 => ⟨S_, .i32⟩
  | 93 => ⟨S100000, .i32⟩
  | 94 => ⟨S100000, .i32⟩
  | 95 => ⟨S100000, .i32⟩
  | 96 => ⟨S100000x1, .i32⟩
  | 97 => ⟨S1, .i32⟩
  | 98 => ⟨S_, .i32⟩
  | 99 => ⟨S100000x1, .i32⟩
  | 100 => ⟨S100000x1, .i1⟩
  | 101 => ⟨S1x1, .i32⟩
  | 102 => ⟨S100000x1, .i32⟩
  | 103 => ⟨S100000x1, .i1⟩
  | 104 => ⟨S100000x1, .i1⟩
  | 105 => ⟨S_, .i1⟩
  | 106 => ⟨S100000, .i1⟩
  | 107 => ⟨S100000x128, .f32⟩
  | 108 => ⟨S100000x128, .i1⟩
  | 109 => ⟨S_, .f32⟩
  | 110 => ⟨S100000x128, .f32⟩
  | 111 => ⟨S100000x128, .f32⟩
  | 112 => ⟨S100000x1, .f32⟩
  | 113 => ⟨S100000x128, .f32⟩
  | 114 => ⟨S100000x128, .f32⟩
  | 115 => ⟨S1x128, .f32⟩
  | 116 => ⟨S128, .f32⟩
  | 117 => ⟨S1x128, .f32⟩
  | 118 => ⟨S100000x128, .f32⟩
  | 119 => ⟨S100000x128, .f32⟩
  | 120 => ⟨S100000x128, .f32⟩
  | 121 => ⟨S100000x1, .i32⟩
  | 122 => ⟨S100000, .i32⟩
  | 123 => ⟨S_, .i32⟩
  | 124 => ⟨S100000, .i32⟩
  | 125 => ⟨S100000, .i1⟩
  | 126 => ⟨S_, .i32⟩
  | 127 => ⟨S100000, .i32⟩
  | _ => ⟨S100000x96, .f32⟩

abbrev hbmTy0_3 (i : Nat) : BufTy := match i % 128 with
  | 0 => ⟨S100000, .i32⟩
  | 1 => ⟨S100000, .i32⟩
  | 2 => ⟨S100000x1, .i32⟩
  | 3 => ⟨S1, .i32⟩
  | 4 => ⟨S_, .i32⟩
  | 5 => ⟨S100000x1, .i32⟩
  | 6 => ⟨S100000x1, .i1⟩
  | 7 => ⟨S1x1, .i32⟩
  | 8 => ⟨S100000x1, .i32⟩
  | 9 => ⟨S100000x1, .i1⟩
  | 10 => ⟨S100000x1, .i1⟩
  | 11 => ⟨S_, .i1⟩
  | 12 => ⟨S100000, .i1⟩
  | 13 => ⟨S100000x128, .f32⟩
  | 14 => ⟨S100000x128, .i1⟩
  | 15 => ⟨S_, .f32⟩
  | 16 => ⟨S100000x128, .f32⟩
  | 17 => ⟨S100000x128, .f32⟩
  | 18 => ⟨S100000x1, .f32⟩
  | 19 => ⟨S100000x128, .f32⟩
  | 20 => ⟨S100000x128, .f32⟩
  | 21 => ⟨S1x128, .f32⟩
  | 22 => ⟨S128, .f32⟩
  | 23 => ⟨S1x128, .f32⟩
  | 24 => ⟨S100000x128, .f32⟩
  | 25 => ⟨S100000x128, .f32⟩
  | 26 => ⟨S100000x128, .f32⟩
  | 27 => ⟨S100000x1, .i32⟩
  | 28 => ⟨S100000, .i32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S100000x1, .i32⟩
  | 37 => ⟨S1, .i32⟩
  | 38 => ⟨S_, .i32⟩
  | 39 => ⟨S100000x1, .i32⟩
  | 40 => ⟨S100000x1, .i1⟩
  | 41 => ⟨S1x1, .i32⟩
  | 42 => ⟨S100000x1, .i32⟩
  | 43 => ⟨S100000x1, .i1⟩
  | 44 => ⟨S100000x1, .i1⟩
  | 45 => ⟨S_, .i1⟩
  | 46 => ⟨S100000, .i1⟩
  | 47 => ⟨S100000x128, .f32⟩
  | 48 => ⟨S100000x128, .i1⟩
  | 49 => ⟨S_, .f32⟩
  | 50 => ⟨S100000x128, .f32⟩
  | 51 => ⟨S100000x128, .f32⟩
  | 52 => ⟨S100000x1, .f32⟩
  | 53 => ⟨S100000x128, .f32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | 60 => ⟨S100000x128, .f32⟩
  | 61 => ⟨S100000x1, .i32⟩
  | 62 => ⟨S100000, .i32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S1, .i32⟩
  | 72 => ⟨S_, .i32⟩
  | 73 => ⟨S100000x1, .i32⟩
  | 74 => ⟨S100000x1, .i1⟩
  | 75 => ⟨S1x1, .i32⟩
  | 76 => ⟨S100000x1, .i32⟩
  | 77 => ⟨S100000x1, .i1⟩
  | 78 => ⟨S100000x1, .i1⟩
  | 79 => ⟨S_, .i1⟩
  | 80 => ⟨S100000, .i1⟩
  | 81 => ⟨S100000x128, .f32⟩
  | 82 => ⟨S100000x128, .i1⟩
  | 83 => ⟨S_, .f32⟩
  | 84 => ⟨S100000x128, .f32⟩
  | 85 => ⟨S100000x128, .f32⟩
  | 86 => ⟨S100000x1, .f32⟩
  | 87 => ⟨S100000x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S100000x128, .f32⟩
  | 95 => ⟨S100000x1, .i32⟩
  | 96 => ⟨S100000, .i32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S1, .i32⟩
  | 106 => ⟨S_, .i32⟩
  | 107 => ⟨S100000x1, .i32⟩
  | 108 => ⟨S100000x1, .i1⟩
  | 109 => ⟨S1x1, .i32⟩
  | 110 => ⟨S100000x1, .i32⟩
  | 111 => ⟨S100000x1, .i1⟩
  | 112 => ⟨S100000x1, .i1⟩
  | 113 => ⟨S_, .i1⟩
  | 114 => ⟨S100000, .i1⟩
  | 115 => ⟨S100000x128, .f32⟩
  | 116 => ⟨S100000x128, .i1⟩
  | 117 => ⟨S_, .f32⟩
  | 118 => ⟨S100000x128, .f32⟩
  | 119 => ⟨S100000x128, .f32⟩
  | 120 => ⟨S100000x1, .f32⟩
  | 121 => ⟨S100000x128, .f32⟩
  | 122 => ⟨S100000x128, .f32⟩
  | 123 => ⟨S1x128, .f32⟩
  | 124 => ⟨S128, .f32⟩
  | 125 => ⟨S1x128, .f32⟩
  | 126 => ⟨S100000x128, .f32⟩
  | 127 => ⟨S100000x128, .f32⟩
  | _ => ⟨S100000x96, .f32⟩

abbrev hbmTy0_4 (i : Nat) : BufTy := match i % 128 with
  | 0 => ⟨S100000x128, .f32⟩
  | 1 => ⟨S100000x1, .i32⟩
  | 2 => ⟨S100000, .i32⟩
  | 3 => ⟨S_, .i32⟩
  | 4 => ⟨S100000, .i32⟩
  | 5 => ⟨S100000, .i1⟩
  | 6 => ⟨S_, .i32⟩
  | 7 => ⟨S100000, .i32⟩
  | 8 => ⟨S100000, .i32⟩
  | 9 => ⟨S100000, .i32⟩
  | 10 => ⟨S100000x1, .i32⟩
  | 11 => ⟨S1, .i32⟩
  | 12 => ⟨S_, .i32⟩
  | 13 => ⟨S100000x1, .i32⟩
  | 14 => ⟨S100000x1, .i1⟩
  | 15 => ⟨S1x1, .i32⟩
  | 16 => ⟨S100000x1, .i32⟩
  | 17 => ⟨S100000x1, .i1⟩
  | 18 => ⟨S100000x1, .i1⟩
  | 19 => ⟨S_, .i1⟩
  | 20 => ⟨S100000, .i1⟩
  | 21 => ⟨S100000x128, .f32⟩
  | 22 => ⟨S100000x128, .i1⟩
  | 23 => ⟨S_, .f32⟩
  | 24 => ⟨S100000x128, .f32⟩
  | 25 => ⟨S100000x128, .f32⟩
  | 26 => ⟨S100000x1, .f32⟩
  | 27 => ⟨S100000x128, .f32⟩
  | 28 => ⟨S100000x128, .f32⟩
  | 29 => ⟨S1x128, .f32⟩
  | 30 => ⟨S128, .f32⟩
  | 31 => ⟨S1x128, .f32⟩
  | 32 => ⟨S100000x128, .f32⟩
  | 33 => ⟨S100000x128, .f32⟩
  | 34 => ⟨S100000x128, .f32⟩
  | 35 => ⟨S100000x1, .i32⟩
  | 36 => ⟨S100000, .i32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S100000x1, .i32⟩
  | 45 => ⟨S1, .i32⟩
  | 46 => ⟨S_, .i32⟩
  | 47 => ⟨S100000x1, .i32⟩
  | 48 => ⟨S100000x1, .i1⟩
  | 49 => ⟨S1x1, .i32⟩
  | 50 => ⟨S100000x1, .i32⟩
  | 51 => ⟨S100000x1, .i1⟩
  | 52 => ⟨S100000x1, .i1⟩
  | 53 => ⟨S_, .i1⟩
  | 54 => ⟨S100000, .i1⟩
  | 55 => ⟨S100000x128, .f32⟩
  | 56 => ⟨S100000x128, .i1⟩
  | 57 => ⟨S_, .f32⟩
  | 58 => ⟨S100000x128, .f32⟩
  | 59 => ⟨S100000x128, .f32⟩
  | 60 => ⟨S100000x1, .f32⟩
  | 61 => ⟨S100000x128, .f32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S100000x128, .f32⟩
  | 69 => ⟨S100000x1, .i32⟩
  | 70 => ⟨S100000, .i32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S1, .i32⟩
  | 80 => ⟨S_, .i32⟩
  | 81 => ⟨S100000x1, .i32⟩
  | 82 => ⟨S100000x1, .i1⟩
  | 83 => ⟨S1x1, .i32⟩
  | 84 => ⟨S100000x1, .i32⟩
  | 85 => ⟨S100000x1, .i1⟩
  | 86 => ⟨S100000x1, .i1⟩
  | 87 => ⟨S_, .i1⟩
  | 88 => ⟨S100000, .i1⟩
  | 89 => ⟨S100000x128, .f32⟩
  | 90 => ⟨S100000x128, .i1⟩
  | 91 => ⟨S_, .f32⟩
  | 92 => ⟨S100000x128, .f32⟩
  | 93 => ⟨S100000x128, .f32⟩
  | 94 => ⟨S100000x1, .f32⟩
  | 95 => ⟨S100000x128, .f32⟩
  | 96 => ⟨S100000x128, .f32⟩
  | 97 => ⟨S1x128, .f32⟩
  | 98 => ⟨S128, .f32⟩
  | 99 => ⟨S1x128, .f32⟩
  | 100 => ⟨S100000x128, .f32⟩
  | 101 => ⟨S100000x128, .f32⟩
  | 102 => ⟨S100000x128, .f32⟩
  | 103 => ⟨S100000x1, .i32⟩
  | 104 => ⟨S100000, .i32⟩
  | 105 => ⟨S_, .i32⟩
  | 106 => ⟨S100000, .i32⟩
  | 107 => ⟨S100000, .i1⟩
  | 108 => ⟨S_, .i32⟩
  | 109 => ⟨S100000, .i32⟩
  | 110 => ⟨S100000, .i32⟩
  | 111 => ⟨S100000, .i32⟩
  | 112 => ⟨S100000x1, .i32⟩
  | 113 => ⟨S1, .i32⟩
  | 114 => ⟨S_, .i32⟩
  | 115 => ⟨S100000x1, .i32⟩
  | 116 => ⟨S100000x1, .i1⟩
  | 117 => ⟨S1x1, .i32⟩
  | 118 => ⟨S100000x1, .i32⟩
  | 119 => ⟨S100000x1, .i1⟩
  | 120 => ⟨S100000x1, .i1⟩
  | 121 => ⟨S_, .i1⟩
  | 122 => ⟨S100000, .i1⟩
  | 123 => ⟨S100000x128, .f32⟩
  | 124 => ⟨S100000x128, .i1⟩
  | 125 => ⟨S_, .f32⟩
  | 126 => ⟨S100000x128, .f32⟩
  | 127 => ⟨S100000x128, .f32⟩
  | _ => ⟨S100000x96, .f32⟩

abbrev hbmTy0_5 (i : Nat) : BufTy := match i % 128 with
  | 0 => ⟨S100000x1, .f32⟩
  | 1 => ⟨S100000x128, .f32⟩
  | 2 => ⟨S100000x128, .f32⟩
  | 3 => ⟨S1x128, .f32⟩
  | 4 => ⟨S128, .f32⟩
  | 5 => ⟨S1x128, .f32⟩
  | 6 => ⟨S100000x128, .f32⟩
  | 7 => ⟨S100000x128, .f32⟩
  | 8 => ⟨S100000x128, .f32⟩
  | 9 => ⟨S100000x1, .i32⟩
  | 10 => ⟨S100000, .i32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S1, .i32⟩
  | 20 => ⟨S_, .i32⟩
  | 21 => ⟨S100000x1, .i32⟩
  | 22 => ⟨S100000x1, .i1⟩
  | 23 => ⟨S1x1, .i32⟩
  | 24 => ⟨S100000x1, .i32⟩
  | 25 => ⟨S100000x1, .i1⟩
  | 26 => ⟨S100000x1, .i1⟩
  | 27 => ⟨S_, .i1⟩
  | 28 => ⟨S100000, .i1⟩
  | 29 => ⟨S100000x128, .f32⟩
  | 30 => ⟨S100000x128, .i1⟩
  | 31 => ⟨S_, .f32⟩
  | 32 => ⟨S100000x128, .f32⟩
  | 33 => ⟨S100000x128, .f32⟩
  | 34 => ⟨S100000x1, .f32⟩
  | 35 => ⟨S100000x128, .f32⟩
  | 36 => ⟨S100000x128, .f32⟩
  | 37 => ⟨S1x128, .f32⟩
  | 38 => ⟨S128, .f32⟩
  | 39 => ⟨S1x128, .f32⟩
  | 40 => ⟨S100000x128, .f32⟩
  | 41 => ⟨S100000x128, .f32⟩
  | 42 => ⟨S100000x128, .f32⟩
  | 43 => ⟨S100000x1, .i32⟩
  | 44 => ⟨S100000, .i32⟩
  | 45 => ⟨S_, .i32⟩
  | 46 => ⟨S100000, .i32⟩
  | 47 => ⟨S100000, .i1⟩
  | 48 => ⟨S_, .i32⟩
  | 49 => ⟨S100000, .i32⟩
  | 50 => ⟨S100000, .i32⟩
  | 51 => ⟨S100000, .i32⟩
  | 52 => ⟨S100000x1, .i32⟩
  | 53 => ⟨S1, .i32⟩
  | 54 => ⟨S_, .i32⟩
  | 55 => ⟨S100000x1, .i32⟩
  | 56 => ⟨S100000x1, .i1⟩
  | 57 => ⟨S1x1, .i32⟩
  | 58 => ⟨S100000x1, .i32⟩
  | 59 => ⟨S100000x1, .i1⟩
  | 60 => ⟨S100000x1, .i1⟩
  | 61 => ⟨S_, .i1⟩
  | 62 => ⟨S100000, .i1⟩
  | 63 => ⟨S100000x128, .f32⟩
  | 64 => ⟨S100000x128, .i1⟩
  | 65 => ⟨S_, .f32⟩
  | 66 => ⟨S100000x128, .f32⟩
  | 67 => ⟨S100000x128, .f32⟩
  | 68 => ⟨S100000x1, .f32⟩
  | 69 => ⟨S100000x128, .f32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S100000x128, .f32⟩
  | 77 => ⟨S100000x1, .i32⟩
  | 78 => ⟨S100000, .i32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S1, .i32⟩
  | 88 => ⟨S_, .i32⟩
  | 89 => ⟨S100000x1, .i32⟩
  | 90 => ⟨S100000x1, .i1⟩
  | 91 => ⟨S1x1, .i32⟩
  | 92 => ⟨S100000x1, .i32⟩
  | 93 => ⟨S100000x1, .i1⟩
  | 94 => ⟨S100000x1, .i1⟩
  | 95 => ⟨S_, .i1⟩
  | 96 => ⟨S100000, .i1⟩
  | 97 => ⟨S100000x128, .f32⟩
  | 98 => ⟨S100000x128, .i1⟩
  | 99 => ⟨S_, .f32⟩
  | 100 => ⟨S100000x128, .f32⟩
  | 101 => ⟨S100000x128, .f32⟩
  | 102 => ⟨S100000x1, .f32⟩
  | 103 => ⟨S100000x128, .f32⟩
  | 104 => ⟨S100000x128, .f32⟩
  | 105 => ⟨S1x128, .f32⟩
  | 106 => ⟨S128, .f32⟩
  | 107 => ⟨S1x128, .f32⟩
  | 108 => ⟨S100000x128, .f32⟩
  | 109 => ⟨S100000x128, .f32⟩
  | 110 => ⟨S100000x128, .f32⟩
  | 111 => ⟨S100000x1, .i32⟩
  | 112 => ⟨S100000, .i32⟩
  | 113 => ⟨S_, .i32⟩
  | 114 => ⟨S100000, .i32⟩
  | 115 => ⟨S100000, .i1⟩
  | 116 => ⟨S_, .i32⟩
  | 117 => ⟨S100000, .i32⟩
  | 118 => ⟨S100000, .i32⟩
  | 119 => ⟨S100000, .i32⟩
  | 120 => ⟨S100000x1, .i32⟩
  | 121 => ⟨S1, .i32⟩
  | 122 => ⟨S_, .i32⟩
  | 123 => ⟨S100000x1, .i32⟩
  | 124 => ⟨S100000x1, .i1⟩
  | 125 => ⟨S1x1, .i32⟩
  | 126 => ⟨S100000x1, .i32⟩
  | 127 => ⟨S100000x1, .i1⟩
  | _ => ⟨S100000x96, .f32⟩

abbrev hbmTy0_6 (i : Nat) : BufTy := match i % 128 with
  | 0 => ⟨S100000x1, .i1⟩
  | 1 => ⟨S_, .i1⟩
  | 2 => ⟨S100000, .i1⟩
  | 3 => ⟨S100000x128, .f32⟩
  | 4 => ⟨S100000x128, .i1⟩
  | 5 => ⟨S_, .f32⟩
  | 6 => ⟨S100000x128, .f32⟩
  | 7 => ⟨S100000x128, .f32⟩
  | 8 => ⟨S100000x1, .f32⟩
  | 9 => ⟨S100000x128, .f32⟩
  | 10 => ⟨S100000x128, .f32⟩
  | 11 => ⟨S1x128, .f32⟩
  | 12 => ⟨S128, .f32⟩
  | 13 => ⟨S1x128, .f32⟩
  | 14 => ⟨S100000x128, .f32⟩
  | 15 => ⟨S100000x128, .f32⟩
  | 16 => ⟨S100000x128, .f32⟩
  | 17 => ⟨S100000x1, .i32⟩
  | 18 => ⟨S100000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S1, .i32⟩
  | 28 => ⟨S_, .i32⟩
  | 29 => ⟨S100000x1, .i32⟩
  | 30 => ⟨S100000x1, .i1⟩
  | 31 => ⟨S1x1, .i32⟩
  | 32 => ⟨S100000x1, .i32⟩
  | 33 => ⟨S100000x1, .i1⟩
  | 34 => ⟨S100000x1, .i1⟩
  | 35 => ⟨S_, .i1⟩
  | 36 => ⟨S100000, .i1⟩
  | 37 => ⟨S100000x128, .f32⟩
  | 38 => ⟨S100000x128, .i1⟩
  | 39 => ⟨S_, .f32⟩
  | 40 => ⟨S100000x128, .f32⟩
  | 41 => ⟨S100000x128, .f32⟩
  | 42 => ⟨S100000x1, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S100000x128, .f32⟩
  | 51 => ⟨S100000x1, .i32⟩
  | 52 => ⟨S100000, .i32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S1, .i32⟩
  | 62 => ⟨S_, .i32⟩
  | 63 => ⟨S100000x1, .i32⟩
  | 64 => ⟨S100000x1, .i1⟩
  | 65 => ⟨S1x1, .i32⟩
  | 66 => ⟨S100000x1, .i32⟩
  | 67 => ⟨S100000x1, .i1⟩
  | 68 => ⟨S100000x1, .i1⟩
  | 69 => ⟨S_, .i1⟩
  | 70 => ⟨S100000, .i1⟩
  | 71 => ⟨S100000x128, .f32⟩
  | 72 => ⟨S100000x128, .i1⟩
  | 73 => ⟨S_, .f32⟩
  | 74 => ⟨S100000x128, .f32⟩
  | 75 => ⟨S100000x128, .f32⟩
  | 76 => ⟨S100000x1, .f32⟩
  | 77 => ⟨S100000x128, .f32⟩
  | 78 => ⟨S100000x128, .f32⟩
  | 79 => ⟨S1x128, .f32⟩
  | 80 => ⟨S128, .f32⟩
  | 81 => ⟨S1x128, .f32⟩
  | 82 => ⟨S100000x128, .f32⟩
  | 83 => ⟨S100000x128, .f32⟩
  | 84 => ⟨S100000x128, .f32⟩
  | 85 => ⟨S100000x1, .i32⟩
  | 86 => ⟨S100000, .i32⟩
  | 87 => ⟨S_, .i32⟩
  | 88 => ⟨S100000, .i32⟩
  | 89 => ⟨S100000, .i1⟩
  | 90 => ⟨S_, .i32⟩
  | 91 => ⟨S100000, .i32⟩
  | 92 => ⟨S100000, .i32⟩
  | 93 => ⟨S100000, .i32⟩
  | 94 => ⟨S100000x1, .i32⟩
  | 95 => ⟨S1, .i32⟩
  | 96 => ⟨S_, .i32⟩
  | 97 => ⟨S100000x1, .i32⟩
  | 98 => ⟨S100000x1, .i1⟩
  | 99 => ⟨S1x1, .i32⟩
  | 100 => ⟨S100000x1, .i32⟩
  | 101 => ⟨S100000x1, .i1⟩
  | 102 => ⟨S100000x1, .i1⟩
  | 103 => ⟨S_, .i1⟩
  | 104 => ⟨S100000, .i1⟩
  | 105 => ⟨S100000x128, .f32⟩
  | 106 => ⟨S100000x128, .i1⟩
  | 107 => ⟨S_, .f32⟩
  | 108 => ⟨S100000x128, .f32⟩
  | 109 => ⟨S100000x128, .f32⟩
  | 110 => ⟨S100000x1, .f32⟩
  | 111 => ⟨S100000x128, .f32⟩
  | 112 => ⟨S100000x128, .f32⟩
  | 113 => ⟨S1x128, .f32⟩
  | 114 => ⟨S128, .f32⟩
  | 115 => ⟨S1x128, .f32⟩
  | 116 => ⟨S100000x128, .f32⟩
  | 117 => ⟨S100000x128, .f32⟩
  | 118 => ⟨S100000x128, .f32⟩
  | 119 => ⟨S100000x1, .i32⟩
  | 120 => ⟨S100000, .i32⟩
  | 121 => ⟨S_, .i32⟩
  | 122 => ⟨S100000, .i32⟩
  | 123 => ⟨S100000, .i1⟩
  | 124 => ⟨S_, .i32⟩
  | 125 => ⟨S100000, .i32⟩
  | 126 => ⟨S100000, .i32⟩
  | 127 => ⟨S100000, .i32⟩
  | _ => ⟨S100000x96, .f32⟩

abbrev hbmTy0_7 (i : Nat) : BufTy := match i % 128 with
  | 0 => ⟨S100000x1, .i32⟩
  | 1 => ⟨S1, .i32⟩
  | 2 => ⟨S_, .i32⟩
  | 3 => ⟨S100000x1, .i32⟩
  | 4 => ⟨S100000x1, .i1⟩
  | 5 => ⟨S1x1, .i32⟩
  | 6 => ⟨S100000x1, .i32⟩
  | 7 => ⟨S100000x1, .i1⟩
  | 8 => ⟨S100000x1, .i1⟩
  | 9 => ⟨S_, .i1⟩
  | 10 => ⟨S100000, .i1⟩
  | 11 => ⟨S100000x128, .f32⟩
  | 12 => ⟨S100000x128, .i1⟩
  | 13 => ⟨S_, .f32⟩
  | 14 => ⟨S100000x128, .f32⟩
  | 15 => ⟨S100000x128, .f32⟩
  | 16 => ⟨S100000x1, .f32⟩
  | 17 => ⟨S100000x128, .f32⟩
  | 18 => ⟨S100000x128, .f32⟩
  | 19 => ⟨S1x128, .f32⟩
  | 20 => ⟨S128, .f32⟩
  | 21 => ⟨S1x128, .f32⟩
  | 22 => ⟨S100000x128, .f32⟩
  | 23 => ⟨S100000x128, .f32⟩
  | 24 => ⟨S100000x128, .f32⟩
  | 25 => ⟨S100000x1, .i32⟩
  | 26 => ⟨S100000, .i32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S1, .i32⟩
  | 36 => ⟨S_, .i32⟩
  | 37 => ⟨S100000x1, .i32⟩
  | 38 => ⟨S100000x1, .i1⟩
  | 39 => ⟨S1x1, .i32⟩
  | 40 => ⟨S100000x1, .i32⟩
  | 41 => ⟨S100000x1, .i1⟩
  | 42 => ⟨S100000x1, .i1⟩
  | 43 => ⟨S_, .i1⟩
  | 44 => ⟨S100000, .i1⟩
  | 45 => ⟨S100000x128, .f32⟩
  | 46 => ⟨S100000x128, .i1⟩
  | 47 => ⟨S_, .f32⟩
  | 48 => ⟨S100000x128, .f32⟩
  | 49 => ⟨S100000x128, .f32⟩
  | 50 => ⟨S100000x1, .f32⟩
  | 51 => ⟨S100000x128, .f32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S100000x128, .f32⟩
  | 59 => ⟨S_, .f32⟩
  | 60 => ⟨S128, .f32⟩
  | 61 => ⟨S_, .f32⟩
  | 62 => ⟨S128, .f32⟩
  | 63 => ⟨S128, .f32⟩
  | 64 => ⟨S100000x128, .f32⟩
  | 65 => ⟨S_, .f32⟩
  | 66 => ⟨S128, .f32⟩
  | 67 => ⟨S_, .f32⟩
  | 68 => ⟨S128, .f32⟩
  | 69 => ⟨S128, .f32⟩
  | 70 => ⟨S128, .f32⟩
  | 71 => ⟨S128, .f32⟩
  | 72 => ⟨S1x128, .f32⟩
  | 73 => ⟨S1x128, .f32⟩
  | 74 => ⟨S1x128, .f32⟩
  | 75 => ⟨S1x128, .f32⟩
  | 76 => ⟨S100000x128, .f32⟩
  | _ => ⟨S100000x96, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S100000x96, .f32⟩

abbrev bufTy : (tb : Table) → Fin (tcTables nBuf tb) → BufTy
  | .hbm, ⟨i, _⟩ => hbmTy i
  | .local _ .vmem, ⟨0, _⟩ => ⟨S4000x96, .f32⟩
  | .local _ .vmem, ⟨1, _⟩ => ⟨S4000x96, .f32⟩
  | .local _ .vmem, ⟨2, _⟩ => ⟨S96x128, .f32⟩
  | .local _ .vmem, ⟨3, _⟩ => ⟨S4000x128, .bf16⟩
  | .local _ .vmem, ⟨4, _⟩ => ⟨S4000x128, .bf16⟩
  | .local _ .vmem, ⟨5, _⟩ => ⟨S1x2x128, .f32⟩
  | .local _ .vmem, ⟨6, _⟩ => ⟨S1x2x128, .f32⟩
  | .local _ .vmem, ⟨7, _⟩ => ⟨S4000x128, .bf16⟩
  | .local _ .vmem, ⟨8, _⟩ => ⟨S4000x128, .bf16⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S128x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S4000x96, .f32⟩
  | .local _ .vmem, ⟨23, _⟩ => ⟨S4000x96, .f32⟩
  | .local _ .vmem, ⟨24, _⟩ => ⟨S96x128, .f32⟩
  | .local _ .vmem, ⟨25, _⟩ => ⟨S4000x128, .f32⟩
  | .local _ .vmem, ⟨26, _⟩ => ⟨S4000x128, .f32⟩
  | _, _ => ⟨S100000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_cst : Ref sig .tc := ⟨.hbm, 59, rfl⟩
abbrev main_call0_v15 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_call1_c : Ref sig .tc := ⟨.hbm, 73, rfl⟩
abbrev main_call1_v0 : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_c_1 : Ref sig .tc := ⟨.hbm, 81, rfl⟩
abbrev main_call1_c_2 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_3 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_cst : Ref sig .tc := ⟨.hbm, 93, rfl⟩
abbrev main_call1_v15 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_call2_c : Ref sig .tc := ⟨.hbm, 107, rfl⟩
abbrev main_call2_v0 : Ref sig .tc := ⟨.hbm, 108, rfl⟩
abbrev main_call2_v1 : Ref sig .tc := ⟨.hbm, 109, rfl⟩
abbrev main_call2_c_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_call2_c_1 : Ref sig .tc := ⟨.hbm, 115, rfl⟩
abbrev main_call2_c_2 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_call2_c_3 : Ref sig .tc := ⟨.hbm, 123, rfl⟩
abbrev main_call2_v12 : Ref sig .tc := ⟨.hbm, 124, rfl⟩
abbrev main_call2_v13 : Ref sig .tc := ⟨.hbm, 125, rfl⟩
abbrev main_call2_v14 : Ref sig .tc := ⟨.hbm, 126, rfl⟩
abbrev main_call2_cst : Ref sig .tc := ⟨.hbm, 127, rfl⟩
abbrev main_call2_v15 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_call3_c : Ref sig .tc := ⟨.hbm, 141, rfl⟩
abbrev main_call3_v0 : Ref sig .tc := ⟨.hbm, 142, rfl⟩
abbrev main_call3_v1 : Ref sig .tc := ⟨.hbm, 143, rfl⟩
abbrev main_call3_c_0 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_v5 : Ref sig .tc := ⟨.hbm, 148, rfl⟩
abbrev main_call3_c_1 : Ref sig .tc := ⟨.hbm, 149, rfl⟩
abbrev main_call3_c_2 : Ref sig .tc := ⟨.hbm, 150, rfl⟩
abbrev main_call3_v6 : Ref sig .tc := ⟨.hbm, 151, rfl⟩
abbrev main_call3_v7 : Ref sig .tc := ⟨.hbm, 152, rfl⟩
abbrev main_call3_v8 : Ref sig .tc := ⟨.hbm, 153, rfl⟩
abbrev main_call3_v9 : Ref sig .tc := ⟨.hbm, 154, rfl⟩
abbrev main_call3_v10 : Ref sig .tc := ⟨.hbm, 155, rfl⟩
abbrev main_call3_v11 : Ref sig .tc := ⟨.hbm, 156, rfl⟩
abbrev main_call3_c_3 : Ref sig .tc := ⟨.hbm, 157, rfl⟩
abbrev main_call3_v12 : Ref sig .tc := ⟨.hbm, 158, rfl⟩
abbrev main_call3_v13 : Ref sig .tc := ⟨.hbm, 159, rfl⟩
abbrev main_call3_v14 : Ref sig .tc := ⟨.hbm, 160, rfl⟩
abbrev main_call3_cst : Ref sig .tc := ⟨.hbm, 161, rfl⟩
abbrev main_call3_v15 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_v62 : Ref sig .tc := ⟨.hbm, 167, rfl⟩
abbrev main_v63 : Ref sig .tc := ⟨.hbm, 168, rfl⟩
abbrev main_v64 : Ref sig .tc := ⟨.hbm, 169, rfl⟩
abbrev main_v65 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_call4_c : Ref sig .tc := ⟨.hbm, 175, rfl⟩
abbrev main_call4_v0 : Ref sig .tc := ⟨.hbm, 176, rfl⟩
abbrev main_call4_v1 : Ref sig .tc := ⟨.hbm, 177, rfl⟩
abbrev main_call4_c_0 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_c_1 : Ref sig .tc := ⟨.hbm, 183, rfl⟩
abbrev main_call4_c_2 : Ref sig .tc := ⟨.hbm, 184, rfl⟩
abbrev main_call4_v6 : Ref sig .tc := ⟨.hbm, 185, rfl⟩
abbrev main_call4_v7 : Ref sig .tc := ⟨.hbm, 186, rfl⟩
abbrev main_call4_v8 : Ref sig .tc := ⟨.hbm, 187, rfl⟩
abbrev main_call4_v9 : Ref sig .tc := ⟨.hbm, 188, rfl⟩
abbrev main_call4_v10 : Ref sig .tc := ⟨.hbm, 189, rfl⟩
abbrev main_call4_v11 : Ref sig .tc := ⟨.hbm, 190, rfl⟩
abbrev main_call4_c_3 : Ref sig .tc := ⟨.hbm, 191, rfl⟩
abbrev main_call4_v12 : Ref sig .tc := ⟨.hbm, 192, rfl⟩
abbrev main_call4_v13 : Ref sig .tc := ⟨.hbm, 193, rfl⟩
abbrev main_call4_v14 : Ref sig .tc := ⟨.hbm, 194, rfl⟩
abbrev main_call4_cst : Ref sig .tc := ⟨.hbm, 195, rfl⟩
abbrev main_call4_v15 : Ref sig .tc := ⟨.hbm, 196, rfl⟩
abbrev main_v70 : Ref sig .tc := ⟨.hbm, 197, rfl⟩
abbrev main_v71 : Ref sig .tc := ⟨.hbm, 198, rfl⟩
abbrev main_v72 : Ref sig .tc := ⟨.hbm, 199, rfl⟩
abbrev main_v73 : Ref sig .tc := ⟨.hbm, 200, rfl⟩
abbrev main_v74 : Ref sig .tc := ⟨.hbm, 201, rfl⟩
abbrev main_v75 : Ref sig .tc := ⟨.hbm, 202, rfl⟩
abbrev main_v76 : Ref sig .tc := ⟨.hbm, 203, rfl⟩
abbrev main_v77 : Ref sig .tc := ⟨.hbm, 204, rfl⟩
abbrev main_v78 : Ref sig .tc := ⟨.hbm, 205, rfl⟩
abbrev main_v79 : Ref sig .tc := ⟨.hbm, 206, rfl⟩
abbrev main_v80 : Ref sig .tc := ⟨.hbm, 207, rfl⟩
abbrev main_v81 : Ref sig .tc := ⟨.hbm, 208, rfl⟩
abbrev main_call5_c : Ref sig .tc := ⟨.hbm, 209, rfl⟩
abbrev main_call5_v0 : Ref sig .tc := ⟨.hbm, 210, rfl⟩
abbrev main_call5_v1 : Ref sig .tc := ⟨.hbm, 211, rfl⟩
abbrev main_call5_c_0 : Ref sig .tc := ⟨.hbm, 212, rfl⟩
abbrev main_call5_v2 : Ref sig .tc := ⟨.hbm, 213, rfl⟩
abbrev main_call5_v3 : Ref sig .tc := ⟨.hbm, 214, rfl⟩
abbrev main_call5_v4 : Ref sig .tc := ⟨.hbm, 215, rfl⟩
abbrev main_call5_v5 : Ref sig .tc := ⟨.hbm, 216, rfl⟩
abbrev main_call5_c_1 : Ref sig .tc := ⟨.hbm, 217, rfl⟩
abbrev main_call5_c_2 : Ref sig .tc := ⟨.hbm, 218, rfl⟩
abbrev main_call5_v6 : Ref sig .tc := ⟨.hbm, 219, rfl⟩
abbrev main_call5_v7 : Ref sig .tc := ⟨.hbm, 220, rfl⟩
abbrev main_call5_v8 : Ref sig .tc := ⟨.hbm, 221, rfl⟩
abbrev main_call5_v9 : Ref sig .tc := ⟨.hbm, 222, rfl⟩
abbrev main_call5_v10 : Ref sig .tc := ⟨.hbm, 223, rfl⟩
abbrev main_call5_v11 : Ref sig .tc := ⟨.hbm, 224, rfl⟩
abbrev main_call5_c_3 : Ref sig .tc := ⟨.hbm, 225, rfl⟩
abbrev main_call5_v12 : Ref sig .tc := ⟨.hbm, 226, rfl⟩
abbrev main_call5_v13 : Ref sig .tc := ⟨.hbm, 227, rfl⟩
abbrev main_call5_v14 : Ref sig .tc := ⟨.hbm, 228, rfl⟩
abbrev main_call5_cst : Ref sig .tc := ⟨.hbm, 229, rfl⟩
abbrev main_call5_v15 : Ref sig .tc := ⟨.hbm, 230, rfl⟩
abbrev main_v82 : Ref sig .tc := ⟨.hbm, 231, rfl⟩
abbrev main_v83 : Ref sig .tc := ⟨.hbm, 232, rfl⟩
abbrev main_v84 : Ref sig .tc := ⟨.hbm, 233, rfl⟩
abbrev main_v85 : Ref sig .tc := ⟨.hbm, 234, rfl⟩
abbrev main_v86 : Ref sig .tc := ⟨.hbm, 235, rfl⟩
abbrev main_v87 : Ref sig .tc := ⟨.hbm, 236, rfl⟩
abbrev main_v88 : Ref sig .tc := ⟨.hbm, 237, rfl⟩
abbrev main_v89 : Ref sig .tc := ⟨.hbm, 238, rfl⟩
abbrev main_v90 : Ref sig .tc := ⟨.hbm, 239, rfl⟩
abbrev main_v91 : Ref sig .tc := ⟨.hbm, 240, rfl⟩
abbrev main_v92 : Ref sig .tc := ⟨.hbm, 241, rfl⟩
abbrev main_v93 : Ref sig .tc := ⟨.hbm, 242, rfl⟩
abbrev main_call6_c : Ref sig .tc := ⟨.hbm, 243, rfl⟩
abbrev main_call6_v0 : Ref sig .tc := ⟨.hbm, 244, rfl⟩
abbrev main_call6_v1 : Ref sig .tc := ⟨.hbm, 245, rfl⟩
abbrev main_call6_c_0 : Ref sig .tc := ⟨.hbm, 246, rfl⟩
abbrev main_call6_v2 : Ref sig .tc := ⟨.hbm, 247, rfl⟩
abbrev main_call6_v3 : Ref sig .tc := ⟨.hbm, 248, rfl⟩
abbrev main_call6_v4 : Ref sig .tc := ⟨.hbm, 249, rfl⟩
abbrev main_call6_v5 : Ref sig .tc := ⟨.hbm, 250, rfl⟩
abbrev main_call6_c_1 : Ref sig .tc := ⟨.hbm, 251, rfl⟩
abbrev main_call6_c_2 : Ref sig .tc := ⟨.hbm, 252, rfl⟩
abbrev main_call6_v6 : Ref sig .tc := ⟨.hbm, 253, rfl⟩
abbrev main_call6_v7 : Ref sig .tc := ⟨.hbm, 254, rfl⟩
abbrev main_call6_v8 : Ref sig .tc := ⟨.hbm, 255, rfl⟩
abbrev main_call6_v9 : Ref sig .tc := ⟨.hbm, 256, rfl⟩
abbrev main_call6_v10 : Ref sig .tc := ⟨.hbm, 257, rfl⟩
abbrev main_call6_v11 : Ref sig .tc := ⟨.hbm, 258, rfl⟩
abbrev main_call6_c_3 : Ref sig .tc := ⟨.hbm, 259, rfl⟩
abbrev main_call6_v12 : Ref sig .tc := ⟨.hbm, 260, rfl⟩
abbrev main_call6_v13 : Ref sig .tc := ⟨.hbm, 261, rfl⟩
abbrev main_call6_v14 : Ref sig .tc := ⟨.hbm, 262, rfl⟩
abbrev main_call6_cst : Ref sig .tc := ⟨.hbm, 263, rfl⟩
abbrev main_call6_v15 : Ref sig .tc := ⟨.hbm, 264, rfl⟩
abbrev main_v94 : Ref sig .tc := ⟨.hbm, 265, rfl⟩
abbrev main_v95 : Ref sig .tc := ⟨.hbm, 266, rfl⟩
abbrev main_v96 : Ref sig .tc := ⟨.hbm, 267, rfl⟩
abbrev main_v97 : Ref sig .tc := ⟨.hbm, 268, rfl⟩
abbrev main_v98 : Ref sig .tc := ⟨.hbm, 269, rfl⟩
abbrev main_v99 : Ref sig .tc := ⟨.hbm, 270, rfl⟩
abbrev main_v100 : Ref sig .tc := ⟨.hbm, 271, rfl⟩
abbrev main_v101 : Ref sig .tc := ⟨.hbm, 272, rfl⟩
abbrev main_v102 : Ref sig .tc := ⟨.hbm, 273, rfl⟩
abbrev main_v103 : Ref sig .tc := ⟨.hbm, 274, rfl⟩
abbrev main_v104 : Ref sig .tc := ⟨.hbm, 275, rfl⟩
abbrev main_v105 : Ref sig .tc := ⟨.hbm, 276, rfl⟩
abbrev main_call7_c : Ref sig .tc := ⟨.hbm, 277, rfl⟩
abbrev main_call7_v0 : Ref sig .tc := ⟨.hbm, 278, rfl⟩
abbrev main_call7_v1 : Ref sig .tc := ⟨.hbm, 279, rfl⟩
abbrev main_call7_c_0 : Ref sig .tc := ⟨.hbm, 280, rfl⟩
abbrev main_call7_v2 : Ref sig .tc := ⟨.hbm, 281, rfl⟩
abbrev main_call7_v3 : Ref sig .tc := ⟨.hbm, 282, rfl⟩
abbrev main_call7_v4 : Ref sig .tc := ⟨.hbm, 283, rfl⟩
abbrev main_call7_v5 : Ref sig .tc := ⟨.hbm, 284, rfl⟩
abbrev main_call7_c_1 : Ref sig .tc := ⟨.hbm, 285, rfl⟩
abbrev main_call7_c_2 : Ref sig .tc := ⟨.hbm, 286, rfl⟩
abbrev main_call7_v6 : Ref sig .tc := ⟨.hbm, 287, rfl⟩
abbrev main_call7_v7 : Ref sig .tc := ⟨.hbm, 288, rfl⟩
abbrev main_call7_v8 : Ref sig .tc := ⟨.hbm, 289, rfl⟩
abbrev main_call7_v9 : Ref sig .tc := ⟨.hbm, 290, rfl⟩
abbrev main_call7_v10 : Ref sig .tc := ⟨.hbm, 291, rfl⟩
abbrev main_call7_v11 : Ref sig .tc := ⟨.hbm, 292, rfl⟩
abbrev main_call7_c_3 : Ref sig .tc := ⟨.hbm, 293, rfl⟩
abbrev main_call7_v12 : Ref sig .tc := ⟨.hbm, 294, rfl⟩
abbrev main_call7_v13 : Ref sig .tc := ⟨.hbm, 295, rfl⟩
abbrev main_call7_v14 : Ref sig .tc := ⟨.hbm, 296, rfl⟩
abbrev main_call7_cst : Ref sig .tc := ⟨.hbm, 297, rfl⟩
abbrev main_call7_v15 : Ref sig .tc := ⟨.hbm, 298, rfl⟩
abbrev main_v106 : Ref sig .tc := ⟨.hbm, 299, rfl⟩
abbrev main_v107 : Ref sig .tc := ⟨.hbm, 300, rfl⟩
abbrev main_v108 : Ref sig .tc := ⟨.hbm, 301, rfl⟩
abbrev main_v109 : Ref sig .tc := ⟨.hbm, 302, rfl⟩
abbrev main_v110 : Ref sig .tc := ⟨.hbm, 303, rfl⟩
abbrev main_v111 : Ref sig .tc := ⟨.hbm, 304, rfl⟩
abbrev main_v112 : Ref sig .tc := ⟨.hbm, 305, rfl⟩
abbrev main_v113 : Ref sig .tc := ⟨.hbm, 306, rfl⟩
abbrev main_v114 : Ref sig .tc := ⟨.hbm, 307, rfl⟩
abbrev main_v115 : Ref sig .tc := ⟨.hbm, 308, rfl⟩
abbrev main_v116 : Ref sig .tc := ⟨.hbm, 309, rfl⟩
abbrev main_v117 : Ref sig .tc := ⟨.hbm, 310, rfl⟩
abbrev main_call8_c : Ref sig .tc := ⟨.hbm, 311, rfl⟩
abbrev main_call8_v0 : Ref sig .tc := ⟨.hbm, 312, rfl⟩
abbrev main_call8_v1 : Ref sig .tc := ⟨.hbm, 313, rfl⟩
abbrev main_call8_c_0 : Ref sig .tc := ⟨.hbm, 314, rfl⟩
abbrev main_call8_v2 : Ref sig .tc := ⟨.hbm, 315, rfl⟩
abbrev main_call8_v3 : Ref sig .tc := ⟨.hbm, 316, rfl⟩
abbrev main_call8_v4 : Ref sig .tc := ⟨.hbm, 317, rfl⟩
abbrev main_call8_v5 : Ref sig .tc := ⟨.hbm, 318, rfl⟩
abbrev main_call8_c_1 : Ref sig .tc := ⟨.hbm, 319, rfl⟩
abbrev main_call8_c_2 : Ref sig .tc := ⟨.hbm, 320, rfl⟩
abbrev main_call8_v6 : Ref sig .tc := ⟨.hbm, 321, rfl⟩
abbrev main_call8_v7 : Ref sig .tc := ⟨.hbm, 322, rfl⟩
abbrev main_call8_v8 : Ref sig .tc := ⟨.hbm, 323, rfl⟩
abbrev main_call8_v9 : Ref sig .tc := ⟨.hbm, 324, rfl⟩
abbrev main_call8_v10 : Ref sig .tc := ⟨.hbm, 325, rfl⟩
abbrev main_call8_v11 : Ref sig .tc := ⟨.hbm, 326, rfl⟩
abbrev main_call8_c_3 : Ref sig .tc := ⟨.hbm, 327, rfl⟩
abbrev main_call8_v12 : Ref sig .tc := ⟨.hbm, 328, rfl⟩
abbrev main_call8_v13 : Ref sig .tc := ⟨.hbm, 329, rfl⟩
abbrev main_call8_v14 : Ref sig .tc := ⟨.hbm, 330, rfl⟩
abbrev main_call8_cst : Ref sig .tc := ⟨.hbm, 331, rfl⟩
abbrev main_call8_v15 : Ref sig .tc := ⟨.hbm, 332, rfl⟩
abbrev main_v118 : Ref sig .tc := ⟨.hbm, 333, rfl⟩
abbrev main_v119 : Ref sig .tc := ⟨.hbm, 334, rfl⟩
abbrev main_v120 : Ref sig .tc := ⟨.hbm, 335, rfl⟩
abbrev main_v121 : Ref sig .tc := ⟨.hbm, 336, rfl⟩
abbrev main_v122 : Ref sig .tc := ⟨.hbm, 337, rfl⟩
abbrev main_v123 : Ref sig .tc := ⟨.hbm, 338, rfl⟩
abbrev main_v124 : Ref sig .tc := ⟨.hbm, 339, rfl⟩
abbrev main_v125 : Ref sig .tc := ⟨.hbm, 340, rfl⟩
abbrev main_v126 : Ref sig .tc := ⟨.hbm, 341, rfl⟩
abbrev main_v127 : Ref sig .tc := ⟨.hbm, 342, rfl⟩
abbrev main_v128 : Ref sig .tc := ⟨.hbm, 343, rfl⟩
abbrev main_v129 : Ref sig .tc := ⟨.hbm, 344, rfl⟩
abbrev main_call9_c : Ref sig .tc := ⟨.hbm, 345, rfl⟩
abbrev main_call9_v0 : Ref sig .tc := ⟨.hbm, 346, rfl⟩
abbrev main_call9_v1 : Ref sig .tc := ⟨.hbm, 347, rfl⟩
abbrev main_call9_c_0 : Ref sig .tc := ⟨.hbm, 348, rfl⟩
abbrev main_call9_v2 : Ref sig .tc := ⟨.hbm, 349, rfl⟩
abbrev main_call9_v3 : Ref sig .tc := ⟨.hbm, 350, rfl⟩
abbrev main_call9_v4 : Ref sig .tc := ⟨.hbm, 351, rfl⟩
abbrev main_call9_v5 : Ref sig .tc := ⟨.hbm, 352, rfl⟩
abbrev main_call9_c_1 : Ref sig .tc := ⟨.hbm, 353, rfl⟩
abbrev main_call9_c_2 : Ref sig .tc := ⟨.hbm, 354, rfl⟩
abbrev main_call9_v6 : Ref sig .tc := ⟨.hbm, 355, rfl⟩
abbrev main_call9_v7 : Ref sig .tc := ⟨.hbm, 356, rfl⟩
abbrev main_call9_v8 : Ref sig .tc := ⟨.hbm, 357, rfl⟩
abbrev main_call9_v9 : Ref sig .tc := ⟨.hbm, 358, rfl⟩
abbrev main_call9_v10 : Ref sig .tc := ⟨.hbm, 359, rfl⟩
abbrev main_call9_v11 : Ref sig .tc := ⟨.hbm, 360, rfl⟩
abbrev main_call9_c_3 : Ref sig .tc := ⟨.hbm, 361, rfl⟩
abbrev main_call9_v12 : Ref sig .tc := ⟨.hbm, 362, rfl⟩
abbrev main_call9_v13 : Ref sig .tc := ⟨.hbm, 363, rfl⟩
abbrev main_call9_v14 : Ref sig .tc := ⟨.hbm, 364, rfl⟩
abbrev main_call9_cst : Ref sig .tc := ⟨.hbm, 365, rfl⟩
abbrev main_call9_v15 : Ref sig .tc := ⟨.hbm, 366, rfl⟩
abbrev main_v130 : Ref sig .tc := ⟨.hbm, 367, rfl⟩
abbrev main_v131 : Ref sig .tc := ⟨.hbm, 368, rfl⟩
abbrev main_v132 : Ref sig .tc := ⟨.hbm, 369, rfl⟩
abbrev main_v133 : Ref sig .tc := ⟨.hbm, 370, rfl⟩
abbrev main_v134 : Ref sig .tc := ⟨.hbm, 371, rfl⟩
abbrev main_v135 : Ref sig .tc := ⟨.hbm, 372, rfl⟩
abbrev main_v136 : Ref sig .tc := ⟨.hbm, 373, rfl⟩
abbrev main_v137 : Ref sig .tc := ⟨.hbm, 374, rfl⟩
abbrev main_v138 : Ref sig .tc := ⟨.hbm, 375, rfl⟩
abbrev main_v139 : Ref sig .tc := ⟨.hbm, 376, rfl⟩
abbrev main_v140 : Ref sig .tc := ⟨.hbm, 377, rfl⟩
abbrev main_v141 : Ref sig .tc := ⟨.hbm, 378, rfl⟩
abbrev main_call10_c : Ref sig .tc := ⟨.hbm, 379, rfl⟩
abbrev main_call10_v0 : Ref sig .tc := ⟨.hbm, 380, rfl⟩
abbrev main_call10_v1 : Ref sig .tc := ⟨.hbm, 381, rfl⟩
abbrev main_call10_c_0 : Ref sig .tc := ⟨.hbm, 382, rfl⟩
abbrev main_call10_v2 : Ref sig .tc := ⟨.hbm, 383, rfl⟩
abbrev main_call10_v3 : Ref sig .tc := ⟨.hbm, 384, rfl⟩
abbrev main_call10_v4 : Ref sig .tc := ⟨.hbm, 385, rfl⟩
abbrev main_call10_v5 : Ref sig .tc := ⟨.hbm, 386, rfl⟩
abbrev main_call10_c_1 : Ref sig .tc := ⟨.hbm, 387, rfl⟩
abbrev main_call10_c_2 : Ref sig .tc := ⟨.hbm, 388, rfl⟩
abbrev main_call10_v6 : Ref sig .tc := ⟨.hbm, 389, rfl⟩
abbrev main_call10_v7 : Ref sig .tc := ⟨.hbm, 390, rfl⟩
abbrev main_call10_v8 : Ref sig .tc := ⟨.hbm, 391, rfl⟩
abbrev main_call10_v9 : Ref sig .tc := ⟨.hbm, 392, rfl⟩
abbrev main_call10_v10 : Ref sig .tc := ⟨.hbm, 393, rfl⟩
abbrev main_call10_v11 : Ref sig .tc := ⟨.hbm, 394, rfl⟩
abbrev main_call10_c_3 : Ref sig .tc := ⟨.hbm, 395, rfl⟩
abbrev main_call10_v12 : Ref sig .tc := ⟨.hbm, 396, rfl⟩
abbrev main_call10_v13 : Ref sig .tc := ⟨.hbm, 397, rfl⟩
abbrev main_call10_v14 : Ref sig .tc := ⟨.hbm, 398, rfl⟩
abbrev main_call10_cst : Ref sig .tc := ⟨.hbm, 399, rfl⟩
abbrev main_call10_v15 : Ref sig .tc := ⟨.hbm, 400, rfl⟩
abbrev main_v142 : Ref sig .tc := ⟨.hbm, 401, rfl⟩
abbrev main_v143 : Ref sig .tc := ⟨.hbm, 402, rfl⟩
abbrev main_v144 : Ref sig .tc := ⟨.hbm, 403, rfl⟩
abbrev main_v145 : Ref sig .tc := ⟨.hbm, 404, rfl⟩
abbrev main_v146 : Ref sig .tc := ⟨.hbm, 405, rfl⟩
abbrev main_v147 : Ref sig .tc := ⟨.hbm, 406, rfl⟩
abbrev main_v148 : Ref sig .tc := ⟨.hbm, 407, rfl⟩
abbrev main_v149 : Ref sig .tc := ⟨.hbm, 408, rfl⟩
abbrev main_v150 : Ref sig .tc := ⟨.hbm, 409, rfl⟩
abbrev main_v151 : Ref sig .tc := ⟨.hbm, 410, rfl⟩
abbrev main_v152 : Ref sig .tc := ⟨.hbm, 411, rfl⟩
abbrev main_v153 : Ref sig .tc := ⟨.hbm, 412, rfl⟩
abbrev main_call11_c : Ref sig .tc := ⟨.hbm, 413, rfl⟩
abbrev main_call11_v0 : Ref sig .tc := ⟨.hbm, 414, rfl⟩
abbrev main_call11_v1 : Ref sig .tc := ⟨.hbm, 415, rfl⟩
abbrev main_call11_c_0 : Ref sig .tc := ⟨.hbm, 416, rfl⟩
abbrev main_call11_v2 : Ref sig .tc := ⟨.hbm, 417, rfl⟩
abbrev main_call11_v3 : Ref sig .tc := ⟨.hbm, 418, rfl⟩
abbrev main_call11_v4 : Ref sig .tc := ⟨.hbm, 419, rfl⟩
abbrev main_call11_v5 : Ref sig .tc := ⟨.hbm, 420, rfl⟩
abbrev main_call11_c_1 : Ref sig .tc := ⟨.hbm, 421, rfl⟩
abbrev main_call11_c_2 : Ref sig .tc := ⟨.hbm, 422, rfl⟩
abbrev main_call11_v6 : Ref sig .tc := ⟨.hbm, 423, rfl⟩
abbrev main_call11_v7 : Ref sig .tc := ⟨.hbm, 424, rfl⟩
abbrev main_call11_v8 : Ref sig .tc := ⟨.hbm, 425, rfl⟩
abbrev main_call11_v9 : Ref sig .tc := ⟨.hbm, 426, rfl⟩
abbrev main_call11_v10 : Ref sig .tc := ⟨.hbm, 427, rfl⟩
abbrev main_call11_v11 : Ref sig .tc := ⟨.hbm, 428, rfl⟩
abbrev main_call11_c_3 : Ref sig .tc := ⟨.hbm, 429, rfl⟩
abbrev main_call11_v12 : Ref sig .tc := ⟨.hbm, 430, rfl⟩
abbrev main_call11_v13 : Ref sig .tc := ⟨.hbm, 431, rfl⟩
abbrev main_call11_v14 : Ref sig .tc := ⟨.hbm, 432, rfl⟩
abbrev main_call11_cst : Ref sig .tc := ⟨.hbm, 433, rfl⟩
abbrev main_call11_v15 : Ref sig .tc := ⟨.hbm, 434, rfl⟩
abbrev main_v154 : Ref sig .tc := ⟨.hbm, 435, rfl⟩
abbrev main_v155 : Ref sig .tc := ⟨.hbm, 436, rfl⟩
abbrev main_v156 : Ref sig .tc := ⟨.hbm, 437, rfl⟩
abbrev main_v157 : Ref sig .tc := ⟨.hbm, 438, rfl⟩
abbrev main_v158 : Ref sig .tc := ⟨.hbm, 439, rfl⟩
abbrev main_v159 : Ref sig .tc := ⟨.hbm, 440, rfl⟩
abbrev main_v160 : Ref sig .tc := ⟨.hbm, 441, rfl⟩
abbrev main_v161 : Ref sig .tc := ⟨.hbm, 442, rfl⟩
abbrev main_v162 : Ref sig .tc := ⟨.hbm, 443, rfl⟩
abbrev main_v163 : Ref sig .tc := ⟨.hbm, 444, rfl⟩
abbrev main_v164 : Ref sig .tc := ⟨.hbm, 445, rfl⟩
abbrev main_v165 : Ref sig .tc := ⟨.hbm, 446, rfl⟩
abbrev main_call12_c : Ref sig .tc := ⟨.hbm, 447, rfl⟩
abbrev main_call12_v0 : Ref sig .tc := ⟨.hbm, 448, rfl⟩
abbrev main_call12_v1 : Ref sig .tc := ⟨.hbm, 449, rfl⟩
abbrev main_call12_c_0 : Ref sig .tc := ⟨.hbm, 450, rfl⟩
abbrev main_call12_v2 : Ref sig .tc := ⟨.hbm, 451, rfl⟩
abbrev main_call12_v3 : Ref sig .tc := ⟨.hbm, 452, rfl⟩
abbrev main_call12_v4 : Ref sig .tc := ⟨.hbm, 453, rfl⟩
abbrev main_call12_v5 : Ref sig .tc := ⟨.hbm, 454, rfl⟩
abbrev main_call12_c_1 : Ref sig .tc := ⟨.hbm, 455, rfl⟩
abbrev main_call12_c_2 : Ref sig .tc := ⟨.hbm, 456, rfl⟩
abbrev main_call12_v6 : Ref sig .tc := ⟨.hbm, 457, rfl⟩
abbrev main_call12_v7 : Ref sig .tc := ⟨.hbm, 458, rfl⟩
abbrev main_call12_v8 : Ref sig .tc := ⟨.hbm, 459, rfl⟩
abbrev main_call12_v9 : Ref sig .tc := ⟨.hbm, 460, rfl⟩
abbrev main_call12_v10 : Ref sig .tc := ⟨.hbm, 461, rfl⟩
abbrev main_call12_v11 : Ref sig .tc := ⟨.hbm, 462, rfl⟩
abbrev main_call12_c_3 : Ref sig .tc := ⟨.hbm, 463, rfl⟩
abbrev main_call12_v12 : Ref sig .tc := ⟨.hbm, 464, rfl⟩
abbrev main_call12_v13 : Ref sig .tc := ⟨.hbm, 465, rfl⟩
abbrev main_call12_v14 : Ref sig .tc := ⟨.hbm, 466, rfl⟩
abbrev main_call12_cst : Ref sig .tc := ⟨.hbm, 467, rfl⟩
abbrev main_call12_v15 : Ref sig .tc := ⟨.hbm, 468, rfl⟩
abbrev main_v166 : Ref sig .tc := ⟨.hbm, 469, rfl⟩
abbrev main_v167 : Ref sig .tc := ⟨.hbm, 470, rfl⟩
abbrev main_v168 : Ref sig .tc := ⟨.hbm, 471, rfl⟩
abbrev main_v169 : Ref sig .tc := ⟨.hbm, 472, rfl⟩
abbrev main_v170 : Ref sig .tc := ⟨.hbm, 473, rfl⟩
abbrev main_v171 : Ref sig .tc := ⟨.hbm, 474, rfl⟩
abbrev main_v172 : Ref sig .tc := ⟨.hbm, 475, rfl⟩
abbrev main_v173 : Ref sig .tc := ⟨.hbm, 476, rfl⟩
abbrev main_v174 : Ref sig .tc := ⟨.hbm, 477, rfl⟩
abbrev main_v175 : Ref sig .tc := ⟨.hbm, 478, rfl⟩
abbrev main_v176 : Ref sig .tc := ⟨.hbm, 479, rfl⟩
abbrev main_v177 : Ref sig .tc := ⟨.hbm, 480, rfl⟩
abbrev main_call13_c : Ref sig .tc := ⟨.hbm, 481, rfl⟩
abbrev main_call13_v0 : Ref sig .tc := ⟨.hbm, 482, rfl⟩
abbrev main_call13_v1 : Ref sig .tc := ⟨.hbm, 483, rfl⟩
abbrev main_call13_c_0 : Ref sig .tc := ⟨.hbm, 484, rfl⟩
abbrev main_call13_v2 : Ref sig .tc := ⟨.hbm, 485, rfl⟩
abbrev main_call13_v3 : Ref sig .tc := ⟨.hbm, 486, rfl⟩
abbrev main_call13_v4 : Ref sig .tc := ⟨.hbm, 487, rfl⟩
abbrev main_call13_v5 : Ref sig .tc := ⟨.hbm, 488, rfl⟩
abbrev main_call13_c_1 : Ref sig .tc := ⟨.hbm, 489, rfl⟩
abbrev main_call13_c_2 : Ref sig .tc := ⟨.hbm, 490, rfl⟩
abbrev main_call13_v6 : Ref sig .tc := ⟨.hbm, 491, rfl⟩
abbrev main_call13_v7 : Ref sig .tc := ⟨.hbm, 492, rfl⟩
abbrev main_call13_v8 : Ref sig .tc := ⟨.hbm, 493, rfl⟩
abbrev main_call13_v9 : Ref sig .tc := ⟨.hbm, 494, rfl⟩
abbrev main_call13_v10 : Ref sig .tc := ⟨.hbm, 495, rfl⟩
abbrev main_call13_v11 : Ref sig .tc := ⟨.hbm, 496, rfl⟩
abbrev main_call13_c_3 : Ref sig .tc := ⟨.hbm, 497, rfl⟩
abbrev main_call13_v12 : Ref sig .tc := ⟨.hbm, 498, rfl⟩
abbrev main_call13_v13 : Ref sig .tc := ⟨.hbm, 499, rfl⟩
abbrev main_call13_v14 : Ref sig .tc := ⟨.hbm, 500, rfl⟩
abbrev main_call13_cst : Ref sig .tc := ⟨.hbm, 501, rfl⟩
abbrev main_call13_v15 : Ref sig .tc := ⟨.hbm, 502, rfl⟩
abbrev main_v178 : Ref sig .tc := ⟨.hbm, 503, rfl⟩
abbrev main_v179 : Ref sig .tc := ⟨.hbm, 504, rfl⟩
abbrev main_v180 : Ref sig .tc := ⟨.hbm, 505, rfl⟩
abbrev main_v181 : Ref sig .tc := ⟨.hbm, 506, rfl⟩
abbrev main_v182 : Ref sig .tc := ⟨.hbm, 507, rfl⟩
abbrev main_v183 : Ref sig .tc := ⟨.hbm, 508, rfl⟩
abbrev main_v184 : Ref sig .tc := ⟨.hbm, 509, rfl⟩
abbrev main_v185 : Ref sig .tc := ⟨.hbm, 510, rfl⟩
abbrev main_v186 : Ref sig .tc := ⟨.hbm, 511, rfl⟩
abbrev main_v187 : Ref sig .tc := ⟨.hbm, 512, rfl⟩
abbrev main_v188 : Ref sig .tc := ⟨.hbm, 513, rfl⟩
abbrev main_v189 : Ref sig .tc := ⟨.hbm, 514, rfl⟩
abbrev main_call14_c : Ref sig .tc := ⟨.hbm, 515, rfl⟩
abbrev main_call14_v0 : Ref sig .tc := ⟨.hbm, 516, rfl⟩
abbrev main_call14_v1 : Ref sig .tc := ⟨.hbm, 517, rfl⟩
abbrev main_call14_c_0 : Ref sig .tc := ⟨.hbm, 518, rfl⟩
abbrev main_call14_v2 : Ref sig .tc := ⟨.hbm, 519, rfl⟩
abbrev main_call14_v3 : Ref sig .tc := ⟨.hbm, 520, rfl⟩
abbrev main_call14_v4 : Ref sig .tc := ⟨.hbm, 521, rfl⟩
abbrev main_call14_v5 : Ref sig .tc := ⟨.hbm, 522, rfl⟩
abbrev main_call14_c_1 : Ref sig .tc := ⟨.hbm, 523, rfl⟩
abbrev main_call14_c_2 : Ref sig .tc := ⟨.hbm, 524, rfl⟩
abbrev main_call14_v6 : Ref sig .tc := ⟨.hbm, 525, rfl⟩
abbrev main_call14_v7 : Ref sig .tc := ⟨.hbm, 526, rfl⟩
abbrev main_call14_v8 : Ref sig .tc := ⟨.hbm, 527, rfl⟩
abbrev main_call14_v9 : Ref sig .tc := ⟨.hbm, 528, rfl⟩
abbrev main_call14_v10 : Ref sig .tc := ⟨.hbm, 529, rfl⟩
abbrev main_call14_v11 : Ref sig .tc := ⟨.hbm, 530, rfl⟩
abbrev main_call14_c_3 : Ref sig .tc := ⟨.hbm, 531, rfl⟩
abbrev main_call14_v12 : Ref sig .tc := ⟨.hbm, 532, rfl⟩
abbrev main_call14_v13 : Ref sig .tc := ⟨.hbm, 533, rfl⟩
abbrev main_call14_v14 : Ref sig .tc := ⟨.hbm, 534, rfl⟩
abbrev main_call14_cst : Ref sig .tc := ⟨.hbm, 535, rfl⟩
abbrev main_call14_v15 : Ref sig .tc := ⟨.hbm, 536, rfl⟩
abbrev main_v190 : Ref sig .tc := ⟨.hbm, 537, rfl⟩
abbrev main_v191 : Ref sig .tc := ⟨.hbm, 538, rfl⟩
abbrev main_v192 : Ref sig .tc := ⟨.hbm, 539, rfl⟩
abbrev main_v193 : Ref sig .tc := ⟨.hbm, 540, rfl⟩
abbrev main_v194 : Ref sig .tc := ⟨.hbm, 541, rfl⟩
abbrev main_v195 : Ref sig .tc := ⟨.hbm, 542, rfl⟩
abbrev main_v196 : Ref sig .tc := ⟨.hbm, 543, rfl⟩
abbrev main_v197 : Ref sig .tc := ⟨.hbm, 544, rfl⟩
abbrev main_v198 : Ref sig .tc := ⟨.hbm, 545, rfl⟩
abbrev main_v199 : Ref sig .tc := ⟨.hbm, 546, rfl⟩
abbrev main_v200 : Ref sig .tc := ⟨.hbm, 547, rfl⟩
abbrev main_v201 : Ref sig .tc := ⟨.hbm, 548, rfl⟩
abbrev main_call15_c : Ref sig .tc := ⟨.hbm, 549, rfl⟩
abbrev main_call15_v0 : Ref sig .tc := ⟨.hbm, 550, rfl⟩
abbrev main_call15_v1 : Ref sig .tc := ⟨.hbm, 551, rfl⟩
abbrev main_call15_c_0 : Ref sig .tc := ⟨.hbm, 552, rfl⟩
abbrev main_call15_v2 : Ref sig .tc := ⟨.hbm, 553, rfl⟩
abbrev main_call15_v3 : Ref sig .tc := ⟨.hbm, 554, rfl⟩
abbrev main_call15_v4 : Ref sig .tc := ⟨.hbm, 555, rfl⟩
abbrev main_call15_v5 : Ref sig .tc := ⟨.hbm, 556, rfl⟩
abbrev main_call15_c_1 : Ref sig .tc := ⟨.hbm, 557, rfl⟩
abbrev main_call15_c_2 : Ref sig .tc := ⟨.hbm, 558, rfl⟩
abbrev main_call15_v6 : Ref sig .tc := ⟨.hbm, 559, rfl⟩
abbrev main_call15_v7 : Ref sig .tc := ⟨.hbm, 560, rfl⟩
abbrev main_call15_v8 : Ref sig .tc := ⟨.hbm, 561, rfl⟩
abbrev main_call15_v9 : Ref sig .tc := ⟨.hbm, 562, rfl⟩
abbrev main_call15_v10 : Ref sig .tc := ⟨.hbm, 563, rfl⟩
abbrev main_call15_v11 : Ref sig .tc := ⟨.hbm, 564, rfl⟩
abbrev main_call15_c_3 : Ref sig .tc := ⟨.hbm, 565, rfl⟩
abbrev main_call15_v12 : Ref sig .tc := ⟨.hbm, 566, rfl⟩
abbrev main_call15_v13 : Ref sig .tc := ⟨.hbm, 567, rfl⟩
abbrev main_call15_v14 : Ref sig .tc := ⟨.hbm, 568, rfl⟩
abbrev main_call15_cst : Ref sig .tc := ⟨.hbm, 569, rfl⟩
abbrev main_call15_v15 : Ref sig .tc := ⟨.hbm, 570, rfl⟩
abbrev main_v202 : Ref sig .tc := ⟨.hbm, 571, rfl⟩
abbrev main_v203 : Ref sig .tc := ⟨.hbm, 572, rfl⟩
abbrev main_v204 : Ref sig .tc := ⟨.hbm, 573, rfl⟩
abbrev main_v205 : Ref sig .tc := ⟨.hbm, 574, rfl⟩
abbrev main_v206 : Ref sig .tc := ⟨.hbm, 575, rfl⟩
abbrev main_v207 : Ref sig .tc := ⟨.hbm, 576, rfl⟩
abbrev main_v208 : Ref sig .tc := ⟨.hbm, 577, rfl⟩
abbrev main_v209 : Ref sig .tc := ⟨.hbm, 578, rfl⟩
abbrev main_v210 : Ref sig .tc := ⟨.hbm, 579, rfl⟩
abbrev main_v211 : Ref sig .tc := ⟨.hbm, 580, rfl⟩
abbrev main_v212 : Ref sig .tc := ⟨.hbm, 581, rfl⟩
abbrev main_v213 : Ref sig .tc := ⟨.hbm, 582, rfl⟩
abbrev main_call16_c : Ref sig .tc := ⟨.hbm, 583, rfl⟩
abbrev main_call16_v0 : Ref sig .tc := ⟨.hbm, 584, rfl⟩
abbrev main_call16_v1 : Ref sig .tc := ⟨.hbm, 585, rfl⟩
abbrev main_call16_c_0 : Ref sig .tc := ⟨.hbm, 586, rfl⟩
abbrev main_call16_v2 : Ref sig .tc := ⟨.hbm, 587, rfl⟩
abbrev main_call16_v3 : Ref sig .tc := ⟨.hbm, 588, rfl⟩
abbrev main_call16_v4 : Ref sig .tc := ⟨.hbm, 589, rfl⟩
abbrev main_call16_v5 : Ref sig .tc := ⟨.hbm, 590, rfl⟩
abbrev main_call16_c_1 : Ref sig .tc := ⟨.hbm, 591, rfl⟩
abbrev main_call16_c_2 : Ref sig .tc := ⟨.hbm, 592, rfl⟩
abbrev main_call16_v6 : Ref sig .tc := ⟨.hbm, 593, rfl⟩
abbrev main_call16_v7 : Ref sig .tc := ⟨.hbm, 594, rfl⟩
abbrev main_call16_v8 : Ref sig .tc := ⟨.hbm, 595, rfl⟩
abbrev main_call16_v9 : Ref sig .tc := ⟨.hbm, 596, rfl⟩
abbrev main_call16_v10 : Ref sig .tc := ⟨.hbm, 597, rfl⟩
abbrev main_call16_v11 : Ref sig .tc := ⟨.hbm, 598, rfl⟩
abbrev main_call16_c_3 : Ref sig .tc := ⟨.hbm, 599, rfl⟩
abbrev main_call16_v12 : Ref sig .tc := ⟨.hbm, 600, rfl⟩
abbrev main_call16_v13 : Ref sig .tc := ⟨.hbm, 601, rfl⟩
abbrev main_call16_v14 : Ref sig .tc := ⟨.hbm, 602, rfl⟩
abbrev main_call16_cst : Ref sig .tc := ⟨.hbm, 603, rfl⟩
abbrev main_call16_v15 : Ref sig .tc := ⟨.hbm, 604, rfl⟩
abbrev main_v214 : Ref sig .tc := ⟨.hbm, 605, rfl⟩
abbrev main_v215 : Ref sig .tc := ⟨.hbm, 606, rfl⟩
abbrev main_v216 : Ref sig .tc := ⟨.hbm, 607, rfl⟩
abbrev main_v217 : Ref sig .tc := ⟨.hbm, 608, rfl⟩
abbrev main_v218 : Ref sig .tc := ⟨.hbm, 609, rfl⟩
abbrev main_v219 : Ref sig .tc := ⟨.hbm, 610, rfl⟩
abbrev main_v220 : Ref sig .tc := ⟨.hbm, 611, rfl⟩
abbrev main_v221 : Ref sig .tc := ⟨.hbm, 612, rfl⟩
abbrev main_v222 : Ref sig .tc := ⟨.hbm, 613, rfl⟩
abbrev main_v223 : Ref sig .tc := ⟨.hbm, 614, rfl⟩
abbrev main_v224 : Ref sig .tc := ⟨.hbm, 615, rfl⟩
abbrev main_v225 : Ref sig .tc := ⟨.hbm, 616, rfl⟩
abbrev main_call17_c : Ref sig .tc := ⟨.hbm, 617, rfl⟩
abbrev main_call17_v0 : Ref sig .tc := ⟨.hbm, 618, rfl⟩
abbrev main_call17_v1 : Ref sig .tc := ⟨.hbm, 619, rfl⟩
abbrev main_call17_c_0 : Ref sig .tc := ⟨.hbm, 620, rfl⟩
abbrev main_call17_v2 : Ref sig .tc := ⟨.hbm, 621, rfl⟩
abbrev main_call17_v3 : Ref sig .tc := ⟨.hbm, 622, rfl⟩
abbrev main_call17_v4 : Ref sig .tc := ⟨.hbm, 623, rfl⟩
abbrev main_call17_v5 : Ref sig .tc := ⟨.hbm, 624, rfl⟩
abbrev main_call17_c_1 : Ref sig .tc := ⟨.hbm, 625, rfl⟩
abbrev main_call17_c_2 : Ref sig .tc := ⟨.hbm, 626, rfl⟩
abbrev main_call17_v6 : Ref sig .tc := ⟨.hbm, 627, rfl⟩
abbrev main_call17_v7 : Ref sig .tc := ⟨.hbm, 628, rfl⟩
abbrev main_call17_v8 : Ref sig .tc := ⟨.hbm, 629, rfl⟩
abbrev main_call17_v9 : Ref sig .tc := ⟨.hbm, 630, rfl⟩
abbrev main_call17_v10 : Ref sig .tc := ⟨.hbm, 631, rfl⟩
abbrev main_call17_v11 : Ref sig .tc := ⟨.hbm, 632, rfl⟩
abbrev main_call17_c_3 : Ref sig .tc := ⟨.hbm, 633, rfl⟩
abbrev main_call17_v12 : Ref sig .tc := ⟨.hbm, 634, rfl⟩
abbrev main_call17_v13 : Ref sig .tc := ⟨.hbm, 635, rfl⟩
abbrev main_call17_v14 : Ref sig .tc := ⟨.hbm, 636, rfl⟩
abbrev main_call17_cst : Ref sig .tc := ⟨.hbm, 637, rfl⟩
abbrev main_call17_v15 : Ref sig .tc := ⟨.hbm, 638, rfl⟩
abbrev main_v226 : Ref sig .tc := ⟨.hbm, 639, rfl⟩
abbrev main_v227 : Ref sig .tc := ⟨.hbm, 640, rfl⟩
abbrev main_v228 : Ref sig .tc := ⟨.hbm, 641, rfl⟩
abbrev main_v229 : Ref sig .tc := ⟨.hbm, 642, rfl⟩
abbrev main_v230 : Ref sig .tc := ⟨.hbm, 643, rfl⟩
abbrev main_v231 : Ref sig .tc := ⟨.hbm, 644, rfl⟩
abbrev main_v232 : Ref sig .tc := ⟨.hbm, 645, rfl⟩
abbrev main_v233 : Ref sig .tc := ⟨.hbm, 646, rfl⟩
abbrev main_v234 : Ref sig .tc := ⟨.hbm, 647, rfl⟩
abbrev main_v235 : Ref sig .tc := ⟨.hbm, 648, rfl⟩
abbrev main_v236 : Ref sig .tc := ⟨.hbm, 649, rfl⟩
abbrev main_v237 : Ref sig .tc := ⟨.hbm, 650, rfl⟩
abbrev main_call18_c : Ref sig .tc := ⟨.hbm, 651, rfl⟩
abbrev main_call18_v0 : Ref sig .tc := ⟨.hbm, 652, rfl⟩
abbrev main_call18_v1 : Ref sig .tc := ⟨.hbm, 653, rfl⟩
abbrev main_call18_c_0 : Ref sig .tc := ⟨.hbm, 654, rfl⟩
abbrev main_call18_v2 : Ref sig .tc := ⟨.hbm, 655, rfl⟩
abbrev main_call18_v3 : Ref sig .tc := ⟨.hbm, 656, rfl⟩
abbrev main_call18_v4 : Ref sig .tc := ⟨.hbm, 657, rfl⟩
abbrev main_call18_v5 : Ref sig .tc := ⟨.hbm, 658, rfl⟩
abbrev main_call18_c_1 : Ref sig .tc := ⟨.hbm, 659, rfl⟩
abbrev main_call18_c_2 : Ref sig .tc := ⟨.hbm, 660, rfl⟩
abbrev main_call18_v6 : Ref sig .tc := ⟨.hbm, 661, rfl⟩
abbrev main_call18_v7 : Ref sig .tc := ⟨.hbm, 662, rfl⟩
abbrev main_call18_v8 : Ref sig .tc := ⟨.hbm, 663, rfl⟩
abbrev main_call18_v9 : Ref sig .tc := ⟨.hbm, 664, rfl⟩
abbrev main_call18_v10 : Ref sig .tc := ⟨.hbm, 665, rfl⟩
abbrev main_call18_v11 : Ref sig .tc := ⟨.hbm, 666, rfl⟩
abbrev main_call18_c_3 : Ref sig .tc := ⟨.hbm, 667, rfl⟩
abbrev main_call18_v12 : Ref sig .tc := ⟨.hbm, 668, rfl⟩
abbrev main_call18_v13 : Ref sig .tc := ⟨.hbm, 669, rfl⟩
abbrev main_call18_v14 : Ref sig .tc := ⟨.hbm, 670, rfl⟩
abbrev main_call18_cst : Ref sig .tc := ⟨.hbm, 671, rfl⟩
abbrev main_call18_v15 : Ref sig .tc := ⟨.hbm, 672, rfl⟩
abbrev main_v238 : Ref sig .tc := ⟨.hbm, 673, rfl⟩
abbrev main_v239 : Ref sig .tc := ⟨.hbm, 674, rfl⟩
abbrev main_v240 : Ref sig .tc := ⟨.hbm, 675, rfl⟩
abbrev main_v241 : Ref sig .tc := ⟨.hbm, 676, rfl⟩
abbrev main_v242 : Ref sig .tc := ⟨.hbm, 677, rfl⟩
abbrev main_v243 : Ref sig .tc := ⟨.hbm, 678, rfl⟩
abbrev main_v244 : Ref sig .tc := ⟨.hbm, 679, rfl⟩
abbrev main_v245 : Ref sig .tc := ⟨.hbm, 680, rfl⟩
abbrev main_v246 : Ref sig .tc := ⟨.hbm, 681, rfl⟩
abbrev main_v247 : Ref sig .tc := ⟨.hbm, 682, rfl⟩
abbrev main_v248 : Ref sig .tc := ⟨.hbm, 683, rfl⟩
abbrev main_v249 : Ref sig .tc := ⟨.hbm, 684, rfl⟩
abbrev main_call19_c : Ref sig .tc := ⟨.hbm, 685, rfl⟩
abbrev main_call19_v0 : Ref sig .tc := ⟨.hbm, 686, rfl⟩
abbrev main_call19_v1 : Ref sig .tc := ⟨.hbm, 687, rfl⟩
abbrev main_call19_c_0 : Ref sig .tc := ⟨.hbm, 688, rfl⟩
abbrev main_call19_v2 : Ref sig .tc := ⟨.hbm, 689, rfl⟩
abbrev main_call19_v3 : Ref sig .tc := ⟨.hbm, 690, rfl⟩
abbrev main_call19_v4 : Ref sig .tc := ⟨.hbm, 691, rfl⟩
abbrev main_call19_v5 : Ref sig .tc := ⟨.hbm, 692, rfl⟩
abbrev main_call19_c_1 : Ref sig .tc := ⟨.hbm, 693, rfl⟩
abbrev main_call19_c_2 : Ref sig .tc := ⟨.hbm, 694, rfl⟩
abbrev main_call19_v6 : Ref sig .tc := ⟨.hbm, 695, rfl⟩
abbrev main_call19_v7 : Ref sig .tc := ⟨.hbm, 696, rfl⟩
abbrev main_call19_v8 : Ref sig .tc := ⟨.hbm, 697, rfl⟩
abbrev main_call19_v9 : Ref sig .tc := ⟨.hbm, 698, rfl⟩
abbrev main_call19_v10 : Ref sig .tc := ⟨.hbm, 699, rfl⟩
abbrev main_call19_v11 : Ref sig .tc := ⟨.hbm, 700, rfl⟩
abbrev main_call19_c_3 : Ref sig .tc := ⟨.hbm, 701, rfl⟩
abbrev main_call19_v12 : Ref sig .tc := ⟨.hbm, 702, rfl⟩
abbrev main_call19_v13 : Ref sig .tc := ⟨.hbm, 703, rfl⟩
abbrev main_call19_v14 : Ref sig .tc := ⟨.hbm, 704, rfl⟩
abbrev main_call19_cst : Ref sig .tc := ⟨.hbm, 705, rfl⟩
abbrev main_call19_v15 : Ref sig .tc := ⟨.hbm, 706, rfl⟩
abbrev main_v250 : Ref sig .tc := ⟨.hbm, 707, rfl⟩
abbrev main_v251 : Ref sig .tc := ⟨.hbm, 708, rfl⟩
abbrev main_v252 : Ref sig .tc := ⟨.hbm, 709, rfl⟩
abbrev main_v253 : Ref sig .tc := ⟨.hbm, 710, rfl⟩
abbrev main_v254 : Ref sig .tc := ⟨.hbm, 711, rfl⟩
abbrev main_v255 : Ref sig .tc := ⟨.hbm, 712, rfl⟩
abbrev main_v256 : Ref sig .tc := ⟨.hbm, 713, rfl⟩
abbrev main_v257 : Ref sig .tc := ⟨.hbm, 714, rfl⟩
abbrev main_v258 : Ref sig .tc := ⟨.hbm, 715, rfl⟩
abbrev main_v259 : Ref sig .tc := ⟨.hbm, 716, rfl⟩
abbrev main_v260 : Ref sig .tc := ⟨.hbm, 717, rfl⟩
abbrev main_v261 : Ref sig .tc := ⟨.hbm, 718, rfl⟩
abbrev main_call20_c : Ref sig .tc := ⟨.hbm, 719, rfl⟩
abbrev main_call20_v0 : Ref sig .tc := ⟨.hbm, 720, rfl⟩
abbrev main_call20_v1 : Ref sig .tc := ⟨.hbm, 721, rfl⟩
abbrev main_call20_c_0 : Ref sig .tc := ⟨.hbm, 722, rfl⟩
abbrev main_call20_v2 : Ref sig .tc := ⟨.hbm, 723, rfl⟩
abbrev main_call20_v3 : Ref sig .tc := ⟨.hbm, 724, rfl⟩
abbrev main_call20_v4 : Ref sig .tc := ⟨.hbm, 725, rfl⟩
abbrev main_call20_v5 : Ref sig .tc := ⟨.hbm, 726, rfl⟩
abbrev main_call20_c_1 : Ref sig .tc := ⟨.hbm, 727, rfl⟩
abbrev main_call20_c_2 : Ref sig .tc := ⟨.hbm, 728, rfl⟩
abbrev main_call20_v6 : Ref sig .tc := ⟨.hbm, 729, rfl⟩
abbrev main_call20_v7 : Ref sig .tc := ⟨.hbm, 730, rfl⟩
abbrev main_call20_v8 : Ref sig .tc := ⟨.hbm, 731, rfl⟩
abbrev main_call20_v9 : Ref sig .tc := ⟨.hbm, 732, rfl⟩
abbrev main_call20_v10 : Ref sig .tc := ⟨.hbm, 733, rfl⟩
abbrev main_call20_v11 : Ref sig .tc := ⟨.hbm, 734, rfl⟩
abbrev main_call20_c_3 : Ref sig .tc := ⟨.hbm, 735, rfl⟩
abbrev main_call20_v12 : Ref sig .tc := ⟨.hbm, 736, rfl⟩
abbrev main_call20_v13 : Ref sig .tc := ⟨.hbm, 737, rfl⟩
abbrev main_call20_v14 : Ref sig .tc := ⟨.hbm, 738, rfl⟩
abbrev main_call20_cst : Ref sig .tc := ⟨.hbm, 739, rfl⟩
abbrev main_call20_v15 : Ref sig .tc := ⟨.hbm, 740, rfl⟩
abbrev main_v262 : Ref sig .tc := ⟨.hbm, 741, rfl⟩
abbrev main_v263 : Ref sig .tc := ⟨.hbm, 742, rfl⟩
abbrev main_v264 : Ref sig .tc := ⟨.hbm, 743, rfl⟩
abbrev main_v265 : Ref sig .tc := ⟨.hbm, 744, rfl⟩
abbrev main_v266 : Ref sig .tc := ⟨.hbm, 745, rfl⟩
abbrev main_v267 : Ref sig .tc := ⟨.hbm, 746, rfl⟩
abbrev main_v268 : Ref sig .tc := ⟨.hbm, 747, rfl⟩
abbrev main_v269 : Ref sig .tc := ⟨.hbm, 748, rfl⟩
abbrev main_v270 : Ref sig .tc := ⟨.hbm, 749, rfl⟩
abbrev main_v271 : Ref sig .tc := ⟨.hbm, 750, rfl⟩
abbrev main_v272 : Ref sig .tc := ⟨.hbm, 751, rfl⟩
abbrev main_v273 : Ref sig .tc := ⟨.hbm, 752, rfl⟩
abbrev main_call21_c : Ref sig .tc := ⟨.hbm, 753, rfl⟩
abbrev main_call21_v0 : Ref sig .tc := ⟨.hbm, 754, rfl⟩
abbrev main_call21_v1 : Ref sig .tc := ⟨.hbm, 755, rfl⟩
abbrev main_call21_c_0 : Ref sig .tc := ⟨.hbm, 756, rfl⟩
abbrev main_call21_v2 : Ref sig .tc := ⟨.hbm, 757, rfl⟩
abbrev main_call21_v3 : Ref sig .tc := ⟨.hbm, 758, rfl⟩
abbrev main_call21_v4 : Ref sig .tc := ⟨.hbm, 759, rfl⟩
abbrev main_call21_v5 : Ref sig .tc := ⟨.hbm, 760, rfl⟩
abbrev main_call21_c_1 : Ref sig .tc := ⟨.hbm, 761, rfl⟩
abbrev main_call21_c_2 : Ref sig .tc := ⟨.hbm, 762, rfl⟩
abbrev main_call21_v6 : Ref sig .tc := ⟨.hbm, 763, rfl⟩
abbrev main_call21_v7 : Ref sig .tc := ⟨.hbm, 764, rfl⟩
abbrev main_call21_v8 : Ref sig .tc := ⟨.hbm, 765, rfl⟩
abbrev main_call21_v9 : Ref sig .tc := ⟨.hbm, 766, rfl⟩
abbrev main_call21_v10 : Ref sig .tc := ⟨.hbm, 767, rfl⟩
abbrev main_call21_v11 : Ref sig .tc := ⟨.hbm, 768, rfl⟩
abbrev main_call21_c_3 : Ref sig .tc := ⟨.hbm, 769, rfl⟩
abbrev main_call21_v12 : Ref sig .tc := ⟨.hbm, 770, rfl⟩
abbrev main_call21_v13 : Ref sig .tc := ⟨.hbm, 771, rfl⟩
abbrev main_call21_v14 : Ref sig .tc := ⟨.hbm, 772, rfl⟩
abbrev main_call21_cst : Ref sig .tc := ⟨.hbm, 773, rfl⟩
abbrev main_call21_v15 : Ref sig .tc := ⟨.hbm, 774, rfl⟩
abbrev main_v274 : Ref sig .tc := ⟨.hbm, 775, rfl⟩
abbrev main_v275 : Ref sig .tc := ⟨.hbm, 776, rfl⟩
abbrev main_v276 : Ref sig .tc := ⟨.hbm, 777, rfl⟩
abbrev main_v277 : Ref sig .tc := ⟨.hbm, 778, rfl⟩
abbrev main_v278 : Ref sig .tc := ⟨.hbm, 779, rfl⟩
abbrev main_v279 : Ref sig .tc := ⟨.hbm, 780, rfl⟩
abbrev main_v280 : Ref sig .tc := ⟨.hbm, 781, rfl⟩
abbrev main_v281 : Ref sig .tc := ⟨.hbm, 782, rfl⟩
abbrev main_v282 : Ref sig .tc := ⟨.hbm, 783, rfl⟩
abbrev main_v283 : Ref sig .tc := ⟨.hbm, 784, rfl⟩
abbrev main_v284 : Ref sig .tc := ⟨.hbm, 785, rfl⟩
abbrev main_v285 : Ref sig .tc := ⟨.hbm, 786, rfl⟩
abbrev main_call22_c : Ref sig .tc := ⟨.hbm, 787, rfl⟩
abbrev main_call22_v0 : Ref sig .tc := ⟨.hbm, 788, rfl⟩
abbrev main_call22_v1 : Ref sig .tc := ⟨.hbm, 789, rfl⟩
abbrev main_call22_c_0 : Ref sig .tc := ⟨.hbm, 790, rfl⟩
abbrev main_call22_v2 : Ref sig .tc := ⟨.hbm, 791, rfl⟩
abbrev main_call22_v3 : Ref sig .tc := ⟨.hbm, 792, rfl⟩
abbrev main_call22_v4 : Ref sig .tc := ⟨.hbm, 793, rfl⟩
abbrev main_call22_v5 : Ref sig .tc := ⟨.hbm, 794, rfl⟩
abbrev main_call22_c_1 : Ref sig .tc := ⟨.hbm, 795, rfl⟩
abbrev main_call22_c_2 : Ref sig .tc := ⟨.hbm, 796, rfl⟩
abbrev main_call22_v6 : Ref sig .tc := ⟨.hbm, 797, rfl⟩
abbrev main_call22_v7 : Ref sig .tc := ⟨.hbm, 798, rfl⟩
abbrev main_call22_v8 : Ref sig .tc := ⟨.hbm, 799, rfl⟩
abbrev main_call22_v9 : Ref sig .tc := ⟨.hbm, 800, rfl⟩
abbrev main_call22_v10 : Ref sig .tc := ⟨.hbm, 801, rfl⟩
abbrev main_call22_v11 : Ref sig .tc := ⟨.hbm, 802, rfl⟩
abbrev main_call22_c_3 : Ref sig .tc := ⟨.hbm, 803, rfl⟩
abbrev main_call22_v12 : Ref sig .tc := ⟨.hbm, 804, rfl⟩
abbrev main_call22_v13 : Ref sig .tc := ⟨.hbm, 805, rfl⟩
abbrev main_call22_v14 : Ref sig .tc := ⟨.hbm, 806, rfl⟩
abbrev main_call22_cst : Ref sig .tc := ⟨.hbm, 807, rfl⟩
abbrev main_call22_v15 : Ref sig .tc := ⟨.hbm, 808, rfl⟩
abbrev main_v286 : Ref sig .tc := ⟨.hbm, 809, rfl⟩
abbrev main_v287 : Ref sig .tc := ⟨.hbm, 810, rfl⟩
abbrev main_v288 : Ref sig .tc := ⟨.hbm, 811, rfl⟩
abbrev main_v289 : Ref sig .tc := ⟨.hbm, 812, rfl⟩
abbrev main_v290 : Ref sig .tc := ⟨.hbm, 813, rfl⟩
abbrev main_v291 : Ref sig .tc := ⟨.hbm, 814, rfl⟩
abbrev main_v292 : Ref sig .tc := ⟨.hbm, 815, rfl⟩
abbrev main_v293 : Ref sig .tc := ⟨.hbm, 816, rfl⟩
abbrev main_v294 : Ref sig .tc := ⟨.hbm, 817, rfl⟩
abbrev main_v295 : Ref sig .tc := ⟨.hbm, 818, rfl⟩
abbrev main_v296 : Ref sig .tc := ⟨.hbm, 819, rfl⟩
abbrev main_v297 : Ref sig .tc := ⟨.hbm, 820, rfl⟩
abbrev main_call23_c : Ref sig .tc := ⟨.hbm, 821, rfl⟩
abbrev main_call23_v0 : Ref sig .tc := ⟨.hbm, 822, rfl⟩
abbrev main_call23_v1 : Ref sig .tc := ⟨.hbm, 823, rfl⟩
abbrev main_call23_c_0 : Ref sig .tc := ⟨.hbm, 824, rfl⟩
abbrev main_call23_v2 : Ref sig .tc := ⟨.hbm, 825, rfl⟩
abbrev main_call23_v3 : Ref sig .tc := ⟨.hbm, 826, rfl⟩
abbrev main_call23_v4 : Ref sig .tc := ⟨.hbm, 827, rfl⟩
abbrev main_call23_v5 : Ref sig .tc := ⟨.hbm, 828, rfl⟩
abbrev main_call23_c_1 : Ref sig .tc := ⟨.hbm, 829, rfl⟩
abbrev main_call23_c_2 : Ref sig .tc := ⟨.hbm, 830, rfl⟩
abbrev main_call23_v6 : Ref sig .tc := ⟨.hbm, 831, rfl⟩
abbrev main_call23_v7 : Ref sig .tc := ⟨.hbm, 832, rfl⟩
abbrev main_call23_v8 : Ref sig .tc := ⟨.hbm, 833, rfl⟩
abbrev main_call23_v9 : Ref sig .tc := ⟨.hbm, 834, rfl⟩
abbrev main_call23_v10 : Ref sig .tc := ⟨.hbm, 835, rfl⟩
abbrev main_call23_v11 : Ref sig .tc := ⟨.hbm, 836, rfl⟩
abbrev main_call23_c_3 : Ref sig .tc := ⟨.hbm, 837, rfl⟩
abbrev main_call23_v12 : Ref sig .tc := ⟨.hbm, 838, rfl⟩
abbrev main_call23_v13 : Ref sig .tc := ⟨.hbm, 839, rfl⟩
abbrev main_call23_v14 : Ref sig .tc := ⟨.hbm, 840, rfl⟩
abbrev main_call23_cst : Ref sig .tc := ⟨.hbm, 841, rfl⟩
abbrev main_call23_v15 : Ref sig .tc := ⟨.hbm, 842, rfl⟩
abbrev main_v298 : Ref sig .tc := ⟨.hbm, 843, rfl⟩
abbrev main_v299 : Ref sig .tc := ⟨.hbm, 844, rfl⟩
abbrev main_v300 : Ref sig .tc := ⟨.hbm, 845, rfl⟩
abbrev main_v301 : Ref sig .tc := ⟨.hbm, 846, rfl⟩
abbrev main_v302 : Ref sig .tc := ⟨.hbm, 847, rfl⟩
abbrev main_v303 : Ref sig .tc := ⟨.hbm, 848, rfl⟩
abbrev main_v304 : Ref sig .tc := ⟨.hbm, 849, rfl⟩
abbrev main_v305 : Ref sig .tc := ⟨.hbm, 850, rfl⟩
abbrev main_v306 : Ref sig .tc := ⟨.hbm, 851, rfl⟩
abbrev main_v307 : Ref sig .tc := ⟨.hbm, 852, rfl⟩
abbrev main_v308 : Ref sig .tc := ⟨.hbm, 853, rfl⟩
abbrev main_v309 : Ref sig .tc := ⟨.hbm, 854, rfl⟩
abbrev main_call24_c : Ref sig .tc := ⟨.hbm, 855, rfl⟩
abbrev main_call24_v0 : Ref sig .tc := ⟨.hbm, 856, rfl⟩
abbrev main_call24_v1 : Ref sig .tc := ⟨.hbm, 857, rfl⟩
abbrev main_call24_c_0 : Ref sig .tc := ⟨.hbm, 858, rfl⟩
abbrev main_call24_v2 : Ref sig .tc := ⟨.hbm, 859, rfl⟩
abbrev main_call24_v3 : Ref sig .tc := ⟨.hbm, 860, rfl⟩
abbrev main_call24_v4 : Ref sig .tc := ⟨.hbm, 861, rfl⟩
abbrev main_call24_v5 : Ref sig .tc := ⟨.hbm, 862, rfl⟩
abbrev main_call24_c_1 : Ref sig .tc := ⟨.hbm, 863, rfl⟩
abbrev main_call24_c_2 : Ref sig .tc := ⟨.hbm, 864, rfl⟩
abbrev main_call24_v6 : Ref sig .tc := ⟨.hbm, 865, rfl⟩
abbrev main_call24_v7 : Ref sig .tc := ⟨.hbm, 866, rfl⟩
abbrev main_call24_v8 : Ref sig .tc := ⟨.hbm, 867, rfl⟩
abbrev main_call24_v9 : Ref sig .tc := ⟨.hbm, 868, rfl⟩
abbrev main_call24_v10 : Ref sig .tc := ⟨.hbm, 869, rfl⟩
abbrev main_call24_v11 : Ref sig .tc := ⟨.hbm, 870, rfl⟩
abbrev main_call24_c_3 : Ref sig .tc := ⟨.hbm, 871, rfl⟩
abbrev main_call24_v12 : Ref sig .tc := ⟨.hbm, 872, rfl⟩
abbrev main_call24_v13 : Ref sig .tc := ⟨.hbm, 873, rfl⟩
abbrev main_call24_v14 : Ref sig .tc := ⟨.hbm, 874, rfl⟩
abbrev main_call24_cst : Ref sig .tc := ⟨.hbm, 875, rfl⟩
abbrev main_call24_v15 : Ref sig .tc := ⟨.hbm, 876, rfl⟩
abbrev main_v310 : Ref sig .tc := ⟨.hbm, 877, rfl⟩
abbrev main_v311 : Ref sig .tc := ⟨.hbm, 878, rfl⟩
abbrev main_v312 : Ref sig .tc := ⟨.hbm, 879, rfl⟩
abbrev main_v313 : Ref sig .tc := ⟨.hbm, 880, rfl⟩
abbrev main_v314 : Ref sig .tc := ⟨.hbm, 881, rfl⟩
abbrev main_v315 : Ref sig .tc := ⟨.hbm, 882, rfl⟩
abbrev main_v316 : Ref sig .tc := ⟨.hbm, 883, rfl⟩
abbrev main_v317 : Ref sig .tc := ⟨.hbm, 884, rfl⟩
abbrev main_v318 : Ref sig .tc := ⟨.hbm, 885, rfl⟩
abbrev main_v319 : Ref sig .tc := ⟨.hbm, 886, rfl⟩
abbrev main_v320 : Ref sig .tc := ⟨.hbm, 887, rfl⟩
abbrev main_v321 : Ref sig .tc := ⟨.hbm, 888, rfl⟩
abbrev main_call25_c : Ref sig .tc := ⟨.hbm, 889, rfl⟩
abbrev main_call25_v0 : Ref sig .tc := ⟨.hbm, 890, rfl⟩
abbrev main_call25_v1 : Ref sig .tc := ⟨.hbm, 891, rfl⟩
abbrev main_call25_c_0 : Ref sig .tc := ⟨.hbm, 892, rfl⟩
abbrev main_call25_v2 : Ref sig .tc := ⟨.hbm, 893, rfl⟩
abbrev main_call25_v3 : Ref sig .tc := ⟨.hbm, 894, rfl⟩
abbrev main_call25_v4 : Ref sig .tc := ⟨.hbm, 895, rfl⟩
abbrev main_call25_v5 : Ref sig .tc := ⟨.hbm, 896, rfl⟩
abbrev main_call25_c_1 : Ref sig .tc := ⟨.hbm, 897, rfl⟩
abbrev main_call25_c_2 : Ref sig .tc := ⟨.hbm, 898, rfl⟩
abbrev main_call25_v6 : Ref sig .tc := ⟨.hbm, 899, rfl⟩
abbrev main_call25_v7 : Ref sig .tc := ⟨.hbm, 900, rfl⟩
abbrev main_call25_v8 : Ref sig .tc := ⟨.hbm, 901, rfl⟩
abbrev main_call25_v9 : Ref sig .tc := ⟨.hbm, 902, rfl⟩
abbrev main_call25_v10 : Ref sig .tc := ⟨.hbm, 903, rfl⟩
abbrev main_call25_v11 : Ref sig .tc := ⟨.hbm, 904, rfl⟩
abbrev main_call25_c_3 : Ref sig .tc := ⟨.hbm, 905, rfl⟩
abbrev main_call25_v12 : Ref sig .tc := ⟨.hbm, 906, rfl⟩
abbrev main_call25_v13 : Ref sig .tc := ⟨.hbm, 907, rfl⟩
abbrev main_call25_v14 : Ref sig .tc := ⟨.hbm, 908, rfl⟩
abbrev main_call25_cst : Ref sig .tc := ⟨.hbm, 909, rfl⟩
abbrev main_call25_v15 : Ref sig .tc := ⟨.hbm, 910, rfl⟩
abbrev main_v322 : Ref sig .tc := ⟨.hbm, 911, rfl⟩
abbrev main_v323 : Ref sig .tc := ⟨.hbm, 912, rfl⟩
abbrev main_v324 : Ref sig .tc := ⟨.hbm, 913, rfl⟩
abbrev main_v325 : Ref sig .tc := ⟨.hbm, 914, rfl⟩
abbrev main_v326 : Ref sig .tc := ⟨.hbm, 915, rfl⟩
abbrev main_v327 : Ref sig .tc := ⟨.hbm, 916, rfl⟩
abbrev main_v328 : Ref sig .tc := ⟨.hbm, 917, rfl⟩
abbrev main_v329 : Ref sig .tc := ⟨.hbm, 918, rfl⟩
abbrev main_v330 : Ref sig .tc := ⟨.hbm, 919, rfl⟩
abbrev main_v331 : Ref sig .tc := ⟨.hbm, 920, rfl⟩
abbrev main_v332 : Ref sig .tc := ⟨.hbm, 921, rfl⟩
abbrev main_v333 : Ref sig .tc := ⟨.hbm, 922, rfl⟩
abbrev main_call26_c : Ref sig .tc := ⟨.hbm, 923, rfl⟩
abbrev main_call26_v0 : Ref sig .tc := ⟨.hbm, 924, rfl⟩
abbrev main_call26_v1 : Ref sig .tc := ⟨.hbm, 925, rfl⟩
abbrev main_call26_c_0 : Ref sig .tc := ⟨.hbm, 926, rfl⟩
abbrev main_call26_v2 : Ref sig .tc := ⟨.hbm, 927, rfl⟩
abbrev main_call26_v3 : Ref sig .tc := ⟨.hbm, 928, rfl⟩
abbrev main_call26_v4 : Ref sig .tc := ⟨.hbm, 929, rfl⟩
abbrev main_call26_v5 : Ref sig .tc := ⟨.hbm, 930, rfl⟩
abbrev main_call26_c_1 : Ref sig .tc := ⟨.hbm, 931, rfl⟩
abbrev main_call26_c_2 : Ref sig .tc := ⟨.hbm, 932, rfl⟩
abbrev main_call26_v6 : Ref sig .tc := ⟨.hbm, 933, rfl⟩
abbrev main_call26_v7 : Ref sig .tc := ⟨.hbm, 934, rfl⟩
abbrev main_call26_v8 : Ref sig .tc := ⟨.hbm, 935, rfl⟩
abbrev main_call26_v9 : Ref sig .tc := ⟨.hbm, 936, rfl⟩
abbrev main_call26_v10 : Ref sig .tc := ⟨.hbm, 937, rfl⟩
abbrev main_call26_v11 : Ref sig .tc := ⟨.hbm, 938, rfl⟩
abbrev main_call26_c_3 : Ref sig .tc := ⟨.hbm, 939, rfl⟩
abbrev main_call26_v12 : Ref sig .tc := ⟨.hbm, 940, rfl⟩
abbrev main_call26_v13 : Ref sig .tc := ⟨.hbm, 941, rfl⟩
abbrev main_call26_v14 : Ref sig .tc := ⟨.hbm, 942, rfl⟩
abbrev main_call26_cst : Ref sig .tc := ⟨.hbm, 943, rfl⟩
abbrev main_call26_v15 : Ref sig .tc := ⟨.hbm, 944, rfl⟩
abbrev main_v334 : Ref sig .tc := ⟨.hbm, 945, rfl⟩
abbrev main_v335 : Ref sig .tc := ⟨.hbm, 946, rfl⟩
abbrev main_v336 : Ref sig .tc := ⟨.hbm, 947, rfl⟩
abbrev main_v337 : Ref sig .tc := ⟨.hbm, 948, rfl⟩
abbrev main_v338 : Ref sig .tc := ⟨.hbm, 949, rfl⟩
abbrev main_v339 : Ref sig .tc := ⟨.hbm, 950, rfl⟩
abbrev main_v340 : Ref sig .tc := ⟨.hbm, 951, rfl⟩
abbrev main_v341 : Ref sig .tc := ⟨.hbm, 952, rfl⟩
abbrev main_v342 : Ref sig .tc := ⟨.hbm, 953, rfl⟩
abbrev main_v343 : Ref sig .tc := ⟨.hbm, 954, rfl⟩
abbrev main_cst_4 : Ref sig .tc := ⟨.hbm, 955, rfl⟩
abbrev main_v344 : Ref sig .tc := ⟨.hbm, 956, rfl⟩
abbrev main_cst_5 : Ref sig .tc := ⟨.hbm, 957, rfl⟩
abbrev main_v345 : Ref sig .tc := ⟨.hbm, 958, rfl⟩
abbrev main_v346 : Ref sig .tc := ⟨.hbm, 959, rfl⟩
abbrev main_v347 : Ref sig .tc := ⟨.hbm, 960, rfl⟩
abbrev main_cst_6 : Ref sig .tc := ⟨.hbm, 961, rfl⟩
abbrev main_v348 : Ref sig .tc := ⟨.hbm, 962, rfl⟩
abbrev main_cst_7 : Ref sig .tc := ⟨.hbm, 963, rfl⟩
abbrev main_v349 : Ref sig .tc := ⟨.hbm, 964, rfl⟩
abbrev main_v350 : Ref sig .tc := ⟨.hbm, 965, rfl⟩
abbrev main_v351 : Ref sig .tc := ⟨.hbm, 966, rfl⟩
abbrev main_v352 : Ref sig .tc := ⟨.hbm, 967, rfl⟩
abbrev main_v353 : Ref sig .tc := ⟨.hbm, 968, rfl⟩
abbrev main_v354 : Ref sig .tc := ⟨.hbm, 969, rfl⟩
abbrev main_v355 : Ref sig .tc := ⟨.hbm, 970, rfl⟩
abbrev main_v356 : Ref sig .tc := ⟨.hbm, 971, rfl⟩
abbrev main_v357 : Ref sig .tc := ⟨.hbm, 972, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem7_0 : DmaSem sig := 25
abbrev cc2_sem7_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S96x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S4000x96_S4000x96_0_0 : ∀ a, (![0, 0] : Fin 2 → Nat) a + S4000x96.size a ≤ S4000x96.size a
  h_S4000x96 : 0 < S4000x96.numel
  bitsLt_bf16_f32 : FTy.bits .bf16 < FTy.bits .f32
  inb_S96x128_S96x128_0_0 : ∀ a, (![0, 0] : Fin 2 → Nat) a + S96x128.size a ≤ S96x128.size a
  h_S96x128 : 0 < S96x128.numel
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  reduces_S4000x128_S128 : S4000x128.Reduces [0] S128
  shapeCasts_S128_S1x128 : S128.ShapeCasts S1x128
  shapeCasts_S1x128_S128 : S1x128.ShapeCasts S128
  inb_S1x2x128_S1x1x128_0_0_0 : ∀ a, (![0, 0, 0] : Fin 3 → Nat) a + S1x1x128.size a ≤ S1x2x128.size a
  h_S1x1x128 : 0 < S1x1x128.numel
  shapeCasts_S1x1x128_S128 : S1x1x128.ShapeCasts S128
  shapeCasts_S128_S1x1x128 : S128.ShapeCasts S1x1x128
  inb_S1x2x128_S1x1x128_0_1_0 : ∀ a, (![0, 1, 0] : Fin 3 → Nat) a + S1x1x128.size a ≤ S1x2x128.size a
  slices_S25x2x128_S25x1x128_0_0_0 : S25x2x128.Slices ![0, 0, 0] S25x1x128
  shapeCasts_S25x1x128_S25x128 : S25x1x128.ShapeCasts S25x128
  reducesTo_S25x128_S128_d0 : S25x128.ReducesTo [0] S128
  h_S_ : 0 < S_.numel
  slices_S25x2x128_S25x1x128_0_1_0 : S25x2x128.Slices ![0, 1, 0] S25x1x128
  bcast_S_S128 : S_.BroadcastsInDim S128 (![] : Fin 0 → Fin S128.rank)
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  slices_S100000x27_S100000x1_0_0 : S100000x27.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  bcast_S100000_S100000x128_0 : S100000.BroadcastsInDim S100000x128 (![0] : Fin 1 → Fin S100000x128.rank)
  bcast_S100000x1_S100000x128_0_1 : S100000x1.BroadcastsInDim S100000x128 (![0, 1] : Fin 2 → Fin S100000x128.rank)
  slices_S27x128_S1x128_0_0 : S27x128.Slices ![0, 0] S1x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x27_S100000x1_0_1 : S100000x27.Slices ![0, 1] S100000x1
  slices_S27x128_S1x128_1_0 : S27x128.Slices ![1, 0] S1x128
  slices_S100000x27_S100000x1_0_2 : S100000x27.Slices ![0, 2] S100000x1
  slices_S27x128_S1x128_2_0 : S27x128.Slices ![2, 0] S1x128
  slices_S100000x27_S100000x1_0_3 : S100000x27.Slices ![0, 3] S100000x1
  slices_S27x128_S1x128_3_0 : S27x128.Slices ![3, 0] S1x128
  slices_S100000x27_S100000x1_0_4 : S100000x27.Slices ![0, 4] S100000x1
  slices_S27x128_S1x128_4_0 : S27x128.Slices ![4, 0] S1x128
  slices_S100000x27_S100000x1_0_5 : S100000x27.Slices ![0, 5] S100000x1
  slices_S27x128_S1x128_5_0 : S27x128.Slices ![5, 0] S1x128
  slices_S100000x27_S100000x1_0_6 : S100000x27.Slices ![0, 6] S100000x1
  slices_S27x128_S1x128_6_0 : S27x128.Slices ![6, 0] S1x128
  slices_S100000x27_S100000x1_0_7 : S100000x27.Slices ![0, 7] S100000x1
  slices_S27x128_S1x128_7_0 : S27x128.Slices ![7, 0] S1x128
  slices_S100000x27_S100000x1_0_8 : S100000x27.Slices ![0, 8] S100000x1
  slices_S27x128_S1x128_8_0 : S27x128.Slices ![8, 0] S1x128
  slices_S100000x27_S100000x1_0_9 : S100000x27.Slices ![0, 9] S100000x1
  slices_S27x128_S1x128_9_0 : S27x128.Slices ![9, 0] S1x128
  slices_S100000x27_S100000x1_0_10 : S100000x27.Slices ![0, 10] S100000x1
  slices_S27x128_S1x128_10_0 : S27x128.Slices ![10, 0] S1x128
  slices_S100000x27_S100000x1_0_11 : S100000x27.Slices ![0, 11] S100000x1
  slices_S27x128_S1x128_11_0 : S27x128.Slices ![11, 0] S1x128
  slices_S100000x27_S100000x1_0_12 : S100000x27.Slices ![0, 12] S100000x1
  slices_S27x128_S1x128_12_0 : S27x128.Slices ![12, 0] S1x128
  slices_S100000x27_S100000x1_0_13 : S100000x27.Slices ![0, 13] S100000x1
  slices_S27x128_S1x128_13_0 : S27x128.Slices ![13, 0] S1x128
  slices_S100000x27_S100000x1_0_14 : S100000x27.Slices ![0, 14] S100000x1
  slices_S27x128_S1x128_14_0 : S27x128.Slices ![14, 0] S1x128
  slices_S100000x27_S100000x1_0_15 : S100000x27.Slices ![0, 15] S100000x1
  slices_S27x128_S1x128_15_0 : S27x128.Slices ![15, 0] S1x128
  slices_S100000x27_S100000x1_0_16 : S100000x27.Slices ![0, 16] S100000x1
  slices_S27x128_S1x128_16_0 : S27x128.Slices ![16, 0] S1x128
  slices_S100000x27_S100000x1_0_17 : S100000x27.Slices ![0, 17] S100000x1
  slices_S27x128_S1x128_17_0 : S27x128.Slices ![17, 0] S1x128
  slices_S100000x27_S100000x1_0_18 : S100000x27.Slices ![0, 18] S100000x1
  slices_S27x128_S1x128_18_0 : S27x128.Slices ![18, 0] S1x128
  slices_S100000x27_S100000x1_0_19 : S100000x27.Slices ![0, 19] S100000x1
  slices_S27x128_S1x128_19_0 : S27x128.Slices ![19, 0] S1x128
  slices_S100000x27_S100000x1_0_20 : S100000x27.Slices ![0, 20] S100000x1
  slices_S27x128_S1x128_20_0 : S27x128.Slices ![20, 0] S1x128
  slices_S100000x27_S100000x1_0_21 : S100000x27.Slices ![0, 21] S100000x1
  slices_S27x128_S1x128_21_0 : S27x128.Slices ![21, 0] S1x128
  slices_S100000x27_S100000x1_0_22 : S100000x27.Slices ![0, 22] S100000x1
  slices_S27x128_S1x128_22_0 : S27x128.Slices ![22, 0] S1x128
  slices_S100000x27_S100000x1_0_23 : S100000x27.Slices ![0, 23] S100000x1
  slices_S27x128_S1x128_23_0 : S27x128.Slices ![23, 0] S1x128
  slices_S100000x27_S100000x1_0_24 : S100000x27.Slices ![0, 24] S100000x1
  slices_S27x128_S1x128_24_0 : S27x128.Slices ![24, 0] S1x128
  slices_S100000x27_S100000x1_0_25 : S100000x27.Slices ![0, 25] S100000x1
  slices_S27x128_S1x128_25_0 : S27x128.Slices ![25, 0] S1x128
  slices_S100000x27_S100000x1_0_26 : S100000x27.Slices ![0, 26] S100000x1
  slices_S27x128_S1x128_26_0 : S27x128.Slices ![26, 0] S1x128
  reducesTo_S100000x128_S128_d0 : S100000x128.ReducesTo [0] S128
  dot_S4000x96_S96x128_S4000x128_1_0_0_1_n_n_wf : DotDims.WF S4000x96 S96x128 S4000x128 [1] [0] [0] [1] [] []
  dot_S4000x128_S128x128_S4000x128_1_0_0_1_n_n_wf : DotDims.WF S4000x128 S128x128 S4000x128 [1] [0] [0] [1] [] []
  gather_S100000x128_S100000x1_S100000x128_1_0_n_n_0_1_1128_wf : GatherDims.WF S100000x128 S100000x1 S100000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x96.size a ≤ S100000x96.size a
  hwx0_0 : ∀ i : grid0.Coords, EltTy.bits .f32 = 32 ∨ (Rect.block (s := S100000x96) S4000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x128.size a ≤ S96x128.size a
  hwx0_1 : ∀ i : grid0.Coords, EltTy.bits .f32 = 32 ∨ (Rect.block (s := S96x128) S96x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x128.size a ≤ S25x2x128.size a
  hwx0_3 : ∀ i : grid0.Coords, EltTy.bits .f32 = 32 ∨ (Rect.block (s := S25x2x128) S1x2x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x96.size a ≤ S100000x96.size a
  hwx2_5 : ∀ i : grid2.Coords, EltTy.bits .f32 = 32 ∨ (Rect.block (s := S100000x96) S4000x96.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S96x128.size a ≤ S96x128.size a
  hwx2_6 : ∀ i : grid2.Coords, EltTy.bits .f32 = 32 ∨ (Rect.block (s := S96x128) S96x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S100000x128.size a
  hwx2_7 : ∀ i : grid2.Coords, EltTy.bits .f32 = 32 ∨ (Rect.block (s := S100000x128) S4000x128.size (cc2_transform_7 i) (hinb2_7 i)).WholeWords (EltTy.packing .f32)

variable [Facts₀]

def dot_S4000x96_S96x128_S4000x128_1_0_0_1_n_n : DotDims S4000x96 S96x128 S4000x128 where
  lhsContracting := [1]
  rhsContracting := [0]
  lhsNonContracting := [0]
  rhsNonContracting := [1]
  lhsBatch := []
  rhsBatch := []
  wf := dot_S4000x96_S96x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf

abbrev win0_0 : Pipeline.Window sig grid0 :=
  Pipeline.Window.ofSpec (Memref.whole main_arg0) S4000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S96x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x2x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v343) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v355) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v356) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v353) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v354) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg0) S4000x96.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S96x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v357) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x96 : Shape := ⟨2, ![100000, 96]⟩
abbrev S96x128 : Shape := ⟨2, ![96, 128]⟩
abbrev S128 : Shape := ⟨1, ![128]⟩
abbrev S128x128 : Shape := ⟨2, ![128, 128]⟩
abbrev S27x128 : Shape := ⟨2, ![27, 128]⟩
abbrev S100000x27 : Shape := ⟨2, ![100000, 27]⟩
abbrev S100000x128 : Shape := ⟨2, ![100000, 128]⟩
abbrev S_ : Shape := ⟨0, ![]⟩
abbrev S1x128 : Shape := ⟨2, ![1, 128]⟩
abbrev S100000x1 : Shape := ⟨2, ![100000, 1]⟩
abbrev S100000 : Shape := ⟨1, ![100000]⟩

abbrev nBuf : Space → Nat
  | .hbm => 655
  | .vmem => 0
  | .smem => 0
  | _ => 0

abbrev hbmTy0_0 (i : Nat) : BufTy := match i % 128 with
  | 0 => ⟨S100000x96, .f32⟩
  | 1 => ⟨S96x128, .f32⟩
  | 2 => ⟨S128, .f32⟩
  | 3 => ⟨S128, .f32⟩
  | 4 => ⟨S128x128, .f32⟩
  | 5 => ⟨S27x128, .f32⟩
  | 6 => ⟨S128, .f32⟩
  | 7 => ⟨S128, .f32⟩
  | 8 => ⟨S96x128, .f32⟩
  | 9 => ⟨S100000x27, .i32⟩
  | 10 => ⟨S100000x27, .i1⟩
  | 11 => ⟨S100000x128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S100000x128, .f32⟩
  | 25 => ⟨S100000x128, .f32⟩
  | 26 => ⟨S100000x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S100000x128, .f32⟩
  | 42 => ⟨S100000x128, .f32⟩
  | 43 => ⟨S_, .f32⟩
  | 44 => ⟨S128, .f32⟩
  | 45 => ⟨S128, .f32⟩
  | 46 => ⟨S128, .f32⟩
  | 47 => ⟨S1x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x128, .f32⟩
  | 60 => ⟨S100000x27, .f32⟩
  | 61 => ⟨S_, .f32⟩
  | 62 => ⟨S100000x128, .f32⟩
  | 63 => ⟨S100000x1, .i32⟩
  | 64 => ⟨S100000, .i32⟩
  | 65 => ⟨S_, .i32⟩
  | 66 => ⟨S100000, .i32⟩
  | 67 => ⟨S100000, .i1⟩
  | 68 => ⟨S_, .i32⟩
  | 69 => ⟨S100000, .i32⟩
  | 70 => ⟨S100000, .i32⟩
  | 71 => ⟨S100000, .i32⟩
  | 72 => ⟨S100000x1, .i32⟩
  | 73 => ⟨S100000x128, .f32⟩
  | 74 => ⟨S100000x1, .f32⟩
  | 75 => ⟨S100000x128, .f32⟩
  | 76 => ⟨S100000x128, .f32⟩
  | 77 => ⟨S1x128, .f32⟩
  | 78 => ⟨S128, .f32⟩
  | 79 => ⟨S1x128, .f32⟩
  | 80 => ⟨S100000x128, .f32⟩
  | 81 => ⟨S100000x128, .f32⟩
  | 82 => ⟨S100000x128, .f32⟩
  | 83 => ⟨S100000x1, .i32⟩
  | 84 => ⟨S100000, .i32⟩
  | 85 => ⟨S_, .i32⟩
  | 86 => ⟨S100000, .i32⟩
  | 87 => ⟨S100000, .i1⟩
  | 88 => ⟨S_, .i32⟩
  | 89 => ⟨S100000, .i32⟩
  | 90 => ⟨S100000, .i32⟩
  | 91 => ⟨S100000, .i32⟩
  | 92 => ⟨S100000x1, .i32⟩
  | 93 => ⟨S100000x128, .f32⟩
  | 94 => ⟨S100000x1, .f32⟩
  | 95 => ⟨S100000x128, .f32⟩
  | 96 => ⟨S100000x128, .f32⟩
  | 97 => ⟨S1x128, .f32⟩
  | 98 => ⟨S128, .f32⟩
  | 99 => ⟨S1x128, .f32⟩
  | 100 => ⟨S100000x128, .f32⟩
  | 101 => ⟨S100000x128, .f32⟩
  | 102 => ⟨S100000x128, .f32⟩
  | 103 => ⟨S100000x1, .i32⟩
  | 104 => ⟨S100000, .i32⟩
  | 105 => ⟨S_, .i32⟩
  | 106 => ⟨S100000, .i32⟩
  | 107 => ⟨S100000, .i1⟩
  | 108 => ⟨S_, .i32⟩
  | 109 => ⟨S100000, .i32⟩
  | 110 => ⟨S100000, .i32⟩
  | 111 => ⟨S100000, .i32⟩
  | 112 => ⟨S100000x1, .i32⟩
  | 113 => ⟨S100000x128, .f32⟩
  | 114 => ⟨S100000x1, .f32⟩
  | 115 => ⟨S100000x128, .f32⟩
  | 116 => ⟨S100000x128, .f32⟩
  | 117 => ⟨S1x128, .f32⟩
  | 118 => ⟨S128, .f32⟩
  | 119 => ⟨S1x128, .f32⟩
  | 120 => ⟨S100000x128, .f32⟩
  | 121 => ⟨S100000x128, .f32⟩
  | 122 => ⟨S100000x128, .f32⟩
  | 123 => ⟨S100000x1, .i32⟩
  | 124 => ⟨S100000, .i32⟩
  | 125 => ⟨S_, .i32⟩
  | 126 => ⟨S100000, .i32⟩
  | 127 => ⟨S100000, .i1⟩
  | _ => ⟨S100000x96, .f32⟩

abbrev hbmTy0_1 (i : Nat) : BufTy := match i % 128 with
  | 0 => ⟨S_, .i32⟩
  | 1 => ⟨S100000, .i32⟩
  | 2 => ⟨S100000, .i32⟩
  | 3 => ⟨S100000, .i32⟩
  | 4 => ⟨S100000x1, .i32⟩
  | 5 => ⟨S100000x128, .f32⟩
  | 6 => ⟨S100000x1, .f32⟩
  | 7 => ⟨S100000x128, .f32⟩
  | 8 => ⟨S100000x128, .f32⟩
  | 9 => ⟨S1x128, .f32⟩
  | 10 => ⟨S128, .f32⟩
  | 11 => ⟨S1x128, .f32⟩
  | 12 => ⟨S100000x128, .f32⟩
  | 13 => ⟨S100000x128, .f32⟩
  | 14 => ⟨S100000x128, .f32⟩
  | 15 => ⟨S100000x1, .i32⟩
  | 16 => ⟨S100000, .i32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x128, .f32⟩
  | 26 => ⟨S100000x1, .f32⟩
  | 27 => ⟨S100000x128, .f32⟩
  | 28 => ⟨S100000x128, .f32⟩
  | 29 => ⟨S1x128, .f32⟩
  | 30 => ⟨S128, .f32⟩
  | 31 => ⟨S1x128, .f32⟩
  | 32 => ⟨S100000x128, .f32⟩
  | 33 => ⟨S100000x128, .f32⟩
  | 34 => ⟨S100000x128, .f32⟩
  | 35 => ⟨S100000x1, .i32⟩
  | 36 => ⟨S100000, .i32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S100000x1, .i32⟩
  | 45 => ⟨S100000x128, .f32⟩
  | 46 => ⟨S100000x1, .f32⟩
  | 47 => ⟨S100000x128, .f32⟩
  | 48 => ⟨S100000x128, .f32⟩
  | 49 => ⟨S1x128, .f32⟩
  | 50 => ⟨S128, .f32⟩
  | 51 => ⟨S1x128, .f32⟩
  | 52 => ⟨S100000x128, .f32⟩
  | 53 => ⟨S100000x128, .f32⟩
  | 54 => ⟨S100000x128, .f32⟩
  | 55 => ⟨S100000x1, .i32⟩
  | 56 => ⟨S100000, .i32⟩
  | 57 => ⟨S_, .i32⟩
  | 58 => ⟨S100000, .i32⟩
  | 59 => ⟨S100000, .i1⟩
  | 60 => ⟨S_, .i32⟩
  | 61 => ⟨S100000, .i32⟩
  | 62 => ⟨S100000, .i32⟩
  | 63 => ⟨S100000, .i32⟩
  | 64 => ⟨S100000x1, .i32⟩
  | 65 => ⟨S100000x128, .f32⟩
  | 66 => ⟨S100000x1, .f32⟩
  | 67 => ⟨S100000x128, .f32⟩
  | 68 => ⟨S100000x128, .f32⟩
  | 69 => ⟨S1x128, .f32⟩
  | 70 => ⟨S128, .f32⟩
  | 71 => ⟨S1x128, .f32⟩
  | 72 => ⟨S100000x128, .f32⟩
  | 73 => ⟨S100000x128, .f32⟩
  | 74 => ⟨S100000x128, .f32⟩
  | 75 => ⟨S100000x1, .i32⟩
  | 76 => ⟨S100000, .i32⟩
  | 77 => ⟨S_, .i32⟩
  | 78 => ⟨S100000, .i32⟩
  | 79 => ⟨S100000, .i1⟩
  | 80 => ⟨S_, .i32⟩
  | 81 => ⟨S100000, .i32⟩
  | 82 => ⟨S100000, .i32⟩
  | 83 => ⟨S100000, .i32⟩
  | 84 => ⟨S100000x1, .i32⟩
  | 85 => ⟨S100000x128, .f32⟩
  | 86 => ⟨S100000x1, .f32⟩
  | 87 => ⟨S100000x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S100000x128, .f32⟩
  | 95 => ⟨S100000x1, .i32⟩
  | 96 => ⟨S100000, .i32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S100000x128, .f32⟩
  | 106 => ⟨S100000x1, .f32⟩
  | 107 => ⟨S100000x128, .f32⟩
  | 108 => ⟨S100000x128, .f32⟩
  | 109 => ⟨S1x128, .f32⟩
  | 110 => ⟨S128, .f32⟩
  | 111 => ⟨S1x128, .f32⟩
  | 112 => ⟨S100000x128, .f32⟩
  | 113 => ⟨S100000x128, .f32⟩
  | 114 => ⟨S100000x128, .f32⟩
  | 115 => ⟨S100000x1, .i32⟩
  | 116 => ⟨S100000, .i32⟩
  | 117 => ⟨S_, .i32⟩
  | 118 => ⟨S100000, .i32⟩
  | 119 => ⟨S100000, .i1⟩
  | 120 => ⟨S_, .i32⟩
  | 121 => ⟨S100000, .i32⟩
  | 122 => ⟨S100000, .i32⟩
  | 123 => ⟨S100000, .i32⟩
  | 124 => ⟨S100000x1, .i32⟩
  | 125 => ⟨S100000x128, .f32⟩
  | 126 => ⟨S100000x1, .f32⟩
  | 127 => ⟨S100000x128, .f32⟩
  | _ => ⟨S100000x96, .f32⟩

abbrev hbmTy0_2 (i : Nat) : BufTy := match i % 128 with
  | 0 => ⟨S100000x128, .f32⟩
  | 1 => ⟨S1x128, .f32⟩
  | 2 => ⟨S128, .f32⟩
  | 3 => ⟨S1x128, .f32⟩
  | 4 => ⟨S100000x128, .f32⟩
  | 5 => ⟨S100000x128, .f32⟩
  | 6 => ⟨S100000x128, .f32⟩
  | 7 => ⟨S100000x1, .i32⟩
  | 8 => ⟨S100000, .i32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S100000x128, .f32⟩
  | 18 => ⟨S100000x1, .f32⟩
  | 19 => ⟨S100000x128, .f32⟩
  | 20 => ⟨S100000x128, .f32⟩
  | 21 => ⟨S1x128, .f32⟩
  | 22 => ⟨S128, .f32⟩
  | 23 => ⟨S1x128, .f32⟩
  | 24 => ⟨S100000x128, .f32⟩
  | 25 => ⟨S100000x128, .f32⟩
  | 26 => ⟨S100000x128, .f32⟩
  | 27 => ⟨S100000x1, .i32⟩
  | 28 => ⟨S100000, .i32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S100000x1, .i32⟩
  | 37 => ⟨S100000x128, .f32⟩
  | 38 => ⟨S100000x1, .f32⟩
  | 39 => ⟨S100000x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S100000x128, .f32⟩
  | 47 => ⟨S100000x1, .i32⟩
  | 48 => ⟨S100000, .i32⟩
  | 49 => ⟨S_, .i32⟩
  | 50 => ⟨S100000, .i32⟩
  | 51 => ⟨S100000, .i1⟩
  | 52 => ⟨S_, .i32⟩
  | 53 => ⟨S100000, .i32⟩
  | 54 => ⟨S100000, .i32⟩
  | 55 => ⟨S100000, .i32⟩
  | 56 => ⟨S100000x1, .i32⟩
  | 57 => ⟨S100000x128, .f32⟩
  | 58 => ⟨S100000x1, .f32⟩
  | 59 => ⟨S100000x128, .f32⟩
  | 60 => ⟨S100000x128, .f32⟩
  | 61 => ⟨S1x128, .f32⟩
  | 62 => ⟨S128, .f32⟩
  | 63 => ⟨S1x128, .f32⟩
  | 64 => ⟨S100000x128, .f32⟩
  | 65 => ⟨S100000x128, .f32⟩
  | 66 => ⟨S100000x128, .f32⟩
  | 67 => ⟨S100000x1, .i32⟩
  | 68 => ⟨S100000, .i32⟩
  | 69 => ⟨S_, .i32⟩
  | 70 => ⟨S100000, .i32⟩
  | 71 => ⟨S100000, .i1⟩
  | 72 => ⟨S_, .i32⟩
  | 73 => ⟨S100000, .i32⟩
  | 74 => ⟨S100000, .i32⟩
  | 75 => ⟨S100000, .i32⟩
  | 76 => ⟨S100000x1, .i32⟩
  | 77 => ⟨S100000x128, .f32⟩
  | 78 => ⟨S100000x1, .f32⟩
  | 79 => ⟨S100000x128, .f32⟩
  | 80 => ⟨S100000x128, .f32⟩
  | 81 => ⟨S1x128, .f32⟩
  | 82 => ⟨S128, .f32⟩
  | 83 => ⟨S1x128, .f32⟩
  | 84 => ⟨S100000x128, .f32⟩
  | 85 => ⟨S100000x128, .f32⟩
  | 86 => ⟨S100000x128, .f32⟩
  | 87 => ⟨S100000x1, .i32⟩
  | 88 => ⟨S100000, .i32⟩
  | 89 => ⟨S_, .i32⟩
  | 90 => ⟨S100000, .i32⟩
  | 91 => ⟨S100000, .i1⟩
  | 92 => ⟨S_, .i32⟩
  | 93 => ⟨S100000, .i32⟩
  | 94 => ⟨S100000, .i32⟩
  | 95 => ⟨S100000, .i32⟩
  | 96 => ⟨S100000x1, .i32⟩
  | 97 => ⟨S100000x128, .f32⟩
  | 98 => ⟨S100000x1, .f32⟩
  | 99 => ⟨S100000x128, .f32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S100000x128, .f32⟩
  | 107 => ⟨S100000x1, .i32⟩
  | 108 => ⟨S100000, .i32⟩
  | 109 => ⟨S_, .i32⟩
  | 110 => ⟨S100000, .i32⟩
  | 111 => ⟨S100000, .i1⟩
  | 112 => ⟨S_, .i32⟩
  | 113 => ⟨S100000, .i32⟩
  | 114 => ⟨S100000, .i32⟩
  | 115 => ⟨S100000, .i32⟩
  | 116 => ⟨S100000x1, .i32⟩
  | 117 => ⟨S100000x128, .f32⟩
  | 118 => ⟨S100000x1, .f32⟩
  | 119 => ⟨S100000x128, .f32⟩
  | 120 => ⟨S100000x128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S100000x128, .f32⟩
  | 127 => ⟨S100000x1, .i32⟩
  | _ => ⟨S100000x96, .f32⟩

abbrev hbmTy0_3 (i : Nat) : BufTy := match i % 128 with
  | 0 => ⟨S100000, .i32⟩
  | 1 => ⟨S_, .i32⟩
  | 2 => ⟨S100000, .i32⟩
  | 3 => ⟨S100000, .i1⟩
  | 4 => ⟨S_, .i32⟩
  | 5 => ⟨S100000, .i32⟩
  | 6 => ⟨S100000, .i32⟩
  | 7 => ⟨S100000, .i32⟩
  | 8 => ⟨S100000x1, .i32⟩
  | 9 => ⟨S100000x128, .f32⟩
  | 10 => ⟨S100000x1, .f32⟩
  | 11 => ⟨S100000x128, .f32⟩
  | 12 => ⟨S100000x128, .f32⟩
  | 13 => ⟨S1x128, .f32⟩
  | 14 => ⟨S128, .f32⟩
  | 15 => ⟨S1x128, .f32⟩
  | 16 => ⟨S100000x128, .f32⟩
  | 17 => ⟨S100000x128, .f32⟩
  | 18 => ⟨S100000x128, .f32⟩
  | 19 => ⟨S100000x1, .i32⟩
  | 20 => ⟨S100000, .i32⟩
  | 21 => ⟨S_, .i32⟩
  | 22 => ⟨S100000, .i32⟩
  | 23 => ⟨S100000, .i1⟩
  | 24 => ⟨S_, .i32⟩
  | 25 => ⟨S100000, .i32⟩
  | 26 => ⟨S100000, .i32⟩
  | 27 => ⟨S100000, .i32⟩
  | 28 => ⟨S100000x1, .i32⟩
  | 29 => ⟨S100000x128, .f32⟩
  | 30 => ⟨S100000x1, .f32⟩
  | 31 => ⟨S100000x128, .f32⟩
  | 32 => ⟨S100000x128, .f32⟩
  | 33 => ⟨S1x128, .f32⟩
  | 34 => ⟨S128, .f32⟩
  | 35 => ⟨S1x128, .f32⟩
  | 36 => ⟨S100000x128, .f32⟩
  | 37 => ⟨S100000x128, .f32⟩
  | 38 => ⟨S100000x128, .f32⟩
  | 39 => ⟨S100000x1, .i32⟩
  | 40 => ⟨S100000, .i32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x128, .f32⟩
  | 50 => ⟨S100000x1, .f32⟩
  | 51 => ⟨S100000x128, .f32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S100000x128, .f32⟩
  | 59 => ⟨S100000x1, .i32⟩
  | 60 => ⟨S100000, .i32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S100000x128, .f32⟩
  | 70 => ⟨S100000x1, .f32⟩
  | 71 => ⟨S100000x128, .f32⟩
  | 72 => ⟨S100000x128, .f32⟩
  | 73 => ⟨S1x128, .f32⟩
  | 74 => ⟨S128, .f32⟩
  | 75 => ⟨S1x128, .f32⟩
  | 76 => ⟨S100000x128, .f32⟩
  | 77 => ⟨S100000x128, .f32⟩
  | 78 => ⟨S100000x128, .f32⟩
  | 79 => ⟨S100000x1, .i32⟩
  | 80 => ⟨S100000, .i32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S100000x128, .f32⟩
  | 90 => ⟨S100000x1, .f32⟩
  | 91 => ⟨S100000x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S100000x128, .f32⟩
  | 99 => ⟨S100000x1, .i32⟩
  | 100 => ⟨S100000, .i32⟩
  | 101 => ⟨S_, .i32⟩
  | 102 => ⟨S100000, .i32⟩
  | 103 => ⟨S100000, .i1⟩
  | 104 => ⟨S_, .i32⟩
  | 105 => ⟨S100000, .i32⟩
  | 106 => ⟨S100000, .i32⟩
  | 107 => ⟨S100000, .i32⟩
  | 108 => ⟨S100000x1, .i32⟩
  | 109 => ⟨S100000x128, .f32⟩
  | 110 => ⟨S100000x1, .f32⟩
  | 111 => ⟨S100000x128, .f32⟩
  | 112 => ⟨S100000x128, .f32⟩
  | 113 => ⟨S1x128, .f32⟩
  | 114 => ⟨S128, .f32⟩
  | 115 => ⟨S1x128, .f32⟩
  | 116 => ⟨S100000x128, .f32⟩
  | 117 => ⟨S100000x128, .f32⟩
  | 118 => ⟨S100000x128, .f32⟩
  | 119 => ⟨S100000x1, .i32⟩
  | 120 => ⟨S100000, .i32⟩
  | 121 => ⟨S_, .i32⟩
  | 122 => ⟨S100000, .i32⟩
  | 123 => ⟨S100000, .i1⟩
  | 124 => ⟨S_, .i32⟩
  | 125 => ⟨S100000, .i32⟩
  | 126 => ⟨S100000, .i32⟩
  | 127 => ⟨S100000, .i32⟩
  | _ => ⟨S100000x96, .f32⟩

abbrev hbmTy0_4 (i : Nat) : BufTy := match i % 128 with
  | 0 => ⟨S100000x1, .i32⟩
  | 1 => ⟨S100000x128, .f32⟩
  | 2 => ⟨S100000x1, .f32⟩
  | 3 => ⟨S100000x128, .f32⟩
  | 4 => ⟨S100000x128, .f32⟩
  | 5 => ⟨S1x128, .f32⟩
  | 6 => ⟨S128, .f32⟩
  | 7 => ⟨S1x128, .f32⟩
  | 8 => ⟨S100000x128, .f32⟩
  | 9 => ⟨S100000x128, .f32⟩
  | 10 => ⟨S100000x128, .f32⟩
  | 11 => ⟨S100000x1, .i32⟩
  | 12 => ⟨S100000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x128, .f32⟩
  | 22 => ⟨S100000x1, .f32⟩
  | 23 => ⟨S100000x128, .f32⟩
  | 24 => ⟨S100000x128, .f32⟩
  | 25 => ⟨S1x128, .f32⟩
  | 26 => ⟨S128, .f32⟩
  | 27 => ⟨S1x128, .f32⟩
  | 28 => ⟨S100000x128, .f32⟩
  | 29 => ⟨S100000x128, .f32⟩
  | 30 => ⟨S100000x128, .f32⟩
  | 31 => ⟨S100000x1, .i32⟩
  | 32 => ⟨S100000, .i32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000x128, .f32⟩
  | 42 => ⟨S100000x1, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S100000x128, .f32⟩
  | 51 => ⟨S100000x1, .i32⟩
  | 52 => ⟨S100000, .i32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S100000x128, .f32⟩
  | 62 => ⟨S100000x1, .f32⟩
  | 63 => ⟨S100000x128, .f32⟩
  | 64 => ⟨S100000x128, .f32⟩
  | 65 => ⟨S1x128, .f32⟩
  | 66 => ⟨S128, .f32⟩
  | 67 => ⟨S1x128, .f32⟩
  | 68 => ⟨S100000x128, .f32⟩
  | 69 => ⟨S100000x128, .f32⟩
  | 70 => ⟨S100000x128, .f32⟩
  | 71 => ⟨S100000x1, .i32⟩
  | 72 => ⟨S100000, .i32⟩
  | 73 => ⟨S_, .i32⟩
  | 74 => ⟨S100000, .i32⟩
  | 75 => ⟨S100000, .i1⟩
  | 76 => ⟨S_, .i32⟩
  | 77 => ⟨S100000, .i32⟩
  | 78 => ⟨S100000, .i32⟩
  | 79 => ⟨S100000, .i32⟩
  | 80 => ⟨S100000x1, .i32⟩
  | 81 => ⟨S100000x128, .f32⟩
  | 82 => ⟨S100000x1, .f32⟩
  | 83 => ⟨S100000x128, .f32⟩
  | 84 => ⟨S100000x128, .f32⟩
  | 85 => ⟨S1x128, .f32⟩
  | 86 => ⟨S128, .f32⟩
  | 87 => ⟨S1x128, .f32⟩
  | 88 => ⟨S100000x128, .f32⟩
  | 89 => ⟨S100000x128, .f32⟩
  | 90 => ⟨S100000x128, .f32⟩
  | 91 => ⟨S_, .f32⟩
  | 92 => ⟨S128, .f32⟩
  | 93 => ⟨S_, .f32⟩
  | 94 => ⟨S128, .f32⟩
  | 95 => ⟨S128, .f32⟩
  | 96 => ⟨S_, .i32⟩
  | 97 => ⟨S_, .f32⟩
  | 98 => ⟨S128, .f32⟩
  | 99 => ⟨S1x128, .f32⟩
  | 100 => ⟨S_, .f32⟩
  | 101 => ⟨S1x128, .f32⟩
  | 102 => ⟨S1x128, .f32⟩
  | 103 => ⟨S100000x128, .f32⟩
  | 104 => ⟨S100000x128, .f32⟩
  | 105 => ⟨S100000x128, .f32⟩
  | 106 => ⟨S_, .f32⟩
  | 107 => ⟨S_, .f32⟩
  | 108 => ⟨S_, .f32⟩
  | 109 => ⟨S_, .f32⟩
  | 110 => ⟨S128, .f32⟩
  | 111 => ⟨S128, .f32⟩
  | 112 => ⟨S128, .f32⟩
  | 113 => ⟨S_, .f32⟩
  | 114 => ⟨S_, .i1⟩
  | 115 => ⟨S_, .f32⟩
  | 116 => ⟨S_, .f32⟩
  | 117 => ⟨S128, .f32⟩
  | 118 => ⟨S128, .f32⟩
  | 119 => ⟨S1x128, .f32⟩
  | 120 => ⟨S100000x128, .f32⟩
  | 121 => ⟨S100000x128, .f32⟩
  | 122 => ⟨S_, .f32⟩
  | 123 => ⟨S128, .f32⟩
  | 124 => ⟨S128, .f32⟩
  | 125 => ⟨S128, .f32⟩
  | 126 => ⟨S1x128, .f32⟩
  | 127 => ⟨S100000x128, .f32⟩
  | _ => ⟨S100000x96, .f32⟩

abbrev hbmTy0_5 (i : Nat) : BufTy := match i % 128 with
  | 0 => ⟨S100000x128, .f32⟩
  | 1 => ⟨S1x128, .f32⟩
  | 2 => ⟨S100000x128, .f32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S100000x128, .f32⟩
  | 11 => ⟨S100000x128, .f32⟩
  | 12 => ⟨S_, .f32⟩
  | 13 => ⟨S100000x128, .f32⟩
  | 14 => ⟨S100000x128, .f32⟩
  | _ => ⟨S100000x96, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x96, .f32⟩

abbrev bufTy : (tb : Table) → Fin (tcTables nBuf tb) → BufTy
  | .hbm, ⟨i, _⟩ => hbmTy i
  | _, _ => ⟨S100000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_1 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_call1_cst : Ref sig .tc := ⟨.hbm, 56, rfl⟩
abbrev main_call1_v0 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_2 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_c_3 : Ref sig .tc := ⟨.hbm, 65, rfl⟩
abbrev main_v26 : Ref sig .tc := ⟨.hbm, 66, rfl⟩
abbrev main_v27 : Ref sig .tc := ⟨.hbm, 67, rfl⟩
abbrev main_c_4 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_c_5 : Ref sig .tc := ⟨.hbm, 85, rfl⟩
abbrev main_v44 : Ref sig .tc := ⟨.hbm, 86, rfl⟩
abbrev main_v45 : Ref sig .tc := ⟨.hbm, 87, rfl⟩
abbrev main_c_6 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_c_7 : Ref sig .tc := ⟨.hbm, 105, rfl⟩
abbrev main_v62 : Ref sig .tc := ⟨.hbm, 106, rfl⟩
abbrev main_v63 : Ref sig .tc := ⟨.hbm, 107, rfl⟩
abbrev main_c_8 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_9 : Ref sig .tc := ⟨.hbm, 125, rfl⟩
abbrev main_v80 : Ref sig .tc := ⟨.hbm, 126, rfl⟩
abbrev main_v81 : Ref sig .tc := ⟨.hbm, 127, rfl⟩
abbrev main_c_10 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_c_11 : Ref sig .tc := ⟨.hbm, 145, rfl⟩
abbrev main_v98 : Ref sig .tc := ⟨.hbm, 146, rfl⟩
abbrev main_v99 : Ref sig .tc := ⟨.hbm, 147, rfl⟩
abbrev main_c_12 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_c_13 : Ref sig .tc := ⟨.hbm, 165, rfl⟩
abbrev main_v116 : Ref sig .tc := ⟨.hbm, 166, rfl⟩
abbrev main_v117 : Ref sig .tc := ⟨.hbm, 167, rfl⟩
abbrev main_c_14 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_c_15 : Ref sig .tc := ⟨.hbm, 185, rfl⟩
abbrev main_v134 : Ref sig .tc := ⟨.hbm, 186, rfl⟩
abbrev main_v135 : Ref sig .tc := ⟨.hbm, 187, rfl⟩
abbrev main_c_16 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_c_17 : Ref sig .tc := ⟨.hbm, 205, rfl⟩
abbrev main_v152 : Ref sig .tc := ⟨.hbm, 206, rfl⟩
abbrev main_v153 : Ref sig .tc := ⟨.hbm, 207, rfl⟩
abbrev main_c_18 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_c_19 : Ref sig .tc := ⟨.hbm, 225, rfl⟩
abbrev main_v170 : Ref sig .tc := ⟨.hbm, 226, rfl⟩
abbrev main_v171 : Ref sig .tc := ⟨.hbm, 227, rfl⟩
abbrev main_c_20 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_c_21 : Ref sig .tc := ⟨.hbm, 245, rfl⟩
abbrev main_v188 : Ref sig .tc := ⟨.hbm, 246, rfl⟩
abbrev main_v189 : Ref sig .tc := ⟨.hbm, 247, rfl⟩
abbrev main_c_22 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_c_23 : Ref sig .tc := ⟨.hbm, 265, rfl⟩
abbrev main_v206 : Ref sig .tc := ⟨.hbm, 266, rfl⟩
abbrev main_v207 : Ref sig .tc := ⟨.hbm, 267, rfl⟩
abbrev main_c_24 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_c_25 : Ref sig .tc := ⟨.hbm, 285, rfl⟩
abbrev main_v224 : Ref sig .tc := ⟨.hbm, 286, rfl⟩
abbrev main_v225 : Ref sig .tc := ⟨.hbm, 287, rfl⟩
abbrev main_c_26 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_c_27 : Ref sig .tc := ⟨.hbm, 305, rfl⟩
abbrev main_v242 : Ref sig .tc := ⟨.hbm, 306, rfl⟩
abbrev main_v243 : Ref sig .tc := ⟨.hbm, 307, rfl⟩
abbrev main_c_28 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_c_29 : Ref sig .tc := ⟨.hbm, 325, rfl⟩
abbrev main_v260 : Ref sig .tc := ⟨.hbm, 326, rfl⟩
abbrev main_v261 : Ref sig .tc := ⟨.hbm, 327, rfl⟩
abbrev main_c_30 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_c_31 : Ref sig .tc := ⟨.hbm, 345, rfl⟩
abbrev main_v278 : Ref sig .tc := ⟨.hbm, 346, rfl⟩
abbrev main_v279 : Ref sig .tc := ⟨.hbm, 347, rfl⟩
abbrev main_c_32 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_v295 : Ref sig .tc := ⟨.hbm, 364, rfl⟩
abbrev main_c_33 : Ref sig .tc := ⟨.hbm, 365, rfl⟩
abbrev main_v296 : Ref sig .tc := ⟨.hbm, 366, rfl⟩
abbrev main_v297 : Ref sig .tc := ⟨.hbm, 367, rfl⟩
abbrev main_c_34 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_v305 : Ref sig .tc := ⟨.hbm, 376, rfl⟩
abbrev main_v306 : Ref sig .tc := ⟨.hbm, 377, rfl⟩
abbrev main_v307 : Ref sig .tc := ⟨.hbm, 378, rfl⟩
abbrev main_v308 : Ref sig .tc := ⟨.hbm, 379, rfl⟩
abbrev main_v309 : Ref sig .tc := ⟨.hbm, 380, rfl⟩
abbrev main_v310 : Ref sig .tc := ⟨.hbm, 381, rfl⟩
abbrev main_v311 : Ref sig .tc := ⟨.hbm, 382, rfl⟩
abbrev main_v312 : Ref sig .tc := ⟨.hbm, 383, rfl⟩
abbrev main_v313 : Ref sig .tc := ⟨.hbm, 384, rfl⟩
abbrev main_c_35 : Ref sig .tc := ⟨.hbm, 385, rfl⟩
abbrev main_v314 : Ref sig .tc := ⟨.hbm, 386, rfl⟩
abbrev main_v315 : Ref sig .tc := ⟨.hbm, 387, rfl⟩
abbrev main_c_36 : Ref sig .tc := ⟨.hbm, 388, rfl⟩
abbrev main_v316 : Ref sig .tc := ⟨.hbm, 389, rfl⟩
abbrev main_v317 : Ref sig .tc := ⟨.hbm, 390, rfl⟩
abbrev main_v318 : Ref sig .tc := ⟨.hbm, 391, rfl⟩
abbrev main_v319 : Ref sig .tc := ⟨.hbm, 392, rfl⟩
abbrev main_v320 : Ref sig .tc := ⟨.hbm, 393, rfl⟩
abbrev main_v321 : Ref sig .tc := ⟨.hbm, 394, rfl⟩
abbrev main_v322 : Ref sig .tc := ⟨.hbm, 395, rfl⟩
abbrev main_v323 : Ref sig .tc := ⟨.hbm, 396, rfl⟩
abbrev main_v324 : Ref sig .tc := ⟨.hbm, 397, rfl⟩
abbrev main_v325 : Ref sig .tc := ⟨.hbm, 398, rfl⟩
abbrev main_v326 : Ref sig .tc := ⟨.hbm, 399, rfl⟩
abbrev main_v327 : Ref sig .tc := ⟨.hbm, 400, rfl⟩
abbrev main_v328 : Ref sig .tc := ⟨.hbm, 401, rfl⟩
abbrev main_v329 : Ref sig .tc := ⟨.hbm, 402, rfl⟩
abbrev main_v330 : Ref sig .tc := ⟨.hbm, 403, rfl⟩
abbrev main_v331 : Ref sig .tc := ⟨.hbm, 404, rfl⟩
abbrev main_c_37 : Ref sig .tc := ⟨.hbm, 405, rfl⟩
abbrev main_v332 : Ref sig .tc := ⟨.hbm, 406, rfl⟩
abbrev main_v333 : Ref sig .tc := ⟨.hbm, 407, rfl⟩
abbrev main_c_38 : Ref sig .tc := ⟨.hbm, 408, rfl⟩
abbrev main_v334 : Ref sig .tc := ⟨.hbm, 409, rfl⟩
abbrev main_v335 : Ref sig .tc := ⟨.hbm, 410, rfl⟩
abbrev main_v336 : Ref sig .tc := ⟨.hbm, 411, rfl⟩
abbrev main_v337 : Ref sig .tc := ⟨.hbm, 412, rfl⟩
abbrev main_v338 : Ref sig .tc := ⟨.hbm, 413, rfl⟩
abbrev main_v339 : Ref sig .tc := ⟨.hbm, 414, rfl⟩
abbrev main_v340 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_v344 : Ref sig .tc := ⟨.hbm, 419, rfl⟩
abbrev main_v345 : Ref sig .tc := ⟨.hbm, 420, rfl⟩
abbrev main_v346 : Ref sig .tc := ⟨.hbm, 421, rfl⟩
abbrev main_v347 : Ref sig .tc := ⟨.hbm, 422, rfl⟩
abbrev main_v348 : Ref sig .tc := ⟨.hbm, 423, rfl⟩
abbrev main_v349 : Ref sig .tc := ⟨.hbm, 424, rfl⟩
abbrev main_c_39 : Ref sig .tc := ⟨.hbm, 425, rfl⟩
abbrev main_v350 : Ref sig .tc := ⟨.hbm, 426, rfl⟩
abbrev main_v351 : Ref sig .tc := ⟨.hbm, 427, rfl⟩
abbrev main_c_40 : Ref sig .tc := ⟨.hbm, 428, rfl⟩
abbrev main_v352 : Ref sig .tc := ⟨.hbm, 429, rfl⟩
abbrev main_v353 : Ref sig .tc := ⟨.hbm, 430, rfl⟩
abbrev main_v354 : Ref sig .tc := ⟨.hbm, 431, rfl⟩
abbrev main_v355 : Ref sig .tc := ⟨.hbm, 432, rfl⟩
abbrev main_v356 : Ref sig .tc := ⟨.hbm, 433, rfl⟩
abbrev main_v357 : Ref sig .tc := ⟨.hbm, 434, rfl⟩
abbrev main_v358 : Ref sig .tc := ⟨.hbm, 435, rfl⟩
abbrev main_v359 : Ref sig .tc := ⟨.hbm, 436, rfl⟩
abbrev main_v360 : Ref sig .tc := ⟨.hbm, 437, rfl⟩
abbrev main_v361 : Ref sig .tc := ⟨.hbm, 438, rfl⟩
abbrev main_v362 : Ref sig .tc := ⟨.hbm, 439, rfl⟩
abbrev main_v363 : Ref sig .tc := ⟨.hbm, 440, rfl⟩
abbrev main_v364 : Ref sig .tc := ⟨.hbm, 441, rfl⟩
abbrev main_v365 : Ref sig .tc := ⟨.hbm, 442, rfl⟩
abbrev main_v366 : Ref sig .tc := ⟨.hbm, 443, rfl⟩
abbrev main_v367 : Ref sig .tc := ⟨.hbm, 444, rfl⟩
abbrev main_c_41 : Ref sig .tc := ⟨.hbm, 445, rfl⟩
abbrev main_v368 : Ref sig .tc := ⟨.hbm, 446, rfl⟩
abbrev main_v369 : Ref sig .tc := ⟨.hbm, 447, rfl⟩
abbrev main_c_42 : Ref sig .tc := ⟨.hbm, 448, rfl⟩
abbrev main_v370 : Ref sig .tc := ⟨.hbm, 449, rfl⟩
abbrev main_v371 : Ref sig .tc := ⟨.hbm, 450, rfl⟩
abbrev main_v372 : Ref sig .tc := ⟨.hbm, 451, rfl⟩
abbrev main_v373 : Ref sig .tc := ⟨.hbm, 452, rfl⟩
abbrev main_v374 : Ref sig .tc := ⟨.hbm, 453, rfl⟩
abbrev main_v375 : Ref sig .tc := ⟨.hbm, 454, rfl⟩
abbrev main_v376 : Ref sig .tc := ⟨.hbm, 455, rfl⟩
abbrev main_v377 : Ref sig .tc := ⟨.hbm, 456, rfl⟩
abbrev main_v378 : Ref sig .tc := ⟨.hbm, 457, rfl⟩
abbrev main_v379 : Ref sig .tc := ⟨.hbm, 458, rfl⟩
abbrev main_v380 : Ref sig .tc := ⟨.hbm, 459, rfl⟩
abbrev main_v381 : Ref sig .tc := ⟨.hbm, 460, rfl⟩
abbrev main_v382 : Ref sig .tc := ⟨.hbm, 461, rfl⟩
abbrev main_v383 : Ref sig .tc := ⟨.hbm, 462, rfl⟩
abbrev main_v384 : Ref sig .tc := ⟨.hbm, 463, rfl⟩
abbrev main_v385 : Ref sig .tc := ⟨.hbm, 464, rfl⟩
abbrev main_c_43 : Ref sig .tc := ⟨.hbm, 465, rfl⟩
abbrev main_v386 : Ref sig .tc := ⟨.hbm, 466, rfl⟩
abbrev main_v387 : Ref sig .tc := ⟨.hbm, 467, rfl⟩
abbrev main_c_44 : Ref sig .tc := ⟨.hbm, 468, rfl⟩
abbrev main_v388 : Ref sig .tc := ⟨.hbm, 469, rfl⟩
abbrev main_v389 : Ref sig .tc := ⟨.hbm, 470, rfl⟩
abbrev main_v390 : Ref sig .tc := ⟨.hbm, 471, rfl⟩
abbrev main_v391 : Ref sig .tc := ⟨.hbm, 472, rfl⟩
abbrev main_v392 : Ref sig .tc := ⟨.hbm, 473, rfl⟩
abbrev main_v393 : Ref sig .tc := ⟨.hbm, 474, rfl⟩
abbrev main_v394 : Ref sig .tc := ⟨.hbm, 475, rfl⟩
abbrev main_v395 : Ref sig .tc := ⟨.hbm, 476, rfl⟩
abbrev main_v396 : Ref sig .tc := ⟨.hbm, 477, rfl⟩
abbrev main_v397 : Ref sig .tc := ⟨.hbm, 478, rfl⟩
abbrev main_v398 : Ref sig .tc := ⟨.hbm, 479, rfl⟩
abbrev main_v399 : Ref sig .tc := ⟨.hbm, 480, rfl⟩
abbrev main_v400 : Ref sig .tc := ⟨.hbm, 481, rfl⟩
abbrev main_v401 : Ref sig .tc := ⟨.hbm, 482, rfl⟩
abbrev main_v402 : Ref sig .tc := ⟨.hbm, 483, rfl⟩
abbrev main_v403 : Ref sig .tc := ⟨.hbm, 484, rfl⟩
abbrev main_c_45 : Ref sig .tc := ⟨.hbm, 485, rfl⟩
abbrev main_v404 : Ref sig .tc := ⟨.hbm, 486, rfl⟩
abbrev main_v405 : Ref sig .tc := ⟨.hbm, 487, rfl⟩
abbrev main_c_46 : Ref sig .tc := ⟨.hbm, 488, rfl⟩
abbrev main_v406 : Ref sig .tc := ⟨.hbm, 489, rfl⟩
abbrev main_v407 : Ref sig .tc := ⟨.hbm, 490, rfl⟩
abbrev main_v408 : Ref sig .tc := ⟨.hbm, 491, rfl⟩
abbrev main_v409 : Ref sig .tc := ⟨.hbm, 492, rfl⟩
abbrev main_v410 : Ref sig .tc := ⟨.hbm, 493, rfl⟩
abbrev main_v411 : Ref sig .tc := ⟨.hbm, 494, rfl⟩
abbrev main_v412 : Ref sig .tc := ⟨.hbm, 495, rfl⟩
abbrev main_v413 : Ref sig .tc := ⟨.hbm, 496, rfl⟩
abbrev main_v414 : Ref sig .tc := ⟨.hbm, 497, rfl⟩
abbrev main_v415 : Ref sig .tc := ⟨.hbm, 498, rfl⟩
abbrev main_v416 : Ref sig .tc := ⟨.hbm, 499, rfl⟩
abbrev main_v417 : Ref sig .tc := ⟨.hbm, 500, rfl⟩
abbrev main_v418 : Ref sig .tc := ⟨.hbm, 501, rfl⟩
abbrev main_v419 : Ref sig .tc := ⟨.hbm, 502, rfl⟩
abbrev main_v420 : Ref sig .tc := ⟨.hbm, 503, rfl⟩
abbrev main_v421 : Ref sig .tc := ⟨.hbm, 504, rfl⟩
abbrev main_c_47 : Ref sig .tc := ⟨.hbm, 505, rfl⟩
abbrev main_v422 : Ref sig .tc := ⟨.hbm, 506, rfl⟩
abbrev main_v423 : Ref sig .tc := ⟨.hbm, 507, rfl⟩
abbrev main_c_48 : Ref sig .tc := ⟨.hbm, 508, rfl⟩
abbrev main_v424 : Ref sig .tc := ⟨.hbm, 509, rfl⟩
abbrev main_v425 : Ref sig .tc := ⟨.hbm, 510, rfl⟩
abbrev main_v426 : Ref sig .tc := ⟨.hbm, 511, rfl⟩
abbrev main_v427 : Ref sig .tc := ⟨.hbm, 512, rfl⟩
abbrev main_v428 : Ref sig .tc := ⟨.hbm, 513, rfl⟩
abbrev main_v429 : Ref sig .tc := ⟨.hbm, 514, rfl⟩
abbrev main_v430 : Ref sig .tc := ⟨.hbm, 515, rfl⟩
abbrev main_v431 : Ref sig .tc := ⟨.hbm, 516, rfl⟩
abbrev main_v432 : Ref sig .tc := ⟨.hbm, 517, rfl⟩
abbrev main_v433 : Ref sig .tc := ⟨.hbm, 518, rfl⟩
abbrev main_v434 : Ref sig .tc := ⟨.hbm, 519, rfl⟩
abbrev main_v435 : Ref sig .tc := ⟨.hbm, 520, rfl⟩
abbrev main_v436 : Ref sig .tc := ⟨.hbm, 521, rfl⟩
abbrev main_v437 : Ref sig .tc := ⟨.hbm, 522, rfl⟩
abbrev main_v438 : Ref sig .tc := ⟨.hbm, 523, rfl⟩
abbrev main_v439 : Ref sig .tc := ⟨.hbm, 524, rfl⟩
abbrev main_c_49 : Ref sig .tc := ⟨.hbm, 525, rfl⟩
abbrev main_v440 : Ref sig .tc := ⟨.hbm, 526, rfl⟩
abbrev main_v441 : Ref sig .tc := ⟨.hbm, 527, rfl⟩
abbrev main_c_50 : Ref sig .tc := ⟨.hbm, 528, rfl⟩
abbrev main_v442 : Ref sig .tc := ⟨.hbm, 529, rfl⟩
abbrev main_v443 : Ref sig .tc := ⟨.hbm, 530, rfl⟩
abbrev main_v444 : Ref sig .tc := ⟨.hbm, 531, rfl⟩
abbrev main_v445 : Ref sig .tc := ⟨.hbm, 532, rfl⟩
abbrev main_v446 : Ref sig .tc := ⟨.hbm, 533, rfl⟩
abbrev main_v447 : Ref sig .tc := ⟨.hbm, 534, rfl⟩
abbrev main_v448 : Ref sig .tc := ⟨.hbm, 535, rfl⟩
abbrev main_v449 : Ref sig .tc := ⟨.hbm, 536, rfl⟩
abbrev main_v450 : Ref sig .tc := ⟨.hbm, 537, rfl⟩
abbrev main_v451 : Ref sig .tc := ⟨.hbm, 538, rfl⟩
abbrev main_v452 : Ref sig .tc := ⟨.hbm, 539, rfl⟩
abbrev main_v453 : Ref sig .tc := ⟨.hbm, 540, rfl⟩
abbrev main_v454 : Ref sig .tc := ⟨.hbm, 541, rfl⟩
abbrev main_v455 : Ref sig .tc := ⟨.hbm, 542, rfl⟩
abbrev main_v456 : Ref sig .tc := ⟨.hbm, 543, rfl⟩
abbrev main_v457 : Ref sig .tc := ⟨.hbm, 544, rfl⟩
abbrev main_c_51 : Ref sig .tc := ⟨.hbm, 545, rfl⟩
abbrev main_v458 : Ref sig .tc := ⟨.hbm, 546, rfl⟩
abbrev main_v459 : Ref sig .tc := ⟨.hbm, 547, rfl⟩
abbrev main_c_52 : Ref sig .tc := ⟨.hbm, 548, rfl⟩
abbrev main_v460 : Ref sig .tc := ⟨.hbm, 549, rfl⟩
abbrev main_v461 : Ref sig .tc := ⟨.hbm, 550, rfl⟩
abbrev main_v462 : Ref sig .tc := ⟨.hbm, 551, rfl⟩
abbrev main_v463 : Ref sig .tc := ⟨.hbm, 552, rfl⟩
abbrev main_v464 : Ref sig .tc := ⟨.hbm, 553, rfl⟩
abbrev main_v465 : Ref sig .tc := ⟨.hbm, 554, rfl⟩
abbrev main_v466 : Ref sig .tc := ⟨.hbm, 555, rfl⟩
abbrev main_v467 : Ref sig .tc := ⟨.hbm, 556, rfl⟩
abbrev main_v468 : Ref sig .tc := ⟨.hbm, 557, rfl⟩
abbrev main_v469 : Ref sig .tc := ⟨.hbm, 558, rfl⟩
abbrev main_v470 : Ref sig .tc := ⟨.hbm, 559, rfl⟩
abbrev main_v471 : Ref sig .tc := ⟨.hbm, 560, rfl⟩
abbrev main_v472 : Ref sig .tc := ⟨.hbm, 561, rfl⟩
abbrev main_v473 : Ref sig .tc := ⟨.hbm, 562, rfl⟩
abbrev main_v474 : Ref sig .tc := ⟨.hbm, 563, rfl⟩
abbrev main_v475 : Ref sig .tc := ⟨.hbm, 564, rfl⟩
abbrev main_c_53 : Ref sig .tc := ⟨.hbm, 565, rfl⟩
abbrev main_v476 : Ref sig .tc := ⟨.hbm, 566, rfl⟩
abbrev main_v477 : Ref sig .tc := ⟨.hbm, 567, rfl⟩
abbrev main_c_54 : Ref sig .tc := ⟨.hbm, 568, rfl⟩
abbrev main_v478 : Ref sig .tc := ⟨.hbm, 569, rfl⟩
abbrev main_v479 : Ref sig .tc := ⟨.hbm, 570, rfl⟩
abbrev main_v480 : Ref sig .tc := ⟨.hbm, 571, rfl⟩
abbrev main_v481 : Ref sig .tc := ⟨.hbm, 572, rfl⟩
abbrev main_v482 : Ref sig .tc := ⟨.hbm, 573, rfl⟩
abbrev main_v483 : Ref sig .tc := ⟨.hbm, 574, rfl⟩
abbrev main_v484 : Ref sig .tc := ⟨.hbm, 575, rfl⟩
abbrev main_v485 : Ref sig .tc := ⟨.hbm, 576, rfl⟩
abbrev main_v486 : Ref sig .tc := ⟨.hbm, 577, rfl⟩
abbrev main_v487 : Ref sig .tc := ⟨.hbm, 578, rfl⟩
abbrev main_v488 : Ref sig .tc := ⟨.hbm, 579, rfl⟩
abbrev main_v489 : Ref sig .tc := ⟨.hbm, 580, rfl⟩
abbrev main_v490 : Ref sig .tc := ⟨.hbm, 581, rfl⟩
abbrev main_v491 : Ref sig .tc := ⟨.hbm, 582, rfl⟩
abbrev main_v492 : Ref sig .tc := ⟨.hbm, 583, rfl⟩
abbrev main_v493 : Ref sig .tc := ⟨.hbm, 584, rfl⟩
abbrev main_c_55 : Ref sig .tc := ⟨.hbm, 585, rfl⟩
abbrev main_v494 : Ref sig .tc := ⟨.hbm, 586, rfl⟩
abbrev main_v495 : Ref sig .tc := ⟨.hbm, 587, rfl⟩
abbrev main_c_56 : Ref sig .tc := ⟨.hbm, 588, rfl⟩
abbrev main_v496 : Ref sig .tc := ⟨.hbm, 589, rfl⟩
abbrev main_v497 : Ref sig .tc := ⟨.hbm, 590, rfl⟩
abbrev main_v498 : Ref sig .tc := ⟨.hbm, 591, rfl⟩
abbrev main_v499 : Ref sig .tc := ⟨.hbm, 592, rfl⟩
abbrev main_v500 : Ref sig .tc := ⟨.hbm, 593, rfl⟩
abbrev main_v501 : Ref sig .tc := ⟨.hbm, 594, rfl⟩
abbrev main_v502 : Ref sig .tc := ⟨.hbm, 595, rfl⟩
abbrev main_v503 : Ref sig .tc := ⟨.hbm, 596, rfl⟩
abbrev main_v504 : Ref sig .tc := ⟨.hbm, 597, rfl⟩
abbrev main_v505 : Ref sig .tc := ⟨.hbm, 598, rfl⟩
abbrev main_v506 : Ref sig .tc := ⟨.hbm, 599, rfl⟩
abbrev main_v507 : Ref sig .tc := ⟨.hbm, 600, rfl⟩
abbrev main_v508 : Ref sig .tc := ⟨.hbm, 601, rfl⟩
abbrev main_v509 : Ref sig .tc := ⟨.hbm, 602, rfl⟩
abbrev main_cst_57 : Ref sig .tc := ⟨.hbm, 603, rfl⟩
abbrev main_v510 : Ref sig .tc := ⟨.hbm, 604, rfl⟩
abbrev main_cst_58 : Ref sig .tc := ⟨.hbm, 605, rfl⟩
abbrev main_v511 : Ref sig .tc := ⟨.hbm, 606, rfl⟩
abbrev main_v512 : Ref sig .tc := ⟨.hbm, 607, rfl⟩
abbrev main_c_59 : Ref sig .tc := ⟨.hbm, 608, rfl⟩
abbrev main_call2_cst : Ref sig .tc := ⟨.hbm, 609, rfl⟩
abbrev main_call2_v0 : Ref sig .tc := ⟨.hbm, 610, rfl⟩
abbrev main_call2_v1 : Ref sig .tc := ⟨.hbm, 611, rfl⟩
abbrev main_call2_cst_0 : Ref sig .tc := ⟨.hbm, 612, rfl⟩
abbrev main_call2_v2 : Ref sig .tc := ⟨.hbm, 613, rfl⟩
abbrev main_call2_v3 : Ref sig .tc := ⟨.hbm, 614, rfl⟩
abbrev main_call2_v4 : Ref sig .tc := ⟨.hbm, 615, rfl⟩
abbrev main_call2_v5 : Ref sig .tc := ⟨.hbm, 616, rfl⟩
abbrev main_call2_v6 : Ref sig .tc := ⟨.hbm, 617, rfl⟩
abbrev main_call2_v7 : Ref sig .tc := ⟨.hbm, 618, rfl⟩
abbrev main_call2_cst_1 : Ref sig .tc := ⟨.hbm, 619, rfl⟩
abbrev main_call2_v8 : Ref sig .tc := ⟨.hbm, 620, rfl⟩
abbrev main_call2_cst_2 : Ref sig .tc := ⟨.hbm, 621, rfl⟩
abbrev main_call2_v9 : Ref sig .tc := ⟨.hbm, 622, rfl⟩
abbrev main_call2_v10 : Ref sig .tc := ⟨.hbm, 623, rfl⟩
abbrev main_call2_v11 : Ref sig .tc := ⟨.hbm, 624, rfl⟩
abbrev main_call2_cst_3 : Ref sig .tc := ⟨.hbm, 625, rfl⟩
abbrev main_call2_v12 : Ref sig .tc := ⟨.hbm, 626, rfl⟩
abbrev main_call2_cst_4 : Ref sig .tc := ⟨.hbm, 627, rfl⟩
abbrev main_call2_call0_v0 : Ref sig .tc := ⟨.hbm, 628, rfl⟩
abbrev main_call2_call0_v1 : Ref sig .tc := ⟨.hbm, 629, rfl⟩
abbrev main_v513 : Ref sig .tc := ⟨.hbm, 630, rfl⟩
abbrev main_v514 : Ref sig .tc := ⟨.hbm, 631, rfl⟩
abbrev main_v515 : Ref sig .tc := ⟨.hbm, 632, rfl⟩
abbrev main_v516 : Ref sig .tc := ⟨.hbm, 633, rfl⟩
abbrev main_cst_60 : Ref sig .tc := ⟨.hbm, 634, rfl⟩
abbrev main_v517 : Ref sig .tc := ⟨.hbm, 635, rfl⟩
abbrev main_v518 : Ref sig .tc := ⟨.hbm, 636, rfl⟩
abbrev main_v519 : Ref sig .tc := ⟨.hbm, 637, rfl⟩
abbrev main_v520 : Ref sig .tc := ⟨.hbm, 638, rfl⟩
abbrev main_v521 : Ref sig .tc := ⟨.hbm, 639, rfl⟩
abbrev main_v522 : Ref sig .tc := ⟨.hbm, 640, rfl⟩
abbrev main_v523 : Ref sig .tc := ⟨.hbm, 641, rfl⟩
abbrev main_v524 : Ref sig .tc := ⟨.hbm, 642, rfl⟩
abbrev main_v525 : Ref sig .tc := ⟨.hbm, 643, rfl⟩
abbrev main_v526 : Ref sig .tc := ⟨.hbm, 644, rfl⟩
abbrev main_v527 : Ref sig .tc := ⟨.hbm, 645, rfl⟩
abbrev main_v528 : Ref sig .tc := ⟨.hbm, 646, rfl⟩
abbrev main_call3_cst : Ref sig .tc := ⟨.hbm, 647, rfl⟩
abbrev main_call3_v0 : Ref sig .tc := ⟨.hbm, 648, rfl⟩
abbrev main_v529 : Ref sig .tc := ⟨.hbm, 649, rfl⟩
abbrev main_v530 : Ref sig .tc := ⟨.hbm, 650, rfl⟩
abbrev main_v531 : Ref sig .tc := ⟨.hbm, 651, rfl⟩
abbrev main_call4_cst : Ref sig .tc := ⟨.hbm, 652, rfl⟩
abbrev main_call4_v0 : Ref sig .tc := ⟨.hbm, 653, rfl⟩
abbrev main_v532 : Ref sig .tc := ⟨.hbm, 654, rfl⟩

abbrev nD : Nat := 1
abbrev τ : Topo := Topo.v7x

variable {F : FTy → Type} [FloatOps F]

class Facts₀ : Prop where
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S100000x27_S100000x1_0_0 : S100000x27.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S27x128_S1x128_0_0 : S27x128.Slices ![0, 0] S1x128
  shapeCasts_S1x128_S128 : S1x128.ShapeCasts S128
  slices_S100000x27_S100000x1_0_1 : S100000x27.Slices ![0, 1] S100000x1
  slices_S27x128_S1x128_1_0 : S27x128.Slices ![1, 0] S1x128
  slices_S100000x27_S100000x1_0_2 : S100000x27.Slices ![0, 2] S100000x1
  slices_S27x128_S1x128_2_0 : S27x128.Slices ![2, 0] S1x128
  slices_S100000x27_S100000x1_0_3 : S100000x27.Slices ![0, 3] S100000x1
  slices_S27x128_S1x128_3_0 : S27x128.Slices ![3, 0] S1x128
  slices_S100000x27_S100000x1_0_4 : S100000x27.Slices ![0, 4] S100000x1
  slices_S27x128_S1x128_4_0 : S27x128.Slices ![4, 0] S1x128
  slices_S100000x27_S100000x1_0_5 : S100000x27.Slices ![0, 5] S100000x1
  slices_S27x128_S1x128_5_0 : S27x128.Slices ![5, 0] S1x128
  slices_S100000x27_S100000x1_0_6 : S100000x27.Slices ![0, 6] S100000x1
  slices_S27x128_S1x128_6_0 : S27x128.Slices ![6, 0] S1x128
  slices_S100000x27_S100000x1_0_7 : S100000x27.Slices ![0, 7] S100000x1
  slices_S27x128_S1x128_7_0 : S27x128.Slices ![7, 0] S1x128
  slices_S100000x27_S100000x1_0_8 : S100000x27.Slices ![0, 8] S100000x1
  slices_S27x128_S1x128_8_0 : S27x128.Slices ![8, 0] S1x128
  slices_S100000x27_S100000x1_0_9 : S100000x27.Slices ![0, 9] S100000x1
  slices_S27x128_S1x128_9_0 : S27x128.Slices ![9, 0] S1x128
  slices_S100000x27_S100000x1_0_10 : S100000x27.Slices ![0, 10] S100000x1
  slices_S27x128_S1x128_10_0 : S27x128.Slices ![10, 0] S1x128
  slices_S100000x27_S100000x1_0_11 : S100000x27.Slices ![0, 11] S100000x1
  slices_S27x128_S1x128_11_0 : S27x128.Slices ![11, 0] S1x128
  slices_S100000x27_S100000x1_0_12 : S100000x27.Slices ![0, 12] S100000x1
  slices_S27x128_S1x128_12_0 : S27x128.Slices ![12, 0] S1x128
  slices_S100000x27_S100000x1_0_13 : S100000x27.Slices ![0, 13] S100000x1
  slices_S27x128_S1x128_13_0 : S27x128.Slices ![13, 0] S1x128
  slices_S100000x27_S100000x1_0_14 : S100000x27.Slices ![0, 14] S100000x1
  slices_S27x128_S1x128_14_0 : S27x128.Slices ![14, 0] S1x128
  slices_S100000x27_S100000x1_0_15 : S100000x27.Slices ![0, 15] S100000x1
  slices_S27x128_S1x128_15_0 : S27x128.Slices ![15, 0] S1x128
  slices_S100000x27_S100000x1_0_16 : S100000x27.Slices ![0, 16] S100000x1
  slices_S27x128_S1x128_16_0 : S27x128.Slices ![16, 0] S1x128
  slices_S100000x27_S100000x1_0_17 : S100000x27.Slices ![0, 17] S100000x1
  slices_S27x128_S1x128_17_0 : S27x128.Slices ![17, 0] S1x128
  slices_S100000x27_S100000x1_0_18 : S100000x27.Slices ![0, 18] S100000x1
  slices_S27x128_S1x128_18_0 : S27x128.Slices ![18, 0] S1x128
  slices_S100000x27_S100000x1_0_19 : S100000x27.Slices ![0, 19] S100000x1
  slices_S27x128_S1x128_19_0 : S27x128.Slices ![19, 0] S1x128
  slices_S100000x27_S100000x1_0_20 : S100000x27.Slices ![0, 20] S100000x1
  slices_S27x128_S1x128_20_0 : S27x128.Slices ![20, 0] S1x128
  slices_S100000x27_S100000x1_0_21 : S100000x27.Slices ![0, 21] S100000x1
  slices_S27x128_S1x128_21_0 : S27x128.Slices ![21, 0] S1x128
  slices_S100000x27_S100000x1_0_22 : S100000x27.Slices ![0, 22] S100000x1
  slices_S27x128_S1x128_22_0 : S27x128.Slices ![22, 0] S1x128
  slices_S100000x27_S100000x1_0_23 : S100000x27.Slices ![0, 23] S100000x1
  slices_S27x128_S1x128_23_0 : S27x128.Slices ![23, 0] S1x128
  slices_S100000x27_S100000x1_0_24 : S100000x27.Slices ![0, 24] S100000x1
  slices_S27x128_S1x128_24_0 : S27x128.Slices ![24, 0] S1x128
  slices_S100000x27_S100000x1_0_25 : S100000x27.Slices ![0, 25] S100000x1
  slices_S27x128_S1x128_25_0 : S27x128.Slices ![25, 0] S1x128
  slices_S100000x27_S100000x1_0_26 : S100000x27.Slices ![0, 26] S100000x1
  slices_S27x128_S1x128_26_0 : S27x128.Slices ![26, 0] S1x128
  dot_S100000x96_S96x128_S100000x128_1_0_0_1_n_n_wf : DotDims.WF S100000x96 S96x128 S100000x128 [1] [0] [0] [1] [] []
  dot_S100000x128_S128x128_S100000x128_1_0_0_1_n_n_wf : DotDims.WF S100000x128 S128x128 S100000x128 [1] [0] [0] [1] [] []
  gather_S100000x128_S100000x1_S100000x128_1_0_n_n_0_1_1128_wf : GatherDims.WF S100000x128 S100000x1 S100000x128 [1] [0] [] [0] [] 1 ![1, 128]

variable [Facts₀]

def dot_S100000x96_S96x128_S100000x128_1_0_0_1_n_n : DotDims S100000x96 S96x128 S100000x128 where
  lhsContracting := [1]
  rhsContracting := [0]
  lhsNonContracting := [0]
  rhsNonContracting := [1]
  lhsBatch := []
  rhsBatch := []
  wf := dot_S100000x96_S96x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf

class Facts : Prop extends Facts₀ where

variable [Facts]
-- ==== Proof.LibHostLine.lean ====
import Idealize.ShloMosaic.Lib.StableHlo.Run

namespace Idealize.ShloMosaic.StableHlo

variable {τ : Topo} {sig : RefSig} {Val : EltTy → Type}

/-- An operation whose one result buffer is listed in `W` writes inside `W`. -/
theorem writes_sub {op : HloOp τ sig Val} {y : Ref sig .tc} {W : List (Ref sig .tc)}
    (hw : op.writes = {Proc.devRef .tc y}) (hy : y ∈ W) :
    op.writes ⊆ (W.map (Proc.devRef (τ := τ) .tc)).toFinset :=
  hw ▸ Finset.singleton_subset_iff.mpr (List.mem_toFinset.mpr (List.mem_map_of_mem hy))

/-- What holds of every entry of two lists holds of every entry of their concatenation. -/
theorem forall_append {α : Type _} {p : α → Prop} {l₁ l₂ : List α} (h₁ : l₁.Forall p) (h₂ : l₂.Forall p) :
    (l₁ ++ l₂).Forall p :=
  List.forall_iff_forall_mem.mpr fun a h => (List.mem_append.mp h).elim
    (List.forall_iff_forall_mem.mp h₁ a) (List.forall_iff_forall_mem.mp h₂ a)

end Idealize.ShloMosaic.StableHlo
-- ==== Proof.ROps.lean ====
import proofs.«410615_j21474836480482_3_alg».proof.Proof.Gen.ReferenceIdeal
import proofs.«410615_j21474836480482_3_alg».proof.Proof.LibHostLine

set_option Elab.async false

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

abbrev cP : List (HloOp τ sig (Elt F)) :=
  [ binary main_arg0 main_arg1 main_v0 ((fun l r => Host.dotGeneral dot_S100000x96_S96x128_S100000x128_1_0_0_1_n_n none l r) : (⟨S100000x96, .f32⟩ : BufTy).Contents (Elt F) → (⟨S96x128, .f32⟩ : BufTy).Contents (Elt F) → (⟨S100000x128, .f32⟩ : BufTy).Contents (Elt F)),
    nullary main_cst (constant S_ .f32 0x00000000#32),
    binary main_v0 main_cst main_v1 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_0 (constant S_ .f32 0x47C35000#32),
    unary main_cst_0 main_v2 (broadcastInDim S128 ![] bcast_S_S128 : (⟨S_, .f32⟩ : BufTy).Contents (Elt F) → (⟨S128, .f32⟩ : BufTy).Contents (Elt F)),
    binary main_v1 main_v2 main_v3 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call0.cst (constant S_ .f32 0x00000000#32),
    TRef.binary (.of main_v0 : StableHlo.TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v0 : StableHlo.TRef sig ⟨S100000x128, .f32⟩) main_call0.v4 main_call0.v5 subf,
    TRef.binary main_call0.v5 main_call0.v5 main_call0.v6 mulf,
    TRef.unary (.of main_c : StableHlo.TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary (main_call0.cst_4 : StableHlo.TRef sig ⟨S_, .f32⟩) main_call0.call0.v0 id,
    TRef.unary main_call0.call0.v0 main_call0.call0.v1 (broadcastInDim S128 ![] bcast_S_S128),
    TRef.ternary (main_call0.v12 : StableHlo.TRef sig ⟨S_, .i1⟩) (main_call0.v11 : StableHlo.TRef sig ⟨S128, .f32⟩) main_call0.call0.v1 main_call0.call0.v2 (fun p a b => select (broadcastInDim S128 ![] bcast_S_S128 p) a b),
    unary main_v3 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v0 main_v6 main_v7 (subf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x3727C5AC#32),
    unary main_cst_1 main_v8 (broadcastInDim S128 ![] bcast_S_S128 : (⟨S_, .f32⟩ : BufTy).Contents (Elt F) → (⟨S128, .f32⟩ : BufTy).Contents (Elt F)),
    binary main_v4 main_v8 main_v9 (addf : (⟨S128, .f32⟩ : BufTy).Contents (Elt F) → (⟨S128, .f32⟩ : BufTy).Contents (Elt F) → (⟨S128, .f32⟩ : BufTy).Contents (Elt F)),
    unary main_v9 main_v10 (Host.rsqrt : (⟨S128, .f32⟩ : BufTy).Contents (Elt F) → (⟨S128, .f32⟩ : BufTy).Contents (Elt F)),
    unary main_v10 main_v11 (broadcastInDim S1x128 ![1] bcast_S128_S1x128_1 : (⟨S128, .f32⟩ : BufTy).Contents (Elt F) → (⟨S1x128, .f32⟩ : BufTy).Contents (Elt F)),
    unary main_v11 main_v12 (broadcastInDim S100000x128 ![0, 1] bcast_S1x128_S100000x128_0_1 : (⟨S1x128, .f32⟩ : BufTy).Contents (Elt F) → (⟨S100000x128, .f32⟩ : BufTy).Contents (Elt F)),
    binary main_v7 main_v12 main_v13 (mulf : (⟨S100000x128, .f32⟩ : BufTy).Contents (Elt F) → (⟨S100000x128, .f32⟩ : BufTy).Contents (Elt F) → (⟨S100000x128, .f32⟩ : BufTy).Contents (Elt F)),
    unary main_arg2 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v13 main_v15 main_v16 (mulf : (⟨S100000x128, .f32⟩ : BufTy).Contents (Elt F) → (⟨S100000x128, .f32⟩ : BufTy).Contents (Elt F) → (⟨S100000x128, .f32⟩ : BufTy).Contents (Elt F)),
    unary main_arg3 main_v17 (broadcastInDim S1x128 ![1] bcast_S128_S1x128_1 : (⟨S128, .f32⟩ : BufTy).Contents (Elt F) → (⟨S1x128, .f32⟩ : BufTy).Contents (Elt F)),
    unary main_v17 main_v18 (broadcastInDim S100000x128 ![0, 1] bcast_S1x128_S100000x128_0_1 : (⟨S1x128, .f32⟩ : BufTy).Contents (Elt F) → (⟨S100000x128, .f32⟩ : BufTy).Contents (Elt F)),
    binary main_v16 main_v18 main_v19 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v19 : StableHlo.TRef sig ⟨S100000x128, .f32⟩) main_call1.v0 main_call1.v1 maximumf,
    binary main_v20 main_arg4 main_v21 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v22 (uitofp .f32 : (⟨S100000x27, .i1⟩ : BufTy).Contents (Elt F) → (⟨S100000x27, .f32⟩ : BufTy).Contents (Elt F)),
    nullary main_cst_2 (constant S_ .f32 0x00000000#32),
    unary main_cst_2 main_v23 (broadcastInDim S100000x128 ![] bcast_S_S100000x128 : (⟨S_, .f32⟩ : BufTy).Contents (Elt F) → (⟨S100000x128, .f32⟩ : BufTy).Contents (Elt F)) ]

/-- One neighbour offset, first half: the index column sliced out, negative indices moved up by 100000, the rows of the second product gathered. -/
def gatherOps (o9 : Fin 2 → Nat) (e9 : S100000x27.Slices o9 S100000x1)
    (t0 : StableHlo.TRef sig ⟨S100000x1, .i32⟩) (t1 : StableHlo.TRef sig ⟨S100000, .i32⟩) (c0 : StableHlo.TRef sig ⟨S_, .i32⟩)
    (t2 : StableHlo.TRef sig ⟨S100000, .i32⟩) (t3 : StableHlo.TRef sig ⟨S100000, .i1⟩) (c1 : StableHlo.TRef sig ⟨S_, .i32⟩)
    (t4 t5 t6 : StableHlo.TRef sig ⟨S100000, .i32⟩) (t7 : StableHlo.TRef sig ⟨S100000x1, .i32⟩)
    (t8 : StableHlo.TRef sig ⟨S100000x128, .f32⟩) : List (HloOp τ sig (Elt F)) :=
  [ TRef.unary (.of main_arg9 : StableHlo.TRef sig ⟨S100000x27, .i32⟩) t0 (extractStridedSlice S100000x1 o9 · e9),
    TRef.reshape t0 t1 rfl shapeCasts_S100000x1_S100000,
    TRef.nullary c0 (constantI S_ 32 0#32),
    TRef.unary c0 t2 (broadcastInDim S100000 ![] bcast_S_S100000),
    TRef.binary t1 t2 t3 (cmpi .slt),
    TRef.nullary c1 (constantI S_ 32 100000#32),
    TRef.unary c1 t4 (broadcastInDim S100000 ![] bcast_S_S100000),
    TRef.binary t1 t4 t5 addi,
    TRef.ternary t3 t5 t1 t6 select,
    TRef.unary t6 t7 (broadcastInDim S100000x1 ![0] bcast_S100000_S100000x1_0),
    TRef.binary (.of main_v21 : StableHlo.TRef sig ⟨S100000x128, .f32⟩) t7 t8 (fun x i => Host.gather gather_S100000x128_S100000x1_S100000x128_1_0_n_n_0_1_1128 x i) ]

/-- Second half: the gathered rows times the mask column times the weight row, added to the running sum. -/
def accumOps (o9 : Fin 2 → Nat) (e9 : S100000x27.Slices o9 S100000x1) (o5 : Fin 2 → Nat) (e5 : S27x128.Slices o5 S1x128)
    (acc t8 : StableHlo.TRef sig ⟨S100000x128, .f32⟩) (t9 : StableHlo.TRef sig ⟨S100000x1, .f32⟩)
    (t10 t11 : StableHlo.TRef sig ⟨S100000x128, .f32⟩) (t12 : StableHlo.TRef sig ⟨S1x128, .f32⟩) (t13 : StableHlo.TRef sig ⟨S128, .f32⟩)
    (t14 : StableHlo.TRef sig ⟨S1x128, .f32⟩) (t15 t16 t17 : StableHlo.TRef sig ⟨S100000x128, .f32⟩) : List (HloOp τ sig (Elt F)) :=
  [ TRef.unary (.of main_v22 : StableHlo.TRef sig ⟨S100000x27, .f32⟩) t9 (extractStridedSlice S100000x1 o9 · e9),
    TRef.unary t9 t10 (broadcastInDim S100000x128 ![0, 1] bcast_S100000x1_S100000x128_0_1),
    TRef.binary t8 t10 t11 mulf,
    TRef.unary (.of main_arg5 : StableHlo.TRef sig ⟨S27x128, .f32⟩) t12 (extractStridedSlice S1x128 o5 · e5),
    TRef.reshape t12 t13 rfl shapeCasts_S1x128_S128,
    TRef.unary t13 t14 (broadcastInDim S1x128 ![1] bcast_S128_S1x128_1),
    TRef.unary t14 t15 (broadcastInDim S100000x128 ![0, 1] bcast_S1x128_S100000x128_0_1),
    TRef.binary t11 t15 t16 mulf,
    TRef.binary acc t16 t17 addf ]

theorem gatherOps_sub {o9 e9 t0 t1 c0 t2 t3 c1 t4 t5 t6 t7 t8} :
    (gatherOps (F := F) o9 e9 t0 t1 c0 t2 t3 c1 t4 t5 t6 t7 t8).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub ..⟩
theorem accumOps_sub {o9 e9 o5 e5 acc t8 t9 t10 t11 t12 t13 t14 t15 t16 t17} :
    (accumOps (F := F) o9 e9 o5 e5 acc t8 t9 t10 t11 t12 t13 t14 t15 t16 t17).Forall fun op => op.bufs ⊆ tcRefs τ sig :=
  ⟨unary_bufs_sub .., unary_bufs_sub .., binary_bufs_sub .., unary_bufs_sub .., reshape_bufs_sub .., unary_bufs_sub ..,
    unary_bufs_sub .., binary_bufs_sub .., binary_bufs_sub ..⟩
theorem gatherOps_fresh {o9 e9 t0 t1 c0 t2 t3 c1 t4 t5 t6 t7 t8} :
    (gatherOps (F := F) o9 e9 t0 t1 c0 t2 t3 c1 t4 t5 t6 t7 t8).Forall fun op => op.fresh = ∅ := by
  simp only [gatherOps, List.Forall]; repeat' constructor
theorem accumOps_fresh {o9 e9 o5 e5 acc t8 t9 t10 t11 t12 t13 t14 t15 t16 t17} :
    (accumOps (F := F) o9 e9 o5 e5 acc t8 t9 t10 t11 t12 t13 t14 t15 t16 t17).Forall fun op => op.fresh = ∅ := by
  simp only [accumOps, List.Forall]; repeat' constructor

abbrev cI0_a : List (HloOp τ sig (Elt F)) := gatherOps ![0, 0] slices_S100000x27_S100000x1_0_0 (.of main_v24) (.of main_v25) (.of main_c_3) (.of main_v26) (.of main_v27) (.of main_c_4) (.of main_v28) (.of main_v29) (.of main_v30) (.of main_v31) (.of main_v32)
abbrev cI0_b : List (HloOp τ sig (Elt F)) := accumOps ![0, 0] slices_S100000x27_S100000x1_0_0 ![0, 0] slices_S27x128_S1x128_0_0 (.of main_v23) (.of main_v32) (.of main_v33) (.of main_v34) (.of main_v35) (.of main_v36) (.of main_v37) (.of main_v38) (.of main_v39) (.of main_v40) (.of main_v41)
abbrev cI0 : List (HloOp τ sig (Elt F)) := cI0_a ++ cI0_b

abbrev cI1_a : List (HloOp τ sig (Elt F)) := gatherOps ![0, 1] slices_S100000x27_S100000x1_0_1 (.of main_v42) (.of main_v43) (.of main_c_5) (.of main_v44) (.of main_v45) (.of main_c_6) (.of main_v46) (.of main_v47) (.of main_v48) (.of main_v49) (.of main_v50)
abbrev cI1_b : List (HloOp τ sig (Elt F)) := accumOps ![0, 1] slices_S100000x27_S100000x1_0_1 ![1, 0] slices_S27x128_S1x128_1_0 (.of main_v41) (.of main_v50) (.of main_v51) (.of main_v52) (.of main_v53) (.of main_v54) (.of main_v55) (.of main_v56) (.of main_v57) (.of main_v58) (.of main_v59)
abbrev cI1 : List (HloOp τ sig (Elt F)) := cI1_a ++ cI1_b

abbrev cI2_a : List (HloOp τ sig (Elt F)) := gatherOps ![0, 2] slices_S100000x27_S100000x1_0_2 (.of main_v60) (.of main_v61) (.of main_c_7) (.of main_v62) (.of main_v63) (.of main_c_8) (.of main_v64) (.of main_v65) (.of main_v66) (.of main_v67) (.of main_v68)
abbrev cI2_b : List (HloOp τ sig (Elt F)) := accumOps ![0, 2] slices_S100000x27_S100000x1_0_2 ![2, 0] slices_S27x128_S1x128_2_0 (.of main_v59) (.of main_v68) (.of main_v69) (.of main_v70) (.of main_v71) (.of main_v72) (.of main_v73) (.of main_v74) (.of main_v75) (.of main_v76) (.of main_v77)
abbrev cI2 : List (HloOp τ sig (Elt F)) := cI2_a ++ cI2_b

abbrev cI3_a : List (HloOp τ sig (Elt F)) := gatherOps ![0, 3] slices_S100000x27_S100000x1_0_3 (.of main_v78) (.of main_v79) (.of main_c_9) (.of main_v80) (.of main_v81) (.of main_c_10) (.of main_v82) (.of main_v83) (.of main_v84) (.of main_v85) (.of main_v86)
abbrev cI3_b : List (HloOp τ sig (Elt F)) := accumOps ![0, 3] slices_S100000x27_S100000x1_0_3 ![3, 0] slices_S27x128_S1x128_3_0 (.of main_v77) (.of main_v86) (.of main_v87) (.of main_v88) (.of main_v89) (.of main_v90) (.of main_v91) (.of main_v92) (.of main_v93) (.of main_v94) (.of main_v95)
abbrev cI3 : List (HloOp τ sig (Elt F)) := cI3_a ++ cI3_b

abbrev cI4_a : List (HloOp τ sig (Elt F)) := gatherOps ![0, 4] slices_S100000x27_S100000x1_0_4 (.of main_v96) (.of main_v97) (.of main_c_11) (.of main_v98) (.of main_v99) (.of main_c_12) (.of main_v100) (.of main_v101) (.of main_v102) (.of main_v103) (.of main_v104)
abbrev cI4_b : List (HloOp τ sig (Elt F)) := accumOps ![0, 4] slices_S100000x27_S100000x1_0_4 ![4, 0] slices_S27x128_S1x128_4_0 (.of main_v95) (.of main_v104) (.of main_v105) (.of main_v106) (.of main_v107) (.of main_v108) (.of main_v109) (.of main_v110) (.of main_v111) (.of main_v112) (.of main_v113)
abbrev cI4 : List (HloOp τ sig (Elt F)) := cI4_a ++ cI4_b

abbrev cI5_a : List (HloOp τ sig (Elt F)) := gatherOps ![0, 5] slices_S100000x27_S100000x1_0_5 (.of main_v114) (.of main_v115) (.of main_c_13) (.of main_v116) (.of main_v117) (.of main_c_14) (.of main_v118) (.of main_v119) (.of main_v120) (.of main_v121) (.of main_v122)
abbrev cI5_b : List (HloOp τ sig (Elt F)) := accumOps ![0, 5] slices_S100000x27_S100000x1_0_5 ![5, 0] slices_S27x128_S1x128_5_0 (.of main_v113) (.of main_v122) (.of main_v123) (.of main_v124) (.of main_v125) (.of main_v126) (.of main_v127) (.of main_v128) (.of main_v129) (.of main_v130) (.of main_v131)
abbrev cI5 : List (HloOp τ sig (Elt F)) := cI5_a ++ cI5_b

abbrev cI6_a : List (HloOp τ sig (Elt F)) := gatherOps ![0, 6] slices_S100000x27_S100000x1_0_6 (.of main_v132) (.of main_v133) (.of main_c_15) (.of main_v134) (.of main_v135) (.of main_c_16) (.of main_v136) (.of main_v137) (.of main_v138) (.of main_v139) (.of main_v140)
abbrev cI6_b : List (HloOp τ sig (Elt F)) := accumOps ![0, 6] slices_S100000x27_S100000x1_0_6 ![6, 0] slices_S27x128_S1x128_6_0 (.of main_v131) (.of main_v140) (.of main_v141) (.of main_v142) (.of main_v143) (.of main_v144) (.of main_v145) (.of main_v146) (.of main_v147) (.of main_v148) (.of main_v149)
abbrev cI6 : List (HloOp τ sig (Elt F)) := cI6_a ++ cI6_b

abbrev cI7_a : List (HloOp τ sig (Elt F)) := gatherOps ![0, 7] slices_S100000x27_S100000x1_0_7 (.of main_v150) (.of main_v151) (.of main_c_17) (.of main_v152) (.of main_v153) (.of main_c_18) (.of main_v154) (.of main_v155) (.of main_v156) (.of main_v157) (.of main_v158)
abbrev cI7_b : List (HloOp τ sig (Elt F)) := accumOps ![0, 7] slices_S100000x27_S100000x1_0_7 ![7, 0] slices_S27x128_S1x128_7_0 (.of main_v149) (.of main_v158) (.of main_v159) (.of main_v160) (.of main_v161) (.of main_v162) (.of main_v163) (.of main_v164) (.of main_v165) (.of main_v166) (.of main_v167)
abbrev cI7 : List (HloOp τ sig (Elt F)) := cI7_a ++ cI7_b

abbrev cI8_a : List (HloOp τ sig (Elt F)) := gatherOps ![0, 8] slices_S100000x27_S100000x1_0_8 (.of main_v168) (.of main_v169) (.of main_c_19) (.of main_v170) (.of main_v171) (.of main_c_20) (.of main_v172) (.of main_v173) (.of main_v174) (.of main_v175) (.of main_v176)
abbrev cI8_b : List (HloOp τ sig (Elt F)) := accumOps ![0, 8] slices_S100000x27_S100000x1_0_8 ![8, 0] slices_S27x128_S1x128_8_0 (.of main_v167) (.of main_v176) (.of main_v177) (.of main_v178) (.of main_v179) (.of main_v180) (.of main_v181) (.of main_v182) (.of main_v183) (.of main_v184) (.of main_v185)
abbrev cI8 : List (HloOp τ sig (Elt F)) := cI8_a ++ cI8_b

abbrev cI9_a : List (HloOp τ sig (Elt F)) := gatherOps ![0, 9] slices_S100000x27_S100000x1_0_9 (.of main_v186) (.of main_v187) (.of main_c_21) (.of main_v188) (.of main_v189) (.of main_c_22) (.of main_v190) (.of main_v191) (.of main_v192) (.of main_v193) (.of main_v194)
abbrev cI9_b : List (HloOp τ sig (Elt F)) := accumOps ![0, 9] slices_S100000x27_S100000x1_0_9 ![9, 0] slices_S27x128_S1x128_9_0 (.of main_v185) (.of main_v194) (.of main_v195) (.of main_v196) (.of main_v197) (.of main_v198) (.of main_v199) (.of main_v200) (.of main_v201) (.of main_v202) (.of main_v203)
abbrev cI9 : List (HloOp τ sig (Elt F)) := cI9_a ++ cI9_b

abbrev cI10_a : List (HloOp τ sig (Elt F)) := gatherOps ![0, 10] slices_S100000x27_S100000x1_0_10 (.of main_v204) (.of main_v205) (.of main_c_23) (.of main_v206) (.of main_v207) (.of main_c_24) (.of main_v208) (.of main_v209) (.of main_v210) (.of main_v211) (.of main_v212)
abbrev cI10_b : List (HloOp τ sig (Elt F)) := accumOps ![0, 10] slices_S100000x27_S100000x1_0_10 ![10, 0] slices_S27x128_S1x128_10_0 (.of main_v203) (.of main_v212) (.of main_v213) (.of main_v214) (.of main_v215) (.of main_v216) (.of main_v217) (.of main_v218) (.of main_v219) (.of main_v220) (.of main_v221)
abbrev cI10 : List (HloOp τ sig (Elt F)) := cI10_a ++ cI10_b

abbrev cI11_a : List (HloOp τ sig (Elt F)) := gatherOps ![0, 11] slices_S100000x27_S100000x1_0_11 (.of main_v222) (.of main_v223) (.of main_c_25) (.of main_v224) (.of main_v225) (.of main_c_26) (.of main_v226) (.of main_v227) (.of main_v228) (.of main_v229) (.of main_v230)
abbrev cI11_b : List (HloOp τ sig (Elt F)) := accumOps ![0, 11] slices_S100000x27_S100000x1_0_11 ![11, 0] slices_S27x128_S1x128_11_0 (.of main_v221) (.of main_v230) (.of main_v231) (.of main_v232) (.of main_v233) (.of main_v234) (.of main_v235) (.of main_v236) (.of main_v237) (.of main_v238) (.of main_v239)
abbrev cI11 : List (HloOp τ sig (Elt F)) := cI11_a ++ cI11_b

abbrev cI12_a : List (HloOp τ sig (Elt F)) := gatherOps ![0, 12] slices_S100000x27_S100000x1_0_12 (.of main_v240) (.of main_v241) (.of main_c_27) (.of main_v242) (.of main_v243) (.of main_c_28) (.of main_v244) (.of main_v245) (.of main_v246) (.of main_v247) (.of main_v248)
abbrev cI12_b : List (HloOp τ sig (Elt F)) := accumOps ![0, 12] slices_S100000x27_S100000x1_0_12 ![12, 0] slices_S27x128_S1x128_12_0 (.of main_v239) (.of main_v248) (.of main_v249) (.of main_v250) (.of main_v251) (.of main_v252) (.of main_v253) (.of main_v254) (.of main_v255) (.of main_v256) (.of main_v257)
abbrev cI12 : List (HloOp τ sig (Elt F)) := cI12_a ++ cI12_b

abbrev cI13_a : List (HloOp τ sig (Elt F)) := gatherOps ![0, 13] slices_S100000x27_S100000x1_0_13 (.of main_v258) (.of main_v259) (.of main_c_29) (.of main_v260) (.of main_v261) (.of main_c_30) (.of main_v262) (.of main_v263) (.of main_v264) (.of main_v265) (.of main_v266)
abbrev cI13_b : List (HloOp τ sig (Elt F)) := accumOps ![0, 13] slices_S100000x27_S100000x1_0_13 ![13, 0] slices_S27x128_S1x128_13_0 (.of main_v257) (.of main_v266) (.of main_v267) (.of main_v268) (.of main_v269) (.of main_v270) (.of main_v271) (.of main_v272) (.of main_v273) (.of main_v274) (.of main_v275)
abbrev cI13 : List (HloOp τ sig (Elt F)) := cI13_a ++ cI13_b

abbrev cI14_a : List (HloOp τ sig (Elt F)) := gatherOps ![0, 14] slices_S100000x27_S100000x1_0_14 (.of main_v276) (.of main_v277) (.of main_c_31) (.of main_v278) (.of main_v279) (.of main_c_32) (.of main_v280) (.of main_v281) (.of main_v282) (.of main_v283) (.of main_v284)
abbrev cI14_b : List (HloOp τ sig (Elt F)) := accumOps ![0, 14] slices_S100000x27_S100000x1_0_14 ![14, 0] slices_S27x128_S1x128_14_0 (.of main_v275) (.of main_v284) (.of main_v285) (.of main_v286) (.of main_v287) (.of main_v288) (.of main_v289) (.of main_v290) (.of main_v291) (.of main_v292) (.of main_v293)
abbrev cI14 : List (HloOp τ sig (Elt F)) := cI14_a ++ cI14_b

abbrev cI15_a : List (HloOp τ sig (Elt F)) := gatherOps ![0, 15] slices_S100000x27_S100000x1_0_15 (.of main_v294) (.of main_v295) (.of main_c_33) (.of main_v296) (.of main_v297) (.of main_c_34) (.of main_v298) (.of main_v299) (.of main_v300) (.of main_v301) (.of main_v302)
abbrev cI15_b : List (HloOp τ sig (Elt F)) := accumOps ![0, 15] slices_S100000x27_S100000x1_0_15 ![15, 0] slices_S27x128_S1x128_15_0 (.of main_v293) (.of main_v302) (.of main_v303) (.of main_v304) (.of main_v305) (.of main_v306) (.of main_v307) (.of main_v308) (.of main_v309) (.of main_v310) (.of main_v311)
abbrev cI15 : List (HloOp τ sig (Elt F)) := cI15_a ++ cI15_b

abbrev cI16_a : List (HloOp τ sig (Elt F)) := gatherOps ![0, 16] slices_S100000x27_S100000x1_0_16 (.of main_v312) (.of main_v313) (.of main_c_35) (.of main_v314) (.of main_v315) (.of main_c_36) (.of main_v316) (.of main_v317) (.of main_v318) (.of main_v319) (.of main_v320)
abbrev cI16_b : List (HloOp τ sig (Elt F)) := accumOps ![0, 16] slices_S100000x27_S100000x1_0_16 ![16, 0] slices_S27x128_S1x128_16_0 (.of main_v311) (.of main_v320) (.of main_v321) (.of main_v322) (.of main_v323) (.of main_v324) (.of main_v325) (.of main_v326) (.of main_v327) (.of main_v328) (.of main_v329)
abbrev cI16 : List (HloOp τ sig (Elt F)) := cI16_a ++ cI16_b

abbrev cI17_a : List (HloOp τ sig (Elt F)) := gatherOps ![0, 17] slices_S100000x27_S100000x1_0_17 (.of main_v330) (.of main_v331) (.of main_c_37) (.of main_v332) (.of main_v333) (.of main_c_38) (.of main_v334) (.of main_v335) (.of main_v336) (.of main_v337) (.of main_v338)
abbrev cI17_b : List (HloOp τ sig (Elt F)) := accumOps ![0, 17] slices_S100000x27_S100000x1_0_17 ![17, 0] slices_S27x128_S1x128_17_0 (.of main_v329) (.of main_v338) (.of main_v339) (.of main_v340) (.of main_v341) (.of main_v342) (.of main_v343) (.of main_v344) (.of main_v345) (.of main_v346) (.of main_v347)
abbrev cI17 : List (HloOp τ sig (Elt F)) := cI17_a ++ cI17_b

abbrev cI18_a : List (HloOp τ sig (Elt F)) := gatherOps ![0, 18] slices_S100000x27_S100000x1_0_18 (.of main_v348) (.of main_v349) (.of main_c_39) (.of main_v350) (.of main_v351) (.of main_c_40) (.of main_v352) (.of main_v353) (.of main_v354) (.of main_v355) (.of main_v356)
abbrev cI18_b : List (HloOp τ sig (Elt F)) := accumOps ![0, 18] slices_S100000x27_S100000x1_0_18 ![18, 0] slices_S27x128_S1x128_18_0 (.of main_v347) (.of main_v356) (.of main_v357) (.of main_v358) (.of main_v359) (.of main_v360) (.of main_v361) (.of main_v362) (.of main_v363) (.of main_v364) (.of main_v365)
abbrev cI18 : List (HloOp τ sig (Elt F)) := cI18_a ++ cI18_b

abbrev cI19_a : List (HloOp τ sig (Elt F)) := gatherOps ![0, 19] slices_S100000x27_S100000x1_0_19 (.of main_v366) (.of main_v367) (.of main_c_41) (.of main_v368) (.of main_v369) (.of main_c_42) (.of main_v370) (.of main_v371) (.of main_v372) (.of main_v373) (.of main_v374)
abbrev cI19_b : List (HloOp τ sig (Elt F)) := accumOps ![0, 19] slices_S100000x27_S100000x1_0_19 ![19, 0] slices_S27x128_S1x128_19_0 (.of main_v365) (.of main_v374) (.of main_v375) (.of main_v376) (.of main_v377) (.of main_v378) (.of main_v379) (.of main_v380) (.of main_v381) (.of main_v382) (.of main_v383)
abbrev cI19 : List (HloOp τ sig (Elt F)) := cI19_a ++ cI19_b

abbrev cI20_a : List (HloOp τ sig (Elt F)) := gatherOps ![0, 20] slices_S100000x27_S100000x1_0_20 (.of main_v384) (.of main_v385) (.of main_c_43) (.of main_v386) (.of main_v387) (.of main_c_44) (.of main_v388) (.of main_v389) (.of main_v390) (.of main_v391) (.of main_v392)
abbrev cI20_b : List (HloOp τ sig (Elt F)) := accumOps ![0, 20] slices_S100000x27_S100000x1_0_20 ![20, 0] slices_S27x128_S1x128_20_0 (.of main_v383) (.of main_v392) (.of main_v393) (.of main_v394) (.of main_v395) (.of main_v396) (.of main_v397) (.of main_v398) (.of main_v399) (.of main_v400) (.of main_v401)
abbrev cI20 : List (HloOp τ sig (Elt F)) := cI20_a ++ cI20_b

abbrev cI21_a : List (HloOp τ sig (Elt F)) := gatherOps ![0, 21] slices_S100000x27_S100000x1_0_21 (.of main_v402) (.of main_v403) (.of main_c_45) (.of main_v404) (.of main_v405) (.of main_c_46) (.of main_v406) (.of main_v407) (.of main_v408) (.of main_v409) (.of main_v410)
abbrev cI21_b : List (HloOp τ sig (Elt F)) := accumOps ![0, 21] slices_S100000x27_S100000x1_0_21 ![21, 0] slices_S27x128_S1x128_21_0 (.of main_v401) (.of main_v410) (.of main_v411) (.of main_v412) (.of main_v413) (.of main_v414) (.of main_v415) (.of main_v416) (.of main_v417) (.of main_v418) (.of main_v419)
abbrev cI21 : List (HloOp τ sig (Elt F)) := cI21_a ++ cI21_b

abbrev cI22_a : List (HloOp τ sig (Elt F)) := gatherOps ![0, 22] slices_S100000x27_S100000x1_0_22 (.of main_v420) (.of main_v421) (.of main_c_47) (.of main_v422) (.of main_v423) (.of main_c_48) (.of main_v424) (.of main_v425) (.of main_v426) (.of main_v427) (.of main_v428)
abbrev cI22_b : List (HloOp τ sig (Elt F)) := accumOps ![0, 22] slices_S100000x27_S100000x1_0_22 ![22, 0] slices_S27x128_S1x128_22_0 (.of main_v419) (.of main_v428) (.of main_v429) (.of main_v430) (.of main_v431) (.of main_v432) (.of main_v433) (.of main_v434) (.of main_v435) (.of main_v436) (.of main_v437)
abbrev cI22 : List (HloOp τ sig (Elt F)) := cI22_a ++ cI22_b

abbrev cI23_a : List (HloOp τ sig (Elt F)) := gatherOps ![0, 23] slices_S100000x27_S100000x1_0_23 (.of main_v438) (.of main_v439) (.of main_c_49) (.of main_v440) (.of main_v441) (.of main_c_50) (.of main_v442) (.of main_v443) (.of main_v444) (.of main_v445) (.of main_v446)
abbrev cI23_b : List (HloOp τ sig (Elt F)) := accumOps ![0, 23] slices_S100000x27_S100000x1_0_23 ![23, 0] slices_S27x128_S1x128_23_0 (.of main_v437) (.of main_v446) (.of main_v447) (.of main_v448) (.of main_v449) (.of main_v450) (.of main_v451) (.of main_v452) (.of main_v453) (.of main_v454) (.of main_v455)
abbrev cI23 : List (HloOp τ sig (Elt F)) := cI23_a ++ cI23_b

abbrev cI24_a : List (HloOp τ sig (Elt F)) := gatherOps ![0, 24] slices_S100000x27_S100000x1_0_24 (.of main_v456) (.of main_v457) (.of main_c_51) (.of main_v458) (.of main_v459) (.of main_c_52) (.of main_v460) (.of main_v461) (.of main_v462) (.of main_v463) (.of main_v464)
abbrev cI24_b : List (HloOp τ sig (Elt F)) := accumOps ![0, 24] slices_S100000x27_S100000x1_0_24 ![24, 0] slices_S27x128_S1x128_24_0 (.of main_v455) (.of main_v464) (.of main_v465) (.of main_v466) (.of main_v467) (.of main_v468) (.of main_v469) (.of main_v470) (.of main_v471) (.of main_v472) (.of main_v473)
abbrev cI24 : List (HloOp τ sig (Elt F)) := cI24_a ++ cI24_b

abbrev cI25_a : List (HloOp τ sig (Elt F)) := gatherOps ![0, 25] slices_S100000x27_S100000x1_0_25 (.of main_v474) (.of main_v475) (.of main_c_53) (.of main_v476) (.of main_v477) (.of main_c_54) (.of main_v478) (.of main_v479) (.of main_v480) (.of main_v481) (.of main_v482)
abbrev cI25_b : List (HloOp τ sig (Elt F)) := accumOps ![0, 25] slices_S100000x27_S100000x1_0_25 ![25, 0] slices_S27x128_S1x128_25_0 (.of main_v473) (.of main_v482) (.of main_v483) (.of main_v484) (.of main_v485) (.of main_v486) (.of main_v487) (.of main_v488) (.of main_v489) (.of main_v490) (.of main_v491)
abbrev cI25 : List (HloOp τ sig (Elt F)) := cI25_a ++ cI25_b

abbrev cI26_a : List (HloOp τ sig (Elt F)) := gatherOps ![0, 26] slices_S100000x27_S100000x1_0_26 (.of main_v492) (.of main_v493) (.of main_c_55) (.of main_v494) (.of main_v495) (.of main_c_56) (.of main_v496) (.of main_v497) (.of main_v498) (.of main_v499) (.of main_v500)
abbrev cI26_b : List (HloOp τ sig (Elt F)) := accumOps ![0, 26] slices_S100000x27_S100000x1_0_26 ![26, 0] slices_S27x128_S1x128_26_0 (.of main_v491) (.of main_v500) (.of main_v501) (.of main_v502) (.of main_v503) (.of main_v504) (.of main_v505) (.of main_v506) (.of main_v507) (.of main_v508) (.of main_v509)
abbrev cI26 : List (HloOp τ sig (Elt F)) := cI26_a ++ cI26_b

abbrev cQ : List (HloOp τ sig (Elt F)) :=
  [ nullary main_cst_57 (constant S_ .f32 0x00000000#32),
    binary main_v509 main_cst_57 main_v510 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_58 (constant S_ .f32 0x47C35000#32),
    unary main_cst_58 main_v511 (broadcastInDim S128 ![] bcast_S_S128 : (⟨S_, .f32⟩ : BufTy).Contents (Elt F) → (⟨S128, .f32⟩ : BufTy).Contents (Elt F)),
    binary main_v510 main_v511 main_v512 (Host.divf : (⟨S128, .f32⟩ : BufTy).Contents (Elt F) → (⟨S128, .f32⟩ : BufTy).Contents (Elt F) → (⟨S128, .f32⟩ : BufTy).Contents (Elt F)),
    nullary main_c_59 (constantI S_ 32 0#32),
    TRef.nullary main_call2.cst (constant S_ .f32 0x00000000#32),
    TRef.binary (.of main_v509 : StableHlo.TRef sig ⟨S100000x128, .f32⟩) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v509 : StableHlo.TRef sig ⟨S100000x128, .f32⟩) main_call2.v4 main_call2.v5 subf,
    TRef.binary main_call2.v5 main_call2.v5 main_call2.v6 mulf,
    TRef.unary (.of main_c_59 : StableHlo.TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary (main_call2.cst_4 : StableHlo.TRef sig ⟨S_, .f32⟩) main_call2.call0.v0 id,
    TRef.unary main_call2.call0.v0 main_call2.call0.v1 (broadcastInDim S128 ![] bcast_S_S128),
    TRef.ternary (main_call2.v12 : StableHlo.TRef sig ⟨S_, .i1⟩) (main_call2.v11 : StableHlo.TRef sig ⟨S128, .f32⟩) main_call2.call0.v1 main_call2.call0.v2 (fun p a b => select (broadcastInDim S128 ![] bcast_S_S128 p) a b),
    unary main_v512 main_v514 (broadcastInDim S1x128 ![1] bcast_S128_S1x128_1 : (⟨S128, .f32⟩ : BufTy).Contents (Elt F) → (⟨S1x128, .f32⟩ : BufTy).Contents (Elt F)),
    unary main_v514 main_v515 (broadcastInDim S100000x128 ![0, 1] bcast_S1x128_S100000x128_0_1 : (⟨S1x128, .f32⟩ : BufTy).Contents (Elt F) → (⟨S100000x128, .f32⟩ : BufTy).Contents (Elt F)),
    binary main_v509 main_v515 main_v516 (subf : (⟨S100000x128, .f32⟩ : BufTy).Contents (Elt F) → (⟨S100000x128, .f32⟩ : BufTy).Contents (Elt F) → (⟨S100000x128, .f32⟩ : BufTy).Contents (Elt F)),
    nullary main_cst_60 (constant S_ .f32 0x3727C5AC#32),
    unary main_cst_60 main_v517 (broadcastInDim S128 ![] bcast_S_S128 : (⟨S_, .f32⟩ : BufTy).Contents (Elt F) → (⟨S128, .f32⟩ : BufTy).Contents (Elt F)),
    binary main_v513 main_v517 main_v518 (addf : (⟨S128, .f32⟩ : BufTy).Contents (Elt F) → (⟨S128, .f32⟩ : BufTy).Contents (Elt F) → (⟨S128, .f32⟩ : BufTy).Contents (Elt F)),
    unary main_v518 main_v519 (Host.rsqrt : (⟨S128, .f32⟩ : BufTy).Contents (Elt F) → (⟨S128, .f32⟩ : BufTy).Contents (Elt F)),
    unary main_v519 main_v520 (broadcastInDim S1x128 ![1] bcast_S128_S1x128_1 : (⟨S128, .f32⟩ : BufTy).Contents (Elt F) → (⟨S1x128, .f32⟩ : BufTy).Contents (Elt F)),
    unary main_v520 main_v521 (broadcastInDim S100000x128 ![0, 1] bcast_S1x128_S100000x128_0_1 : (⟨S1x128, .f32⟩ : BufTy).Contents (Elt F) → (⟨S100000x128, .f32⟩ : BufTy).Contents (Elt F)),
    binary main_v516 main_v521 main_v522 (mulf : (⟨S100000x128, .f32⟩ : BufTy).Contents (Elt F) → (⟨S100000x128, .f32⟩ : BufTy).Contents (Elt F) → (⟨S100000x128, .f32⟩ : BufTy).Contents (Elt F)),
    unary main_arg6 main_v523 (broadcastInDim S1x128 ![1] bcast_S128_S1x128_1 : (⟨S128, .f32⟩ : BufTy).Contents (Elt F) → (⟨S1x128, .f32⟩ : BufTy).Contents (Elt F)),
    unary main_v523 main_v524 (broadcastInDim S100000x128 ![0, 1] bcast_S1x128_S100000x128_0_1 : (⟨S1x128, .f32⟩ : BufTy).Contents (Elt F) → (⟨S100000x128, .f32⟩ : BufTy).Contents (Elt F)),
    binary main_v522 main_v524 main_v525 (mulf : (⟨S100000x128, .f32⟩ : BufTy).Contents (Elt F) → (⟨S100000x128, .f32⟩ : BufTy).Contents (Elt F) → (⟨S100000x128, .f32⟩ : BufTy).Contents (Elt F)),
    unary main_arg7 main_v526 (broadcastInDim S1x128 ![1] bcast_S128_S1x128_1 : (⟨S128, .f32⟩ : BufTy).Contents (Elt F) → (⟨S1x128, .f32⟩ : BufTy).Contents (Elt F)),
    unary main_v526 main_v527 (broadcastInDim S100000x128 ![0, 1] bcast_S1x128_S100000x128_0_1 : (⟨S1x128, .f32⟩ : BufTy).Contents (Elt F) → (⟨S100000x128, .f32⟩ : BufTy).Contents (Elt F)),
    binary main_v525 main_v527 main_v528 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v528 : StableHlo.TRef sig ⟨S100000x128, .f32⟩) main_call3.v0 main_call3.v1 maximumf,
    binary main_arg0 main_arg8 main_v530 ((fun l r => Host.dotGeneral dot_S100000x96_S96x128_S100000x128_1_0_0_1_n_n none l r) : (⟨S100000x96, .f32⟩ : BufTy).Contents (Elt F) → (⟨S96x128, .f32⟩ : BufTy).Contents (Elt F) → (⟨S100000x128, .f32⟩ : BufTy).Contents (Elt F)),
    binary main_v529 main_v530 main_v531 (addf : (⟨S100000x128, .f32⟩ : BufTy).Contents (Elt F) → (⟨S100000x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (.of main_v531 : StableHlo.TRef sig ⟨S100000x128, .f32⟩) main_call4.v0 main_call4.v1 maximumf ]

abbrev ops_part0 : List (HloOp τ sig (Elt F)) := cP ++ (cI0 ++ (cI1_a))
abbrev ops_part1 : List (HloOp τ sig (Elt F)) := cI1_b ++ (cI2 ++ (cI3 ++ (cI4_a)))
abbrev ops_part2 : List (HloOp τ sig (Elt F)) := cI4_b ++ (cI5 ++ (cI6 ++ (cI7_a)))
abbrev ops_part3 : List (HloOp τ sig (Elt F)) := cI7_b ++ (cI8 ++ (cI9 ++ (cI10_a)))
abbrev ops_part4 : List (HloOp τ sig (Elt F)) := cI10_b ++ (cI11 ++ (cI12 ++ (cI13_a)))
abbrev ops_part5 : List (HloOp τ sig (Elt F)) := cI13_b ++ (cI14 ++ (cI15 ++ (cI16_a)))
abbrev ops_part6 : List (HloOp τ sig (Elt F)) := cI16_b ++ (cI17 ++ (cI18 ++ (cI19_a)))
abbrev ops_part7 : List (HloOp τ sig (Elt F)) := cI19_b ++ (cI20 ++ (cI21 ++ (cI22_a)))
abbrev ops_part8 : List (HloOp τ sig (Elt F)) := cI22_b ++ (cI23 ++ (cI24 ++ (cI25_a)))
abbrev ops_part9 : List (HloOp τ sig (Elt F)) := cI25_b ++ (cI26 ++ (cQ))

abbrev opsW : List (HloOp τ sig (Elt F)) :=
  ops_part0 ++ (ops_part1 ++ (ops_part2 ++ (ops_part3 ++ (ops_part4 ++ (ops_part5 ++ (ops_part6 ++ (ops_part7 ++ (ops_part8 ++ (ops_part9)))))))))

abbrev ops : List (HloOp τ sig (Elt F)) :=
  cP ++ (cI0 ++ (cI1 ++ (cI2 ++ (cI3 ++ (cI4 ++ (cI5 ++ (cI6 ++ (cI7 ++ (cI8 ++ (cI9 ++ (cI10 ++ (cI11 ++ (cI12 ++ (cI13 ++ (cI14 ++ (cI15 ++ (cI16 ++ (cI17 ++ (cI18 ++ (cI19 ++ (cI20 ++ (cI21 ++ (cI22 ++ (cI23 ++ (cI24 ++ (cI25 ++ (cI26 ++ (cQ))))))))))))))))))))))))))))

theorem main_part0_eq (c : Dev nD) : main_part0 (F := F) c = seq ops_part0 := by
  simp only [ops_part0, cP, cI0, cI0_a, cI0_b, cI1_a, gatherOps, accumOps, List.cons_append, List.nil_append, main_part0, fn_var.body, fn_where.body, fn_relu.body, seq, bind_assoc, pure_bind]
  try rfl
theorem main_part1_eq (c : Dev nD) : main_part1 (F := F) c = seq ops_part1 := rfl
theorem main_part2_eq (c : Dev nD) : main_part2 (F := F) c = seq ops_part2 := rfl
theorem main_part3_eq (c : Dev nD) : main_part3 (F := F) c = seq ops_part3 := rfl
theorem main_part4_eq (c : Dev nD) : main_part4 (F := F) c = seq ops_part4 := rfl
theorem main_part5_eq (c : Dev nD) : main_part5 (F := F) c = seq ops_part5 := rfl
theorem main_part6_eq (c : Dev nD) : main_part6 (F := F) c = seq ops_part6 := rfl
theorem main_part7_eq (c : Dev nD) : main_part7 (F := F) c = seq ops_part7 := rfl
theorem main_part8_eq (c : Dev nD) : main_part8 (F := F) c = seq ops_part8 := rfl
theorem main_part9_eq (c : Dev nD) : main_part9 (F := F) c = seq ops_part9 := by
  simp only [ops_part9, cI25_b, cI26, cI26_a, cI26_b, cQ, gatherOps, accumOps, List.cons_append, List.nil_append, main_part9, fn_var.body, fn_where.body, fn_relu.body, seq, bind_assoc, pure_bind]
  try rfl
theorem main_eqW (c : Dev nD) : main (F := F) c = seq opsW := by
  simp only [opsW, seq_append, ← main_part0_eq c, ← main_part1_eq c, ← main_part2_eq c, ← main_part3_eq c, ← main_part4_eq c, ← main_part5_eq c, ← main_part6_eq c, ← main_part7_eq c, ← main_part8_eq c, ← main_part9_eq c]
  rfl
theorem parts_eq : (opsW : List (HloOp τ sig (Elt F))) = ops := by
  simp only [opsW, ops, ops_part0, ops_part1, ops_part2, ops_part3, ops_part4, ops_part5, ops_part6, ops_part7, ops_part8, ops_part9, cI1, cI4, cI7, cI10, cI13, cI16, cI19, cI22, cI25, List.append_assoc]
theorem main_eq (c : Dev nD) : main (F := F) c = seq ops := (main_eqW c).trans (congrArg seq parts_eq)
theorem scopedRefs_eq : (Finset.univ.filter fun b : Ref sig .tc => b.isScoped) = ∅ := by decide
theorem scopedSems_eq : (Finset.univ.filter fun sm : SemLoc sig => sm.isScoped .tc) = ∅ := by decide
theorem cP_sub : (cP : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., nullary_bufs_sub .., unary_bufs_sub ..⟩
theorem cP_fresh : (cP : List (HloOp τ sig (Elt F))).Forall fun op => op.fresh = ∅ := by
  simp only [List.Forall]; repeat' constructor
theorem cI0_sub : (cI0 : List (HloOp τ sig (Elt F))).Forall fun op => op.bufs ⊆ tcRefs τ sig := forall_append gatherOps_sub accumOps_sub
theorem cI0_fresh : (cI0 : List (HloOp τ sig (Elt F))).Forall fun op => op.fresh = ∅ := forall_append gatherOps_fresh accumOps_fresh
theorem cI1_sub : (cI1 : List (HloOp τ sig (Elt F))).Forall fun op => op.bufs ⊆ tcRefs τ sig := forall_append gatherOps_sub accumOps_sub
theorem cI1_fresh : (cI1 : List (HloOp τ sig (Elt F))).Forall fun op => op.fresh = ∅ := forall_append gatherOps_fresh accumOps_fresh
theorem cI2_sub : (cI2 : List (HloOp τ sig (Elt F))).Forall fun op => op.bufs ⊆ tcRefs τ sig := forall_append gatherOps_sub accumOps_sub
theorem cI2_fresh : (cI2 : List (HloOp τ sig (Elt F))).Forall fun op => op.fresh = ∅ := forall_append gatherOps_fresh accumOps_fresh
theorem cI3_sub : (cI3 : List (HloOp τ sig (Elt F))).Forall fun op => op.bufs ⊆ tcRefs τ sig := forall_append gatherOps_sub accumOps_sub
theorem cI3_fresh : (cI3 : List (HloOp τ sig (Elt F))).Forall fun op => op.fresh = ∅ := forall_append gatherOps_fresh accumOps_fresh
theorem cI4_sub : (cI4 : List (HloOp τ sig (Elt F))).Forall fun op => op.bufs ⊆ tcRefs τ sig := forall_append gatherOps_sub accumOps_sub
theorem cI4_fresh : (cI4 : List (HloOp τ sig (Elt F))).Forall fun op => op.fresh = ∅ := forall_append gatherOps_fresh accumOps_fresh
theorem cI5_sub : (cI5 : List (HloOp τ sig (Elt F))).Forall fun op => op.bufs ⊆ tcRefs τ sig := forall_append gatherOps_sub accumOps_sub
theorem cI5_fresh : (cI5 : List (HloOp τ sig (Elt F))).Forall fun op => op.fresh = ∅ := forall_append gatherOps_fresh accumOps_fresh
theorem cI6_sub : (cI6 : List (HloOp τ sig (Elt F))).Forall fun op => op.bufs ⊆ tcRefs τ sig := forall_append gatherOps_sub accumOps_sub
theorem cI6_fresh : (cI6 : List (HloOp τ sig (Elt F))).Forall fun op => op.fresh = ∅ := forall_append gatherOps_fresh accumOps_fresh
theorem cI7_sub : (cI7 : List (HloOp τ sig (Elt F))).Forall fun op => op.bufs ⊆ tcRefs τ sig := forall_append gatherOps_sub accumOps_sub
theorem cI7_fresh : (cI7 : List (HloOp τ sig (Elt F))).Forall fun op => op.fresh = ∅ := forall_append gatherOps_fresh accumOps_fresh
theorem cI8_sub : (cI8 : List (HloOp τ sig (Elt F))).Forall fun op => op.bufs ⊆ tcRefs τ sig := forall_append gatherOps_sub accumOps_sub
theorem cI8_fresh : (cI8 : List (HloOp τ sig (Elt F))).Forall fun op => op.fresh = ∅ := forall_append gatherOps_fresh accumOps_fresh
theorem cI9_sub : (cI9 : List (HloOp τ sig (Elt F))).Forall fun op => op.bufs ⊆ tcRefs τ sig := forall_append gatherOps_sub accumOps_sub
theorem cI9_fresh : (cI9 : List (HloOp τ sig (Elt F))).Forall fun op => op.fresh = ∅ := forall_append gatherOps_fresh accumOps_fresh
theorem cI10_sub : (cI10 : List (HloOp τ sig (Elt F))).Forall fun op => op.bufs ⊆ tcRefs τ sig := forall_append gatherOps_sub accumOps_sub
theorem cI10_fresh : (cI10 : List (HloOp τ sig (Elt F))).Forall fun op => op.fresh = ∅ := forall_append gatherOps_fresh accumOps_fresh
theorem cI11_sub : (cI11 : List (HloOp τ sig (Elt F))).Forall fun op => op.bufs ⊆ tcRefs τ sig := forall_append gatherOps_sub accumOps_sub
theorem cI11_fresh : (cI11 : List (HloOp τ sig (Elt F))).Forall fun op => op.fresh = ∅ := forall_append gatherOps_fresh accumOps_fresh
theorem cI12_sub : (cI12 : List (HloOp τ sig (Elt F))).Forall fun op => op.bufs ⊆ tcRefs τ sig := forall_append gatherOps_sub accumOps_sub
theorem cI12_fresh : (cI12 : List (HloOp τ sig (Elt F))).Forall fun op => op.fresh = ∅ := forall_append gatherOps_fresh accumOps_fresh
theorem cI13_sub : (cI13 : List (HloOp τ sig (Elt F))).Forall fun op => op.bufs ⊆ tcRefs τ sig := forall_append gatherOps_sub accumOps_sub
theorem cI13_fresh : (cI13 : List (HloOp τ sig (Elt F))).Forall fun op => op.fresh = ∅ := forall_append gatherOps_fresh accumOps_fresh
theorem cI14_sub : (cI14 : List (HloOp τ sig (Elt F))).Forall fun op => op.bufs ⊆ tcRefs τ sig := forall_append gatherOps_sub accumOps_sub
theorem cI14_fresh : (cI14 : List (HloOp τ sig (Elt F))).Forall fun op => op.fresh = ∅ := forall_append gatherOps_fresh accumOps_fresh
theorem cI15_sub : (cI15 : List (HloOp τ sig (Elt F))).Forall fun op => op.bufs ⊆ tcRefs τ sig := forall_append gatherOps_sub accumOps_sub
theorem cI15_fresh : (cI15 : List (HloOp τ sig (Elt F))).Forall fun op => op.fresh = ∅ := forall_append gatherOps_fresh accumOps_fresh
theorem cI16_sub : (cI16 : List (HloOp τ sig (Elt F))).Forall fun op => op.bufs ⊆ tcRefs τ sig := forall_append gatherOps_sub accumOps_sub
theorem cI16_fresh : (cI16 : List (HloOp τ sig (Elt F))).Forall fun op => op.fresh = ∅ := forall_append gatherOps_fresh accumOps_fresh
theorem cI17_sub : (cI17 : List (HloOp τ sig (Elt F))).Forall fun op => op.bufs ⊆ tcRefs τ sig := forall_append gatherOps_sub accumOps_sub
theorem cI17_fresh : (cI17 : List (HloOp τ sig (Elt F))).Forall fun op => op.fresh = ∅ := forall_append gatherOps_fresh accumOps_fresh
theorem cI18_sub : (cI18 : List (HloOp τ sig (Elt F))).Forall fun op => op.bufs ⊆ tcRefs τ sig := forall_append gatherOps_sub accumOps_sub
theorem cI18_fresh : (cI18 : List (HloOp τ sig (Elt F))).Forall fun op => op.fresh = ∅ := forall_append gatherOps_fresh accumOps_fresh
theorem cI19_sub : (cI19 : List (HloOp τ sig (Elt F))).Forall fun op => op.bufs ⊆ tcRefs τ sig := forall_append gatherOps_sub accumOps_sub
theorem cI19_fresh : (cI19 : List (HloOp τ sig (Elt F))).Forall fun op => op.fresh = ∅ := forall_append gatherOps_fresh accumOps_fresh
theorem cI20_sub : (cI20 : List (HloOp τ sig (Elt F))).Forall fun op => op.bufs ⊆ tcRefs τ sig := forall_append gatherOps_sub accumOps_sub
theorem cI20_fresh : (cI20 : List (HloOp τ sig (Elt F))).Forall fun op => op.fresh = ∅ := forall_append gatherOps_fresh accumOps_fresh
theorem cI21_sub : (cI21 : List (HloOp τ sig (Elt F))).Forall fun op => op.bufs ⊆ tcRefs τ sig := forall_append gatherOps_sub accumOps_sub
theorem cI21_fresh : (cI21 : List (HloOp τ sig (Elt F))).Forall fun op => op.fresh = ∅ := forall_append gatherOps_fresh accumOps_fresh
theorem cI22_sub : (cI22 : List (HloOp τ sig (Elt F))).Forall fun op => op.bufs ⊆ tcRefs τ sig := forall_append gatherOps_sub accumOps_sub
theorem cI22_fresh : (cI22 : List (HloOp τ sig (Elt F))).Forall fun op => op.fresh = ∅ := forall_append gatherOps_fresh accumOps_fresh
theorem cI23_sub : (cI23 : List (HloOp τ sig (Elt F))).Forall fun op => op.bufs ⊆ tcRefs τ sig := forall_append gatherOps_sub accumOps_sub
theorem cI23_fresh : (cI23 : List (HloOp τ sig (Elt F))).Forall fun op => op.fresh = ∅ := forall_append gatherOps_fresh accumOps_fresh
theorem cI24_sub : (cI24 : List (HloOp τ sig (Elt F))).Forall fun op => op.bufs ⊆ tcRefs τ sig := forall_append gatherOps_sub accumOps_sub
theorem cI24_fresh : (cI24 : List (HloOp τ sig (Elt F))).Forall fun op => op.fresh = ∅ := forall_append gatherOps_fresh accumOps_fresh
theorem cI25_sub : (cI25 : List (HloOp τ sig (Elt F))).Forall fun op => op.bufs ⊆ tcRefs τ sig := forall_append gatherOps_sub accumOps_sub
theorem cI25_fresh : (cI25 : List (HloOp τ sig (Elt F))).Forall fun op => op.fresh = ∅ := forall_append gatherOps_fresh accumOps_fresh
theorem cI26_sub : (cI26 : List (HloOp τ sig (Elt F))).Forall fun op => op.bufs ⊆ tcRefs τ sig := forall_append gatherOps_sub accumOps_sub
theorem cI26_fresh : (cI26 : List (HloOp τ sig (Elt F))).Forall fun op => op.fresh = ∅ := forall_append gatherOps_fresh accumOps_fresh
theorem cQ_sub : (cQ : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub .., nullary_bufs_sub .., unary_bufs_sub .., binary_bufs_sub ..⟩
theorem cQ_fresh : (cQ : List (HloOp τ sig (Elt F))).Forall fun op => op.fresh = ∅ := by
  simp only [List.Forall]; repeat' constructor
theorem ops_sub : (ops : List (HloOp τ sig (Elt F))).Forall fun op => op.bufs ⊆ tcRefs τ sig :=
  forall_append cP_sub (forall_append cI0_sub (forall_append cI1_sub (forall_append cI2_sub (forall_append cI3_sub (forall_append cI4_sub (forall_append cI5_sub (forall_append cI6_sub (forall_append cI7_sub (forall_append cI8_sub (forall_append cI9_sub (forall_append cI10_sub (forall_append cI11_sub (forall_append cI12_sub (forall_append cI13_sub (forall_append cI14_sub (forall_append cI15_sub (forall_append cI16_sub (forall_append cI17_sub (forall_append cI18_sub (forall_append cI19_sub (forall_append cI20_sub (forall_append cI21_sub (forall_append cI22_sub (forall_append cI23_sub (forall_append cI24_sub (forall_append cI25_sub (forall_append cI26_sub (cQ_sub))))))))))))))))))))))))))))
theorem ops_fresh : ∀ op ∈ (ops : List (HloOp τ sig (Elt F))), op.fresh = ∅ :=
  List.forall_iff_forall_mem.mp (forall_append cP_fresh (forall_append cI0_fresh (forall_append cI1_fresh (forall_append cI2_fresh (forall_append cI3_fresh (forall_append cI4_fresh (forall_append cI5_fresh (forall_append cI6_fresh (forall_append cI7_fresh (forall_append cI8_fresh (forall_append cI9_fresh (forall_append cI10_fresh (forall_append cI11_fresh (forall_append cI12_fresh (forall_append cI13_fresh (forall_append cI14_fresh (forall_append cI15_fresh (forall_append cI16_fresh (forall_append cI17_fresh (forall_append cI18_fresh (forall_append cI19_fresh (forall_append cI20_fresh (forall_append cI21_fresh (forall_append cI22_fresh (forall_append cI23_fresh (forall_append cI24_fresh (forall_append cI25_fresh (forall_append cI26_fresh (cQ_fresh)))))))))))))))))))))))))))))
/-- The run of @main ends with each buffer at the operations' fold over the contents it started from. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Run

end
-- ==== Proof.RTerms.lean ====
import proofs.«410615_j21474836480482_3_alg».proof.ReferenceIdeal

noncomputable section

namespace Cert.ReferenceIdeal.Val

open Idealize.ShloMosaic Cert.ReferenceIdeal Cert.ReferenceIdeal.Facts₀

variable {F : FTy → Type} [FloatOps F] [Cert.ReferenceIdeal.Facts]

def rows (y : FVec F S128 .f32) : FVec F S100000x128 .f32 :=
  broadcastInDim S100000x128 ![0, 1] bcast_S1x128_S100000x128_0_1 (broadcastInDim S1x128 ![1] bcast_S128_S1x128_1 y)

def mean (x : FVec F S100000x128 .f32) : FVec F S128 .f32 :=
  Host.divf (Host.reduceAdd x (constant S_ .f32 0x00000000#32) reducesTo_S100000x128_S128_d0 h_S_)
    (broadcastInDim S128 ![] bcast_S_S128 (constant S_ .f32 0x47C35000#32))

def dev (x : FVec F S100000x128 .f32) : FVec F S100000x128 .f32 :=
  subf x (broadcastInDim S100000x128 ![0, 1] bcast_S1x128_S100000x128_0_1
    (Host.divf (broadcastInDim S1x128 ![1] bcast_S128_S1x128_1 (Host.reduceAdd x (constant S_ .f32 0x00000000#32) reducesTo_S100000x128_S128_d0 h_S_))
      (broadcastInDim S1x128 ![] bcast_S_S1x128 (constant S_ .f32 0x47C35000#32))))

def dofs : FVec F S_ .f32 := subf (constant S_ .f32 0x47C35000#32) (sitofp .f32 (constantI S_ 32 0#32))

/-- Mean of squared deviations, its divisor guarded by a comparison that holds. -/
def var (x : FVec F S100000x128 .f32) : FVec F S128 .f32 :=
  select (broadcastInDim S128 ![] bcast_S_S128 (cmpf .ogt (dofs (F := F)) (constant S_ .f32 0x00000000#32)))
    (Host.divf (Host.reduceAdd (mulf (dev x) (dev x)) (constant S_ .f32 0x00000000#32) reducesTo_S100000x128_S128_d0 h_S_)
      (broadcastInDim S128 ![] bcast_S_S128 (dofs (F := F))))
    (broadcastInDim S128 ![] bcast_S_S128 (id (constant S_ .f32 0x7FC00000#32)))

def bn (x : FVec F S100000x128 .f32) (g b : FVec F S128 .f32) : FVec F S100000x128 .f32 :=
  addf (mulf (mulf (subf x (rows (mean x)))
      (rows (Host.rsqrt (addf (var x) (broadcastInDim S128 ![] bcast_S_S128 (constant S_ .f32 0x3727C5AC#32))))))
    (rows g)) (rows b)

def relu (x : FVec F S100000x128 .f32) : FVec F S100000x128 .f32 :=
  maximumf x (broadcastInDim S100000x128 ![] bcast_S_S100000x128 (constant S_ .f32 0x00000000#32))

def wrapIdx (col : IVec S100000 32) : IVec S100000x1 32 :=
  broadcastInDim S100000x1 ![0] bcast_S100000_S100000x1_0
    (select (cmpi .slt col (broadcastInDim S100000 ![] bcast_S_S100000 (constantI S_ 32 0#32)))
      (addi col (broadcastInDim S100000 ![] bcast_S_S100000 (constantI S_ 32 100000#32))) col)

def step (o9 : Fin 2 → Nat) (e9 : S100000x27.Slices o9 S100000x1) (o5 : Fin 2 → Nat) (e5 : S27x128.Slices o5 S1x128)
    (h2 acc : FVec F S100000x128 .f32) (a5 : FVec F S27x128 .f32) (a9 : IVec S100000x27 32) (mf : FVec F S100000x27 .f32) :
    FVec F S100000x128 .f32 :=
  addf acc (mulf (mulf
      (Host.gather gather_S100000x128_S100000x1_S100000x128_1_0_n_n_0_1_1128 h2
        (wrapIdx (shapeCast S100000 (extractStridedSlice S100000x1 o9 a9 e9) shapeCasts_S100000x1_S100000)))
      (broadcastInDim S100000x128 ![0, 1] bcast_S100000x1_S100000x128_0_1 (extractStridedSlice S100000x1 o9 mf e9)))
    (rows (shapeCast S128 (extractStridedSlice S1x128 o5 a5 e5) shapeCasts_S1x128_S128)))

def acc0 : FVec F S100000x128 .f32 := broadcastInDim S100000x128 ![] bcast_S_S100000x128 (constant S_ .f32 0x00000000#32)

theorem colSlices : ∀ k : Fin 27, S100000x27.Slices ![0, k.val] S100000x1 := by decide
theorem rowSlices : ∀ k : Fin 27, S27x128.Slices ![k.val, 0] S1x128 := by decide

/-- The running sum after the first `k` neighbour offsets. -/
def accN : (k : Nat) → k ≤ 27 → FVec F S100000x128 .f32 → FVec F S27x128 .f32 → IVec S100000x27 32 → FVec F S100000x27 .f32 →
    FVec F S100000x128 .f32
  | 0, _, _, _, _, _ => acc0
  | k + 1, hk, h2, a5, a9, mf =>
    step ![0, k] (colSlices ⟨k, hk⟩) ![k, 0] (rowSlices ⟨k, hk⟩) h2 (accN k (Nat.le_of_succ_le hk) h2 a5 a9 mf) a5 a9 mf

def x1 (a0 : FVec F S100000x96 .f32) (a1 : FVec F S96x128 .f32) : FVec F S100000x128 .f32 :=
  Host.dotGeneral dot_S100000x96_S96x128_S100000x128_1_0_0_1_n_n none a0 a1

def h2 (a0 : FVec F S100000x96 .f32) (a1 : FVec F S96x128 .f32) (a2 a3 : FVec F S128 .f32) (a4 : FVec F S128x128 .f32) : FVec F S100000x128 .f32 :=
  Host.dotGeneral dot_S100000x128_S128x128_S100000x128_1_0_0_1_n_n none (relu (bn (x1 a0 a1) a2 a3)) a4

/-- The reference's result as one term of its eleven arguments. -/
def out (a0 : FVec F S100000x96 .f32) (a1 : FVec F S96x128 .f32) (a2 a3 : FVec F S128 .f32) (a4 : FVec F S128x128 .f32)
    (a5 : FVec F S27x128 .f32) (a6 a7 : FVec F S128 .f32) (a8 : FVec F S96x128 .f32) (a9 : IVec S100000x27 32) (a10 : IVec S100000x27 1) :
    FVec F S100000x128 .f32 :=
  relu (addf (relu (bn (accN 27 (by decide) (h2 a0 a1 a2 a3 a4) a5 a9 (uitofp .f32 a10)) a6 a7))
    (Host.dotGeneral dot_S100000x96_S96x128_S100000x128_1_0_0_1_n_n none a0 a8))

end Cert.ReferenceIdeal.Val

end
-- ==== Proof.RValA.lean ====
import proofs.«410615_j21474836480482_3_alg».proof.Proof.ROps
import proofs.«410615_j21474836480482_3_alg».proof.Proof.RTerms

set_option Elab.async false

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

abbrev H (V0 : Valuation τ sig (Elt F)) : FVec F S100000x128 .f32 :=
  Val.h2 (V0 (Proc.devRef .tc main_arg0)) (V0 (Proc.devRef .tc main_arg1)) (V0 (Proc.devRef .tc main_arg2)) (V0 (Proc.devRef .tc main_arg3)) (V0 (Proc.devRef .tc main_arg4))

abbrev MF (V0 : Valuation τ sig (Elt F)) : FVec F S100000x27 .f32 := uitofp .f32 (V0 (Proc.devRef .tc main_arg10))

def val0 (V0 : Valuation τ sig (Elt F)) : Valuation τ sig (Elt F) := after cP (V0)

abbrev cP_W : List (Ref sig .tc) := [main_v0, main_cst, main_v1, main_cst_0, main_v2, main_v3, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v4, main_v5, main_v6, main_v7, main_cst_1, main_v8, main_v9, main_v10, main_v11, main_v12, main_v13, main_v14, main_v15, main_v16, main_v17, main_v18, main_v19, main_call1_cst, main_call1_v0, main_v20, main_v21, main_v22, main_cst_2, main_v23]
theorem cP_writes : (cP : List (HloOp τ sig (Elt F))).Forall fun op => op.writes ⊆ (cP_W.map (Proc.devRef (τ := τ) .tc)).toFinset := by
  simp only [List.Forall]; and_intros <;> exact writes_sub rfl (by decide)
theorem val0_keep (V0 : Valuation τ sig (Elt F)) (r : Ref sig .tc) (h : r ∉ cP_W) :
    val0 V0 (Proc.devRef .tc r) = V0 (Proc.devRef .tc r) :=
  after_of_writes_sub cP _ cP_writes h
set_option maxHeartbeats 2000000 in
theorem val0_v21 (V0 : Valuation τ sig (Elt F)) : val0 V0 (no_index (Proc.devRef .tc main_v21)) = H V0 := by
  unfold val0
  simp only [cP]
  after_results_simp <;> (try simp only [TRef.ofBuf, TRef.toBuf, cast_eq]) <;> rfl
set_option maxHeartbeats 2000000 in
theorem val0_v22 (V0 : Valuation τ sig (Elt F)) : val0 V0 (no_index (Proc.devRef .tc main_v22)) = MF V0 := by
  unfold val0
  simp only [cP]
  after_results_simp <;> (try simp only [TRef.ofBuf, TRef.toBuf, cast_eq]) <;> rfl
set_option maxHeartbeats 2000000 in
theorem val0_acc (V0 : Valuation τ sig (Elt F)) : val0 V0 (no_index (Proc.devRef .tc main_v23)) = (Val.acc0 : FVec F S100000x128 .f32) := by
  unfold val0
  simp only [cP]
  after_results_simp <;> (try simp only [TRef.ofBuf, TRef.toBuf, cast_eq]) <;> rfl

abbrev argRefs : List (Ref sig .tc) :=
  [main_arg0, main_arg1, main_arg2, main_arg3, main_arg4, main_arg5, main_arg6, main_arg7, main_arg8, main_arg9, main_arg10]

/-- What no neighbour offset's operations write: the arguments, the second product and the mask as floats. -/
structure Kept (V0 V : Valuation τ sig (Elt F)) : Prop where
  args : ∀ r ∈ argRefs, V (Proc.devRef .tc r) = V0 (Proc.devRef .tc r)
  h : V (no_index (Proc.devRef .tc main_v21)) = H V0
  mf : V (no_index (Proc.devRef .tc main_v22)) = MF V0

theorem Kept.after {V0 V : Valuation τ sig (Elt F)} (k : Kept V0 V) (ops : List (HloOp τ sig (Elt F))) (W : List (Ref sig .tc))
    (hW : ops.Forall fun op => op.writes ⊆ (W.map (Proc.devRef (τ := τ) .tc)).toFinset)
    (hd : (main_v21 :: main_v22 :: argRefs).all (fun r => decide (r ∉ W)) = true) : Kept V0 (after ops V) :=
  have keep := fun r (hr : r ∈ main_v21 :: main_v22 :: argRefs) =>
    after_of_writes_sub ops V hW (of_decide_eq_true (List.all_eq_true.mp hd r hr))
  ⟨fun r hr => (keep r (List.mem_cons_of_mem _ (List.mem_cons_of_mem _ hr))).trans (k.args r hr),
    (keep _ List.mem_cons_self).trans k.h, (keep _ (List.mem_cons_of_mem _ List.mem_cons_self)).trans k.mf⟩

theorem Kept.a5 {V0 V : Valuation τ sig (Elt F)} (k : Kept V0 V) :
    V (no_index (Proc.devRef .tc main_arg5)) = V0 (Proc.devRef .tc main_arg5) := k.args _ (by decide)
theorem Kept.a9 {V0 V : Valuation τ sig (Elt F)} (k : Kept V0 V) :
    V (no_index (Proc.devRef .tc main_arg9)) = V0 (Proc.devRef .tc main_arg9) := k.args _ (by decide)

theorem kept0 (V0 : Valuation τ sig (Elt F)) : Kept V0 (val0 V0) :=
  ⟨fun r hr => val0_keep V0 r (of_decide_eq_true (List.all_eq_true.mp (by decide : argRefs.all (fun r => decide (r ∉ cP_W)) = true) r hr)), val0_v21 V0, val0_v22 V0⟩

def val1 (V0 : Valuation τ sig (Elt F)) : Valuation τ sig (Elt F) := after cI0 (val0 V0)

abbrev cI0_W : List (Ref sig .tc) := [main_v24, main_v25, main_c_3, main_v26, main_v27, main_c_4, main_v28, main_v29, main_v30, main_v31, main_v32, main_v33, main_v34, main_v35, main_v36, main_v37, main_v38, main_v39, main_v40, main_v41]
theorem cI0_writes : (cI0 : List (HloOp τ sig (Elt F))).Forall fun op => op.writes ⊆ (cI0_W.map (Proc.devRef (τ := τ) .tc)).toFinset := by
  simp only [cI0, cI0_a, cI0_b, gatherOps, accumOps, List.cons_append, List.nil_append, List.Forall]; and_intros <;> exact writes_sub rfl (by decide)
theorem kept1 (V0 : Valuation τ sig (Elt F)) : Kept V0 (val1 V0) := (kept0 V0).after _ _ cI0_writes (by decide)

set_option maxHeartbeats 2000000 in
theorem val1_acc (V0 : Valuation τ sig (Elt F)) : val1 V0 (no_index (Proc.devRef .tc main_v41)) = Val.accN 1 (by decide) (H V0) (V0 (Proc.devRef .tc main_arg5)) (V0 (Proc.devRef .tc main_arg9)) (MF V0) := by
  unfold val1
  simp only [cI0, cI0_a, cI0_b, gatherOps, accumOps, List.cons_append, List.nil_append]
  after_results_simp <;> (try simp only [TRef.ofBuf, TRef.toBuf, cast_eq])
  simp only [(kept0 V0).h, (kept0 V0).mf, (kept0 V0).a5, (kept0 V0).a9, val0_acc] <;> rfl

def val2 (V0 : Valuation τ sig (Elt F)) : Valuation τ sig (Elt F) := after cI1 (val1 V0)

abbrev cI1_W : List (Ref sig .tc) := [main_v42, main_v43, main_c_5, main_v44, main_v45, main_c_6, main_v46, main_v47, main_v48, main_v49, main_v50, main_v51, main_v52, main_v53, main_v54, main_v55, main_v56, main_v57, main_v58, main_v59]
theorem cI1_writes : (cI1 : List (HloOp τ sig (Elt F))).Forall fun op => op.writes ⊆ (cI1_W.map (Proc.devRef (τ := τ) .tc)).toFinset := by
  simp only [cI1, cI1_a, cI1_b, gatherOps, accumOps, List.cons_append, List.nil_append, List.Forall]; and_intros <;> exact writes_sub rfl (by decide)
theorem kept2 (V0 : Valuation τ sig (Elt F)) : Kept V0 (val2 V0) := (kept1 V0).after _ _ cI1_writes (by decide)

set_option maxHeartbeats 2000000 in
theorem val2_acc (V0 : Valuation τ sig (Elt F)) : val2 V0 (no_index (Proc.devRef .tc main_v59)) = Val.accN 2 (by decide) (H V0) (V0 (Proc.devRef .tc main_arg5)) (V0 (Proc.devRef .tc main_arg9)) (MF V0) := by
  unfold val2
  simp only [cI1, cI1_a, cI1_b, gatherOps, accumOps, List.cons_append, List.nil_append]
  after_results_simp <;> (try simp only [TRef.ofBuf, TRef.toBuf, cast_eq])
  simp only [(kept1 V0).h, (kept1 V0).mf, (kept1 V0).a5, (kept1 V0).a9, val1_acc] <;> rfl

def val3 (V0 : Valuation τ sig (Elt F)) : Valuation τ sig (Elt F) := after cI2 (val2 V0)

abbrev cI2_W : List (Ref sig .tc) := [main_v60, main_v61, main_c_7, main_v62, main_v63, main_c_8, main_v64, main_v65, main_v66, main_v67, main_v68, main_v69, main_v70, main_v71, main_v72, main_v73, main_v74, main_v75, main_v76, main_v77]
theorem cI2_writes : (cI2 : List (HloOp τ sig (Elt F))).Forall fun op => op.writes ⊆ (cI2_W.map (Proc.devRef (τ := τ) .tc)).toFinset := by
  simp only [cI2, cI2_a, cI2_b, gatherOps, accumOps, List.cons_append, List.nil_append, List.Forall]; and_intros <;> exact writes_sub rfl (by decide)
theorem kept3 (V0 : Valuation τ sig (Elt F)) : Kept V0 (val3 V0) := (kept2 V0).after _ _ cI2_writes (by decide)

set_option maxHeartbeats 2000000 in
theorem val3_acc (V0 : Valuation τ sig (Elt F)) : val3 V0 (no_index (Proc.devRef .tc main_v77)) = Val.accN 3 (by decide) (H V0) (V0 (Proc.devRef .tc main_arg5)) (V0 (Proc.devRef .tc main_arg9)) (MF V0) := by
  unfold val3
  simp only [cI2, cI2_a, cI2_b, gatherOps, accumOps, List.cons_append, List.nil_append]
  after_results_simp <;> (try simp only [TRef.ofBuf, TRef.toBuf, cast_eq])
  simp only [(kept2 V0).h, (kept2 V0).mf, (kept2 V0).a5, (kept2 V0).a9, val2_acc] <;> rfl

def val4 (V0 : Valuation τ sig (Elt F)) : Valuation τ sig (Elt F) := after cI3 (val3 V0)

abbrev cI3_W : List (Ref sig .tc) := [main_v78, main_v79, main_c_9, main_v80, main_v81, main_c_10, main_v82, main_v83, main_v84, main_v85, main_v86, main_v87, main_v88, main_v89, main_v90, main_v91, main_v92, main_v93, main_v94, main_v95]
theorem cI3_writes : (cI3 : List (HloOp τ sig (Elt F))).Forall fun op => op.writes ⊆ (cI3_W.map (Proc.devRef (τ := τ) .tc)).toFinset := by
  simp only [cI3, cI3_a, cI3_b, gatherOps, accumOps, List.cons_append, List.nil_append, List.Forall]; and_intros <;> exact writes_sub rfl (by decide)
theorem kept4 (V0 : Valuation τ sig (Elt F)) : Kept V0 (val4 V0) := (kept3 V0).after _ _ cI3_writes (by decide)

set_option maxHeartbeats 2000000 in
theorem val4_acc (V0 : Valuation τ sig (Elt F)) : val4 V0 (no_index (Proc.devRef .tc main_v95)) = Val.accN 4 (by decide) (H V0) (V0 (Proc.devRef .tc main_arg5)) (V0 (Proc.devRef .tc main_arg9)) (MF V0) := by
  unfold val4
  simp only [cI3, cI3_a, cI3_b, gatherOps, accumOps, List.cons_append, List.nil_append]
  after_results_simp <;> (try simp only [TRef.ofBuf, TRef.toBuf, cast_eq])
  simp only [(kept3 V0).h, (kept3 V0).mf, (kept3 V0).a5, (kept3 V0).a9, val3_acc] <;> rfl

def val5 (V0 : Valuation τ sig (Elt F)) : Valuation τ sig (Elt F) := after cI4 (val4 V0)

abbrev cI4_W : List (Ref sig .tc) := [main_v96, main_v97, main_c_11, main_v98, main_v99, main_c_12, main_v100, main_v101, main_v102, main_v103, main_v104, main_v105, main_v106, main_v107, main_v108, main_v109, main_v110, main_v111, main_v112, main_v113]
theorem cI4_writes : (cI4 : List (HloOp τ sig (Elt F))).Forall fun op => op.writes ⊆ (cI4_W.map (Proc.devRef (τ := τ) .tc)).toFinset := by
  simp only [cI4, cI4_a, cI4_b, gatherOps, accumOps, List.cons_append, List.nil_append, List.Forall]; and_intros <;> exact writes_sub rfl (by decide)
theorem kept5 (V0 : Valuation τ sig (Elt F)) : Kept V0 (val5 V0) := (kept4 V0).after _ _ cI4_writes (by decide)

set_option maxHeartbeats 2000000 in
theorem val5_acc (V0 : Valuation τ sig (Elt F)) : val5 V0 (no_index (Proc.devRef .tc main_v113)) = Val.accN 5 (by decide) (H V0) (V0 (Proc.devRef .tc main_arg5)) (V0 (Proc.devRef .tc main_arg9)) (MF V0) := by
  unfold val5
  simp only [cI4, cI4_a, cI4_b, gatherOps, accumOps, List.cons_append, List.nil_append]
  after_results_simp <;> (try simp only [TRef.ofBuf, TRef.toBuf, cast_eq])
  simp only [(kept4 V0).h, (kept4 V0).mf, (kept4 V0).a5, (kept4 V0).a9, val4_acc] <;> rfl

def val6 (V0 : Valuation τ sig (Elt F)) : Valuation τ sig (Elt F) := after cI5 (val5 V0)

abbrev cI5_W : List (Ref sig .tc) := [main_v114, main_v115, main_c_13, main_v116, main_v117, main_c_14, main_v118, main_v119, main_v120, main_v121, main_v122, main_v123, main_v124, main_v125, main_v126, main_v127, main_v128, main_v129, main_v130, main_v131]
theorem cI5_writes : (cI5 : List (HloOp τ sig (Elt F))).Forall fun op => op.writes ⊆ (cI5_W.map (Proc.devRef (τ := τ) .tc)).toFinset := by
  simp only [cI5, cI5_a, cI5_b, gatherOps, accumOps, List.cons_append, List.nil_append, List.Forall]; and_intros <;> exact writes_sub rfl (by decide)
theorem kept6 (V0 : Valuation τ sig (Elt F)) : Kept V0 (val6 V0) := (kept5 V0).after _ _ cI5_writes (by decide)

set_option maxHeartbeats 2000000 in
theorem val6_acc (V0 : Valuation τ sig (Elt F)) : val6 V0 (no_index (Proc.devRef .tc main_v131)) = Val.accN 6 (by decide) (H V0) (V0 (Proc.devRef .tc main_arg5)) (V0 (Proc.devRef .tc main_arg9)) (MF V0) := by
  unfold val6
  simp only [cI5, cI5_a, cI5_b, gatherOps, accumOps, List.cons_append, List.nil_append]
  after_results_simp <;> (try simp only [TRef.ofBuf, TRef.toBuf, cast_eq])
  simp only [(kept5 V0).h, (kept5 V0).mf, (kept5 V0).a5, (kept5 V0).a9, val5_acc] <;> rfl

def val7 (V0 : Valuation τ sig (Elt F)) : Valuation τ sig (Elt F) := after cI6 (val6 V0)

abbrev cI6_W : List (Ref sig .tc) := [main_v132, main_v133, main_c_15, main_v134, main_v135, main_c_16, main_v136, main_v137, main_v138, main_v139, main_v140, main_v141, main_v142, main_v143, main_v144, main_v145, main_v146, main_v147, main_v148, main_v149]
theorem cI6_writes : (cI6 : List (HloOp τ sig (Elt F))).Forall fun op => op.writes ⊆ (cI6_W.map (Proc.devRef (τ := τ) .tc)).toFinset := by
  simp only [cI6, cI6_a, cI6_b, gatherOps, accumOps, List.cons_append, List.nil_append, List.Forall]; and_intros <;> exact writes_sub rfl (by decide)
theorem kept7 (V0 : Valuation τ sig (Elt F)) : Kept V0 (val7 V0) := (kept6 V0).after _ _ cI6_writes (by decide)

set_option maxHeartbeats 2000000 in
theorem val7_acc (V0 : Valuation τ sig (Elt F)) : val7 V0 (no_index (Proc.devRef .tc main_v149)) = Val.accN 7 (by decide) (H V0) (V0 (Proc.devRef .tc main_arg5)) (V0 (Proc.devRef .tc main_arg9)) (MF V0) := by
  unfold val7
  simp only [cI6, cI6_a, cI6_b, gatherOps, accumOps, List.cons_append, List.nil_append]
  after_results_simp <;> (try simp only [TRef.ofBuf, TRef.toBuf, cast_eq])
  simp only [(kept6 V0).h, (kept6 V0).mf, (kept6 V0).a5, (kept6 V0).a9, val6_acc] <;> rfl

def val8 (V0 : Valuation τ sig (Elt F)) : Valuation τ sig (Elt F) := after cI7 (val7 V0)

abbrev cI7_W : List (Ref sig .tc) := [main_v150, main_v151, main_c_17, main_v152, main_v153, main_c_18, main_v154, main_v155, main_v156, main_v157, main_v158, main_v159, main_v160, main_v161, main_v162, main_v163, main_v164, main_v165, main_v166, main_v167]
theorem cI7_writes : (cI7 : List (HloOp τ sig (Elt F))).Forall fun op => op.writes ⊆ (cI7_W.map (Proc.devRef (τ := τ) .tc)).toFinset := by
  simp only [cI7, cI7_a, cI7_b, gatherOps, accumOps, List.cons_append, List.nil_append, List.Forall]; and_intros <;> exact writes_sub rfl (by decide)
theorem kept8 (V0 : Valuation τ sig (Elt F)) : Kept V0 (val8 V0) := (kept7 V0).after _ _ cI7_writes (by decide)

set_option maxHeartbeats 2000000 in
theorem val8_acc (V0 : Valuation τ sig (Elt F)) : val8 V0 (no_index (Proc.devRef .tc main_v167)) = Val.accN 8 (by decide) (H V0) (V0 (Proc.devRef .tc main_arg5)) (V0 (Proc.devRef .tc main_arg9)) (MF V0) := by
  unfold val8
  simp only [cI7, cI7_a, cI7_b, gatherOps, accumOps, List.cons_append, List.nil_append]
  after_results_simp <;> (try simp only [TRef.ofBuf, TRef.toBuf, cast_eq])
  simp only [(kept7 V0).h, (kept7 V0).mf, (kept7 V0).a5, (kept7 V0).a9, val7_acc] <;> rfl

def val9 (V0 : Valuation τ sig (Elt F)) : Valuation τ sig (Elt F) := after cI8 (val8 V0)

abbrev cI8_W : List (Ref sig .tc) := [main_v168, main_v169, main_c_19, main_v170, main_v171, main_c_20, main_v172, main_v173, main_v174, main_v175, main_v176, main_v177, main_v178, main_v179, main_v180, main_v181, main_v182, main_v183, main_v184, main_v185]
theorem cI8_writes : (cI8 : List (HloOp τ sig (Elt F))).Forall fun op => op.writes ⊆ (cI8_W.map (Proc.devRef (τ := τ) .tc)).toFinset := by
  simp only [cI8, cI8_a, cI8_b, gatherOps, accumOps, List.cons_append, List.nil_append, List.Forall]; and_intros <;> exact writes_sub rfl (by decide)
theorem kept9 (V0 : Valuation τ sig (Elt F)) : Kept V0 (val9 V0) := (kept8 V0).after _ _ cI8_writes (by decide)

set_option maxHeartbeats 2000000 in
theorem val9_acc (V0 : Valuation τ sig (Elt F)) : val9 V0 (no_index (Proc.devRef .tc main_v185)) = Val.accN 9 (by decide) (H V0) (V0 (Proc.devRef .tc main_arg5)) (V0 (Proc.devRef .tc main_arg9)) (MF V0) := by
  unfold val9
  simp only [cI8, cI8_a, cI8_b, gatherOps, accumOps, List.cons_append, List.nil_append]
  after_results_simp <;> (try simp only [TRef.ofBuf, TRef.toBuf, cast_eq])
  simp only [(kept8 V0).h, (kept8 V0).mf, (kept8 V0).a5, (kept8 V0).a9, val8_acc] <;> rfl

end Cert.ReferenceIdeal.Run

end
-- ==== Proof.RValB.lean ====
import proofs.«410615_j21474836480482_3_alg».proof.Proof.RValA

set_option Elab.async false

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

def val10 (V0 : Valuation τ sig (Elt F)) : Valuation τ sig (Elt F) := after cI9 (val9 V0)

abbrev cI9_W : List (Ref sig .tc) := [main_v186, main_v187, main_c_21, main_v188, main_v189, main_c_22, main_v190, main_v191, main_v192, main_v193, main_v194, main_v195, main_v196, main_v197, main_v198, main_v199, main_v200, main_v201, main_v202, main_v203]
theorem cI9_writes : (cI9 : List (HloOp τ sig (Elt F))).Forall fun op => op.writes ⊆ (cI9_W.map (Proc.devRef (τ := τ) .tc)).toFinset := by
  simp only [cI9, cI9_a, cI9_b, gatherOps, accumOps, List.cons_append, List.nil_append, List.Forall]; and_intros <;> exact writes_sub rfl (by decide)
theorem kept10 (V0 : Valuation τ sig (Elt F)) : Kept V0 (val10 V0) := (kept9 V0).after _ _ cI9_writes (by decide)

set_option maxHeartbeats 2000000 in
theorem val10_acc (V0 : Valuation τ sig (Elt F)) : val10 V0 (no_index (Proc.devRef .tc main_v203)) = Val.accN 10 (by decide) (H V0) (V0 (Proc.devRef .tc main_arg5)) (V0 (Proc.devRef .tc main_arg9)) (MF V0) := by
  unfold val10
  simp only [cI9, cI9_a, cI9_b, gatherOps, accumOps, List.cons_append, List.nil_append]
  after_results_simp <;> (try simp only [TRef.ofBuf, TRef.toBuf, cast_eq])
  simp only [(kept9 V0).h, (kept9 V0).mf, (kept9 V0).a5, (kept9 V0).a9, val9_acc] <;> rfl

def val11 (V0 : Valuation τ sig (Elt F)) : Valuation τ sig (Elt F) := after cI10 (val10 V0)

abbrev cI10_W : List (Ref sig .tc) := [main_v204, main_v205, main_c_23, main_v206, main_v207, main_c_24, main_v208, main_v209, main_v210, main_v211, main_v212, main_v213, main_v214, main_v215, main_v216, main_v217, main_v218, main_v219, main_v220, main_v221]
theorem cI10_writes : (cI10 : List (HloOp τ sig (Elt F))).Forall fun op => op.writes ⊆ (cI10_W.map (Proc.devRef (τ := τ) .tc)).toFinset := by
  simp only [cI10, cI10_a, cI10_b, gatherOps, accumOps, List.cons_append, List.nil_append, List.Forall]; and_intros <;> exact writes_sub rfl (by decide)
theorem kept11 (V0 : Valuation τ sig (Elt F)) : Kept V0 (val11 V0) := (kept10 V0).after _ _ cI10_writes (by decide)

set_option maxHeartbeats 2000000 in
theorem val11_acc (V0 : Valuation τ sig (Elt F)) : val11 V0 (no_index (Proc.devRef .tc main_v221)) = Val.accN 11 (by decide) (H V0) (V0 (Proc.devRef .tc main_arg5)) (V0 (Proc.devRef .tc main_arg9)) (MF V0) := by
  unfold val11
  simp only [cI10, cI10_a, cI10_b, gatherOps, accumOps, List.cons_append, List.nil_append]
  after_results_simp <;> (try simp only [TRef.ofBuf, TRef.toBuf, cast_eq])
  simp only [(kept10 V0).h, (kept10 V0).mf, (kept10 V0).a5, (kept10 V0).a9, val10_acc] <;> rfl

def val12 (V0 : Valuation τ sig (Elt F)) : Valuation τ sig (Elt F) := after cI11 (val11 V0)

abbrev cI11_W : List (Ref sig .tc) := [main_v222, main_v223, main_c_25, main_v224, main_v225, main_c_26, main_v226, main_v227, main_v228, main_v229, main_v230, main_v231, main_v232, main_v233, main_v234, main_v235, main_v236, main_v237, main_v238, main_v239]
theorem cI11_writes : (cI11 : List (HloOp τ sig (Elt F))).Forall fun op => op.writes ⊆ (cI11_W.map (Proc.devRef (τ := τ) .tc)).toFinset := by
  simp only [cI11, cI11_a, cI11_b, gatherOps, accumOps, List.cons_append, List.nil_append, List.Forall]; and_intros <;> exact writes_sub rfl (by decide)
theorem kept12 (V0 : Valuation τ sig (Elt F)) : Kept V0 (val12 V0) := (kept11 V0).after _ _ cI11_writes (by decide)

set_option maxHeartbeats 2000000 in
theorem val12_acc (V0 : Valuation τ sig (Elt F)) : val12 V0 (no_index (Proc.devRef .tc main_v239)) = Val.accN 12 (by decide) (H V0) (V0 (Proc.devRef .tc main_arg5)) (V0 (Proc.devRef .tc main_arg9)) (MF V0) := by
  unfold val12
  simp only [cI11, cI11_a, cI11_b, gatherOps, accumOps, List.cons_append, List.nil_append]
  after_results_simp <;> (try simp only [TRef.ofBuf, TRef.toBuf, cast_eq])
  simp only [(kept11 V0).h, (kept11 V0).mf, (kept11 V0).a5, (kept11 V0).a9, val11_acc] <;> rfl

def val13 (V0 : Valuation τ sig (Elt F)) : Valuation τ sig (Elt F) := after cI12 (val12 V0)

abbrev cI12_W : List (Ref sig .tc) := [main_v240, main_v241, main_c_27, main_v242, main_v243, main_c_28, main_v244, main_v245, main_v246, main_v247, main_v248, main_v249, main_v250, main_v251, main_v252, main_v253, main_v254, main_v255, main_v256, main_v257]
theorem cI12_writes : (cI12 : List (HloOp τ sig (Elt F))).Forall fun op => op.writes ⊆ (cI12_W.map (Proc.devRef (τ := τ) .tc)).toFinset := by
  simp only [cI12, cI12_a, cI12_b, gatherOps, accumOps, List.cons_append, List.nil_append, List.Forall]; and_intros <;> exact writes_sub rfl (by decide)
theorem kept13 (V0 : Valuation τ sig (Elt F)) : Kept V0 (val13 V0) := (kept12 V0).after _ _ cI12_writes (by decide)

set_option maxHeartbeats 2000000 in
theorem val13_acc (V0 : Valuation τ sig (Elt F)) : val13 V0 (no_index (Proc.devRef .tc main_v257)) = Val.accN 13 (by decide) (H V0) (V0 (Proc.devRef .tc main_arg5)) (V0 (Proc.devRef .tc main_arg9)) (MF V0) := by
  unfold val13
  simp only [cI12, cI12_a, cI12_b, gatherOps, accumOps, List.cons_append, List.nil_append]
  after_results_simp <;> (try simp only [TRef.ofBuf, TRef.toBuf, cast_eq])
  simp only [(kept12 V0).h, (kept12 V0).mf, (kept12 V0).a5, (kept12 V0).a9, val12_acc] <;> rfl

def val14 (V0 : Valuation τ sig (Elt F)) : Valuation τ sig (Elt F) := after cI13 (val13 V0)

abbrev cI13_W : List (Ref sig .tc) := [main_v258, main_v259, main_c_29, main_v260, main_v261, main_c_30, main_v262, main_v263, main_v264, main_v265, main_v266, main_v267, main_v268, main_v269, main_v270, main_v271, main_v272, main_v273, main_v274, main_v275]
theorem cI13_writes : (cI13 : List (HloOp τ sig (Elt F))).Forall fun op => op.writes ⊆ (cI13_W.map (Proc.devRef (τ := τ) .tc)).toFinset := by
  simp only [cI13, cI13_a, cI13_b, gatherOps, accumOps, List.cons_append, List.nil_append, List.Forall]; and_intros <;> exact writes_sub rfl (by decide)
theorem kept14 (V0 : Valuation τ sig (Elt F)) : Kept V0 (val14 V0) := (kept13 V0).after _ _ cI13_writes (by decide)

set_option maxHeartbeats 2000000 in
theorem val14_acc (V0 : Valuation τ sig (Elt F)) : val14 V0 (no_index (Proc.devRef .tc main_v275)) = Val.accN 14 (by decide) (H V0) (V0 (Proc.devRef .tc main_arg5)) (V0 (Proc.devRef .tc main_arg9)) (MF V0) := by
  unfold val14
  simp only [cI13, cI13_a, cI13_b, gatherOps, accumOps, List.cons_append, List.nil_append]
  after_results_simp <;> (try simp only [TRef.ofBuf, TRef.toBuf, cast_eq])
  simp only [(kept13 V0).h, (kept13 V0).mf, (kept13 V0).a5, (kept13 V0).a9, val13_acc] <;> rfl

def val15 (V0 : Valuation τ sig (Elt F)) : Valuation τ sig (Elt F) := after cI14 (val14 V0)

abbrev cI14_W : List (Ref sig .tc) := [main_v276, main_v277, main_c_31, main_v278, main_v279, main_c_32, main_v280, main_v281, main_v282, main_v283, main_v284, main_v285, main_v286, main_v287, main_v288, main_v289, main_v290, main_v291, main_v292, main_v293]
theorem cI14_writes : (cI14 : List (HloOp τ sig (Elt F))).Forall fun op => op.writes ⊆ (cI14_W.map (Proc.devRef (τ := τ) .tc)).toFinset := by
  simp only [cI14, cI14_a, cI14_b, gatherOps, accumOps, List.cons_append, List.nil_append, List.Forall]; and_intros <;> exact writes_sub rfl (by decide)
theorem kept15 (V0 : Valuation τ sig (Elt F)) : Kept V0 (val15 V0) := (kept14 V0).after _ _ cI14_writes (by decide)

set_option maxHeartbeats 2000000 in
theorem val15_acc (V0 : Valuation τ sig (Elt F)) : val15 V0 (no_index (Proc.devRef .tc main_v293)) = Val.accN 15 (by decide) (H V0) (V0 (Proc.devRef .tc main_arg5)) (V0 (Proc.devRef .tc main_arg9)) (MF V0) := by
  unfold val15
  simp only [cI14, cI14_a, cI14_b, gatherOps, accumOps, List.cons_append, List.nil_append]
  after_results_simp <;> (try simp only [TRef.ofBuf, TRef.toBuf, cast_eq])
  simp only [(kept14 V0).h, (kept14 V0).mf, (kept14 V0).a5, (kept14 V0).a9, val14_acc] <;> rfl

def val16 (V0 : Valuation τ sig (Elt F)) : Valuation τ sig (Elt F) := after cI15 (val15 V0)

abbrev cI15_W : List (Ref sig .tc) := [main_v294, main_v295, main_c_33, main_v296, main_v297, main_c_34, main_v298, main_v299, main_v300, main_v301, main_v302, main_v303, main_v304, main_v305, main_v306, main_v307, main_v308, main_v309, main_v310, main_v311]
theorem cI15_writes : (cI15 : List (HloOp τ sig (Elt F))).Forall fun op => op.writes ⊆ (cI15_W.map (Proc.devRef (τ := τ) .tc)).toFinset := by
  simp only [cI15, cI15_a, cI15_b, gatherOps, accumOps, List.cons_append, List.nil_append, List.Forall]; and_intros <;> exact writes_sub rfl (by decide)
theorem kept16 (V0 : Valuation τ sig (Elt F)) : Kept V0 (val16 V0) := (kept15 V0).after _ _ cI15_writes (by decide)

set_option maxHeartbeats 2000000 in
theorem val16_acc (V0 : Valuation τ sig (Elt F)) : val16 V0 (no_index (Proc.devRef .tc main_v311)) = Val.accN 16 (by decide) (H V0) (V0 (Proc.devRef .tc main_arg5)) (V0 (Proc.devRef .tc main_arg9)) (MF V0) := by
  unfold val16
  simp only [cI15, cI15_a, cI15_b, gatherOps, accumOps, List.cons_append, List.nil_append]
  after_results_simp <;> (try simp only [TRef.ofBuf, TRef.toBuf, cast_eq])
  simp only [(kept15 V0).h, (kept15 V0).mf, (kept15 V0).a5, (kept15 V0).a9, val15_acc] <;> rfl

def val17 (V0 : Valuation τ sig (Elt F)) : Valuation τ sig (Elt F) := after cI16 (val16 V0)

abbrev cI16_W : List (Ref sig .tc) := [main_v312, main_v313, main_c_35, main_v314, main_v315, main_c_36, main_v316, main_v317, main_v318, main_v319, main_v320, main_v321, main_v322, main_v323, main_v324, main_v325, main_v326, main_v327, main_v328, main_v329]
theorem cI16_writes : (cI16 : List (HloOp τ sig (Elt F))).Forall fun op => op.writes ⊆ (cI16_W.map (Proc.devRef (τ := τ) .tc)).toFinset := by
  simp only [cI16, cI16_a, cI16_b, gatherOps, accumOps, List.cons_append, List.nil_append, List.Forall]; and_intros <;> exact writes_sub rfl (by decide)
theorem kept17 (V0 : Valuation τ sig (Elt F)) : Kept V0 (val17 V0) := (kept16 V0).after _ _ cI16_writes (by decide)

set_option maxHeartbeats 2000000 in
theorem val17_acc (V0 : Valuation τ sig (Elt F)) : val17 V0 (no_index (Proc.devRef .tc main_v329)) = Val.accN 17 (by decide) (H V0) (V0 (Proc.devRef .tc main_arg5)) (V0 (Proc.devRef .tc main_arg9)) (MF V0) := by
  unfold val17
  simp only [cI16, cI16_a, cI16_b, gatherOps, accumOps, List.cons_append, List.nil_append]
  after_results_simp <;> (try simp only [TRef.ofBuf, TRef.toBuf, cast_eq])
  simp only [(kept16 V0).h, (kept16 V0).mf, (kept16 V0).a5, (kept16 V0).a9, val16_acc] <;> rfl

def val18 (V0 : Valuation τ sig (Elt F)) : Valuation τ sig (Elt F) := after cI17 (val17 V0)

abbrev cI17_W : List (Ref sig .tc) := [main_v330, main_v331, main_c_37, main_v332, main_v333, main_c_38, main_v334, main_v335, main_v336, main_v337, main_v338, main_v339, main_v340, main_v341, main_v342, main_v343, main_v344, main_v345, main_v346, main_v347]
theorem cI17_writes : (cI17 : List (HloOp τ sig (Elt F))).Forall fun op => op.writes ⊆ (cI17_W.map (Proc.devRef (τ := τ) .tc)).toFinset := by
  simp only [cI17, cI17_a, cI17_b, gatherOps, accumOps, List.cons_append, List.nil_append, List.Forall]; and_intros <;> exact writes_sub rfl (by decide)
theorem kept18 (V0 : Valuation τ sig (Elt F)) : Kept V0 (val18 V0) := (kept17 V0).after _ _ cI17_writes (by decide)

set_option maxHeartbeats 2000000 in
theorem val18_acc (V0 : Valuation τ sig (Elt F)) : val18 V0 (no_index (Proc.devRef .tc main_v347)) = Val.accN 18 (by decide) (H V0) (V0 (Proc.devRef .tc main_arg5)) (V0 (Proc.devRef .tc main_arg9)) (MF V0) := by
  unfold val18
  simp only [cI17, cI17_a, cI17_b, gatherOps, accumOps, List.cons_append, List.nil_append]
  after_results_simp <;> (try simp only [TRef.ofBuf, TRef.toBuf, cast_eq])
  simp only [(kept17 V0).h, (kept17 V0).mf, (kept17 V0).a5, (kept17 V0).a9, val17_acc] <;> rfl

end Cert.ReferenceIdeal.Run

end
-- ==== Proof.RValC.lean ====
import proofs.«410615_j21474836480482_3_alg».proof.Proof.RValB
import Idealize.ShloMosaic.Lib.Pipeline.Frame

set_option Elab.async false

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

def val19 (V0 : Valuation τ sig (Elt F)) : Valuation τ sig (Elt F) := after cI18 (val18 V0)

abbrev cI18_W : List (Ref sig .tc) := [main_v348, main_v349, main_c_39, main_v350, main_v351, main_c_40, main_v352, main_v353, main_v354, main_v355, main_v356, main_v357, main_v358, main_v359, main_v360, main_v361, main_v362, main_v363, main_v364, main_v365]
theorem cI18_writes : (cI18 : List (HloOp τ sig (Elt F))).Forall fun op => op.writes ⊆ (cI18_W.map (Proc.devRef (τ := τ) .tc)).toFinset := by
  simp only [cI18, cI18_a, cI18_b, gatherOps, accumOps, List.cons_append, List.nil_append, List.Forall]; and_intros <;> exact writes_sub rfl (by decide)
theorem kept19 (V0 : Valuation τ sig (Elt F)) : Kept V0 (val19 V0) := (kept18 V0).after _ _ cI18_writes (by decide)

set_option maxHeartbeats 2000000 in
theorem val19_acc (V0 : Valuation τ sig (Elt F)) : val19 V0 (no_index (Proc.devRef .tc main_v365)) = Val.accN 19 (by decide) (H V0) (V0 (Proc.devRef .tc main_arg5)) (V0 (Proc.devRef .tc main_arg9)) (MF V0) := by
  unfold val19
  simp only [cI18, cI18_a, cI18_b, gatherOps, accumOps, List.cons_append, List.nil_append]
  after_results_simp <;> (try simp only [TRef.ofBuf, TRef.toBuf, cast_eq])
  simp only [(kept18 V0).h, (kept18 V0).mf, (kept18 V0).a5, (kept18 V0).a9, val18_acc] <;> rfl

def val20 (V0 : Valuation τ sig (Elt F)) : Valuation τ sig (Elt F) := after cI19 (val19 V0)

abbrev cI19_W : List (Ref sig .tc) := [main_v366, main_v367, main_c_41, main_v368, main_v369, main_c_42, main_v370, main_v371, main_v372, main_v373, main_v374, main_v375, main_v376, main_v377, main_v378, main_v379, main_v380, main_v381, main_v382, main_v383]
theorem cI19_writes : (cI19 : List (HloOp τ sig (Elt F))).Forall fun op => op.writes ⊆ (cI19_W.map (Proc.devRef (τ := τ) .tc)).toFinset := by
  simp only [cI19, cI19_a, cI19_b, gatherOps, accumOps, List.cons_append, List.nil_append, List.Forall]; and_intros <;> exact writes_sub rfl (by decide)
theorem kept20 (V0 : Valuation τ sig (Elt F)) : Kept V0 (val20 V0) := (kept19 V0).after _ _ cI19_writes (by decide)

set_option maxHeartbeats 2000000 in
theorem val20_acc (V0 : Valuation τ sig (Elt F)) : val20 V0 (no_index (Proc.devRef .tc main_v383)) = Val.accN 20 (by decide) (H V0) (V0 (Proc.devRef .tc main_arg5)) (V0 (Proc.devRef .tc main_arg9)) (MF V0) := by
  unfold val20
  simp only [cI19, cI19_a, cI19_b, gatherOps, accumOps, List.cons_append, List.nil_append]
  after_results_simp <;> (try simp only [TRef.ofBuf, TRef.toBuf, cast_eq])
  simp only [(kept19 V0).h, (kept19 V0).mf, (kept19 V0).a5, (kept19 V0).a9, val19_acc] <;> rfl

def val21 (V0 : Valuation τ sig (Elt F)) : Valuation τ sig (Elt F) := after cI20 (val20 V0)

abbrev cI20_W : List (Ref sig .tc) := [main_v384, main_v385, main_c_43, main_v386, main_v387, main_c_44, main_v388, main_v389, main_v390, main_v391, main_v392, main_v393, main_v394, main_v395, main_v396, main_v397, main_v398, main_v399, main_v400, main_v401]
theorem cI20_writes : (cI20 : List (HloOp τ sig (Elt F))).Forall fun op => op.writes ⊆ (cI20_W.map (Proc.devRef (τ := τ) .tc)).toFinset := by
  simp only [cI20, cI20_a, cI20_b, gatherOps, accumOps, List.cons_append, List.nil_append, List.Forall]; and_intros <;> exact writes_sub rfl (by decide)
theorem kept21 (V0 : Valuation τ sig (Elt F)) : Kept V0 (val21 V0) := (kept20 V0).after _ _ cI20_writes (by decide)

set_option maxHeartbeats 2000000 in
theorem val21_acc (V0 : Valuation τ sig (Elt F)) : val21 V0 (no_index (Proc.devRef .tc main_v401)) = Val.accN 21 (by decide) (H V0) (V0 (Proc.devRef .tc main_arg5)) (V0 (Proc.devRef .tc main_arg9)) (MF V0) := by
  unfold val21
  simp only [cI20, cI20_a, cI20_b, gatherOps, accumOps, List.cons_append, List.nil_append]
  after_results_simp <;> (try simp only [TRef.ofBuf, TRef.toBuf, cast_eq])
  simp only [(kept20 V0).h, (kept20 V0).mf, (kept20 V0).a5, (kept20 V0).a9, val20_acc] <;> rfl

def val22 (V0 : Valuation τ sig (Elt F)) : Valuation τ sig (Elt F) := after cI21 (val21 V0)

abbrev cI21_W : List (Ref sig .tc) := [main_v402, main_v403, main_c_45, main_v404, main_v405, main_c_46, main_v406, main_v407, main_v408, main_v409, main_v410, main_v411, main_v412, main_v413, main_v414, main_v415, main_v416, main_v417, main_v418, main_v419]
theorem cI21_writes : (cI21 : List (HloOp τ sig (Elt F))).Forall fun op => op.writes ⊆ (cI21_W.map (Proc.devRef (τ := τ) .tc)).toFinset := by
  simp only [cI21, cI21_a, cI21_b, gatherOps, accumOps, List.cons_append, List.nil_append, List.Forall]; and_intros <;> exact writes_sub rfl (by decide)
theorem kept22 (V0 : Valuation τ sig (Elt F)) : Kept V0 (val22 V0) := (kept21 V0).after _ _ cI21_writes (by decide)

set_option maxHeartbeats 2000000 in
theorem val22_acc (V0 : Valuation τ sig (Elt F)) : val22 V0 (no_index (Proc.devRef .tc main_v419)) = Val.accN 22 (by decide) (H V0) (V0 (Proc.devRef .tc main_arg5)) (V0 (Proc.devRef .tc main_arg9)) (MF V0) := by
  unfold val22
  simp only [cI21, cI21_a, cI21_b, gatherOps, accumOps, List.cons_append, List.nil_append]
  after_results_simp <;> (try simp only [TRef.ofBuf, TRef.toBuf, cast_eq])
  simp only [(kept21 V0).h, (kept21 V0).mf, (kept21 V0).a5, (kept21 V0).a9, val21_acc] <;> rfl

def val23 (V0 : Valuation τ sig (Elt F)) : Valuation τ sig (Elt F) := after cI22 (val22 V0)

abbrev cI22_W : List (Ref sig .tc) := [main_v420, main_v421, main_c_47, main_v422, main_v423, main_c_48, main_v424, main_v425, main_v426, main_v427, main_v428, main_v429, main_v430, main_v431, main_v432, main_v433, main_v434, main_v435, main_v436, main_v437]
theorem cI22_writes : (cI22 : List (HloOp τ sig (Elt F))).Forall fun op => op.writes ⊆ (cI22_W.map (Proc.devRef (τ := τ) .tc)).toFinset := by
  simp only [cI22, cI22_a, cI22_b, gatherOps, accumOps, List.cons_append, List.nil_append, List.Forall]; and_intros <;> exact writes_sub rfl (by decide)
theorem kept23 (V0 : Valuation τ sig (Elt F)) : Kept V0 (val23 V0) := (kept22 V0).after _ _ cI22_writes (by decide)

set_option maxHeartbeats 2000000 in
theorem val23_acc (V0 : Valuation τ sig (Elt F)) : val23 V0 (no_index (Proc.devRef .tc main_v437)) = Val.accN 23 (by decide) (H V0) (V0 (Proc.devRef .tc main_arg5)) (V0 (Proc.devRef .tc main_arg9)) (MF V0) := by
  unfold val23
  simp only [cI22, cI22_a, cI22_b, gatherOps, accumOps, List.cons_append, List.nil_append]
  after_results_simp <;> (try simp only [TRef.ofBuf, TRef.toBuf, cast_eq])
  simp only [(kept22 V0).h, (kept22 V0).mf, (kept22 V0).a5, (kept22 V0).a9, val22_acc] <;> rfl

def val24 (V0 : Valuation τ sig (Elt F)) : Valuation τ sig (Elt F) := after cI23 (val23 V0)

abbrev cI23_W : List (Ref sig .tc) := [main_v438, main_v439, main_c_49, main_v440, main_v441, main_c_50, main_v442, main_v443, main_v444, main_v445, main_v446, main_v447, main_v448, main_v449, main_v450, main_v451, main_v452, main_v453, main_v454, main_v455]
theorem cI23_writes : (cI23 : List (HloOp τ sig (Elt F))).Forall fun op => op.writes ⊆ (cI23_W.map (Proc.devRef (τ := τ) .tc)).toFinset := by
  simp only [cI23, cI23_a, cI23_b, gatherOps, accumOps, List.cons_append, List.nil_append, List.Forall]; and_intros <;> exact writes_sub rfl (by decide)
theorem kept24 (V0 : Valuation τ sig (Elt F)) : Kept V0 (val24 V0) := (kept23 V0).after _ _ cI23_writes (by decide)

set_option maxHeartbeats 2000000 in
theorem val24_acc (V0 : Valuation τ sig (Elt F)) : val24 V0 (no_index (Proc.devRef .tc main_v455)) = Val.accN 24 (by decide) (H V0) (V0 (Proc.devRef .tc main_arg5)) (V0 (Proc.devRef .tc main_arg9)) (MF V0) := by
  unfold val24
  simp only [cI23, cI23_a, cI23_b, gatherOps, accumOps, List.cons_append, List.nil_append]
  after_results_simp <;> (try simp only [TRef.ofBuf, TRef.toBuf, cast_eq])
  simp only [(kept23 V0).h, (kept23 V0).mf, (kept23 V0).a5, (kept23 V0).a9, val23_acc] <;> rfl

def val25 (V0 : Valuation τ sig (Elt F)) : Valuation τ sig (Elt F) := after cI24 (val24 V0)

abbrev cI24_W : List (Ref sig .tc) := [main_v456, main_v457, main_c_51, main_v458, main_v459, main_c_52, main_v460, main_v461, main_v462, main_v463, main_v464, main_v465, main_v466, main_v467, main_v468, main_v469, main_v470, main_v471, main_v472, main_v473]
theorem cI24_writes : (cI24 : List (HloOp τ sig (Elt F))).Forall fun op => op.writes ⊆ (cI24_W.map (Proc.devRef (τ := τ) .tc)).toFinset := by
  simp only [cI24, cI24_a, cI24_b, gatherOps, accumOps, List.cons_append, List.nil_append, List.Forall]; and_intros <;> exact writes_sub rfl (by decide)
theorem kept25 (V0 : Valuation τ sig (Elt F)) : Kept V0 (val25 V0) := (kept24 V0).after _ _ cI24_writes (by decide)

set_option maxHeartbeats 2000000 in
theorem val25_acc (V0 : Valuation τ sig (Elt F)) : val25 V0 (no_index (Proc.devRef .tc main_v473)) = Val.accN 25 (by decide) (H V0) (V0 (Proc.devRef .tc main_arg5)) (V0 (Proc.devRef .tc main_arg9)) (MF V0) := by
  unfold val25
  simp only [cI24, cI24_a, cI24_b, gatherOps, accumOps, List.cons_append, List.nil_append]
  after_results_simp <;> (try simp only [TRef.ofBuf, TRef.toBuf, cast_eq])
  simp only [(kept24 V0).h, (kept24 V0).mf, (kept24 V0).a5, (kept24 V0).a9, val24_acc] <;> rfl

def val26 (V0 : Valuation τ sig (Elt F)) : Valuation τ sig (Elt F) := after cI25 (val25 V0)

abbrev cI25_W : List (Ref sig .tc) := [main_v474, main_v475, main_c_53, main_v476, main_v477, main_c_54, main_v478, main_v479, main_v480, main_v481, main_v482, main_v483, main_v484, main_v485, main_v486, main_v487, main_v488, main_v489, main_v490, main_v491]
theorem cI25_writes : (cI25 : List (HloOp τ sig (Elt F))).Forall fun op => op.writes ⊆ (cI25_W.map (Proc.devRef (τ := τ) .tc)).toFinset := by
  simp only [cI25, cI25_a, cI25_b, gatherOps, accumOps, List.cons_append, List.nil_append, List.Forall]; and_intros <;> exact writes_sub rfl (by decide)
theorem kept26 (V0 : Valuation τ sig (Elt F)) : Kept V0 (val26 V0) := (kept25 V0).after _ _ cI25_writes (by decide)

set_option maxHeartbeats 2000000 in
theorem val26_acc (V0 : Valuation τ sig (Elt F)) : val26 V0 (no_index (Proc.devRef .tc main_v491)) = Val.accN 26 (by decide) (H V0) (V0 (Proc.devRef .tc main_arg5)) (V0 (Proc.devRef .tc main_arg9)) (MF V0) := by
  unfold val26
  simp only [cI25, cI25_a, cI25_b, gatherOps, accumOps, List.cons_append, List.nil_append]
  after_results_simp <;> (try simp only [TRef.ofBuf, TRef.toBuf, cast_eq])
  simp only [(kept25 V0).h, (kept25 V0).mf, (kept25 V0).a5, (kept25 V0).a9, val25_acc] <;> rfl

def val27 (V0 : Valuation τ sig (Elt F)) : Valuation τ sig (Elt F) := after cI26 (val26 V0)

abbrev cI26_W : List (Ref sig .tc) := [main_v492, main_v493, main_c_55, main_v494, main_v495, main_c_56, main_v496, main_v497, main_v498, main_v499, main_v500, main_v501, main_v502, main_v503, main_v504, main_v505, main_v506, main_v507, main_v508, main_v509]
theorem cI26_writes : (cI26 : List (HloOp τ sig (Elt F))).Forall fun op => op.writes ⊆ (cI26_W.map (Proc.devRef (τ := τ) .tc)).toFinset := by
  simp only [cI26, cI26_a, cI26_b, gatherOps, accumOps, List.cons_append, List.nil_append, List.Forall]; and_intros <;> exact writes_sub rfl (by decide)
theorem kept27 (V0 : Valuation τ sig (Elt F)) : Kept V0 (val27 V0) := (kept26 V0).after _ _ cI26_writes (by decide)

set_option maxHeartbeats 2000000 in
theorem val27_acc (V0 : Valuation τ sig (Elt F)) : val27 V0 (no_index (Proc.devRef .tc main_v509)) = Val.accN 27 (by decide) (H V0) (V0 (Proc.devRef .tc main_arg5)) (V0 (Proc.devRef .tc main_arg9)) (MF V0) := by
  unfold val27
  simp only [cI26, cI26_a, cI26_b, gatherOps, accumOps, List.cons_append, List.nil_append]
  after_results_simp <;> (try simp only [TRef.ofBuf, TRef.toBuf, cast_eq])
  simp only [(kept26 V0).h, (kept26 V0).mf, (kept26 V0).a5, (kept26 V0).a9, val26_acc] <;> rfl

def valQ (V0 : Valuation τ sig (Elt F)) : Valuation τ sig (Elt F) := after cQ (val27 V0)

abbrev cQ_W : List (Ref sig .tc) := [main_cst_57, main_v510, main_cst_58, main_v511, main_v512, main_c_59, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v513, main_v514, main_v515, main_v516, main_cst_60, main_v517, main_v518, main_v519, main_v520, main_v521, main_v522, main_v523, main_v524, main_v525, main_v526, main_v527, main_v528, main_call3_cst, main_call3_v0, main_v529, main_v530, main_v531, main_call4_cst, main_call4_v0, main_v532]
theorem cQ_writes : (cQ : List (HloOp τ sig (Elt F))).Forall fun op => op.writes ⊆ (cQ_W.map (Proc.devRef (τ := τ) .tc)).toFinset := by
  simp only [List.Forall]; and_intros <;> exact writes_sub rfl (by decide)
theorem keptQ (V0 : Valuation τ sig (Elt F)) : Kept V0 (valQ V0) := (kept27 V0).after _ _ cQ_writes (by decide)

set_option maxHeartbeats 4000000 in
theorem valQ_out (V0 : Valuation τ sig (Elt F)) : valQ V0 (no_index (Proc.devRef .tc main_v532)) = Val.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold valQ
  simp only [cQ]
  after_results_simp <;> (try simp only [TRef.ofBuf, TRef.toBuf, cast_eq])
  simp only [val27_acc, (kept27 V0).args main_arg0 (by decide), (kept27 V0).args main_arg6 (by decide), (kept27 V0).args main_arg7 (by decide), (kept27 V0).args main_arg8 (by decide)] <;> rfl

theorem after_ops (V0 : Valuation τ sig (Elt F)) : after ops V0 = valQ V0 := by
  simp only [ops, after_append]
  rfl

/-- The reference's run ends with its result at `Val.out` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v532) = Val.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v532).trans (by simp only [after_ops]; exact valQ_out (launchContents m c)),
      (h c main_arg0).trans (by simp only [after_ops]; exact (keptQ _).args main_arg0 (by decide)),
      (h c main_arg1).trans (by simp only [after_ops]; exact (keptQ _).args main_arg1 (by decide)),
      (h c main_arg2).trans (by simp only [after_ops]; exact (keptQ _).args main_arg2 (by decide)),
      (h c main_arg3).trans (by simp only [after_ops]; exact (keptQ _).args main_arg3 (by decide)),
      (h c main_arg4).trans (by simp only [after_ops]; exact (keptQ _).args main_arg4 (by decide)),
      (h c main_arg5).trans (by simp only [after_ops]; exact (keptQ _).args main_arg5 (by decide)),
      (h c main_arg6).trans (by simp only [after_ops]; exact (keptQ _).args main_arg6 (by decide)),
      (h c main_arg7).trans (by simp only [after_ops]; exact (keptQ _).args main_arg7 (by decide)),
      (h c main_arg8).trans (by simp only [after_ops]; exact (keptQ _).args main_arg8 (by decide)),
      (h c main_arg9).trans (by simp only [after_ops]; exact (keptQ _).args main_arg9 (by decide)),
      (h c main_arg10).trans (by simp only [after_ops]; exact (keptQ _).args main_arg10 (by decide))⟩)
    (run_all m ρ)

end Cert.ReferenceIdeal.Run

end
-- ==== Proof.BNSpec.lean ====
import Idealize.ShloMosaic.PureOps.Ideal

noncomputable section

namespace Cert.BN

open Idealize.ShloMosaic

def eps : EReal := Ideal.ofBits .f32 0x3727C5AC#32

/-- One entry normalised by a mean and a variance, scaled, shifted and rectified. -/
def bnrelu (x mu var g b : EReal) : EReal := max (((x - mu) * Ideal.rsqrt (var + eps)) * g + b) 0

end Cert.BN

end
-- ==== Proof.KRegion0.lean ====
import proofs.«410615_j21474836480482_3_alg».proof.Proof.KernelIdealFrameP
import proofs.«410615_j21474836480482_3_alg».proof.Proof.BNSpec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Cert.KernelIdeal Cert.KernelIdeal.Gen Cert.KernelIdeal.GenP

namespace Cert.KernelIdeal.Reg0

variable (V : (c : Dev nD) → (b : Ref sig .tc) → Buf (Elt Ideal) ((c : Thread nD τ).loc b))

theorem lhs_mm_0 (i : S4000x128.Idx) (q : dot_S4000x96_S96x128_S4000x128_1_0_0_1_n_n.contr.Idx) :
    (dot_S4000x96_S96x128_S4000x128_1_0_0_1_n_n.lhsIdx i q 0).val = (i 0).val := by
  unfold DotDims.lhsIdx
  rw [dif_neg (show ¬(0 : Fin S4000x96.rank) ∈ dot_S4000x96_S96x128_S4000x128_1_0_0_1_n_n.lhsBatch by decide),
    dif_pos (show (0 : Fin S4000x96.rank) ∈ dot_S4000x96_S96x128_S4000x128_1_0_0_1_n_n.lhsNonContracting by decide)]
  rfl

theorem lhs_mm_1 (i : S4000x128.Idx) (q : dot_S4000x96_S96x128_S4000x128_1_0_0_1_n_n.contr.Idx) :
    (dot_S4000x96_S96x128_S4000x128_1_0_0_1_n_n.lhsIdx i q 1).val = (q ⟨0, by decide⟩).val :=
  dot_S4000x96_S96x128_S4000x128_1_0_0_1_n_n.lhsIdx_val_of_single rfl i q

theorem rhs_mm_0 (i : S4000x128.Idx) (q : dot_S4000x96_S96x128_S4000x128_1_0_0_1_n_n.contr.Idx) :
    (dot_S4000x96_S96x128_S4000x128_1_0_0_1_n_n.rhsIdx i q 0).val = (q ⟨0, by decide⟩).val :=
  dot_S4000x96_S96x128_S4000x128_1_0_0_1_n_n.rhsIdx_val_of_single rfl i q

theorem rhs_mm_1 (i : S4000x128.Idx) (q : dot_S4000x96_S96x128_S4000x128_1_0_0_1_n_n.contr.Idx) :
    (dot_S4000x96_S96x128_S4000x128_1_0_0_1_n_n.rhsIdx i q 1).val = (i 1).val := by
  unfold DotDims.rhsIdx
  rw [dif_neg (show ¬(1 : Fin S96x128.rank) ∈ dot_S4000x96_S96x128_S4000x128_1_0_0_1_n_n.rhsBatch by decide),
    dif_pos (show (1 : Fin S96x128.rank) ∈ dot_S4000x96_S96x128_S4000x128_1_0_0_1_n_n.rhsNonContracting by decide)]
  rfl

theorem prod_apply (x0 : Vec Ideal S4000x96 .f32) (x1 : Vec Ideal S96x128 .f32) (p : Fin 4000) (q : Fin 128) :
    k0_pay1 (F := Ideal) x0 x1 (ix2 p q) = ∑ k : Fin 96, x0 (ix2 p k) * x1 (ix2 k q) := by
  unfold k0_pay1
  simp only [matmul]
  rw [Ideal.matmul_constant_zero_apply,
    ← Equiv.sum_comp (contrEquiv1 dot_S4000x96_S96x128_S4000x128_1_0_0_1_n_n 96 rfl rfl).symm]
  refine Finset.sum_congr rfl fun k _ => ?_
  have hk := contrEquiv1_symm_val dot_S4000x96_S96x128_S4000x128_1_0_0_1_n_n 96 rfl rfl k
  have el : dot_S4000x96_S96x128_S4000x128_1_0_0_1_n_n.lhsIdx (ix2 p q)
      ((contrEquiv1 dot_S4000x96_S96x128_S4000x128_1_0_0_1_n_n 96 rfl rfl).symm k) = ix2 p k :=
    funext fun a => Fin.ext (by
      match a with
      | ⟨0, _⟩ => exact lhs_mm_0 _ _
      | ⟨1, _⟩ => exact (lhs_mm_1 _ _).trans hk)
  have er : dot_S4000x96_S96x128_S4000x128_1_0_0_1_n_n.rhsIdx (ix2 p q)
      ((contrEquiv1 dot_S4000x96_S96x128_S4000x128_1_0_0_1_n_n 96 rfl rfl).symm k) = ix2 k q :=
    funext fun a => Fin.ext (by
      match a with
      | ⟨0, _⟩ => exact (rhs_mm_0 _ _).trans hk
      | ⟨1, _⟩ => exact rhs_mm_1 _ _)
  rw [el, er]
  rfl

theorem colsum_apply (src : FVec Ideal S4000x128 .f32) (q : Fin 128) :
    multiReduction (F := Ideal) .add [0] S128 src 0x00000000#32 reduces_S4000x128_S128 (.inl rfl) rfl (ix1 q)
      = ∑ r : Fin 4000, src (ix2 r q) := by
  refine (Ideal.multiReduction_add_single src 0x00000000#32 reduces_S4000x128_S128 (.inl rfl) rfl (ix1 q)).trans ?_
  refine Finset.sum_congr rfl fun r _ => congrArg src ?_
  funext a
  match a with
  | ⟨0, _⟩ => rfl
  | ⟨1, _⟩ => rfl

theorem relaid_apply (v : FVec Ideal S128 .f32) (a b : Fin 1) (q : Fin 128) :
    shapeCast S1x1x128 (shapeCast S128 (shapeCast S1x128 v shapeCasts_S128_S1x128) shapeCasts_S1x128_S128)
      shapeCasts_S128_S1x1x128 (ix3 a b q) = v (ix1 q) := by
  rw [shapeCast_shapeCast]
  refine shapeCast_apply v _ (ix3 a b q) (ix1 q) ?_
  rw [Shape.rowMajor_val_one, Shape.rowMajor_val_three]
  have ha := a.isLt
  have hb := b.isLt
  show q.val = (a.val * 1 + b.val) * 128 + q.val
  omega

theorem colsums_apply (x0 : Vec Ideal S4000x96 .f32) (x1 : Vec Ideal S96x128 .f32) (a b : Fin 1) (q : Fin 128) :
    k0_pay3 (F := Ideal) x0 x1 (ix3 a b q) = ∑ r : Fin 4000, k0_pay1 (F := Ideal) x0 x1 (ix2 r q) := by
  unfold k0_pay3
  exact (relaid_apply _ a b q).trans (colsum_apply _ q)

theorem colsqsums_apply (x0 : Vec Ideal S4000x96 .f32) (x1 : Vec Ideal S96x128 .f32) (a b : Fin 1) (q : Fin 128) :
    k0_pay4 (F := Ideal) x0 x1 (ix3 a b q)
      = ∑ r : Fin 4000, k0_pay1 (F := Ideal) x0 x1 (ix2 r q) * k0_pay1 (F := Ideal) x0 x1 (ix2 r q) := by
  unfold k0_pay4
  exact (relaid_apply _ a b q).trans (colsum_apply _ q)

abbrev feats (c : Dev nD) : S100000x96.Idx → EReal := V c main_arg0

abbrev weights (c : Dev nD) : S96x128.Idx → EReal := V c main_arg1

def H (c : Dev nD) (r : Fin 100000) (j : Fin 128) : EReal :=
  ∑ k : Fin 96, feats V c (ix2 r k) * weights V c (ix2 k j)

def prodArr (c : Dev nD) : S100000x128.Idx → EReal := fun i => H V c (i 0) (i 1)

theorem zero_off2 : (![0, 0] : Fin 2 → Nat) = fun _ => 0 := funext fun a => by fin_cases a <;> rfl

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem feat_blk (c : Dev nD) (t : Fin cfg0.N) (p : Fin 4000) (k : Fin 96) (r : Fin 100000)
    (hr : r.val = 4000 * t.val + p.val) :
    (iblk0 V c 0 t : Vec Ideal S4000x96 .f32) (ix2 p k) = feats V c (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 4000 + 1 * p.val = r.val; rw [e0, hr]; omega
  | ⟨1, _⟩ => show win0_0.index t (1 : Fin 2) * 96 + 1 * k.val = k.val; rw [e1]; omega

theorem weight_blk (c : Dev nD) (t : Fin cfg0.N) (k : Fin 96) (q : Fin 128) :
    (iblk0 V c 1 t : Vec Ideal S96x128 .f32) (ix2 k q) = weights V c (ix2 k q) := by
  obtain ⟨-, -, e2, e3, -⟩ := idx_facts t
  unfold iblk0
  rw [View.read_apply]
  show V c main_arg1 _ = V c main_arg1 _
  congr 1
  funext a
  apply Fin.ext
  match a with
  | ⟨0, _⟩ => show win0_1.index t (0 : Fin 2) * 96 + 1 * k.val = k.val; rw [e2]; omega
  | ⟨1, _⟩ => show win0_1.index t (1 : Fin 2) * 128 + 1 * q.val = q.val; rw [e3]; omega

theorem prod_blk (c : Dev nD) (t : Fin cfg0.N) (p : Fin 4000) (q : Fin 128) (r : Fin 100000)
    (hr : r.val = 4000 * t.val + p.val) :
    k0_pay1 (F := Ideal) (iblk0 V c 0 t) (iblk0 V c 1 t) (ix2 p q) = H V c r q := by
  refine (prod_apply (iblk0 V c 0 t) (iblk0 V c 1 t) p q).trans ?_
  unfold H
  refine Finset.sum_congr rfl fun k _ => ?_
  rw [feat_blk V c t p k r hr, weight_blk V c t k q]

theorem flushed_prod (c : Dev nD) (t : Fin cfg0.N) :
    (dat0 (F := Ideal) V c).flushed 2 t = ((cfg0.win 2).blk t).view.read (Elt Ideal) (prodArr V c) := by
  show (cfg0.win 2).cut (grid0.coords t) ((dat0 (F := Ideal) V c).after 2 t) = _
  rw [after0_2]
  unfold out0_2
  rw [View.canon_unit_zero zero_off2]
  simp only [View.ld_unit_zero (S := S4000x96) zero_off2, View.ld_unit_zero (S := S96x128) zero_off2]
  obtain ⟨-, -, -, -, e4, e5, -⟩ := idx_facts t
  funext j
  obtain ⟨p, q, rfl⟩ : ∃ (p : Fin 4000) (q : Fin 128), j = ix2 p q := ⟨j 0, j 1, eq_ix2 j⟩
  have hN : t.val < 25 := t.isLt
  show k0_pay1 (F := Ideal) (iblk0 V c 0 t) (iblk0 V c 1 t) (ix2 p q)
    = prodArr V c (((cfg0.win 2).blk t).view.emb (ix2 p q))
  have hemb : ((cfg0.win 2).blk t).view.emb (ix2 p q)
      = (ix2 (⟨4000 * t.val + p.val, by omega⟩ : Fin 100000) q : S100000x128.Idx) := by
    funext a
    apply Fin.ext
    match a with
    | ⟨0, _⟩ => show win0_2.index t (0 : Fin 2) * 4000 + 1 * p.val = 4000 * t.val + p.val; rw [e4]; omega
    | ⟨1, _⟩ => show win0_2.index t (1 : Fin 2) * 128 + 1 * q.val = q.val; rw [e5]; omega
  rw [hemb]
  exact prod_blk V c t p q _ rfl

theorem mem_blk_prod (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v0_0).slice (win0_2.rect t)).set ↔ _
  rw [View.set_slice_whole, Rect.mem_set_unit]
  exact Iff.rfl

theorem cover_prod (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 25 := N_0
  have ht : (i 0).val / 4000 < cfg0.N := by rw [hN]; omega
  obtain ⟨-, -, -, -, e4, e5, -⟩ := idx_facts ⟨(i 0).val / 4000, ht⟩
  refine ⟨⟨(i 0).val / 4000, ht⟩, flush0_2 _, ?_⟩
  rw [mem_blk_prod]
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    rw [e4]
    show (i 0).val / 4000 * 4000 ≤ (i 0).val ∧ (i 0).val < (i 0).val / 4000 * 4000 + 4000
    omega
  | ⟨1, _⟩ =>
    show win0_2.index ⟨(i 0).val / 4000, ht⟩ (1 : Fin 2) * 128 ≤ (i 1).val
      ∧ (i 1).val < win0_2.index ⟨(i 0).val / 4000, ht⟩ (1 : Fin 2) * 128 + 128
    rw [e5]
    omega

theorem arr2_eq (c : Dev nD) : (dat0 (F := Ideal) V c).arrAt 2 cfg0.N = prodArr V c :=
  (dat0 (F := Ideal) V c).arrAt_eq_of_cover 2 (prodArr V c) (fun t _ => flushed_prod V c t) cover_prod

/-- The first region's product array, entry by entry. -/
theorem arr2 (c : Dev nD) (r : Fin 100000) (j : Fin 128) :
    (dat0 (F := Ideal) V c).arrAt 2 cfg0.N (ix2 r j) = H V c r j :=
  congrFun (arr2_eq V c) (ix2 r j)

theorem row_lt (b : Fin 25) (q : Fin 4000) : 4000 * b.val + q.val < 100000 := by omega

def statRow (c : Dev nD) (b : Fin 25) (s : Fin 2) (j : Fin 128) : EReal :=
  if s.val = 0 then ∑ q : Fin 4000, H V c ⟨4000 * b.val + q.val, row_lt b q⟩ j
  else ∑ q : Fin 4000, H V c ⟨4000 * b.val + q.val, row_lt b q⟩ j * H V c ⟨4000 * b.val + q.val, row_lt b q⟩ j

def statArr (c : Dev nD) : S25x2x128.Idx → EReal := fun i => statRow V c (i 0) (i 1) (i 2)

def statBlk (P : FVec Ideal S4000x128 .f32) : S1x2x128.Idx → EReal := fun y =>
  if (y 1).val = 0 then ∑ r : Fin 4000, P (ix2 r (y 2)) else ∑ r : Fin 4000, P (ix2 r (y 2)) * P (ix2 r (y 2))

theorem stats_blk (x0 : Vec Ideal S4000x96 .f32) (x1 : Vec Ideal S96x128 .f32) (y : S1x2x128.Idx) :
    out0_3 (F := Ideal) x0 x1 y = statBlk (k0_pay1 (F := Ideal) x0 x1) y := by
  unfold out0_3
  simp only [View.ld_unit_zero (S := S4000x96) zero_off2, View.ld_unit_zero (S := S96x128) zero_off2]
  refine View.canon_apply_of_pieces (Val := Elt Ideal) (statBlk (k0_pay1 (F := Ideal) x0 x1)) _ ?_ y (cover0_3 _ _ y)
  intro pc hpc x
  rcases List.mem_cons.mp hpc with rfl | hpc
  ·
    obtain ⟨a, b, q, rfl⟩ : ∃ (a b : Fin 1) (q : Fin 128), x = ix3 a b q := ⟨x 0, x 1, x 2, eq_ix3 x⟩
    have ha := a.isLt
    have hb := b.isLt
    have he : r0_4.emb (ix3 a b q) = (ix3 (0 : Fin 1) (1 : Fin 2) q : S1x2x128.Idx) := by
      funext d
      apply Fin.ext
      match d with
      | ⟨0, _⟩ => show 0 + 1 * a.val = 0; omega
      | ⟨1, _⟩ => show 1 + 1 * b.val = 1; omega
      | ⟨2, _⟩ => show 0 + 1 * q.val = q.val; omega
    show k0_pay4 (F := Ideal) x0 x1 (ix3 a b q) = statBlk (k0_pay1 (F := Ideal) x0 x1) (r0_4.emb (ix3 a b q))
    rw [he, colsqsums_apply]
    exact (if_neg (by decide : ¬((1 : Fin 2).val = 0))).symm
  ·
    obtain rfl := List.mem_singleton.mp hpc
    obtain ⟨a, b, q, rfl⟩ : ∃ (a b : Fin 1) (q : Fin 128), x = ix3 a b q := ⟨x 0, x 1, x 2, eq_ix3 x⟩
    have ha := a.isLt
    have hb := b.isLt
    have he : r0_3.emb (ix3 a b q) = (ix3 (0 : Fin 1) (0 : Fin 2) q : S1x2x128.Idx) := by
      funext d
      apply Fin.ext
      match d with
      | ⟨0, _⟩ => show 0 + 1 * a.val = 0; omega
      | ⟨1, _⟩ => show 0 + 1 * b.val = 0; omega
      | ⟨2, _⟩ => show 0 + 1 * q.val = q.val; omega
    show k0_pay3 (F := Ideal) x0 x1 (ix3 a b q) = statBlk (k0_pay1 (F := Ideal) x0 x1) (r0_3.emb (ix3 a b q))
    rw [he, colsums_apply]
    exact (if_pos (rfl : (0 : Fin 2).val = 0)).symm

theorem flushed_stat (c : Dev nD) (t : Fin cfg0.N) :
    (dat0 (F := Ideal) V c).flushed 3 t = ((cfg0.win 3).blk t).view.read (Elt Ideal) (statArr V c) := by
  show (cfg0.win 3).cut (grid0.coords t) ((dat0 (F := Ideal) V c).after 3 t) = _
  rw [after0_3]
  obtain ⟨-, -, -, -, -, -, e6, e7, e8⟩ := idx_facts t
  funext y
  obtain ⟨a, s, q, rfl⟩ : ∃ (a : Fin 1) (s : Fin 2) (q : Fin 128), y = ix3 a s q := ⟨y 0, y 1, y 2, eq_ix3 y⟩
  have hN : t.val < 25 := t.isLt
  have ha := a.isLt
  show out0_3 (F := Ideal) (iblk0 V c 0 t) (iblk0 V c 1 t) (ix3 a s q)
    = statArr V c (((cfg0.win 3).blk t).view.emb (ix3 a s q))
  have hemb : ((cfg0.win 3).blk t).view.emb (ix3 a s q)
      = (ix3 (⟨t.val, hN⟩ : Fin 25) s q : S25x2x128.Idx) := by
    funext d
    apply Fin.ext
    match d with
    | ⟨0, _⟩ => show win0_3.index t (0 : Fin 3) * 1 + 1 * a.val = t.val; rw [e6]; omega
    | ⟨1, _⟩ => show win0_3.index t (1 : Fin 3) * 2 + 1 * s.val = s.val; rw [e7]; omega
    | ⟨2, _⟩ => show win0_3.index t (2 : Fin 3) * 128 + 1 * q.val = q.val; rw [e8]; omega
  rw [hemb]
  refine (stats_blk (iblk0 V c 0 t) (iblk0 V c 1 t) (ix3 a s q)).trans ?_
  show (if s.val = 0 then _ else _) = statRow V c ⟨t.val, hN⟩ s q
  unfold statRow
  by_cases hs : s.val = 0
  · rw [if_pos hs, if_pos hs]
    exact Finset.sum_congr rfl fun r _ => prod_blk V c t r q _ rfl
  · rw [if_neg hs, if_neg hs]
    exact Finset.sum_congr rfl fun r _ =>
      congrArg₂ (· * ·) (prod_blk V c t r q _ rfl) (prod_blk V c t r q _ rfl)

theorem mem_blk_stat (t : Fin cfg0.N) (i : S25x2x128.Idx) :
    i ∈ ((cfg0.win 3).blk t).view.set ↔ ∀ a : Fin 3, win0_3.index t a * S1x2x128.size a ≤ (i a).val
      ∧ (i a).val < win0_3.index t a * S1x2x128.size a + S1x2x128.size a := by
  show i ∈ ((View.whole main_v0_1).slice (win0_3.rect t)).set ↔ _
  rw [View.set_slice_whole, Rect.mem_set_unit]
  exact Iff.rfl

theorem cover_stat (i : S25x2x128.Idx) :
    ∃ t : Fin cfg0.N, (cfg0.win 3).flush t = true ∧ i ∈ ((cfg0.win 3).blk t).view.set := by
  have hi0 : (i 0).val < 25 := (i 0).isLt
  have hi1 : (i 1).val < 2 := (i 1).isLt
  have hi2 : (i 2).val < 128 := (i 2).isLt
  have hN : cfg0.N = 25 := N_0
  have ht : (i 0).val < cfg0.N := by rw [hN]; exact hi0
  obtain ⟨-, -, -, -, -, -, e6, e7, e8⟩ := idx_facts ⟨(i 0).val, ht⟩
  refine ⟨⟨(i 0).val, ht⟩, flush0_3 _, ?_⟩
  rw [mem_blk_stat]
  intro a
  match a with
  | ⟨0, _⟩ =>
    show win0_3.index ⟨(i 0).val, ht⟩ (0 : Fin 3) * 1 ≤ (i 0).val
      ∧ (i 0).val < win0_3.index ⟨(i 0).val, ht⟩ (0 : Fin 3) * 1 + 1
    rw [e6]
    show (i 0).val * 1 ≤ (i 0).val ∧ (i 0).val < (i 0).val * 1 + 1
    omega
  | ⟨1, _⟩ =>
    show win0_3.index ⟨(i 0).val, ht⟩ (1 : Fin 3) * 2 ≤ (i 1).val
      ∧ (i 1).val < win0_3.index ⟨(i 0).val, ht⟩ (1 : Fin 3) * 2 + 2
    rw [e7]
    omega
  | ⟨2, _⟩ =>
    show win0_3.index ⟨(i 0).val, ht⟩ (2 : Fin 3) * 128 ≤ (i 2).val
      ∧ (i 2).val < win0_3.index ⟨(i 0).val, ht⟩ (2 : Fin 3) * 128 + 128
    rw [e8]
    omega

theorem arr3_eq (c : Dev nD) : (dat0 (F := Ideal) V c).arrAt 3 cfg0.N = statArr V c :=
  (dat0 (F := Ideal) V c).arrAt_eq_of_cover 3 (statArr V c) (fun t _ => flushed_stat V c t) cover_stat

/-- Row b of its statistics array holds block b's column sums … -/
theorem arr3_sum (c : Dev nD) (b : Fin 25) (j : Fin 128) :
    (dat0 (F := Ideal) V c).arrAt 3 cfg0.N (ix3 b (0 : Fin 2) j)
      = ∑ q : Fin 4000, H V c ⟨4000 * b.val + q.val, by omega⟩ j := by
  refine (congrFun (arr3_eq V c) (ix3 b (0 : Fin 2) j)).trans ?_
  show statRow V c b (0 : Fin 2) j = _
  unfold statRow
  rw [if_pos (show (0 : Fin 2).val = 0 from rfl)]

/-- … and block b's column sums of squares. -/
theorem arr3_sumsq (c : Dev nD) (b : Fin 25) (j : Fin 128) :
    (dat0 (F := Ideal) V c).arrAt 3 cfg0.N (ix3 b (1 : Fin 2) j)
      = ∑ q : Fin 4000, H V c ⟨4000 * b.val + q.val, by omega⟩ j * H V c ⟨4000 * b.val + q.val, by omega⟩ j := by
  refine (congrFun (arr3_eq V c) (ix3 b (1 : Fin 2) j)).trans ?_
  show statRow V c b (1 : Fin 2) j = _
  unfold statRow
  rw [if_neg (show ¬((1 : Fin 2).val = 0) by decide)]

end Cert.KernelIdeal.Reg0

end
-- ==== Proof.KRegion1.lean ====
import proofs.«410615_j21474836480482_3_alg».proof.Proof.KernelIdealFrameP
import proofs.«410615_j21474836480482_3_alg».proof.Proof.BNSpec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Cert.KernelIdeal Cert.KernelIdeal.Gen Cert.KernelIdeal.GenP

namespace Cert.KernelIdeal.Reg1

theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

theorem blockProduct_apply {φ₁ φ₂ : FTy} (a : FVec Ideal S4000x128 φ₁) (w : FVec Ideal S128x128 φ₂) (p : Fin 4000) (j : Fin 128) :
    matmul dot_S4000x128_S128x128_S4000x128_1_0_0_1_n_n none a w (constant (F := Ideal) S4000x128 .f32 0x00000000#32) (ix2 p j)
      = ∑ k : Fin 128, a (ix2 p k) * w (ix2 k j) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j) ((contrEquiv1 dot_S4000x128_S128x128_S4000x128_1_0_0_1_n_n 128 rfl rfl).symm k) = ix2 p k :=
    funext fun ax => Fin.ext (by
      match ax with
      | ⟨0, _⟩ => exact lhs_row _ _
      | ⟨1, _⟩ => exact (lhs_col _ _).trans hk)
  have er : dot_S4000x128_S128x128_S4000x128_1_0_0_1_n_n.rhsIdx (ix2 p j) ((contrEquiv1 dot_S4000x128_S128x128_S4000x128_1_0_0_1_n_n 128 rfl rfl).symm k) = ix2 k j :=
    funext fun ax => Fin.ext (by
      match ax with
      | ⟨0, _⟩ => exact (rhs_row _ _).trans hk
      | ⟨1, _⟩ => exact rhs_col _ _)
  rw [el, er]

theorem rsqrt_apply (v : FVec Ideal S1x128 .f32) (i : S1x128.Idx) : rsqrt v i = Ideal.rsqrt (v i) := rfl

theorem stored_apply (x : Vec Ideal S4000x128 .bf16) (mu var g b : Vec Ideal S1x128 .f32) (w : Vec Ideal S128x128 .f32)
    (p : Fin 4000) (j : Fin 128) :
    k1_pay1 (F := Ideal) x mu var g b w (ix2 p j)
      = ∑ k : Fin 128, Cert.BN.bnrelu (x (ix2 p k)) (mu (ix2 (0 : Fin 1) k)) (var (ix2 (0 : Fin 1) k))
          (g (ix2 (0 : Fin 1) k)) (b (ix2 (0 : Fin 1) k)) * w (ix2 k j) := by
  unfold k1_pay1
  rw [blockProduct_apply]
  refine Finset.sum_congr rfl fun k _ => ?_
  rw [truncf_apply, truncf_apply, maximumf_apply, addf_apply, mulf_apply, mulf_apply, subf_apply, extf_apply,
    broadcast_apply]
  simp only [shapeCast_self, broadcastTo_1b_ab_apply, rsqrt_apply, addf_apply, broadcast_apply]
  have h0 : FloatOps.ofBits (F := Ideal) .f32 0x00000000#32 = (0 : EReal) := Ideal.ofBits_zero_f32
  rw [h0]
  rfl

variable (V : (c : Dev nD) → (b : Ref sig .tc) → Buf (Elt Ideal) ((c : Thread nD τ).loc b))

def normalisedProduct (c : Dev nD) : S100000x128.Idx → EReal := fun i =>
  ∑ k : Fin 128, Cert.BN.bnrelu (V c main_v0_0 (ix2 (i 0 : Fin 100000) k)) (V c main_v13 (ix2 (0 : Fin 1) k))
      (V c main_v14 (ix2 (0 : Fin 1) k)) (V c main_v15 (ix2 (0 : Fin 1) k)) (V c main_v16 (ix2 (0 : Fin 1) k))
    * V c main_arg4 (ix2 k (i 1 : Fin 128))

theorem zeroOffsets : (![0, 0] : Fin 2 → Nat) = fun _ => 0 := funext fun a => by fin_cases a <;> rfl

theorem blockIndices : ∀ t : Fin cfg1.N,
    win1_0.index t (0 : Fin 2) = t.val ∧ win1_0.index t (1 : Fin 2) = 0
    ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem activations_block (c : Dev nD) (t : Fin cfg1.N) (p : Fin 4000) (k : Fin 128) (r : Fin 100000)
    (hr : r.val = t.val * 4000 + p.val) :
    (iblk1 V c 0 t : Vec Ideal S4000x128 .bf16) (ix2 p k) = V c main_v0_0 (ix2 r k) := by
  obtain ⟨e0, e1, -⟩ := blockIndices t
  unfold iblk1
  rw [View.read_apply]
  show V c main_v0_0 _ = V c main_v0_0 _
  congr 1
  funext a
  apply Fin.ext
  match a with
  | ⟨0, _⟩ => show win1_0.index t (0 : Fin 2) * 4000 + 1 * p.val = r.val; omega
  | ⟨1, _⟩ => show win1_0.index t (1 : Fin 2) * 128 + 1 * k.val = k.val; omega

theorem gamma_block (c : Dev nD) (t : Fin cfg1.N) (k : Fin 128) :
    (iblk1 V c 1 t : Vec Ideal S1x128 .f32) (ix2 (0 : Fin 1) k) = V c main_v15 (ix2 (0 : Fin 1) k) := by
  have e := blockIndices t
  unfold iblk1
  rw [View.read_apply]
  show V c main_v15 _ = V c main_v15 _
  congr 1
  funext a
  apply Fin.ext
  match a with
  | ⟨0, _⟩ => show win1_1.index t (0 : Fin 2) * 1 + 1 * 0 = 0; omega
  | ⟨1, _⟩ => show win1_1.index t (1 : Fin 2) * 128 + 1 * k.val = k.val; omega

theorem beta_block (c : Dev nD) (t : Fin cfg1.N) (k : Fin 128) :
    (iblk1 V c 2 t : Vec Ideal S1x128 .f32) (ix2 (0 : Fin 1) k) = V c main_v16 (ix2 (0 : Fin 1) k) := by
  have e := blockIndices t
  unfold iblk1
  rw [View.read_apply]
  show V c main_v16 _ = V c main_v16 _
  congr 1
  funext a
  apply Fin.ext
  match a with
  | ⟨0, _⟩ => show win1_2.index t (0 : Fin 2) * 1 + 1 * 0 = 0; omega
  | ⟨1, _⟩ => show win1_2.index t (1 : Fin 2) * 128 + 1 * k.val = k.val; omega

theorem mean_block (c : Dev nD) (t : Fin cfg1.N) (k : Fin 128) :
    (iblk1 V c 3 t : Vec Ideal S1x128 .f32) (ix2 (0 : Fin 1) k) = V c main_v13 (ix2 (0 : Fin 1) k) := by
  have e := blockIndices t
  unfold iblk1
  rw [View.read_apply]
  show V c main_v13 _ = V c main_v13 _
  congr 1
  funext a
  apply Fin.ext
  match a with
  | ⟨0, _⟩ => show win1_3.index t (0 : Fin 2) * 1 + 1 * 0 = 0; omega
  | ⟨1, _⟩ => show win1_3.index t (1 : Fin 2) * 128 + 1 * k.val = k.val; omega

theorem variance_block (c : Dev nD) (t : Fin cfg1.N) (k : Fin 128) :
    (iblk1 V c 4 t : Vec Ideal S1x128 .f32) (ix2 (0 : Fin 1) k) = V c main_v14 (ix2 (0 : Fin 1) k) := by
  have e := blockIndices t
  unfold iblk1
  rw [View.read_apply]
  show V c main_v14 _ = V c main_v14 _
  congr 1
  funext a
  apply Fin.ext
  match a with
  | ⟨0, _⟩ => show win1_4.index t (0 : Fin 2) * 1 + 1 * 0 = 0; omega
  | ⟨1, _⟩ => show win1_4.index t (1 : Fin 2) * 128 + 1 * k.val = k.val; omega

theorem weights_block (c : Dev nD) (t : Fin cfg1.N) (k j : Fin 128) :
    (iblk1 V c 5 t : Vec Ideal S128x128 .f32) (ix2 k j) = V c main_arg4 (ix2 k j) := by
  have e := blockIndices t
  unfold iblk1
  rw [View.read_apply]
  show V c main_arg4 _ = V c main_arg4 _
  congr 1
  funext a
  apply Fin.ext
  match a with
  | ⟨0, _⟩ => show win1_5.index t (0 : Fin 2) * 128 + 1 * k.val = k.val; omega
  | ⟨1, _⟩ => show win1_5.index t (1 : Fin 2) * 128 + 1 * j.val = j.val; omega

theorem result_block_emb (t : Fin cfg1.N) (p : Fin 4000) (q : Fin 128) (r : Fin 100000)
    (hr : r.val = t.val * 4000 + p.val) :
    ((cfg1.win 6).blk t).view.emb (ix2 p q) = ix2 r q := by
  have e := blockIndices t
  funext a
  apply Fin.ext
  match a with
  | ⟨0, _⟩ => show win1_6.index t (0 : Fin 2) * 4000 + 1 * p.val = r.val; omega
  | ⟨1, _⟩ => show win1_6.index t (1 : Fin 2) * 128 + 1 * q.val = q.val; omega

theorem flushed_eq (c : Dev nD) (t : Fin cfg1.N) :
    (dat1 (F := Ideal) V c).flushed 6 t
      = ((cfg1.win 6).blk t).view.read (Elt Ideal) (normalisedProduct V c) := by
  show (cfg1.win 6).cut (grid1.coords t) ((dat1 (F := Ideal) V c).after 6 t) = _
  rw [after1_6]
  unfold out1_6
  rw [View.canon_unit_zero zeroOffsets]
  simp only [View.ld_unit_zero (S := S4000x128) zeroOffsets, View.ld_unit_zero (S := S1x128) zeroOffsets,
    View.ld_unit_zero (S := S128x128) zeroOffsets]
  funext y
  obtain ⟨p, q, rfl⟩ : ∃ (p : Fin 4000) (q : Fin 128), y = ix2 p q := ⟨y 0, y 1, eq_ix2 (n0 := 4000) (n1 := 128) y⟩
  have hN : cfg1.N = 25 := N_1
  have hr : t.val * 4000 + p.val < 100000 := by have := t.isLt; have := p.isLt; omega
  show k1_pay1 (F := Ideal) (iblk1 V c 0 t) (iblk1 V c 3 t) (iblk1 V c 4 t) (iblk1 V c 1 t) (iblk1 V c 2 t)
      (iblk1 V c 5 t) (ix2 p q) = normalisedProduct V c (((cfg1.win 6).blk t).view.emb (ix2 p q))
  rw [result_block_emb t p q ⟨_, hr⟩ rfl]
  refine (stored_apply _ _ _ _ _ _ p q).trans ?_
  refine Finset.sum_congr rfl fun k _ => ?_
  rw [activations_block V c t p k ⟨_, hr⟩ rfl, mean_block V c t k, variance_block V c t k, gamma_block V c t k,
    beta_block V c t k, weights_block V c t k q]

theorem mem_result_block (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v17).slice (win1_6.rect t)).set ↔ _
  rw [View.set_slice_whole, Rect.mem_set_unit]
  exact Iff.rfl

theorem covered (i : S100000x128.Idx) :
    ∃ t : Fin cfg1.N, (cfg1.win 6).flush t = true ∧ i ∈ ((cfg1.win 6).blk t).view.set := by
  have hN : cfg1.N = 25 := N_1
  have hi0 : (i 0).val < 100000 := (i 0).isLt
  have hi1 : (i 1).val < 128 := (i 1).isLt
  obtain ⟨t, ht⟩ : ∃ t : Fin cfg1.N, t.val = (i 0).val / 4000 := ⟨⟨(i 0).val / 4000, by rw [hN]; omega⟩, rfl⟩
  have e := blockIndices t
  refine ⟨t, flush1_6 t, ?_⟩
  rw [mem_result_block]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 128 ≤ (i 1).val ∧ (i 1).val < win1_6.index t (1 : Fin 2) * 128 + 128
    omega

theorem array_eq (c : Dev nD) : (dat1 (F := Ideal) V c).arrAt 6 cfg1.N = normalisedProduct V c :=
  (dat1 (F := Ideal) V c).arrAt_eq_of_cover 6 (normalisedProduct V c) (fun t _ => flushed_eq V c t) covered

/-- The second region's array: the normalised, rectified first product times the second weight. -/
theorem arr6 (c : Dev nD) (r : Fin 100000) (j : Fin 128) :
    (dat1 (F := Ideal) V c).arrAt 6 cfg1.N (ix2 r j)
      = ∑ k : Fin 128, Cert.BN.bnrelu (V c main_v0_0 (ix2 r k)) (V c main_v13 (ix2 (0 : Fin 1) k))
          (V c main_v14 (ix2 (0 : Fin 1) k)) (V c main_v15 (ix2 (0 : Fin 1) k)) (V c main_v16 (ix2 (0 : Fin 1) k))
        * V c main_arg4 (ix2 k j) :=
  congrFun (array_eq V c) (ix2 r j)

end Cert.KernelIdeal.Reg1

end
-- ==== Proof.KRegion2.lean ====
import proofs.«410615_j21474836480482_3_alg».proof.Proof.KernelIdealFrameP
import proofs.«410615_j21474836480482_3_alg».proof.Proof.BNSpec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.ShloMosaic.ValueIdx Idealize.SL.Sem Cert.KernelIdeal Cert.KernelIdeal.Gen Cert.KernelIdeal.GenP
open scoped BigOperators

namespace Cert.KernelIdeal.Reg2

theorem lhs_row (j : S4000x128.Idx) (k : dot_S4000x96_S96x128_S4000x128_1_0_0_1_n_n.contr.Idx) :
    (dot_S4000x96_S96x128_S4000x128_1_0_0_1_n_n.lhsIdx j k 0).val = (j 0).val := by
  unfold DotDims.lhsIdx
  rw [dif_neg (show ¬(0 : Fin S4000x96.rank) ∈ dot_S4000x96_S96x128_S4000x128_1_0_0_1_n_n.lhsBatch by decide),
    dif_pos (show (0 : Fin S4000x96.rank) ∈ dot_S4000x96_S96x128_S4000x128_1_0_0_1_n_n.lhsNonContracting by decide)]
  rfl

theorem lhs_col (j : S4000x128.Idx) (k : dot_S4000x96_S96x128_S4000x128_1_0_0_1_n_n.contr.Idx) :
    (dot_S4000x96_S96x128_S4000x128_1_0_0_1_n_n.lhsIdx j k 1).val = (k ⟨0, by decide⟩).val :=
  dot_S4000x96_S96x128_S4000x128_1_0_0_1_n_n.lhsIdx_val_of_single rfl j k

theorem rhs_row (j : S4000x128.Idx) (k : dot_S4000x96_S96x128_S4000x128_1_0_0_1_n_n.contr.Idx) :
    (dot_S4000x96_S96x128_S4000x128_1_0_0_1_n_n.rhsIdx j k 0).val = (k ⟨0, by decide⟩).val :=
  dot_S4000x96_S96x128_S4000x128_1_0_0_1_n_n.rhsIdx_val_of_single rfl j k

theorem rhs_col (j : S4000x128.Idx) (k : dot_S4000x96_S96x128_S4000x128_1_0_0_1_n_n.contr.Idx) :
    (dot_S4000x96_S96x128_S4000x128_1_0_0_1_n_n.rhsIdx j k 1).val = (j 1).val := by
  unfold DotDims.rhsIdx
  rw [dif_neg (show ¬(1 : Fin S96x128.rank) ∈ dot_S4000x96_S96x128_S4000x128_1_0_0_1_n_n.rhsBatch by decide),
    dif_pos (show (1 : Fin S96x128.rank) ∈ dot_S4000x96_S96x128_S4000x128_1_0_0_1_n_n.rhsNonContracting by decide)]
  rfl

theorem matmul_at {φ₁ φ₂ : FTy} (a : FVec Ideal S4000x96 φ₁) (b : FVec Ideal S96x128 φ₂) (p : Fin 4000) (q : Fin 128) :
    matmul dot_S4000x96_S96x128_S4000x128_1_0_0_1_n_n none a b (constant (F := Ideal) S4000x128 .f32 0x00000000#32) (ix2 p q)
      = ∑ k : Fin 96, a (ix2 p k) * b (ix2 k q) := by
  refine (Ideal.matmul_constant_zero_apply dot_S4000x96_S96x128_S4000x128_1_0_0_1_n_n none a b (ix2 p q)).trans ?_
  rw [← Equiv.sum_comp (contrEquiv1 dot_S4000x96_S96x128_S4000x128_1_0_0_1_n_n 96 rfl rfl).symm]
  refine Finset.sum_congr rfl fun k _ => ?_
  have hl : dot_S4000x96_S96x128_S4000x128_1_0_0_1_n_n.lhsIdx (ix2 p q)
      ((contrEquiv1 dot_S4000x96_S96x128_S4000x128_1_0_0_1_n_n 96 rfl rfl).symm k) = ix2 p k := by
    funext ax; apply Fin.ext
    match ax with
    | ⟨0, _⟩ => exact lhs_row _ _
    | ⟨1, _⟩ => exact (lhs_col _ _).trans (contrEquiv1_symm_val _ 96 rfl rfl k)
  have hr : dot_S4000x96_S96x128_S4000x128_1_0_0_1_n_n.rhsIdx (ix2 p q)
      ((contrEquiv1 dot_S4000x96_S96x128_S4000x128_1_0_0_1_n_n 96 rfl rfl).symm k) = ix2 k q := by
    funext ax; apply Fin.ext
    match ax with
    | ⟨0, _⟩ => exact (rhs_row _ _).trans (contrEquiv1_symm_val _ 96 rfl rfl k)
    | ⟨1, _⟩ => exact rhs_col _ _
  rw [hl, hr]

theorem pay_at (x : Vec Ideal S4000x128 .f32) (mu var g b : Vec Ideal S1x128 .f32) (u : Vec Ideal S4000x96 .f32)
    (w : Vec Ideal S96x128 .f32) (p : Fin 4000) (q : Fin 128) :
    k2_pay1 (F := Ideal) x mu var g b u w (ix2 p q)
      = max (Cert.BN.bnrelu (x (ix2 p q)) (mu (ix2 (0 : Fin 1) q)) (var (ix2 (0 : Fin 1) q)) (g (ix2 (0 : Fin 1) q)) (b (ix2 (0 : Fin 1) q))
          + ∑ k : Fin 96, u (ix2 p k) * w (ix2 k q)) 0 := by
  unfold k2_pay1
  simp only [shapeCast_self]
  rw [maximumf_apply, addf_apply, maximumf_apply, addf_apply, mulf_apply, mulf_apply, subf_apply,
    broadcastTo_1b_ab_apply, broadcastTo_1b_ab_apply, broadcastTo_1b_ab_apply, broadcastTo_1b_ab_apply, matmul_at,
    broadcast_apply]
  show max (max (((x (ix2 p q) - mu (ix2 (0 : Fin 1) q)) * Ideal.rsqrt (var (ix2 (0 : Fin 1) q) + Ideal.ofBits .f32 0x3727C5AC#32))
        * g (ix2 (0 : Fin 1) q) + b (ix2 (0 : Fin 1) q)) (Ideal.ofBits .f32 0x00000000#32)
      + ∑ k : Fin 96, u (ix2 p k) * w (ix2 k q)) (Ideal.ofBits .f32 0x00000000#32) = _
  rw [Ideal.ofBits_zero_f32]
  rfl

variable (V : (c : Dev nD) → (b : Ref sig .tc) → Buf (Elt Ideal) ((c : Thread nD τ).loc b))

abbrev xArr (c : Dev nD) : S100000x128.Idx → EReal := V c main_v343
abbrev meanRow (c : Dev nD) : S1x128.Idx → EReal := V c main_v353
abbrev varRow (c : Dev nD) : S1x128.Idx → EReal := V c main_v354
abbrev gammaRow (c : Dev nD) : S1x128.Idx → EReal := V c main_v355
abbrev betaRow (c : Dev nD) : S1x128.Idx → EReal := V c main_v356
abbrev featArr (c : Dev nD) : S100000x96.Idx → EReal := V c main_arg0
abbrev weightArr (c : Dev nD) : S96x128.Idx → EReal := V c main_arg8

def entry (c : Dev nD) (r : Fin 100000) (j : Fin 128) : EReal :=
  max (Cert.BN.bnrelu (xArr V c (ix2 r j)) (meanRow V c (ix2 (0 : Fin 1) j)) (varRow V c (ix2 (0 : Fin 1) j))
      (gammaRow V c (ix2 (0 : Fin 1) j)) (betaRow V c (ix2 (0 : Fin 1) j))
    + ∑ k : Fin 96, featArr V c (ix2 r k) * weightArr V c (ix2 k j)) 0

def whole (c : Dev nD) : S100000x128.Idx → EReal := fun i => entry V c (i 0) (i 1)

theorem hz : (![0, 0] : Fin 2 → Nat) = fun _ => 0 := funext fun a => by fin_cases a <;> rfl

theorem idx_rows : ∀ t : Fin cfg2.N,
    win2_0.index t (0 : Fin 2) = t.val ∧ win2_0.index t (1 : Fin 2) = 0
    ∧ win2_5.index t (0 : Fin 2) = t.val ∧ win2_5.index t (1 : Fin 2) = 0
    ∧ win2_7.index t (0 : Fin 2) = t.val ∧ win2_7.index t (1 : Fin 2) = 0 :=
  (by decide +kernel : ∀ t : Fin grid2.N, _)

theorem idx_whole : ∀ t : Fin cfg2.N,
    win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = 0 ∧ win2_6.index t (1 : Fin 2) = 0 :=
  (by decide +kernel : ∀ t : Fin grid2.N, _)

theorem blk0_at (c : Dev nD) (t : Fin cfg2.N) (p : Fin 4000) (q : Fin 128) (r : Fin 100000) (hr : r.val = t.val * 4000 + p.val) :
    (iblk2 V c 0 t : Vec Ideal S4000x128 .f32) (ix2 p q) = xArr V c (ix2 r q) := by
  obtain ⟨e0, e1, -⟩ := idx_rows t
  unfold iblk2
  rw [View.read_apply]
  show V c main_v343 (((cfg2.win 0).blk t).view.emb (ix2 p q)) = V c main_v343 (ix2 r q)
  refine congrArg (V c main_v343) (funext fun a => Fin.ext ?_)
  match a with
  | ⟨0, _⟩ => show win2_0.index t (0 : Fin 2) * 4000 + 1 * p.val = r.val; omega
  | ⟨1, _⟩ => show win2_0.index t (1 : Fin 2) * 128 + 1 * q.val = q.val; omega

theorem blk5_at (c : Dev nD) (t : Fin cfg2.N) (p : Fin 4000) (k : Fin 96) (r : Fin 100000) (hr : r.val = t.val * 4000 + p.val) :
    (iblk2 V c 5 t : Vec Ideal S4000x96 .f32) (ix2 p k) = featArr V c (ix2 r k) := by
  obtain ⟨-, -, e0, e1, -⟩ := idx_rows t
  unfold iblk2
  rw [View.read_apply]
  show V c main_arg0 (((cfg2.win 5).blk t).view.emb (ix2 p k)) = V c main_arg0 (ix2 r k)
  refine congrArg (V c main_arg0) (funext fun a => Fin.ext ?_)
  match a with
  | ⟨0, _⟩ => show win2_5.index t (0 : Fin 2) * 4000 + 1 * p.val = r.val; omega
  | ⟨1, _⟩ => show win2_5.index t (1 : Fin 2) * 96 + 1 * k.val = k.val; omega

theorem blk1_at (c : Dev nD) (t : Fin cfg2.N) (q : Fin 128) :
    (iblk2 V c 1 t : Vec Ideal S1x128 .f32) (ix2 (0 : Fin 1) q) = gammaRow V c (ix2 (0 : Fin 1) q) := by
  obtain ⟨e0, e1, -⟩ := idx_whole t
  unfold iblk2
  rw [View.read_apply]
  show V c main_v355 (((cfg2.win 1).blk t).view.emb (ix2 (0 : Fin 1) q)) = V c main_v355 (ix2 (0 : Fin 1) q)
  refine congrArg (V c main_v355) (funext fun a => Fin.ext ?_)
  match a with
  | ⟨0, _⟩ => show win2_1.index t (0 : Fin 2) * 1 + 1 * 0 = 0; omega
  | ⟨1, _⟩ => show win2_1.index t (1 : Fin 2) * 128 + 1 * q.val = q.val; omega

theorem blk2_at (c : Dev nD) (t : Fin cfg2.N) (q : Fin 128) :
    (iblk2 V c 2 t : Vec Ideal S1x128 .f32) (ix2 (0 : Fin 1) q) = betaRow V c (ix2 (0 : Fin 1) q) := by
  obtain ⟨-, -, e0, e1, -⟩ := idx_whole t
  unfold iblk2
  rw [View.read_apply]
  show V c main_v356 (((cfg2.win 2).blk t).view.emb (ix2 (0 : Fin 1) q)) = V c main_v356 (ix2 (0 : Fin 1) q)
  refine congrArg (V c main_v356) (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

theorem blk3_at (c : Dev nD) (t : Fin cfg2.N) (q : Fin 128) :
    (iblk2 V c 3 t : Vec Ideal S1x128 .f32) (ix2 (0 : Fin 1) q) = meanRow V c (ix2 (0 : Fin 1) q) := by
  obtain ⟨-, -, -, -, e0, e1, -⟩ := idx_whole t
  unfold iblk2
  rw [View.read_apply]
  show V c main_v353 (((cfg2.win 3).blk t).view.emb (ix2 (0 : Fin 1) q)) = V c main_v353 (ix2 (0 : Fin 1) q)
  refine congrArg (V c main_v353) (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

theorem blk4_at (c : Dev nD) (t : Fin cfg2.N) (q : Fin 128) :
    (iblk2 V c 4 t : Vec Ideal S1x128 .f32) (ix2 (0 : Fin 1) q) = varRow V c (ix2 (0 : Fin 1) q) := by
  obtain ⟨-, -, -, -, -, -, e0, e1, -⟩ := idx_whole t
  unfold iblk2
  rw [View.read_apply]
  show V c main_v354 (((cfg2.win 4).blk t).view.emb (ix2 (0 : Fin 1) q)) = V c main_v354 (ix2 (0 : Fin 1) q)
  refine congrArg (V c main_v354) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

theorem blk6_at (c : Dev nD) (t : Fin cfg2.N) (k : Fin 96) (q : Fin 128) :
    (iblk2 V c 6 t : Vec Ideal S96x128 .f32) (ix2 k q) = weightArr V c (ix2 k q) := by
  obtain ⟨-, -, -, -, -, -, -, -, e0, e1⟩ := idx_whole t
  unfold iblk2
  rw [View.read_apply]
  show V c main_arg8 (((cfg2.win 6).blk t).view.emb (ix2 k q)) = V c main_arg8 (ix2 k q)
  refine congrArg (V c main_arg8) (funext fun a => Fin.ext ?_)
  match a with
  | ⟨0, _⟩ => show win2_6.index t (0 : Fin 2) * 96 + 1 * k.val = k.val; omega
  | ⟨1, _⟩ => show win2_6.index t (1 : Fin 2) * 128 + 1 * q.val = q.val; omega

theorem flushed_eq (c : Dev nD) (t : Fin cfg2.N) :
    (dat2 (F := Ideal) V c).flushed 7 t = ((cfg2.win 7).blk t).view.read (Elt Ideal) (whole V c) := by
  show (cfg2.win 7).cut (grid2.coords t) ((dat2 (F := Ideal) V c).after 7 t) = _
  rw [after2_7]
  unfold out2_7
  rw [View.canon_unit_zero hz]
  simp only [View.ld_unit_zero (S := S4000x128) hz, View.ld_unit_zero (S := S1x128) hz, View.ld_unit_zero (S := S4000x96) hz,
    View.ld_unit_zero (S := S96x128) hz]
  funext y
  obtain ⟨p, q, rfl⟩ : ∃ (p : Fin 4000) (q : Fin 128), y = ix2 p q := ⟨y 0, y 1, eq_ix2 y⟩
  obtain ⟨-, -, -, -, e0, e1⟩ := idx_rows t
  have hN : t.val < 25 := lt_of_lt_of_eq t.isLt N_2
  have hp : p.val < 4000 := p.isLt

  obtain ⟨r, hr⟩ : ∃ r : Fin 100000, r.val = t.val * 4000 + p.val := ⟨⟨t.val * 4000 + p.val, by omega⟩, rfl⟩
  have hi : ((cfg2.win 7).blk t).view.emb (ix2 p q) = ix2 r q := by
    funext a; apply Fin.ext
    match a with
    | ⟨0, _⟩ => show win2_7.index t (0 : Fin 2) * 4000 + 1 * p.val = r.val; omega
    | ⟨1, _⟩ => show win2_7.index t (1 : Fin 2) * 128 + 1 * q.val = q.val; omega
  show k2_pay1 (F := Ideal) (iblk2 V c 0 t) (iblk2 V c 3 t) (iblk2 V c 4 t) (iblk2 V c 1 t) (iblk2 V c 2 t) (iblk2 V c 5 t) (iblk2 V c 6 t) (ix2 p q)
    = whole V c (((cfg2.win 7).blk t).view.emb (ix2 p q))
  rw [hi]
  refine (pay_at (iblk2 V c 0 t) (iblk2 V c 3 t) (iblk2 V c 4 t) (iblk2 V c 1 t) (iblk2 V c 2 t) (iblk2 V c 5 t) (iblk2 V c 6 t) p q).trans ?_
  rw [blk0_at V c t p q r hr, blk3_at V c t q, blk4_at V c t q, blk1_at V c t q, blk2_at V c t q]
  show _ = entry V c r q
  unfold entry
  refine congrArg (fun s => max (_ + s) 0) (Finset.sum_congr rfl fun k _ => ?_)
  rw [blk5_at V c t p k r hr, blk6_at V c t k q]

theorem mem_blk (t : Fin cfg2.N) (i : S100000x128.Idx) :
    i ∈ ((cfg2.win 7).blk t).view.set ↔ ∀ a : Fin 2, win2_7.index t a * S4000x128.size a ≤ (i a).val
      ∧ (i a).val < win2_7.index t a * S4000x128.size a + S4000x128.size a := by
  show i ∈ ((View.whole main_v357).slice (win2_7.rect t)).set ↔ _
  rw [View.set_slice_whole, Rect.mem_set_unit]
  exact Iff.rfl

theorem cover (i : S100000x128.Idx) :
    ∃ t : Fin cfg2.N, (cfg2.win 7).flush t = true ∧ i ∈ ((cfg2.win 7).blk t).view.set := by
  have h0 : (i 0).val < 100000 := (i 0).isLt
  have h1 : (i 1).val < 128 := (i 1).isLt
  obtain ⟨t, ht⟩ : ∃ t : Fin cfg2.N, t.val = (i 0).val / 4000 :=
    ⟨⟨(i 0).val / 4000, by rw [show cfg2.N = 25 from N_2]; omega⟩, rfl⟩
  obtain ⟨-, -, -, -, e0, e1⟩ := idx_rows t
  refine ⟨t, flush2_7 t, ?_⟩
  rw [mem_blk]
  intro a
  match a with
  | ⟨0, _⟩ =>
    show win2_7.index t (0 : Fin 2) * 4000 ≤ (i 0).val ∧ (i 0).val < win2_7.index t (0 : Fin 2) * 4000 + 4000
    omega
  | ⟨1, _⟩ =>
    show win2_7.index t (1 : Fin 2) * 128 ≤ (i 1).val ∧ (i 1).val < win2_7.index t (1 : Fin 2) * 128 + 128
    omega

theorem arr7_whole (c : Dev nD) : (dat2 (F := Ideal) V c).arrAt 7 cfg2.N = whole V c :=
  (dat2 (F := Ideal) V c).arrAt_eq_of_cover 7 (whole V c) (fun t _ => flushed_eq V c t) cover

/-- The third region's array: the rectified sum of the normalised accumulator and the residual product. -/
theorem arr7 (c : Dev nD) (r : Fin 100000) (j : Fin 128) :
    (dat2 (F := Ideal) V c).arrAt 7 cfg2.N (ix2 r j)
      = max (Cert.BN.bnrelu (xArr V c (ix2 r j)) (meanRow V c (ix2 (0 : Fin 1) j)) (varRow V c (ix2 (0 : Fin 1) j))
            (gammaRow V c (ix2 (0 : Fin 1) j)) (betaRow V c (ix2 (0 : Fin 1) j))
          + ∑ k : Fin 96, featArr V c (ix2 r k) * weightArr V c (ix2 k j)) 0 := by
  rw [arr7_whole]
  rfl

end Cert.KernelIdeal.Reg2

end
-- ==== Proof.KTerms.lean ====
import proofs.«410615_j21474836480482_3_alg».proof.KernelIdeal

noncomputable section

namespace Cert.KernelIdeal.Val

open Idealize.ShloMosaic Cert.KernelIdeal Cert.KernelIdeal.Facts₀

variable {F : FTy → Type} [FloatOps F] [Cert.KernelIdeal.Facts]

def row (y : FVec F S128 .f32) : FVec F S1x128 .f32 := shapeCast S1x128 y shapeCasts_S128_S1x128

def stat (o : Fin 3 → Nat) (e : S25x2x128.Slices o S25x1x128) (st : FVec F S25x2x128 .f32) : FVec F S128 .f32 :=
  Host.divf (Host.reduceAdd (shapeCast S25x128 (extractStridedSlice S25x1x128 o st e) shapeCasts_S25x1x128_S25x128)
      (constant S_ .f32 0x00000000#32) reducesTo_S25x128_S128_d0 h_S_)
    (broadcastInDim S128 ![] bcast_S_S128 (constant S_ .f32 0x47C35000#32))

def mean1 (st : FVec F S25x2x128 .f32) : FVec F S128 .f32 := stat ![0, 0, 0] slices_S25x2x128_S25x1x128_0_0_0 st

def var1 (st : FVec F S25x2x128 .f32) : FVec F S128 .f32 :=
  subf (stat ![0, 1, 0] slices_S25x2x128_S25x1x128_0_1_0 st) (mulf (mean1 st) (mean1 st))

def mean2 (x : FVec F S100000x128 .f32) : FVec F S128 .f32 :=
  Host.divf (Host.reduceAdd x (constant S_ .f32 0x00000000#32) reducesTo_S100000x128_S128_d0 h_S_)
    (broadcastInDim S128 ![] bcast_S_S128 (constant S_ .f32 0x47C35000#32))

def var2 (x : FVec F S100000x128 .f32) : FVec F S128 .f32 :=
  subf (Host.divf (Host.reduceAdd (mulf x x) (constant S_ .f32 0x00000000#32) reducesTo_S100000x128_S128_d0 h_S_)
      (broadcastInDim S128 ![] bcast_S_S128 (constant S_ .f32 0x47C35000#32)))
    (mulf (mean2 x) (mean2 x))

def wrapIdx (col : IVec S100000 32) : IVec S100000x1 32 :=
  broadcastInDim S100000x1 ![0] bcast_S100000_S100000x1_0
    (select (cmpi .slt col (broadcastInDim S100000 ![] bcast_S_S100000 (constantI S_ 32 0#32)))
      (addi col (broadcastInDim S100000 ![] bcast_S_S100000 (constantI S_ 32 100000#32))) col)

def inRange (w : IVec S100000x1 32) : IVec S100000 1 :=
  Host.reduce IntOp.andi
    (andi (cmpi .sge w (broadcastInDim S100000x1 ![] bcast_S_S100000x1 (constantI S_ 32 0#32)))
      (cmpi .sle w (broadcastInDim S100000x1 ![0, 1] bcast_S1x1_S100000x1_0_1 (broadcastInDim S1x1 ![1] bcast_S1_S1x1_1 (constantI S1 32 99999#32)))))
    (constantI S_ 1 1#1) reducesTo_S100000x1_S100000_d1 h_S_

/-- Rows gathered at an index column; an index outside [0, 99999] after wrapping selects the NaN word. -/
def takeFill (h2 : FVec F S100000x128 .f32) (col : IVec S100000 32) : FVec F S100000x128 .f32 :=
  select (broadcastInDim S100000x128 ![0] bcast_S100000_S100000x128_0 (inRange (wrapIdx col)))
    (Host.gather gather_S100000x128_S100000x1_S100000x128_1_0_n_n_0_1_1128 h2 (wrapIdx col))
    (broadcastInDim S100000x128 ![] bcast_S_S100000x128 (constant S_ .f32 0x7FC00000#32))

/-- One offset's update of the running sum. -/
def step (o9 : Fin 2 → Nat) (e9 : S100000x27.Slices o9 S100000x1) (o5 : Fin 2 → Nat) (e5 : S27x128.Slices o5 S1x128)
    (h2 acc : FVec F S100000x128 .f32) (a5 : FVec F S27x128 .f32) (a9 : IVec S100000x27 32) (mf : FVec F S100000x27 .f32) :
    FVec F S100000x128 .f32 :=
  addf acc (mulf (mulf
      (takeFill h2 (shapeCast S100000 (extractStridedSlice S100000x1 o9 a9 e9) shapeCasts_S100000x1_S100000))
      (broadcastInDim S100000x128 ![0, 1] bcast_S100000x1_S100000x128_0_1 (extractStridedSlice S100000x1 o9 mf e9)))
    (broadcastInDim S100000x128 ![0, 1] bcast_S1x128_S100000x128_0_1 (broadcastInDim S1x128 ![1] bcast_S128_S1x128_1
      (shapeCast S128 (extractStridedSlice S1x128 o5 a5 e5) shapeCasts_S1x128_S128))))

def acc0 : FVec F S100000x128 .f32 := broadcastInDim S100000x128 ![] bcast_S_S100000x128 (constant S_ .f32 0x00000000#32)

theorem colSlices : ∀ k : Fin 27, S100000x27.Slices ![0, k.val] S100000x1 := by decide
theorem rowSlices : ∀ k : Fin 27, S27x128.Slices ![k.val, 0] S1x128 := by decide

/-- The running sum after the first `k` neighbour offsets. -/
def accN : (k : Nat) → k ≤ 27 → FVec F S100000x128 .f32 → FVec F S27x128 .f32 → IVec S100000x27 32 → FVec F S100000x27 .f32 →
    FVec F S100000x128 .f32
  | 0, _, _, _, _, _ => acc0
  | k + 1, hk, h2, a5, a9, mf =>
    step ![0, k] (colSlices ⟨k, hk⟩) ![k, 0] (rowSlices ⟨k, hk⟩) h2 (accN k (Nat.le_of_succ_le hk) h2 a5 a9 mf) a5 a9 mf

end Cert.KernelIdeal.Val

end
-- ==== Proof.KHostA.lean ====
import proofs.«410615_j21474836480482_3_alg».proof.Proof.KernelIdealFrameP
import proofs.«410615_j21474836480482_3_alg».proof.Proof.KTerms
import proofs.«410615_j21474836480482_3_alg».proof.Proof.LibHostLine

noncomputable section

namespace Cert.KernelIdeal.Host

open Idealize.ShloMosaic Idealize.ShloMosaic.TcCoe Idealize.ShloMosaic.StableHlo Cert.KernelIdeal Cert.KernelIdeal.Gen Cert.KernelIdeal.GenP

variable {F : FTy → Type} [FloatOps F]

def col (o : Fin 2 → Nat) (e : S100000x27.Slices o S100000x1) (a9 : IVec S100000x27 32) : IVec S100000 32 :=
  shapeCast S100000 (extractStridedSlice S100000x1 o a9 e) shapeCasts_S100000x1_S100000

def upd (o9 : Fin 2 → Nat) (e9 : S100000x27.Slices o9 S100000x1) (o5 : Fin 2 → Nat) (e5 : S27x128.Slices o5 S1x128)
    (acc t : FVec F S100000x128 .f32) (mf : FVec F S100000x27 .f32) (a5 : FVec F S27x128 .f32) : FVec F S100000x128 .f32 :=
  addf acc (mulf (mulf t
      (broadcastInDim S100000x128 ![0, 1] bcast_S100000x1_S100000x128_0_1 (extractStridedSlice S100000x1 o9 mf e9)))
    (broadcastInDim S100000x128 ![0, 1] bcast_S1x128_S100000x128_0_1 (broadcastInDim S1x128 ![1] bcast_S128_S1x128_1
      (shapeCast S128 (extractStridedSlice S1x128 o5 a5 e5) shapeCasts_S1x128_S128))))

theorem upd_congr {o9 : Fin 2 → Nat} {e9 : S100000x27.Slices o9 S100000x1} {o5 : Fin 2 → Nat} {e5 : S27x128.Slices o5 S1x128}
    {acc acc' t t' : FVec F S100000x128 .f32} {mf mf' : FVec F S100000x27 .f32} {a5 a5' : FVec F S27x128 .f32}
    (h1 : acc = acc') (h2 : t = t') (h3 : mf = mf') (h4 : a5 = a5') :
    upd o9 e9 o5 e5 acc t mf a5 = upd o9 e9 o5 e5 acc' t' mf' a5' := by
  subst h1 h2 h3 h4; rfl

theorem step_eq_upd (o9 : Fin 2 → Nat) (e9 : S100000x27.Slices o9 S100000x1) (o5 : Fin 2 → Nat) (e5 : S27x128.Slices o5 S1x128)
    (h2 acc : FVec F S100000x128 .f32) (a5 : FVec F S27x128 .f32) (a9 : IVec S100000x27 32) (mf : FVec F S100000x27 .f32) :
    Val.step o9 e9 o5 e5 h2 acc a5 a9 mf = upd o9 e9 o5 e5 acc (Val.takeFill h2 (col o9 e9 a9)) mf a5 := rfl

/-- The arrays the walk over the offsets only reads are what the second call left. -/
structure Reads (V₀ V : Valuation τ sig (Elt F)) : Prop where
  h2 : V (Proc.devRef .tc main_v17) = V₀ (Proc.devRef .tc main_v17)
  mf : V (Proc.devRef .tc main_v18) = uitofp .f32 (V₀ (Proc.devRef .tc main_arg10))
  a5 : V (Proc.devRef .tc main_arg5) = V₀ (Proc.devRef .tc main_arg5)
  a9 : V (Proc.devRef .tc main_arg9) = V₀ (Proc.devRef .tc main_arg9)
  a6 : V (Proc.devRef .tc main_arg6) = V₀ (Proc.devRef .tc main_arg6)
  a7 : V (Proc.devRef .tc main_arg7) = V₀ (Proc.devRef .tc main_arg7)
  a0 : V (Proc.devRef .tc main_arg0) = V₀ (Proc.devRef .tc main_arg0)
  a8 : V (Proc.devRef .tc main_arg8) = V₀ (Proc.devRef .tc main_arg8)

abbrev readRefs : List (Ref sig .tc) := [main_v17, main_v18, main_arg5, main_arg9, main_arg6, main_arg7, main_arg0, main_arg8]

/-- A stretch that writes none of them keeps that. -/
theorem Reads.after {V₀ V : Valuation τ sig (Elt F)} (h : Reads V₀ V) (ops : List (HloOp τ sig (Elt F)))
    (W : List (Ref sig .tc)) (hW : ops.Forall fun op => op.writes ⊆ (W.map (Proc.devRef (τ := τ) .tc)).toFinset)
    (hd : readRefs.all (fun r => decide (r ∉ W)) = true) : Reads V₀ (StableHlo.after ops V) :=
  have keep := fun r (hr : r ∈ readRefs) => after_of_writes_sub ops V hW (of_decide_eq_true (List.all_eq_true.mp hd r hr))
  ⟨(keep main_v17 (by decide)).trans h.h2, (keep main_v18 (by decide)).trans h.mf, (keep main_arg5 (by decide)).trans h.a5,
    (keep main_arg9 (by decide)).trans h.a9, (keep main_arg6 (by decide)).trans h.a6, (keep main_arg7 (by decide)).trans h.a7,
    (keep main_arg0 (by decide)).trans h.a0, (keep main_arg8 (by decide)).trans h.a8⟩

abbrev stats_W : List (Ref sig .tc) := [main_v1, main_v2, main_cst, main_v3, main_v4, main_v5, main_cst_0, main_v6, main_cst_1, main_v7, main_v8, main_cst_2, main_v9, main_v10, main_v11, main_v12, main_v13, main_v14, main_v15, main_v16]
theorem stats_writes : (hostOps1 : List (HloOp τ sig (Elt F))).Forall fun op => op.writes ⊆ (stats_W.map (Proc.devRef (τ := τ) .tc)).toFinset := by
  simp only [List.Forall]; and_intros <;> exact writes_sub rfl (by decide)

theorem stats_keep (X : Valuation τ sig (Elt F)) (r : Ref sig .tc) (h : r ∉ stats_W) :
    StableHlo.after hostOps1 X (Proc.devRef .tc r) = X (Proc.devRef .tc r) := after_of_writes_sub hostOps1 X stats_writes h

theorem stats_mean (X : Valuation τ sig (Elt F)) :
    StableHlo.after hostOps1 X (no_index (Proc.devRef .tc main_v13)) = Val.row (Val.mean1 (X (Proc.devRef .tc main_v0_1))) := by
  simp only [hostOps1]
  after_results_simp
  rfl

theorem stats_var (X : Valuation τ sig (Elt F)) :
    StableHlo.after hostOps1 X (no_index (Proc.devRef .tc main_v14)) = Val.row (Val.var1 (X (Proc.devRef .tc main_v0_1))) := by
  simp only [hostOps1]
  after_results_simp
  rfl

theorem stats_scale (X : Valuation τ sig (Elt F)) :
    StableHlo.after hostOps1 X (no_index (Proc.devRef .tc main_v15)) = Val.row (X (Proc.devRef .tc main_arg2)) := by
  simp only [hostOps1]
  after_results_simp
  rfl

theorem stats_shift (X : Valuation τ sig (Elt F)) :
    StableHlo.after hostOps1 X (no_index (Proc.devRef .tc main_v16)) = Val.row (X (Proc.devRef .tc main_arg3)) := by
  simp only [hostOps1]
  after_results_simp
  rfl

abbrev open_W : List (Ref sig .tc) := [main_v18, main_cst_3, main_v19, main_v20, main_v21]
theorem open_writes : (hostOps2 : List (HloOp τ sig (Elt F))).Forall fun op => op.writes ⊆ (open_W.map (Proc.devRef (τ := τ) .tc)).toFinset := by
  simp only [List.Forall]; and_intros <;> exact writes_sub rfl (by decide)
theorem open_keep (X : Valuation τ sig (Elt F)) (r : Ref sig .tc) (h : r ∉ open_W) :
    StableHlo.after hostOps2 X (Proc.devRef .tc r) = X (Proc.devRef .tc r) := after_of_writes_sub hostOps2 X open_writes h

theorem open_mask (X : Valuation τ sig (Elt F)) :
    StableHlo.after hostOps2 X (no_index (Proc.devRef .tc main_v18)) = uitofp .f32 (X (Proc.devRef .tc main_arg10)) := by
  simp only [hostOps2]
  after_results_simp

theorem open_acc (X : Valuation τ sig (Elt F)) :
    StableHlo.after hostOps2 X (no_index (Proc.devRef .tc main_v19)) = Val.acc0 := by
  simp only [hostOps2]
  after_results_simp
  rfl

theorem open_col (X : Valuation τ sig (Elt F)) :
    StableHlo.after hostOps2 X (no_index (Proc.devRef .tc main_v21)) = col ![0, 0] slices_S100000x27_S100000x1_0_0 (X (Proc.devRef .tc main_arg9)) := by
  simp only [hostOps2]
  after_results_simp
  rfl

abbrev take0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v22]
theorem take0_writes : (hostOps2_1 : List (HloOp τ sig (Elt F))).Forall fun op => op.writes ⊆ (take0_W.map (Proc.devRef (τ := τ) .tc)).toFinset := by
  simp only [List.Forall]; and_intros <;> exact writes_sub rfl (by decide)
theorem take0_keep (X : Valuation τ sig (Elt F)) (r : Ref sig .tc) (h : r ∉ take0_W) :
    StableHlo.after hostOps2_1 X (Proc.devRef .tc r) = X (Proc.devRef .tc r) := after_of_writes_sub hostOps2_1 X take0_writes h

theorem take0 (X : Valuation τ sig (Elt F)) :
    StableHlo.after hostOps2_1 X (no_index (Proc.devRef .tc main_v22)) = Val.takeFill (X (Proc.devRef .tc main_v17)) (X (Proc.devRef .tc main_v21)) := by
  simp only [hostOps2_1]
  after_results_simp
  simp only [TRef.ofBuf, TRef.toBuf, cast_eq]
  rfl

abbrev upd0_W : List (Ref sig .tc) := [main_v23, main_v24, main_v25, main_v26, main_v27, main_v28, main_v29, main_v30, main_v31, main_v32, main_v33]
theorem upd0_writes : (hostOps2_2 : List (HloOp τ sig (Elt F))).Forall fun op => op.writes ⊆ (upd0_W.map (Proc.devRef (τ := τ) .tc)).toFinset := by
  simp only [List.Forall]; and_intros <;> exact writes_sub rfl (by decide)
theorem upd0 (X : Valuation τ sig (Elt F)) :
    StableHlo.after hostOps2_2 X (no_index (Proc.devRef .tc main_v31))
      = upd ![0, 0] slices_S100000x27_S100000x1_0_0 ![0, 0] slices_S27x128_S1x128_0_0
          (X (Proc.devRef .tc main_v19)) (X (Proc.devRef .tc main_v22)) (X (Proc.devRef .tc main_v18)) (X (Proc.devRef .tc main_arg5)) := by
  simp only [hostOps2_2]
  after_results_simp
  rfl

theorem next0 (X : Valuation τ sig (Elt F)) :
    StableHlo.after hostOps2_2 X (no_index (Proc.devRef .tc main_v33)) = col ![0, 1] slices_S100000x27_S100000x1_0_1 (X (Proc.devRef .tc main_arg9)) := by
  simp only [hostOps2_2]
  after_results_simp
  rfl

abbrev take1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v34]
theorem take1_writes : (hostOps2_3 : List (HloOp τ sig (Elt F))).Forall fun op => op.writes ⊆ (take1_W.map (Proc.devRef (τ := τ) .tc)).toFinset := by
  simp only [List.Forall]; and_intros <;> exact writes_sub rfl (by decide)
theorem take1_keep (X : Valuation τ sig (Elt F)) (r : Ref sig .tc) (h : r ∉ take1_W) :
    StableHlo.after hostOps2_3 X (Proc.devRef .tc r) = X (Proc.devRef .tc r) := after_of_writes_sub hostOps2_3 X take1_writes h

theorem take1 (X : Valuation τ sig (Elt F)) :
    StableHlo.after hostOps2_3 X (no_index (Proc.devRef .tc main_v34)) = Val.takeFill (X (Proc.devRef .tc main_v17)) (X (Proc.devRef .tc main_v33)) := by
  simp only [hostOps2_3]
  after_results_simp
  simp only [TRef.ofBuf, TRef.toBuf, cast_eq]
  rfl

abbrev upd1_W : List (Ref sig .tc) := [main_v35, main_v36, main_v37, main_v38, main_v39, main_v40, main_v41, main_v42, main_v43, main_v44, main_v45]
theorem upd1_writes : (hostOps2_4 : List (HloOp τ sig (Elt F))).Forall fun op => op.writes ⊆ (upd1_W.map (Proc.devRef (τ := τ) .tc)).toFinset := by
  simp only [List.Forall]; and_intros <;> exact writes_sub rfl (by decide)
theorem upd1 (X : Valuation τ sig (Elt F)) :
    StableHlo.after hostOps2_4 X (no_index (Proc.devRef .tc main_v43))
      = upd ![0, 1] slices_S100000x27_S100000x1_0_1 ![1, 0] slices_S27x128_S1x128_1_0
          (X (Proc.devRef .tc main_v31)) (X (Proc.devRef .tc main_v34)) (X (Proc.devRef .tc main_v18)) (X (Proc.devRef .tc main_arg5)) := by
  simp only [hostOps2_4]
  after_results_simp
  rfl

theorem next1 (X : Valuation τ sig (Elt F)) :
    StableHlo.after hostOps2_4 X (no_index (Proc.devRef .tc main_v45)) = col ![0, 2] slices_S100000x27_S100000x1_0_2 (X (Proc.devRef .tc main_arg9)) := by
  simp only [hostOps2_4]
  after_results_simp
  rfl

abbrev close_W : List (Ref sig .tc) := [main_v335, main_v336, main_v337, main_v338, main_v339, main_v340, main_v341, main_v342, main_v343, main_cst_4, main_v344, main_cst_5, main_v345, main_v346, main_v347, main_cst_6, main_v348, main_cst_7, main_v349, main_v350, main_v351, main_v352, main_v353, main_v354, main_v355, main_v356]
theorem close_writes : (hostOps2_54 : List (HloOp τ sig (Elt F))).Forall fun op => op.writes ⊆ (close_W.map (Proc.devRef (τ := τ) .tc)).toFinset := by
  simp only [List.Forall]; and_intros <;> exact writes_sub rfl (by decide)
theorem close_acc (X : Valuation τ sig (Elt F)) :
    StableHlo.after hostOps2_54 X (no_index (Proc.devRef .tc main_v343))
      = upd ![0, 26] slices_S100000x27_S100000x1_0_26 ![26, 0] slices_S27x128_S1x128_26_0
          (X (Proc.devRef .tc main_v331)) (X (Proc.devRef .tc main_v334)) (X (Proc.devRef .tc main_v18)) (X (Proc.devRef .tc main_arg5)) := by
  simp only [hostOps2_54]
  after_results_simp
  rfl

theorem close_mean (X : Valuation τ sig (Elt F)) :
    StableHlo.after hostOps2_54 X (no_index (Proc.devRef .tc main_v353))
      = Val.row (Val.mean2 (upd ![0, 26] slices_S100000x27_S100000x1_0_26 ![26, 0] slices_S27x128_S1x128_26_0
          (X (Proc.devRef .tc main_v331)) (X (Proc.devRef .tc main_v334)) (X (Proc.devRef .tc main_v18)) (X (Proc.devRef .tc main_arg5)))) := by
  simp only [hostOps2_54]
  after_results_simp
  rfl

theorem close_var (X : Valuation τ sig (Elt F)) :
    StableHlo.after hostOps2_54 X (no_index (Proc.devRef .tc main_v354))
      = Val.row (Val.var2 (upd ![0, 26] slices_S100000x27_S100000x1_0_26 ![26, 0] slices_S27x128_S1x128_26_0
          (X (Proc.devRef .tc main_v331)) (X (Proc.devRef .tc main_v334)) (X (Proc.devRef .tc main_v18)) (X (Proc.devRef .tc main_arg5)))) := by
  simp only [hostOps2_54]
  after_results_simp
  rfl

theorem close_scale (X : Valuation τ sig (Elt F)) :
    StableHlo.after hostOps2_54 X (no_index (Proc.devRef .tc main_v355)) = Val.row (X (Proc.devRef .tc main_arg6)) := by
  simp only [hostOps2_54]
  after_results_simp
  rfl

theorem close_shift (X : Valuation τ sig (Elt F)) :
    StableHlo.after hostOps2_54 X (no_index (Proc.devRef .tc main_v356)) = Val.row (X (Proc.devRef .tc main_arg7)) := by
  simp only [hostOps2_54]
  after_results_simp
  rfl

end Cert.KernelIdeal.Host

end
-- ==== Proof.KHostF.lean ====
import proofs.«410615_j21474836480482_3_alg».proof.Proof.KernelIdealFrameP
import proofs.«410615_j21474836480482_3_alg».proof.Proof.KTerms
import proofs.«410615_j21474836480482_3_alg».proof.Proof.KHostA

noncomputable section

namespace Cert.KernelIdeal.Host

open Idealize.ShloMosaic Idealize.ShloMosaic.TcCoe Idealize.ShloMosaic.StableHlo Cert.KernelIdeal Cert.KernelIdeal.Gen Cert.KernelIdeal.GenP

variable {F : FTy → Type} [FloatOps F]

variable (m : (ℓ : Loc nD τ sig) → Buf (Elt F) ℓ) (ρ : Dev nD → PrngReg)

abbrev h2 (c : Dev nD) : FVec F S100000x128 .f32 := W3 m ρ c (Proc.devRef .tc main_v17)

abbrev a5 (c : Dev nD) : FVec F S27x128 .f32 := W3 m ρ c (Proc.devRef .tc main_arg5)

abbrev a9 (c : Dev nD) : IVec S100000x27 32 := W3 m ρ c (Proc.devRef .tc main_arg9)

abbrev mf (c : Dev nD) : FVec F S100000x27 .f32 := uitofp .f32 (W3 m ρ c (Proc.devRef .tc main_arg10))

theorem reads4 (c : Dev nD) : Reads (W3 m ρ c) (W4 m ρ c) :=
  ⟨open_keep _ main_v17 (by decide), open_mask _, open_keep _ main_arg5 (by decide), open_keep _ main_arg9 (by decide),
    open_keep _ main_arg6 (by decide), open_keep _ main_arg7 (by decide), open_keep _ main_arg0 (by decide),
    open_keep _ main_arg8 (by decide)⟩

theorem acc0_at (c : Dev nD) : W4 m ρ c (Proc.devRef .tc main_v19) = Val.acc0 := open_acc _

theorem col0_at (c : Dev nD) :
    W4 m ρ c (Proc.devRef .tc main_v21) = col ![0, 0] slices_S100000x27_S100000x1_0_0 (a9 m ρ c) := open_col _

theorem reads5 (c : Dev nD) : Reads (W3 m ρ c) (W5 m ρ c) :=
  (reads4 m ρ c).after hostOps2_1 take0_W take0_writes (by decide)

theorem rows0_at (c : Dev nD) :
    W5 m ρ c (Proc.devRef .tc main_v22) = Val.takeFill (h2 m ρ c) (col ![0, 0] slices_S100000x27_S100000x1_0_0 (a9 m ρ c)) :=
  (take0 (W4 m ρ c)).trans (congrArg₂ Val.takeFill (reads4 m ρ c).h2 (col0_at m ρ c))

theorem acc0_kept (c : Dev nD) : W5 m ρ c (Proc.devRef .tc main_v19) = Val.acc0 :=
  (take0_keep (W4 m ρ c) main_v19 (by decide)).trans (acc0_at m ρ c)
theorem reads6 (c : Dev nD) : Reads (W3 m ρ c) (W6 m ρ c) :=
  (reads5 m ρ c).after hostOps2_2 upd0_W upd0_writes (by decide)

theorem acc1_at (c : Dev nD) : W6 m ρ c (Proc.devRef .tc main_v31) = Val.accN 1 (by decide) (h2 m ρ c) (a5 m ρ c) (a9 m ρ c) (mf m ρ c) :=
  (upd0 (W5 m ρ c)).trans ((upd_congr (acc0_kept m ρ c) (rows0_at m ρ c) (reads5 m ρ c).mf (reads5 m ρ c).a5).trans
    (step_eq_upd _ _ _ _ _ _ _ _ _).symm)

theorem col1_at (c : Dev nD) :
    W6 m ρ c (Proc.devRef .tc main_v33) = col ![0, 1] slices_S100000x27_S100000x1_0_1 (a9 m ρ c) :=
  (next0 (W5 m ρ c)).trans (congrArg _ (reads5 m ρ c).a9)

theorem reads7 (c : Dev nD) : Reads (W3 m ρ c) (W7 m ρ c) :=
  (reads6 m ρ c).after hostOps2_3 take1_W take1_writes (by decide)

theorem rows1_at (c : Dev nD) :
    W7 m ρ c (Proc.devRef .tc main_v34) = Val.takeFill (h2 m ρ c) (col ![0, 1] slices_S100000x27_S100000x1_0_1 (a9 m ρ c)) :=
  (take1 (W6 m ρ c)).trans (congrArg₂ Val.takeFill (reads6 m ρ c).h2 (col1_at m ρ c))

theorem acc1_kept (c : Dev nD) : W7 m ρ c (Proc.devRef .tc main_v31) = Val.accN 1 (by decide) (h2 m ρ c) (a5 m ρ c) (a9 m ρ c) (mf m ρ c) :=
  (take1_keep (W6 m ρ c) main_v31 (by decide)).trans (acc1_at m ρ c)
theorem reads8 (c : Dev nD) : Reads (W3 m ρ c) (W8 m ρ c) :=
  (reads7 m ρ c).after hostOps2_4 upd1_W upd1_writes (by decide)

theorem acc2_at (c : Dev nD) : W8 m ρ c (Proc.devRef .tc main_v43) = Val.accN 2 (by decide) (h2 m ρ c) (a5 m ρ c) (a9 m ρ c) (mf m ρ c) :=
  (upd1 (W7 m ρ c)).trans ((upd_congr (acc1_kept m ρ c) (rows1_at m ρ c) (reads7 m ρ c).mf (reads7 m ρ c).a5).trans
    (step_eq_upd _ _ _ _ _ _ _ _ _).symm)

theorem col2_at (c : Dev nD) :
    W8 m ρ c (Proc.devRef .tc main_v45) = col ![0, 2] slices_S100000x27_S100000x1_0_2 (a9 m ρ c) :=
  (next1 (W7 m ρ c)).trans (congrArg _ (reads7 m ρ c).a9)

end Cert.KernelIdeal.Host

end
-- ==== Proof.KHostB.lean ====
import proofs.«410615_j21474836480482_3_alg».proof.Proof.KernelIdealFrameP
import proofs.«410615_j21474836480482_3_alg».proof.Proof.KTerms
import proofs.«410615_j21474836480482_3_alg».proof.Proof.KHostA

noncomputable section

namespace Cert.KernelIdeal.Host

open Idealize.ShloMosaic Idealize.ShloMosaic.TcCoe Idealize.ShloMosaic.StableHlo Cert.KernelIdeal Cert.KernelIdeal.Gen Cert.KernelIdeal.GenP

variable {F : FTy → Type} [FloatOps F]

abbrev take2_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v46]
theorem take2_writes : (hostOps2_5 : List (HloOp τ sig (Elt F))).Forall fun op => op.writes ⊆ (take2_W.map (Proc.devRef (τ := τ) .tc)).toFinset := by
  simp only [List.Forall]; and_intros <;> exact writes_sub rfl (by decide)
theorem take2_keep (X : Valuation τ sig (Elt F)) (r : Ref sig .tc) (h : r ∉ take2_W) :
    StableHlo.after hostOps2_5 X (Proc.devRef .tc r) = X (Proc.devRef .tc r) := after_of_writes_sub hostOps2_5 X take2_writes h

theorem take2 (X : Valuation τ sig (Elt F)) :
    StableHlo.after hostOps2_5 X (no_index (Proc.devRef .tc main_v46)) = Val.takeFill (X (Proc.devRef .tc main_v17)) (X (Proc.devRef .tc main_v45)) := by
  simp only [hostOps2_5]
  after_results_simp
  simp only [TRef.ofBuf, TRef.toBuf, cast_eq]
  rfl

abbrev upd2_W : List (Ref sig .tc) := [main_v47, main_v48, main_v49, main_v50, main_v51, main_v52, main_v53, main_v54, main_v55, main_v56, main_v57]
theorem upd2_writes : (hostOps2_6 : List (HloOp τ sig (Elt F))).Forall fun op => op.writes ⊆ (upd2_W.map (Proc.devRef (τ := τ) .tc)).toFinset := by
  simp only [List.Forall]; and_intros <;> exact writes_sub rfl (by decide)
theorem upd2 (X : Valuation τ sig (Elt F)) :
    StableHlo.after hostOps2_6 X (no_index (Proc.devRef .tc main_v55))
      = upd ![0, 2] slices_S100000x27_S100000x1_0_2 ![2, 0] slices_S27x128_S1x128_2_0
          (X (Proc.devRef .tc main_v43)) (X (Proc.devRef .tc main_v46)) (X (Proc.devRef .tc main_v18)) (X (Proc.devRef .tc main_arg5)) := by
  simp only [hostOps2_6]
  after_results_simp
  rfl

theorem next2 (X : Valuation τ sig (Elt F)) :
    StableHlo.after hostOps2_6 X (no_index (Proc.devRef .tc main_v57)) = col ![0, 3] slices_S100000x27_S100000x1_0_3 (X (Proc.devRef .tc main_arg9)) := by
  simp only [hostOps2_6]
  after_results_simp
  rfl

abbrev take3_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v58]
theorem take3_writes : (hostOps2_7 : List (HloOp τ sig (Elt F))).Forall fun op => op.writes ⊆ (take3_W.map (Proc.devRef (τ := τ) .tc)).toFinset := by
  simp only [List.Forall]; and_intros <;> exact writes_sub rfl (by decide)
theorem take3_keep (X : Valuation τ sig (Elt F)) (r : Ref sig .tc) (h : r ∉ take3_W) :
    StableHlo.after hostOps2_7 X (Proc.devRef .tc r) = X (Proc.devRef .tc r) := after_of_writes_sub hostOps2_7 X take3_writes h

theorem take3 (X : Valuation τ sig (Elt F)) :
    StableHlo.after hostOps2_7 X (no_index (Proc.devRef .tc main_v58)) = Val.takeFill (X (Proc.devRef .tc main_v17)) (X (Proc.devRef .tc main_v57)) := by
  simp only [hostOps2_7]
  after_results_simp
  simp only [TRef.ofBuf, TRef.toBuf, cast_eq]
  rfl

abbrev upd3_W : List (Ref sig .tc) := [main_v59, main_v60, main_v61, main_v62, main_v63, main_v64, main_v65, main_v66, main_v67, main_v68, main_v69]
theorem upd3_writes : (hostOps2_8 : List (HloOp τ sig (Elt F))).Forall fun op => op.writes ⊆ (upd3_W.map (Proc.devRef (τ := τ) .tc)).toFinset := by
  simp only [List.Forall]; and_intros <;> exact writes_sub rfl (by decide)
theorem upd3 (X : Valuation τ sig (Elt F)) :
    StableHlo.after hostOps2_8 X (no_index (Proc.devRef .tc main_v67))
      = upd ![0, 3] slices_S100000x27_S100000x1_0_3 ![3, 0] slices_S27x128_S1x128_3_0
          (X (Proc.devRef .tc main_v55)) (X (Proc.devRef .tc main_v58)) (X (Proc.devRef .tc main_v18)) (X (Proc.devRef .tc main_arg5)) := by
  simp only [hostOps2_8]
  after_results_simp
  rfl

theorem next3 (X : Valuation τ sig (Elt F)) :
    StableHlo.after hostOps2_8 X (no_index (Proc.devRef .tc main_v69)) = col ![0, 4] slices_S100000x27_S100000x1_0_4 (X (Proc.devRef .tc main_arg9)) := by
  simp only [hostOps2_8]
  after_results_simp
  rfl

abbrev take4_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v70]
theorem take4_writes : (hostOps2_9 : List (HloOp τ sig (Elt F))).Forall fun op => op.writes ⊆ (take4_W.map (Proc.devRef (τ := τ) .tc)).toFinset := by
  simp only [List.Forall]; and_intros <;> exact writes_sub rfl (by decide)
theorem take4_keep (X : Valuation τ sig (Elt F)) (r : Ref sig .tc) (h : r ∉ take4_W) :
    StableHlo.after hostOps2_9 X (Proc.devRef .tc r) = X (Proc.devRef .tc r) := after_of_writes_sub hostOps2_9 X take4_writes h

theorem take4 (X : Valuation τ sig (Elt F)) :
    StableHlo.after hostOps2_9 X (no_index (Proc.devRef .tc main_v70)) = Val.takeFill (X (Proc.devRef .tc main_v17)) (X (Proc.devRef .tc main_v69)) := by
  simp only [hostOps2_9]
  after_results_simp
  simp only [TRef.ofBuf, TRef.toBuf, cast_eq]
  rfl

abbrev upd4_W : List (Ref sig .tc) := [main_v71, main_v72, main_v73, main_v74, main_v75, main_v76, main_v77, main_v78, main_v79, main_v80, main_v81]
theorem upd4_writes : (hostOps2_10 : List (HloOp τ sig (Elt F))).Forall fun op => op.writes ⊆ (upd4_W.map (Proc.devRef (τ := τ) .tc)).toFinset := by
  simp only [List.Forall]; and_intros <;> exact writes_sub rfl (by decide)
theorem upd4 (X : Valuation τ sig (Elt F)) :
    StableHlo.after hostOps2_10 X (no_index (Proc.devRef .tc main_v79))
      = upd ![0, 4] slices_S100000x27_S100000x1_0_4 ![4, 0] slices_S27x128_S1x128_4_0
          (X (Proc.devRef .tc main_v67)) (X (Proc.devRef .tc main_v70)) (X (Proc.devRef .tc main_v18)) (X (Proc.devRef .tc main_arg5)) := by
  simp only [hostOps2_10]
  after_results_simp
  rfl

theorem next4 (X : Valuation τ sig (Elt F)) :
    StableHlo.after hostOps2_10 X (no_index (Proc.devRef .tc main_v81)) = col ![0, 5] slices_S100000x27_S100000x1_0_5 (X (Proc.devRef .tc main_arg9)) := by
  simp only [hostOps2_10]
  after_results_simp
  rfl

abbrev take5_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v82]
theorem take5_writes : (hostOps2_11 : List (HloOp τ sig (Elt F))).Forall fun op => op.writes ⊆ (take5_W.map (Proc.devRef (τ := τ) .tc)).toFinset := by
  simp only [List.Forall]; and_intros <;> exact writes_sub rfl (by decide)
theorem take5_keep (X : Valuation τ sig (Elt F)) (r : Ref sig .tc) (h : r ∉ take5_W) :
    StableHlo.after hostOps2_11 X (Proc.devRef .tc r) = X (Proc.devRef .tc r) := after_of_writes_sub hostOps2_11 X take5_writes h

theorem take5 (X : Valuation τ sig (Elt F)) :
    StableHlo.after hostOps2_11 X (no_index (Proc.devRef .tc main_v82)) = Val.takeFill (X (Proc.devRef .tc main_v17)) (X (Proc.devRef .tc main_v81)) := by
  simp only [hostOps2_11]
  after_results_simp
  simp only [TRef.ofBuf, TRef.toBuf, cast_eq]
  rfl

abbrev upd5_W : List (Ref sig .tc) := [main_v83, main_v84, main_v85, main_v86, main_v87, main_v88, main_v89, main_v90, main_v91, main_v92, main_v93]
theorem upd5_writes : (hostOps2_12 : List (HloOp τ sig (Elt F))).Forall fun op => op.writes ⊆ (upd5_W.map (Proc.devRef (τ := τ) .tc)).toFinset := by
  simp only [List.Forall]; and_intros <;> exact writes_sub rfl (by decide)
theorem upd5 (X : Valuation τ sig (Elt F)) :
    StableHlo.after hostOps2_12 X (no_index (Proc.devRef .tc main_v91))
      = upd ![0, 5] slices_S100000x27_S100000x1_0_5 ![5, 0] slices_S27x128_S1x128_5_0
          (X (Proc.devRef .tc main_v79)) (X (Proc.devRef .tc main_v82)) (X (Proc.devRef .tc main_v18)) (X (Proc.devRef .tc main_arg5)) := by
  simp only [hostOps2_12]
  after_results_simp
  rfl

theorem next5 (X : Valuation τ sig (Elt F)) :
    StableHlo.after hostOps2_12 X (no_index (Proc.devRef .tc main_v93)) = col ![0, 6] slices_S100000x27_S100000x1_0_6 (X (Proc.devRef .tc main_arg9)) := by
  simp only [hostOps2_12]
  after_results_simp
  rfl

abbrev take6_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v94]
theorem take6_writes : (hostOps2_13 : List (HloOp τ sig (Elt F))).Forall fun op => op.writes ⊆ (take6_W.map (Proc.devRef (τ := τ) .tc)).toFinset := by
  simp only [List.Forall]; and_intros <;> exact writes_sub rfl (by decide)
theorem take6_keep (X : Valuation τ sig (Elt F)) (r : Ref sig .tc) (h : r ∉ take6_W) :
    StableHlo.after hostOps2_13 X (Proc.devRef .tc r) = X (Proc.devRef .tc r) := after_of_writes_sub hostOps2_13 X take6_writes h

theorem take6 (X : Valuation τ sig (Elt F)) :
    StableHlo.after hostOps2_13 X (no_index (Proc.devRef .tc main_v94)) = Val.takeFill (X (Proc.devRef .tc main_v17)) (X (Proc.devRef .tc main_v93)) := by
  simp only [hostOps2_13]
  after_results_simp
  simp only [TRef.ofBuf, TRef.toBuf, cast_eq]
  rfl

abbrev upd6_W : List (Ref sig .tc) := [main_v95, main_v96, main_v97, main_v98, main_v99, main_v100, main_v101, main_v102, main_v103, main_v104, main_v105]
theorem upd6_writes : (hostOps2_14 : List (HloOp τ sig (Elt F))).Forall fun op => op.writes ⊆ (upd6_W.map (Proc.devRef (τ := τ) .tc)).toFinset := by
  simp only [List.Forall]; and_intros <;> exact writes_sub rfl (by decide)
theorem upd6 (X : Valuation τ sig (Elt F)) :
    StableHlo.after hostOps2_14 X (no_index (Proc.devRef .tc main_v103))
      = upd ![0, 6] slices_S100000x27_S100000x1_0_6 ![6, 0] slices_S27x128_S1x128_6_0
          (X (Proc.devRef .tc main_v91)) (X (Proc.devRef .tc main_v94)) (X (Proc.devRef .tc main_v18)) (X (Proc.devRef .tc main_arg5)) := by
  simp only [hostOps2_14]
  after_results_simp
  rfl

theorem next6 (X : Valuation τ sig (Elt F)) :
    StableHlo.after hostOps2_14 X (no_index (Proc.devRef .tc main_v105)) = col ![0, 7] slices_S100000x27_S100000x1_0_7 (X (Proc.devRef .tc main_arg9)) := by
  simp only [hostOps2_14]
  after_results_simp
  rfl

abbrev take7_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v106]
theorem take7_writes : (hostOps2_15 : List (HloOp τ sig (Elt F))).Forall fun op => op.writes ⊆ (take7_W.map (Proc.devRef (τ := τ) .tc)).toFinset := by
  simp only [List.Forall]; and_intros <;> exact writes_sub rfl (by decide)
theorem take7_keep (X : Valuation τ sig (Elt F)) (r : Ref sig .tc) (h : r ∉ take7_W) :
    StableHlo.after hostOps2_15 X (Proc.devRef .tc r) = X (Proc.devRef .tc r) := after_of_writes_sub hostOps2_15 X take7_writes h

theorem take7 (X : Valuation τ sig (Elt F)) :
    StableHlo.after hostOps2_15 X (no_index (Proc.devRef .tc main_v106)) = Val.takeFill (X (Proc.devRef .tc main_v17)) (X (Proc.devRef .tc main_v105)) := by
  simp only [hostOps2_15]
  after_results_simp
  simp only [TRef.ofBuf, TRef.toBuf, cast_eq]
  rfl

abbrev upd7_W : List (Ref sig .tc) := [main_v107, main_v108, main_v109, main_v110, main_v111, main_v112, main_v113, main_v114, main_v115, main_v116, main_v117]
theorem upd7_writes : (hostOps2_16 : List (HloOp τ sig (Elt F))).Forall fun op => op.writes ⊆ (upd7_W.map (Proc.devRef (τ := τ) .tc)).toFinset := by
  simp only [List.Forall]; and_intros <;> exact writes_sub rfl (by decide)
theorem upd7 (X : Valuation τ sig (Elt F)) :
    StableHlo.after hostOps2_16 X (no_index (Proc.devRef .tc main_v115))
      = upd ![0, 7] slices_S100000x27_S100000x1_0_7 ![7, 0] slices_S27x128_S1x128_7_0
          (X (Proc.devRef .tc main_v103)) (X (Proc.devRef .tc main_v106)) (X (Proc.devRef .tc main_v18)) (X (Proc.devRef .tc main_arg5)) := by
  simp only [hostOps2_16]
  after_results_simp
  rfl

theorem next7 (X : Valuation τ sig (Elt F)) :
    StableHlo.after hostOps2_16 X (no_index (Proc.devRef .tc main_v117)) = col ![0, 8] slices_S100000x27_S100000x1_0_8 (X (Proc.devRef .tc main_arg9)) := by
  simp only [hostOps2_16]
  after_results_simp
  rfl

end Cert.KernelIdeal.Host

end
-- ==== Proof.KHostC.lean ====
import proofs.«410615_j21474836480482_3_alg».proof.Proof.KernelIdealFrameP
import proofs.«410615_j21474836480482_3_alg».proof.Proof.KTerms
import proofs.«410615_j21474836480482_3_alg».proof.Proof.KHostA

noncomputable section

namespace Cert.KernelIdeal.Host

open Idealize.ShloMosaic Idealize.ShloMosaic.TcCoe Idealize.ShloMosaic.StableHlo Cert.KernelIdeal Cert.KernelIdeal.Gen Cert.KernelIdeal.GenP

variable {F : FTy → Type} [FloatOps F]

abbrev take8_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v118]
theorem take8_writes : (hostOps2_17 : List (HloOp τ sig (Elt F))).Forall fun op => op.writes ⊆ (take8_W.map (Proc.devRef (τ := τ) .tc)).toFinset := by
  simp only [List.Forall]; and_intros <;> exact writes_sub rfl (by decide)
theorem take8_keep (X : Valuation τ sig (Elt F)) (r : Ref sig .tc) (h : r ∉ take8_W) :
    StableHlo.after hostOps2_17 X (Proc.devRef .tc r) = X (Proc.devRef .tc r) := after_of_writes_sub hostOps2_17 X take8_writes h

theorem take8 (X : Valuation τ sig (Elt F)) :
    StableHlo.after hostOps2_17 X (no_index (Proc.devRef .tc main_v118)) = Val.takeFill (X (Proc.devRef .tc main_v17)) (X (Proc.devRef .tc main_v117)) := by
  simp only [hostOps2_17]
  after_results_simp
  simp only [TRef.ofBuf, TRef.toBuf, cast_eq]
  rfl

abbrev upd8_W : List (Ref sig .tc) := [main_v119, main_v120, main_v121, main_v122, main_v123, main_v124, main_v125, main_v126, main_v127, main_v128, main_v129]
theorem upd8_writes : (hostOps2_18 : List (HloOp τ sig (Elt F))).Forall fun op => op.writes ⊆ (upd8_W.map (Proc.devRef (τ := τ) .tc)).toFinset := by
  simp only [List.Forall]; and_intros <;> exact writes_sub rfl (by decide)
theorem upd8 (X : Valuation τ sig (Elt F)) :
    StableHlo.after hostOps2_18 X (no_index (Proc.devRef .tc main_v127))
      = upd ![0, 8] slices_S100000x27_S100000x1_0_8 ![8, 0] slices_S27x128_S1x128_8_0
          (X (Proc.devRef .tc main_v115)) (X (Proc.devRef .tc main_v118)) (X (Proc.devRef .tc main_v18)) (X (Proc.devRef .tc main_arg5)) := by
  simp only [hostOps2_18]
  after_results_simp
  rfl

theorem next8 (X : Valuation τ sig (Elt F)) :
    StableHlo.after hostOps2_18 X (no_index (Proc.devRef .tc main_v129)) = col ![0, 9] slices_S100000x27_S100000x1_0_9 (X (Proc.devRef .tc main_arg9)) := by
  simp only [hostOps2_18]
  after_results_simp
  rfl

abbrev take9_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v130]
theorem take9_writes : (hostOps2_19 : List (HloOp τ sig (Elt F))).Forall fun op => op.writes ⊆ (take9_W.map (Proc.devRef (τ := τ) .tc)).toFinset := by
  simp only [List.Forall]; and_intros <;> exact writes_sub rfl (by decide)
theorem take9_keep (X : Valuation τ sig (Elt F)) (r : Ref sig .tc) (h : r ∉ take9_W) :
    StableHlo.after hostOps2_19 X (Proc.devRef .tc r) = X (Proc.devRef .tc r) := after_of_writes_sub hostOps2_19 X take9_writes h

theorem take9 (X : Valuation τ sig (Elt F)) :
    StableHlo.after hostOps2_19 X (no_index (Proc.devRef .tc main_v130)) = Val.takeFill (X (Proc.devRef .tc main_v17)) (X (Proc.devRef .tc main_v129)) := by
  simp only [hostOps2_19]
  after_results_simp
  simp only [TRef.ofBuf, TRef.toBuf, cast_eq]
  rfl

abbrev upd9_W : List (Ref sig .tc) := [main_v131, main_v132, main_v133, main_v134, main_v135, main_v136, main_v137, main_v138, main_v139, main_v140, main_v141]
theorem upd9_writes : (hostOps2_20 : List (HloOp τ sig (Elt F))).Forall fun op => op.writes ⊆ (upd9_W.map (Proc.devRef (τ := τ) .tc)).toFinset := by
  simp only [List.Forall]; and_intros <;> exact writes_sub rfl (by decide)
theorem upd9 (X : Valuation τ sig (Elt F)) :
    StableHlo.after hostOps2_20 X (no_index (Proc.devRef .tc main_v139))
      = upd ![0, 9] slices_S100000x27_S100000x1_0_9 ![9, 0] slices_S27x128_S1x128_9_0
          (X (Proc.devRef .tc main_v127)) (X (Proc.devRef .tc main_v130)) (X (Proc.devRef .tc main_v18)) (X (Proc.devRef .tc main_arg5)) := by
  simp only [hostOps2_20]
  after_results_simp
  rfl

theorem next9 (X : Valuation τ sig (Elt F)) :
    StableHlo.after hostOps2_20 X (no_index (Proc.devRef .tc main_v141)) = col ![0, 10] slices_S100000x27_S100000x1_0_10 (X (Proc.devRef .tc main_arg9)) := by
  simp only [hostOps2_20]
  after_results_simp
  rfl

abbrev take10_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v142]
theorem take10_writes : (hostOps2_21 : List (HloOp τ sig (Elt F))).Forall fun op => op.writes ⊆ (take10_W.map (Proc.devRef (τ := τ) .tc)).toFinset := by
  simp only [List.Forall]; and_intros <;> exact writes_sub rfl (by decide)
theorem take10_keep (X : Valuation τ sig (Elt F)) (r : Ref sig .tc) (h : r ∉ take10_W) :
    StableHlo.after hostOps2_21 X (Proc.devRef .tc r) = X (Proc.devRef .tc r) := after_of_writes_sub hostOps2_21 X take10_writes h

theorem take10 (X : Valuation τ sig (Elt F)) :
    StableHlo.after hostOps2_21 X (no_index (Proc.devRef .tc main_v142)) = Val.takeFill (X (Proc.devRef .tc main_v17)) (X (Proc.devRef .tc main_v141)) := by
  simp only [hostOps2_21]
  after_results_simp
  simp only [TRef.ofBuf, TRef.toBuf, cast_eq]
  rfl

abbrev upd10_W : List (Ref sig .tc) := [main_v143, main_v144, main_v145, main_v146, main_v147, main_v148, main_v149, main_v150, main_v151, main_v152, main_v153]
theorem upd10_writes : (hostOps2_22 : List (HloOp τ sig (Elt F))).Forall fun op => op.writes ⊆ (upd10_W.map (Proc.devRef (τ := τ) .tc)).toFinset := by
  simp only [List.Forall]; and_intros <;> exact writes_sub rfl (by decide)
theorem upd10 (X : Valuation τ sig (Elt F)) :
    StableHlo.after hostOps2_22 X (no_index (Proc.devRef .tc main_v151))
      = upd ![0, 10] slices_S100000x27_S100000x1_0_10 ![10, 0] slices_S27x128_S1x128_10_0
          (X (Proc.devRef .tc main_v139)) (X (Proc.devRef .tc main_v142)) (X (Proc.devRef .tc main_v18)) (X (Proc.devRef .tc main_arg5)) := by
  simp only [hostOps2_22]
  after_results_simp
  rfl

theorem next10 (X : Valuation τ sig (Elt F)) :
    StableHlo.after hostOps2_22 X (no_index (Proc.devRef .tc main_v153)) = col ![0, 11] slices_S100000x27_S100000x1_0_11 (X (Proc.devRef .tc main_arg9)) := by
  simp only [hostOps2_22]
  after_results_simp
  rfl

abbrev take11_W : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v154]
theorem take11_writes : (hostOps2_23 : List (HloOp τ sig (Elt F))).Forall fun op => op.writes ⊆ (take11_W.map (Proc.devRef (τ := τ) .tc)).toFinset := by
  simp only [List.Forall]; and_intros <;> exact writes_sub rfl (by decide)
theorem take11_keep (X : Valuation τ sig (Elt F)) (r : Ref sig .tc) (h : r ∉ take11_W) :
    StableHlo.after hostOps2_23 X (Proc.devRef .tc r) = X (Proc.devRef .tc r) := after_of_writes_sub hostOps2_23 X take11_writes h

theorem take11 (X : Valuation τ sig (Elt F)) :
    StableHlo.after hostOps2_23 X (no_index (Proc.devRef .tc main_v154)) = Val.takeFill (X (Proc.devRef .tc main_v17)) (X (Proc.devRef .tc main_v153)) := by
  simp only [hostOps2_23]
  after_results_simp
  simp only [TRef.ofBuf, TRef.toBuf, cast_eq]
  rfl

abbrev upd11_W : List (Ref sig .tc) := [main_v155, main_v156, main_v157, main_v158, main_v159, main_v160, main_v161, main_v162, main_v163, main_v164, main_v165]
theorem upd11_writes : (hostOps2_24 : List (HloOp τ sig (Elt F))).Forall fun op => op.writes ⊆ (upd11_W.map (Proc.devRef (τ := τ) .tc)).toFinset := by
  simp only [List.Forall]; and_intros <;> exact writes_sub rfl (by decide)
theorem upd11 (X : Valuation τ sig (Elt F)) :
    StableHlo.after hostOps2_24 X (no_index (Proc.devRef .tc main_v163))
      = upd ![0, 11] slices_S100000x27_S100000x1_0_11 ![11, 0] slices_S27x128_S1x128_11_0
          (X (Proc.devRef .tc main_v151)) (X (Proc.devRef .tc main_v154)) (X (Proc.devRef .tc main_v18)) (X (Proc.devRef .tc main_arg5)) := by
  simp only [hostOps2_24]
  after_results_simp
  rfl

theorem next11 (X : Valuation τ sig (Elt F)) :
    StableHlo.after hostOps2_24 X (no_index (Proc.devRef .tc main_v165)) = col ![0, 12] slices_S100000x27_S100000x1_0_12 (X (Proc.devRef .tc main_arg9)) := by
  simp only [hostOps2_24]
  after_results_simp
  rfl

abbrev take12_W : List (Ref sig .tc) := [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_v14, main_call12_cst, main_call12_v15, main_v166]
theorem take12_writes : (hostOps2_25 : List (HloOp τ sig (Elt F))).Forall fun op => op.writes ⊆ (take12_W.map (Proc.devRef (τ := τ) .tc)).toFinset := by
  simp only [List.Forall]; and_intros <;> exact writes_sub rfl (by decide)
theorem take12_keep (X : Valuation τ sig (Elt F)) (r : Ref sig .tc) (h : r ∉ take12_W) :
    StableHlo.after hostOps2_25 X (Proc.devRef .tc r) = X (Proc.devRef .tc r) := after_of_writes_sub hostOps2_25 X take12_writes h

theorem take12 (X : Valuation τ sig (Elt F)) :
    StableHlo.after hostOps2_25 X (no_index (Proc.devRef .tc main_v166)) = Val.takeFill (X (Proc.devRef .tc main_v17)) (X (Proc.devRef .tc main_v165)) := by
  simp only [hostOps2_25]
  after_results_simp
  simp only [TRef.ofBuf, TRef.toBuf, cast_eq]
  rfl

abbrev upd12_W : List (Ref sig .tc) := [main_v167, main_v168, main_v169, main_v170, main_v171, main_v172, main_v173, main_v174, main_v175, main_v176, main_v177]
theorem upd12_writes : (hostOps2_26 : List (HloOp τ sig (Elt F))).Forall fun op => op.writes ⊆ (upd12_W.map (Proc.devRef (τ := τ) .tc)).toFinset := by
  simp only [List.Forall]; and_intros <;> exact writes_sub rfl (by decide)
theorem upd12 (X : Valuation τ sig (Elt F)) :
    StableHlo.after hostOps2_26 X (no_index (Proc.devRef .tc main_v175))
      = upd ![0, 12] slices_S100000x27_S100000x1_0_12 ![12, 0] slices_S27x128_S1x128_12_0
          (X (Proc.devRef .tc main_v163)) (X (Proc.devRef .tc main_v166)) (X (Proc.devRef .tc main_v18)) (X (Proc.devRef .tc main_arg5)) := by
  simp only [hostOps2_26]
  after_results_simp
  rfl

theorem next12 (X : Valuation τ sig (Elt F)) :
    StableHlo.after hostOps2_26 X (no_index (Proc.devRef .tc main_v177)) = col ![0, 13] slices_S100000x27_S100000x1_0_13 (X (Proc.devRef .tc main_arg9)) := by
  simp only [hostOps2_26]
  after_results_simp
  rfl

abbrev take13_W : List (Ref sig .tc) := [main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v178]
theorem take13_writes : (hostOps2_27 : List (HloOp τ sig (Elt F))).Forall fun op => op.writes ⊆ (take13_W.map (Proc.devRef (τ := τ) .tc)).toFinset := by
  simp only [List.Forall]; and_intros <;> exact writes_sub rfl (by decide)
theorem take13_keep (X : Valuation τ sig (Elt F)) (r : Ref sig .tc) (h : r ∉ take13_W) :
    StableHlo.after hostOps2_27 X (Proc.devRef .tc r) = X (Proc.devRef .tc r) := after_of_writes_sub hostOps2_27 X take13_writes h

theorem take13 (X : Valuation τ sig (Elt F)) :
    StableHlo.after hostOps2_27 X (no_index (Proc.devRef .tc main_v178)) = Val.takeFill (X (Proc.devRef .tc main_v17)) (X (Proc.devRef .tc main_v177)) := by
  simp only [hostOps2_27]
  after_results_simp
  simp only [TRef.ofBuf, TRef.toBuf, cast_eq]
  rfl

abbrev upd13_W : List (Ref sig .tc) := [main_v179, main_v180, main_v181, main_v182, main_v183, main_v184, main_v185, main_v186, main_v187, main_v188, main_v189]
theorem upd13_writes : (hostOps2_28 : List (HloOp τ sig (Elt F))).Forall fun op => op.writes ⊆ (upd13_W.map (Proc.devRef (τ := τ) .tc)).toFinset := by
  simp only [List.Forall]; and_intros <;> exact writes_sub rfl (by decide)
theorem upd13 (X : Valuation τ sig (Elt F)) :
    StableHlo.after hostOps2_28 X (no_index (Proc.devRef .tc main_v187))
      = upd ![0, 13] slices_S100000x27_S100000x1_0_13 ![13, 0] slices_S27x128_S1x128_13_0
          (X (Proc.devRef .tc main_v175)) (X (Proc.devRef .tc main_v178)) (X (Proc.devRef .tc main_v18)) (X (Proc.devRef .tc main_arg5)) := by
  simp only [hostOps2_28]
  after_results_simp
  rfl

theorem next13 (X : Valuation τ sig (Elt F)) :
    StableHlo.after hostOps2_28 X (no_index (Proc.devRef .tc main_v189)) = col ![0, 14] slices_S100000x27_S100000x1_0_14 (X (Proc.devRef .tc main_arg9)) := by
  simp only [hostOps2_28]
  after_results_simp
  rfl

end Cert.KernelIdeal.Host

end
-- ==== Proof.KHostD.lean ====
import proofs.«410615_j21474836480482_3_alg».proof.Proof.KernelIdealFrameP
import proofs.«410615_j21474836480482_3_alg».proof.Proof.KTerms
import proofs.«410615_j21474836480482_3_alg».proof.Proof.KHostA

noncomputable section

namespace Cert.KernelIdeal.Host

open Idealize.ShloMosaic Idealize.ShloMosaic.TcCoe Idealize.ShloMosaic.StableHlo Cert.KernelIdeal Cert.KernelIdeal.Gen Cert.KernelIdeal.GenP

variable {F : FTy → Type} [FloatOps F]

abbrev take14_W : List (Ref sig .tc) := [main_call14_c, main_call14_v0, main_call14_v1, main_call14_c_0, main_call14_v2, main_call14_v3, main_call14_v4, main_call14_v5, main_call14_c_1, main_call14_c_2, main_call14_v6, main_call14_v7, main_call14_v8, main_call14_v9, main_call14_v10, main_call14_v11, main_call14_c_3, main_call14_v12, main_call14_v13, main_call14_v14, main_call14_cst, main_call14_v15, main_v190]
theorem take14_writes : (hostOps2_29 : List (HloOp τ sig (Elt F))).Forall fun op => op.writes ⊆ (take14_W.map (Proc.devRef (τ := τ) .tc)).toFinset := by
  simp only [List.Forall]; and_intros <;> exact writes_sub rfl (by decide)
theorem take14_keep (X : Valuation τ sig (Elt F)) (r : Ref sig .tc) (h : r ∉ take14_W) :
    StableHlo.after hostOps2_29 X (Proc.devRef .tc r) = X (Proc.devRef .tc r) := after_of_writes_sub hostOps2_29 X take14_writes h

theorem take14 (X : Valuation τ sig (Elt F)) :
    StableHlo.after hostOps2_29 X (no_index (Proc.devRef .tc main_v190)) = Val.takeFill (X (Proc.devRef .tc main_v17)) (X (Proc.devRef .tc main_v189)) := by
  simp only [hostOps2_29]
  after_results_simp
  simp only [TRef.ofBuf, TRef.toBuf, cast_eq]
  rfl

abbrev upd14_W : List (Ref sig .tc) := [main_v191, main_v192, main_v193, main_v194, main_v195, main_v196, main_v197, main_v198, main_v199, main_v200, main_v201]
theorem upd14_writes : (hostOps2_30 : List (HloOp τ sig (Elt F))).Forall fun op => op.writes ⊆ (upd14_W.map (Proc.devRef (τ := τ) .tc)).toFinset := by
  simp only [List.Forall]; and_intros <;> exact writes_sub rfl (by decide)
theorem upd14 (X : Valuation τ sig (Elt F)) :
    StableHlo.after hostOps2_30 X (no_index (Proc.devRef .tc main_v199))
      = upd ![0, 14] slices_S100000x27_S100000x1_0_14 ![14, 0] slices_S27x128_S1x128_14_0
          (X (Proc.devRef .tc main_v187)) (X (Proc.devRef .tc main_v190)) (X (Proc.devRef .tc main_v18)) (X (Proc.devRef .tc main_arg5)) := by
  simp only [hostOps2_30]
  after_results_simp
  rfl

theorem next14 (X : Valuation τ sig (Elt F)) :
    StableHlo.after hostOps2_30 X (no_index (Proc.devRef .tc main_v201)) = col ![0, 15] slices_S100000x27_S100000x1_0_15 (X (Proc.devRef .tc main_arg9)) := by
  simp only [hostOps2_30]
  after_results_simp
  rfl

abbrev take15_W : List (Ref sig .tc) := [main_call15_c, main_call15_v0, main_call15_v1, main_call15_c_0, main_call15_v2, main_call15_v3, main_call15_v4, main_call15_v5, main_call15_c_1, main_call15_c_2, main_call15_v6, main_call15_v7, main_call15_v8, main_call15_v9, main_call15_v10, main_call15_v11, main_call15_c_3, main_call15_v12, main_call15_v13, main_call15_v14, main_call15_cst, main_call15_v15, main_v202]
theorem take15_writes : (hostOps2_31 : List (HloOp τ sig (Elt F))).Forall fun op => op.writes ⊆ (take15_W.map (Proc.devRef (τ := τ) .tc)).toFinset := by
  simp only [List.Forall]; and_intros <;> exact writes_sub rfl (by decide)
theorem take15_keep (X : Valuation τ sig (Elt F)) (r : Ref sig .tc) (h : r ∉ take15_W) :
    StableHlo.after hostOps2_31 X (Proc.devRef .tc r) = X (Proc.devRef .tc r) := after_of_writes_sub hostOps2_31 X take15_writes h

theorem take15 (X : Valuation τ sig (Elt F)) :
    StableHlo.after hostOps2_31 X (no_index (Proc.devRef .tc main_v202)) = Val.takeFill (X (Proc.devRef .tc main_v17)) (X (Proc.devRef .tc main_v201)) := by
  simp only [hostOps2_31]
  after_results_simp
  simp only [TRef.ofBuf, TRef.toBuf, cast_eq]
  rfl

abbrev upd15_W : List (Ref sig .tc) := [main_v203, main_v204, main_v205, main_v206, main_v207, main_v208, main_v209, main_v210, main_v211, main_v212, main_v213]
theorem upd15_writes : (hostOps2_32 : List (HloOp τ sig (Elt F))).Forall fun op => op.writes ⊆ (upd15_W.map (Proc.devRef (τ := τ) .tc)).toFinset := by
  simp only [List.Forall]; and_intros <;> exact writes_sub rfl (by decide)
theorem upd15 (X : Valuation τ sig (Elt F)) :
    StableHlo.after hostOps2_32 X (no_index (Proc.devRef .tc main_v211))
      = upd ![0, 15] slices_S100000x27_S100000x1_0_15 ![15, 0] slices_S27x128_S1x128_15_0
          (X (Proc.devRef .tc main_v199)) (X (Proc.devRef .tc main_v202)) (X (Proc.devRef .tc main_v18)) (X (Proc.devRef .tc main_arg5)) := by
  simp only [hostOps2_32]
  after_results_simp
  rfl

theorem next15 (X : Valuation τ sig (Elt F)) :
    StableHlo.after hostOps2_32 X (no_index (Proc.devRef .tc main_v213)) = col ![0, 16] slices_S100000x27_S100000x1_0_16 (X (Proc.devRef .tc main_arg9)) := by
  simp only [hostOps2_32]
  after_results_simp
  rfl

abbrev take16_W : List (Ref sig .tc) := [main_call16_c, main_call16_v0, main_call16_v1, main_call16_c_0, main_call16_v2, main_call16_v3, main_call16_v4, main_call16_v5, main_call16_c_1, main_call16_c_2, main_call16_v6, main_call16_v7, main_call16_v8, main_call16_v9, main_call16_v10, main_call16_v11, main_call16_c_3, main_call16_v12, main_call16_v13, main_call16_v14, main_call16_cst, main_call16_v15, main_v214]
theorem take16_writes : (hostOps2_33 : List (HloOp τ sig (Elt F))).Forall fun op => op.writes ⊆ (take16_W.map (Proc.devRef (τ := τ) .tc)).toFinset := by
  simp only [List.Forall]; and_intros <;> exact writes_sub rfl (by decide)
theorem take16_keep (X : Valuation τ sig (Elt F)) (r : Ref sig .tc) (h : r ∉ take16_W) :
    StableHlo.after hostOps2_33 X (Proc.devRef .tc r) = X (Proc.devRef .tc r) := after_of_writes_sub hostOps2_33 X take16_writes h

theorem take16 (X : Valuation τ sig (Elt F)) :
    StableHlo.after hostOps2_33 X (no_index (Proc.devRef .tc main_v214)) = Val.takeFill (X (Proc.devRef .tc main_v17)) (X (Proc.devRef .tc main_v213)) := by
  simp only [hostOps2_33]
  after_results_simp
  simp only [TRef.ofBuf, TRef.toBuf, cast_eq]
  rfl

abbrev upd16_W : List (Ref sig .tc) := [main_v215, main_v216, main_v217, main_v218, main_v219, main_v220, main_v221, main_v222, main_v223, main_v224, main_v225]
theorem upd16_writes : (hostOps2_34 : List (HloOp τ sig (Elt F))).Forall fun op => op.writes ⊆ (upd16_W.map (Proc.devRef (τ := τ) .tc)).toFinset := by
  simp only [List.Forall]; and_intros <;> exact writes_sub rfl (by decide)
theorem upd16 (X : Valuation τ sig (Elt F)) :
    StableHlo.after hostOps2_34 X (no_index (Proc.devRef .tc main_v223))
      = upd ![0, 16] slices_S100000x27_S100000x1_0_16 ![16, 0] slices_S27x128_S1x128_16_0
          (X (Proc.devRef .tc main_v211)) (X (Proc.devRef .tc main_v214)) (X (Proc.devRef .tc main_v18)) (X (Proc.devRef .tc main_arg5)) := by
  simp only [hostOps2_34]
  after_results_simp
  rfl

theorem next16 (X : Valuation τ sig (Elt F)) :
    StableHlo.after hostOps2_34 X (no_index (Proc.devRef .tc main_v225)) = col ![0, 17] slices_S100000x27_S100000x1_0_17 (X (Proc.devRef .tc main_arg9)) := by
  simp only [hostOps2_34]
  after_results_simp
  rfl

abbrev take17_W : List (Ref sig .tc) := [main_call17_c, main_call17_v0, main_call17_v1, main_call17_c_0, main_call17_v2, main_call17_v3, main_call17_v4, main_call17_v5, main_call17_c_1, main_call17_c_2, main_call17_v6, main_call17_v7, main_call17_v8, main_call17_v9, main_call17_v10, main_call17_v11, main_call17_c_3, main_call17_v12, main_call17_v13, main_call17_v14, main_call17_cst, main_call17_v15, main_v226]
theorem take17_writes : (hostOps2_35 : List (HloOp τ sig (Elt F))).Forall fun op => op.writes ⊆ (take17_W.map (Proc.devRef (τ := τ) .tc)).toFinset := by
  simp only [List.Forall]; and_intros <;> exact writes_sub rfl (by decide)
theorem take17_keep (X : Valuation τ sig (Elt F)) (r : Ref sig .tc) (h : r ∉ take17_W) :
    StableHlo.after hostOps2_35 X (Proc.devRef .tc r) = X (Proc.devRef .tc r) := after_of_writes_sub hostOps2_35 X take17_writes h

theorem take17 (X : Valuation τ sig (Elt F)) :
    StableHlo.after hostOps2_35 X (no_index (Proc.devRef .tc main_v226)) = Val.takeFill (X (Proc.devRef .tc main_v17)) (X (Proc.devRef .tc main_v225)) := by
  simp only [hostOps2_35]
  after_results_simp
  simp only [TRef.ofBuf, TRef.toBuf, cast_eq]
  rfl

abbrev upd17_W : List (Ref sig .tc) := [main_v227, main_v228, main_v229, main_v230, main_v231, main_v232, main_v233, main_v234, main_v235, main_v236, main_v237]
theorem upd17_writes : (hostOps2_36 : List (HloOp τ sig (Elt F))).Forall fun op => op.writes ⊆ (upd17_W.map (Proc.devRef (τ := τ) .tc)).toFinset := by
  simp only [List.Forall]; and_intros <;> exact writes_sub rfl (by decide)
theorem upd17 (X : Valuation τ sig (Elt F)) :
    StableHlo.after hostOps2_36 X (no_index (Proc.devRef .tc main_v235))
      = upd ![0, 17] slices_S100000x27_S100000x1_0_17 ![17, 0] slices_S27x128_S1x128_17_0
          (X (Proc.devRef .tc main_v223)) (X (Proc.devRef .tc main_v226)) (X (Proc.devRef .tc main_v18)) (X (Proc.devRef .tc main_arg5)) := by
  simp only [hostOps2_36]
  after_results_simp
  rfl

theorem next17 (X : Valuation τ sig (Elt F)) :
    StableHlo.after hostOps2_36 X (no_index (Proc.devRef .tc main_v237)) = col ![0, 18] slices_S100000x27_S100000x1_0_18 (X (Proc.devRef .tc main_arg9)) := by
  simp only [hostOps2_36]
  after_results_simp
  rfl

abbrev take18_W : List (Ref sig .tc) := [main_call18_c, main_call18_v0, main_call18_v1, main_call18_c_0, main_call18_v2, main_call18_v3, main_call18_v4, main_call18_v5, main_call18_c_1, main_call18_c_2, main_call18_v6, main_call18_v7, main_call18_v8, main_call18_v9, main_call18_v10, main_call18_v11, main_call18_c_3, main_call18_v12, main_call18_v13, main_call18_v14, main_call18_cst, main_call18_v15, main_v238]
theorem take18_writes : (hostOps2_37 : List (HloOp τ sig (Elt F))).Forall fun op => op.writes ⊆ (take18_W.map (Proc.devRef (τ := τ) .tc)).toFinset := by
  simp only [List.Forall]; and_intros <;> exact writes_sub rfl (by decide)
theorem take18_keep (X : Valuation τ sig (Elt F)) (r : Ref sig .tc) (h : r ∉ take18_W) :
    StableHlo.after hostOps2_37 X (Proc.devRef .tc r) = X (Proc.devRef .tc r) := after_of_writes_sub hostOps2_37 X take18_writes h

theorem take18 (X : Valuation τ sig (Elt F)) :
    StableHlo.after hostOps2_37 X (no_index (Proc.devRef .tc main_v238)) = Val.takeFill (X (Proc.devRef .tc main_v17)) (X (Proc.devRef .tc main_v237)) := by
  simp only [hostOps2_37]
  after_results_simp
  simp only [TRef.ofBuf, TRef.toBuf, cast_eq]
  rfl

abbrev upd18_W : List (Ref sig .tc) := [main_v239, main_v240, main_v241, main_v242, main_v243, main_v244, main_v245, main_v246, main_v247, main_v248, main_v249]
theorem upd18_writes : (hostOps2_38 : List (HloOp τ sig (Elt F))).Forall fun op => op.writes ⊆ (upd18_W.map (Proc.devRef (τ := τ) .tc)).toFinset := by
  simp only [List.Forall]; and_intros <;> exact writes_sub rfl (by decide)
theorem upd18 (X : Valuation τ sig (Elt F)) :
    StableHlo.after hostOps2_38 X (no_index (Proc.devRef .tc main_v247))
      = upd ![0, 18] slices_S100000x27_S100000x1_0_18 ![18, 0] slices_S27x128_S1x128_18_0
          (X (Proc.devRef .tc main_v235)) (X (Proc.devRef .tc main_v238)) (X (Proc.devRef .tc main_v18)) (X (Proc.devRef .tc main_arg5)) := by
  simp only [hostOps2_38]
  after_results_simp
  rfl

theorem next18 (X : Valuation τ sig (Elt F)) :
    StableHlo.after hostOps2_38 X (no_index (Proc.devRef .tc main_v249)) = col ![0, 19] slices_S100000x27_S100000x1_0_19 (X (Proc.devRef .tc main_arg9)) := by
  simp only [hostOps2_38]
  after_results_simp
  rfl

abbrev take19_W : List (Ref sig .tc) := [main_call19_c, main_call19_v0, main_call19_v1, main_call19_c_0, main_call19_v2, main_call19_v3, main_call19_v4, main_call19_v5, main_call19_c_1, main_call19_c_2, main_call19_v6, main_call19_v7, main_call19_v8, main_call19_v9, main_call19_v10, main_call19_v11, main_call19_c_3, main_call19_v12, main_call19_v13, main_call19_v14, main_call19_cst, main_call19_v15, main_v250]
theorem take19_writes : (hostOps2_39 : List (HloOp τ sig (Elt F))).Forall fun op => op.writes ⊆ (take19_W.map (Proc.devRef (τ := τ) .tc)).toFinset := by
  simp only [List.Forall]; and_intros <;> exact writes_sub rfl (by decide)
theorem take19_keep (X : Valuation τ sig (Elt F)) (r : Ref sig .tc) (h : r ∉ take19_W) :
    StableHlo.after hostOps2_39 X (Proc.devRef .tc r) = X (Proc.devRef .tc r) := after_of_writes_sub hostOps2_39 X take19_writes h

theorem take19 (X : Valuation τ sig (Elt F)) :
    StableHlo.after hostOps2_39 X (no_index (Proc.devRef .tc main_v250)) = Val.takeFill (X (Proc.devRef .tc main_v17)) (X (Proc.devRef .tc main_v249)) := by
  simp only [hostOps2_39]
  after_results_simp
  simp only [TRef.ofBuf, TRef.toBuf, cast_eq]
  rfl

abbrev upd19_W : List (Ref sig .tc) := [main_v251, main_v252, main_v253, main_v254, main_v255, main_v256, main_v257, main_v258, main_v259, main_v260, main_v261]
theorem upd19_writes : (hostOps2_40 : List (HloOp τ sig (Elt F))).Forall fun op => op.writes ⊆ (upd19_W.map (Proc.devRef (τ := τ) .tc)).toFinset := by
  simp only [List.Forall]; and_intros <;> exact writes_sub rfl (by decide)
theorem upd19 (X : Valuation τ sig (Elt F)) :
    StableHlo.after hostOps2_40 X (no_index (Proc.devRef .tc main_v259))
      = upd ![0, 19] slices_S100000x27_S100000x1_0_19 ![19, 0] slices_S27x128_S1x128_19_0
          (X (Proc.devRef .tc main_v247)) (X (Proc.devRef .tc main_v250)) (X (Proc.devRef .tc main_v18)) (X (Proc.devRef .tc main_arg5)) := by
  simp only [hostOps2_40]
  after_results_simp
  rfl

theorem next19 (X : Valuation τ sig (Elt F)) :
    StableHlo.after hostOps2_40 X (no_index (Proc.devRef .tc main_v261)) = col ![0, 20] slices_S100000x27_S100000x1_0_20 (X (Proc.devRef .tc main_arg9)) := by
  simp only [hostOps2_40]
  after_results_simp
  rfl

end Cert.KernelIdeal.Host

end
-- ==== Proof.KHostE.lean ====
import proofs.«410615_j21474836480482_3_alg».proof.Proof.KernelIdealFrameP
import proofs.«410615_j21474836480482_3_alg».proof.Proof.KTerms
import proofs.«410615_j21474836480482_3_alg».proof.Proof.KHostA

noncomputable section

namespace Cert.KernelIdeal.Host

open Idealize.ShloMosaic Idealize.ShloMosaic.TcCoe Idealize.ShloMosaic.StableHlo Cert.KernelIdeal Cert.KernelIdeal.Gen Cert.KernelIdeal.GenP

variable {F : FTy → Type} [FloatOps F]

abbrev take20_W : List (Ref sig .tc) := [main_call20_c, main_call20_v0, main_call20_v1, main_call20_c_0, main_call20_v2, main_call20_v3, main_call20_v4, main_call20_v5, main_call20_c_1, main_call20_c_2, main_call20_v6, main_call20_v7, main_call20_v8, main_call20_v9, main_call20_v10, main_call20_v11, main_call20_c_3, main_call20_v12, main_call20_v13, main_call20_v14, main_call20_cst, main_call20_v15, main_v262]
theorem take20_writes : (hostOps2_41 : List (HloOp τ sig (Elt F))).Forall fun op => op.writes ⊆ (take20_W.map (Proc.devRef (τ := τ) .tc)).toFinset := by
  simp only [List.Forall]; and_intros <;> exact writes_sub rfl (by decide)
theorem take20_keep (X : Valuation τ sig (Elt F)) (r : Ref sig .tc) (h : r ∉ take20_W) :
    StableHlo.after hostOps2_41 X (Proc.devRef .tc r) = X (Proc.devRef .tc r) := after_of_writes_sub hostOps2_41 X take20_writes h

theorem take20 (X : Valuation τ sig (Elt F)) :
    StableHlo.after hostOps2_41 X (no_index (Proc.devRef .tc main_v262)) = Val.takeFill (X (Proc.devRef .tc main_v17)) (X (Proc.devRef .tc main_v261)) := by
  simp only [hostOps2_41]
  after_results_simp
  simp only [TRef.ofBuf, TRef.toBuf, cast_eq]
  rfl

abbrev upd20_W : List (Ref sig .tc) := [main_v263, main_v264, main_v265, main_v266, main_v267, main_v268, main_v269, main_v270, main_v271, main_v272, main_v273]
theorem upd20_writes : (hostOps2_42 : List (HloOp τ sig (Elt F))).Forall fun op => op.writes ⊆ (upd20_W.map (Proc.devRef (τ := τ) .tc)).toFinset := by
  simp only [List.Forall]; and_intros <;> exact writes_sub rfl (by decide)
theorem upd20 (X : Valuation τ sig (Elt F)) :
    StableHlo.after hostOps2_42 X (no_index (Proc.devRef .tc main_v271))
      = upd ![0, 20] slices_S100000x27_S100000x1_0_20 ![20, 0] slices_S27x128_S1x128_20_0
          (X (Proc.devRef .tc main_v259)) (X (Proc.devRef .tc main_v262)) (X (Proc.devRef .tc main_v18)) (X (Proc.devRef .tc main_arg5)) := by
  simp only [hostOps2_42]
  after_results_simp
  rfl

theorem next20 (X : Valuation τ sig (Elt F)) :
    StableHlo.after hostOps2_42 X (no_index (Proc.devRef .tc main_v273)) = col ![0, 21] slices_S100000x27_S100000x1_0_21 (X (Proc.devRef .tc main_arg9)) := by
  simp only [hostOps2_42]
  after_results_simp
  rfl

abbrev take21_W : List (Ref sig .tc) := [main_call21_c, main_call21_v0, main_call21_v1, main_call21_c_0, main_call21_v2, main_call21_v3, main_call21_v4, main_call21_v5, main_call21_c_1, main_call21_c_2, main_call21_v6, main_call21_v7, main_call21_v8, main_call21_v9, main_call21_v10, main_call21_v11, main_call21_c_3, main_call21_v12, main_call21_v13, main_call21_v14, main_call21_cst, main_call21_v15, main_v274]
theorem take21_writes : (hostOps2_43 : List (HloOp τ sig (Elt F))).Forall fun op => op.writes ⊆ (take21_W.map (Proc.devRef (τ := τ) .tc)).toFinset := by
  simp only [List.Forall]; and_intros <;> exact writes_sub rfl (by decide)
theorem take21_keep (X : Valuation τ sig (Elt F)) (r : Ref sig .tc) (h : r ∉ take21_W) :
    StableHlo.after hostOps2_43 X (Proc.devRef .tc r) = X (Proc.devRef .tc r) := after_of_writes_sub hostOps2_43 X take21_writes h

theorem take21 (X : Valuation τ sig (Elt F)) :
    StableHlo.after hostOps2_43 X (no_index (Proc.devRef .tc main_v274)) = Val.takeFill (X (Proc.devRef .tc main_v17)) (X (Proc.devRef .tc main_v273)) := by
  simp only [hostOps2_43]
  after_results_simp
  simp only [TRef.ofBuf, TRef.toBuf, cast_eq]
  rfl

abbrev upd21_W : List (Ref sig .tc) := [main_v275, main_v276, main_v277, main_v278, main_v279, main_v280, main_v281, main_v282, main_v283, main_v284, main_v285]
theorem upd21_writes : (hostOps2_44 : List (HloOp τ sig (Elt F))).Forall fun op => op.writes ⊆ (upd21_W.map (Proc.devRef (τ := τ) .tc)).toFinset := by
  simp only [List.Forall]; and_intros <;> exact writes_sub rfl (by decide)
theorem upd21 (X : Valuation τ sig (Elt F)) :
    StableHlo.after hostOps2_44 X (no_index (Proc.devRef .tc main_v283))
      = upd ![0, 21] slices_S100000x27_S100000x1_0_21 ![21, 0] slices_S27x128_S1x128_21_0
          (X (Proc.devRef .tc main_v271)) (X (Proc.devRef .tc main_v274)) (X (Proc.devRef .tc main_v18)) (X (Proc.devRef .tc main_arg5)) := by
  simp only [hostOps2_44]
  after_results_simp
  rfl

theorem next21 (X : Valuation τ sig (Elt F)) :
    StableHlo.after hostOps2_44 X (no_index (Proc.devRef .tc main_v285)) = col ![0, 22] slices_S100000x27_S100000x1_0_22 (X (Proc.devRef .tc main_arg9)) := by
  simp only [hostOps2_44]
  after_results_simp
  rfl

abbrev take22_W : List (Ref sig .tc) := [main_call22_c, main_call22_v0, main_call22_v1, main_call22_c_0, main_call22_v2, main_call22_v3, main_call22_v4, main_call22_v5, main_call22_c_1, main_call22_c_2, main_call22_v6, main_call22_v7, main_call22_v8, main_call22_v9, main_call22_v10, main_call22_v11, main_call22_c_3, main_call22_v12, main_call22_v13, main_call22_v14, main_call22_cst, main_call22_v15, main_v286]
theorem take22_writes : (hostOps2_45 : List (HloOp τ sig (Elt F))).Forall fun op => op.writes ⊆ (take22_W.map (Proc.devRef (τ := τ) .tc)).toFinset := by
  simp only [List.Forall]; and_intros <;> exact writes_sub rfl (by decide)
theorem take22_keep (X : Valuation τ sig (Elt F)) (r : Ref sig .tc) (h : r ∉ take22_W) :
    StableHlo.after hostOps2_45 X (Proc.devRef .tc r) = X (Proc.devRef .tc r) := after_of_writes_sub hostOps2_45 X take22_writes h

theorem take22 (X : Valuation τ sig (Elt F)) :
    StableHlo.after hostOps2_45 X (no_index (Proc.devRef .tc main_v286)) = Val.takeFill (X (Proc.devRef .tc main_v17)) (X (Proc.devRef .tc main_v285)) := by
  simp only [hostOps2_45]
  after_results_simp
  simp only [TRef.ofBuf, TRef.toBuf, cast_eq]
  rfl

abbrev upd22_W : List (Ref sig .tc) := [main_v287, main_v288, main_v289, main_v290, main_v291, main_v292, main_v293, main_v294, main_v295, main_v296, main_v297]
theorem upd22_writes : (hostOps2_46 : List (HloOp τ sig (Elt F))).Forall fun op => op.writes ⊆ (upd22_W.map (Proc.devRef (τ := τ) .tc)).toFinset := by
  simp only [List.Forall]; and_intros <;> exact writes_sub rfl (by decide)
theorem upd22 (X : Valuation τ sig (Elt F)) :
    StableHlo.after hostOps2_46 X (no_index (Proc.devRef .tc main_v295))
      = upd ![0, 22] slices_S100000x27_S100000x1_0_22 ![22, 0] slices_S27x128_S1x128_22_0
          (X (Proc.devRef .tc main_v283)) (X (Proc.devRef .tc main_v286)) (X (Proc.devRef .tc main_v18)) (X (Proc.devRef .tc main_arg5)) := by
  simp only [hostOps2_46]
  after_results_simp
  rfl

theorem next22 (X : Valuation τ sig (Elt F)) :
    StableHlo.after hostOps2_46 X (no_index (Proc.devRef .tc main_v297)) = col ![0, 23] slices_S100000x27_S100000x1_0_23 (X (Proc.devRef .tc main_arg9)) := by
  simp only [hostOps2_46]
  after_results_simp
  rfl

abbrev take23_W : List (Ref sig .tc) := [main_call23_c, main_call23_v0, main_call23_v1, main_call23_c_0, main_call23_v2, main_call23_v3, main_call23_v4, main_call23_v5, main_call23_c_1, main_call23_c_2, main_call23_v6, main_call23_v7, main_call23_v8, main_call23_v9, main_call23_v10, main_call23_v11, main_call23_c_3, main_call23_v12, main_call23_v13, main_call23_v14, main_call23_cst, main_call23_v15, main_v298]
theorem take23_writes : (hostOps2_47 : List (HloOp τ sig (Elt F))).Forall fun op => op.writes ⊆ (take23_W.map (Proc.devRef (τ := τ) .tc)).toFinset := by
  simp only [List.Forall]; and_intros <;> exact writes_sub rfl (by decide)
theorem take23_keep (X : Valuation τ sig (Elt F)) (r : Ref sig .tc) (h : r ∉ take23_W) :
    StableHlo.after hostOps2_47 X (Proc.devRef .tc r) = X (Proc.devRef .tc r) := after_of_writes_sub hostOps2_47 X take23_writes h

theorem take23 (X : Valuation τ sig (Elt F)) :
    StableHlo.after hostOps2_47 X (no_index (Proc.devRef .tc main_v298)) = Val.takeFill (X (Proc.devRef .tc main_v17)) (X (Proc.devRef .tc main_v297)) := by
  simp only [hostOps2_47]
  after_results_simp
  simp only [TRef.ofBuf, TRef.toBuf, cast_eq]
  rfl

abbrev upd23_W : List (Ref sig .tc) := [main_v299, main_v300, main_v301, main_v302, main_v303, main_v304, main_v305, main_v306, main_v307, main_v308, main_v309]
theorem upd23_writes : (hostOps2_48 : List (HloOp τ sig (Elt F))).Forall fun op => op.writes ⊆ (upd23_W.map (Proc.devRef (τ := τ) .tc)).toFinset := by
  simp only [List.Forall]; and_intros <;> exact writes_sub rfl (by decide)
theorem upd23 (X : Valuation τ sig (Elt F)) :
    StableHlo.after hostOps2_48 X (no_index (Proc.devRef .tc main_v307))
      = upd ![0, 23] slices_S100000x27_S100000x1_0_23 ![23, 0] slices_S27x128_S1x128_23_0
          (X (Proc.devRef .tc main_v295)) (X (Proc.devRef .tc main_v298)) (X (Proc.devRef .tc main_v18)) (X (Proc.devRef .tc main_arg5)) := by
  simp only [hostOps2_48]
  after_results_simp
  rfl

theorem next23 (X : Valuation τ sig (Elt F)) :
    StableHlo.after hostOps2_48 X (no_index (Proc.devRef .tc main_v309)) = col ![0, 24] slices_S100000x27_S100000x1_0_24 (X (Proc.devRef .tc main_arg9)) := by
  simp only [hostOps2_48]
  after_results_simp
  rfl

abbrev take24_W : List (Ref sig .tc) := [main_call24_c, main_call24_v0, main_call24_v1, main_call24_c_0, main_call24_v2, main_call24_v3, main_call24_v4, main_call24_v5, main_call24_c_1, main_call24_c_2, main_call24_v6, main_call24_v7, main_call24_v8, main_call24_v9, main_call24_v10, main_call24_v11, main_call24_c_3, main_call24_v12, main_call24_v13, main_call24_v14, main_call24_cst, main_call24_v15, main_v310]
theorem take24_writes : (hostOps2_49 : List (HloOp τ sig (Elt F))).Forall fun op => op.writes ⊆ (take24_W.map (Proc.devRef (τ := τ) .tc)).toFinset := by
  simp only [List.Forall]; and_intros <;> exact writes_sub rfl (by decide)
theorem take24_keep (X : Valuation τ sig (Elt F)) (r : Ref sig .tc) (h : r ∉ take24_W) :
    StableHlo.after hostOps2_49 X (Proc.devRef .tc r) = X (Proc.devRef .tc r) := after_of_writes_sub hostOps2_49 X take24_writes h

theorem take24 (X : Valuation τ sig (Elt F)) :
    StableHlo.after hostOps2_49 X (no_index (Proc.devRef .tc main_v310)) = Val.takeFill (X (Proc.devRef .tc main_v17)) (X (Proc.devRef .tc main_v309)) := by
  simp only [hostOps2_49]
  after_results_simp
  simp only [TRef.ofBuf, TRef.toBuf, cast_eq]
  rfl

abbrev upd24_W : List (Ref sig .tc) := [main_v311, main_v312, main_v313, main_v314, main_v315, main_v316, main_v317, main_v318, main_v319, main_v320, main_v321]
theorem upd24_writes : (hostOps2_50 : List (HloOp τ sig (Elt F))).Forall fun op => op.writes ⊆ (upd24_W.map (Proc.devRef (τ := τ) .tc)).toFinset := by
  simp only [List.Forall]; and_intros <;> exact writes_sub rfl (by decide)
theorem upd24 (X : Valuation τ sig (Elt F)) :
    StableHlo.after hostOps2_50 X (no_index (Proc.devRef .tc main_v319))
      = upd ![0, 24] slices_S100000x27_S100000x1_0_24 ![24, 0] slices_S27x128_S1x128_24_0
          (X (Proc.devRef .tc main_v307)) (X (Proc.devRef .tc main_v310)) (X (Proc.devRef .tc main_v18)) (X (Proc.devRef .tc main_arg5)) := by
  simp only [hostOps2_50]
  after_results_simp
  rfl

theorem next24 (X : Valuation τ sig (Elt F)) :
    StableHlo.after hostOps2_50 X (no_index (Proc.devRef .tc main_v321)) = col ![0, 25] slices_S100000x27_S100000x1_0_25 (X (Proc.devRef .tc main_arg9)) := by
  simp only [hostOps2_50]
  after_results_simp
  rfl

abbrev take25_W : List (Ref sig .tc) := [main_call25_c, main_call25_v0, main_call25_v1, main_call25_c_0, main_call25_v2, main_call25_v3, main_call25_v4, main_call25_v5, main_call25_c_1, main_call25_c_2, main_call25_v6, main_call25_v7, main_call25_v8, main_call25_v9, main_call25_v10, main_call25_v11, main_call25_c_3, main_call25_v12, main_call25_v13, main_call25_v14, main_call25_cst, main_call25_v15, main_v322]
theorem take25_writes : (hostOps2_51 : List (HloOp τ sig (Elt F))).Forall fun op => op.writes ⊆ (take25_W.map (Proc.devRef (τ := τ) .tc)).toFinset := by
  simp only [List.Forall]; and_intros <;> exact writes_sub rfl (by decide)
theorem take25_keep (X : Valuation τ sig (Elt F)) (r : Ref sig .tc) (h : r ∉ take25_W) :
    StableHlo.after hostOps2_51 X (Proc.devRef .tc r) = X (Proc.devRef .tc r) := after_of_writes_sub hostOps2_51 X take25_writes h

theorem take25 (X : Valuation τ sig (Elt F)) :
    StableHlo.after hostOps2_51 X (no_index (Proc.devRef .tc main_v322)) = Val.takeFill (X (Proc.devRef .tc main_v17)) (X (Proc.devRef .tc main_v321)) := by
  simp only [hostOps2_51]
  after_results_simp
  simp only [TRef.ofBuf, TRef.toBuf, cast_eq]
  rfl

abbrev upd25_W : List (Ref sig .tc) := [main_v323, main_v324, main_v325, main_v326, main_v327, main_v328, main_v329, main_v330, main_v331, main_v332, main_v333]
theorem upd25_writes : (hostOps2_52 : List (HloOp τ sig (Elt F))).Forall fun op => op.writes ⊆ (upd25_W.map (Proc.devRef (τ := τ) .tc)).toFinset := by
  simp only [List.Forall]; and_intros <;> exact writes_sub rfl (by decide)
theorem upd25 (X : Valuation τ sig (Elt F)) :
    StableHlo.after hostOps2_52 X (no_index (Proc.devRef .tc main_v331))
      = upd ![0, 25] slices_S100000x27_S100000x1_0_25 ![25, 0] slices_S27x128_S1x128_25_0
          (X (Proc.devRef .tc main_v319)) (X (Proc.devRef .tc main_v322)) (X (Proc.devRef .tc main_v18)) (X (Proc.devRef .tc main_arg5)) := by
  simp only [hostOps2_52]
  after_results_simp
  rfl

theorem next25 (X : Valuation τ sig (Elt F)) :
    StableHlo.after hostOps2_52 X (no_index (Proc.devRef .tc main_v333)) = col ![0, 26] slices_S100000x27_S100000x1_0_26 (X (Proc.devRef .tc main_arg9)) := by
  simp only [hostOps2_52]
  after_results_simp
  rfl

abbrev take26_W : List (Ref sig .tc) := [main_call26_c, main_call26_v0, main_call26_v1, main_call26_c_0, main_call26_v2, main_call26_v3, main_call26_v4, main_call26_v5, main_call26_c_1, main_call26_c_2, main_call26_v6, main_call26_v7, main_call26_v8, main_call26_v9, main_call26_v10, main_call26_v11, main_call26_c_3, main_call26_v12, main_call26_v13, main_call26_v14, main_call26_cst, main_call26_v15, main_v334]
theorem take26_writes : (hostOps2_53 : List (HloOp τ sig (Elt F))).Forall fun op => op.writes ⊆ (take26_W.map (Proc.devRef (τ := τ) .tc)).toFinset := by
  simp only [List.Forall]; and_intros <;> exact writes_sub rfl (by decide)
theorem take26_keep (X : Valuation τ sig (Elt F)) (r : Ref sig .tc) (h : r ∉ take26_W) :
    StableHlo.after hostOps2_53 X (Proc.devRef .tc r) = X (Proc.devRef .tc r) := after_of_writes_sub hostOps2_53 X take26_writes h

theorem take26 (X : Valuation τ sig (Elt F)) :
    StableHlo.after hostOps2_53 X (no_index (Proc.devRef .tc main_v334)) = Val.takeFill (X (Proc.devRef .tc main_v17)) (X (Proc.devRef .tc main_v333)) := by
  simp only [hostOps2_53]
  after_results_simp
  simp only [TRef.ofBuf, TRef.toBuf, cast_eq]
  rfl

end Cert.KernelIdeal.Host

end
-- ==== Proof.KHostG.lean ====
import proofs.«410615_j21474836480482_3_alg».proof.Proof.KernelIdealFrameP
import proofs.«410615_j21474836480482_3_alg».proof.Proof.KTerms
import proofs.«410615_j21474836480482_3_alg».proof.Proof.KHostF
import proofs.«410615_j21474836480482_3_alg».proof.Proof.KHostB
import proofs.«410615_j21474836480482_3_alg».proof.Proof.KHostC
import proofs.«410615_j21474836480482_3_alg».proof.Proof.KHostD
import proofs.«410615_j21474836480482_3_alg».proof.Proof.KHostE

noncomputable section

namespace Cert.KernelIdeal.Host

open Idealize.ShloMosaic Idealize.ShloMosaic.TcCoe Idealize.ShloMosaic.StableHlo Cert.KernelIdeal Cert.KernelIdeal.Gen Cert.KernelIdeal.GenP

variable {F : FTy → Type} [FloatOps F]

variable (m : (ℓ : Loc nD τ sig) → Buf (Elt F) ℓ) (ρ : Dev nD → PrngReg)

theorem reads9 (c : Dev nD) : Reads (W3 m ρ c) (W9 m ρ c) :=
  (reads8 m ρ c).after hostOps2_5 take2_W take2_writes (by decide)

theorem rows2_at (c : Dev nD) :
    W9 m ρ c (Proc.devRef .tc main_v46) = Val.takeFill (h2 m ρ c) (col ![0, 2] slices_S100000x27_S100000x1_0_2 (a9 m ρ c)) :=
  (take2 (W8 m ρ c)).trans (congrArg₂ Val.takeFill (reads8 m ρ c).h2 (col2_at m ρ c))

theorem acc2_kept (c : Dev nD) : W9 m ρ c (Proc.devRef .tc main_v43) = Val.accN 2 (by decide) (h2 m ρ c) (a5 m ρ c) (a9 m ρ c) (mf m ρ c) :=
  (take2_keep (W8 m ρ c) main_v43 (by decide)).trans (acc2_at m ρ c)
theorem reads10 (c : Dev nD) : Reads (W3 m ρ c) (W10 m ρ c) :=
  (reads9 m ρ c).after hostOps2_6 upd2_W upd2_writes (by decide)

theorem acc3_at (c : Dev nD) : W10 m ρ c (Proc.devRef .tc main_v55) = Val.accN 3 (by decide) (h2 m ρ c) (a5 m ρ c) (a9 m ρ c) (mf m ρ c) :=
  (upd2 (W9 m ρ c)).trans ((upd_congr (acc2_kept m ρ c) (rows2_at m ρ c) (reads9 m ρ c).mf (reads9 m ρ c).a5).trans
    (step_eq_upd _ _ _ _ _ _ _ _ _).symm)

theorem col3_at (c : Dev nD) :
    W10 m ρ c (Proc.devRef .tc main_v57) = col ![0, 3] slices_S100000x27_S100000x1_0_3 (a9 m ρ c) :=
  (next2 (W9 m ρ c)).trans (congrArg _ (reads9 m ρ c).a9)

theorem reads11 (c : Dev nD) : Reads (W3 m ρ c) (W11 m ρ c) :=
  (reads10 m ρ c).after hostOps2_7 take3_W take3_writes (by decide)

theorem rows3_at (c : Dev nD) :
    W11 m ρ c (Proc.devRef .tc main_v58) = Val.takeFill (h2 m ρ c) (col ![0, 3] slices_S100000x27_S100000x1_0_3 (a9 m ρ c)) :=
  (take3 (W10 m ρ c)).trans (congrArg₂ Val.takeFill (reads10 m ρ c).h2 (col3_at m ρ c))

theorem acc3_kept (c : Dev nD) : W11 m ρ c (Proc.devRef .tc main_v55) = Val.accN 3 (by decide) (h2 m ρ c) (a5 m ρ c) (a9 m ρ c) (mf m ρ c) :=
  (take3_keep (W10 m ρ c) main_v55 (by decide)).trans (acc3_at m ρ c)
theorem reads12 (c : Dev nD) : Reads (W3 m ρ c) (W12 m ρ c) :=
  (reads11 m ρ c).after hostOps2_8 upd3_W upd3_writes (by decide)

theorem acc4_at (c : Dev nD) : W12 m ρ c (Proc.devRef .tc main_v67) = Val.accN 4 (by decide) (h2 m ρ c) (a5 m ρ c) (a9 m ρ c) (mf m ρ c) :=
  (upd3 (W11 m ρ c)).trans ((upd_congr (acc3_kept m ρ c) (rows3_at m ρ c) (reads11 m ρ c).mf (reads11 m ρ c).a5).trans
    (step_eq_upd _ _ _ _ _ _ _ _ _).symm)

theorem col4_at (c : Dev nD) :
    W12 m ρ c (Proc.devRef .tc main_v69) = col ![0, 4] slices_S100000x27_S100000x1_0_4 (a9 m ρ c) :=
  (next3 (W11 m ρ c)).trans (congrArg _ (reads11 m ρ c).a9)

theorem reads13 (c : Dev nD) : Reads (W3 m ρ c) (W13 m ρ c) :=
  (reads12 m ρ c).after hostOps2_9 take4_W take4_writes (by decide)

theorem rows4_at (c : Dev nD) :
    W13 m ρ c (Proc.devRef .tc main_v70) = Val.takeFill (h2 m ρ c) (col ![0, 4] slices_S100000x27_S100000x1_0_4 (a9 m ρ c)) :=
  (take4 (W12 m ρ c)).trans (congrArg₂ Val.takeFill (reads12 m ρ c).h2 (col4_at m ρ c))

theorem acc4_kept (c : Dev nD) : W13 m ρ c (Proc.devRef .tc main_v67) = Val.accN 4 (by decide) (h2 m ρ c) (a5 m ρ c) (a9 m ρ c) (mf m ρ c) :=
  (take4_keep (W12 m ρ c) main_v67 (by decide)).trans (acc4_at m ρ c)
theorem reads14 (c : Dev nD) : Reads (W3 m ρ c) (W14 m ρ c) :=
  (reads13 m ρ c).after hostOps2_10 upd4_W upd4_writes (by decide)

theorem acc5_at (c : Dev nD) : W14 m ρ c (Proc.devRef .tc main_v79) = Val.accN 5 (by decide) (h2 m ρ c) (a5 m ρ c) (a9 m ρ c) (mf m ρ c) :=
  (upd4 (W13 m ρ c)).trans ((upd_congr (acc4_kept m ρ c) (rows4_at m ρ c) (reads13 m ρ c).mf (reads13 m ρ c).a5).trans
    (step_eq_upd _ _ _ _ _ _ _ _ _).symm)

theorem col5_at (c : Dev nD) :
    W14 m ρ c (Proc.devRef .tc main_v81) = col ![0, 5] slices_S100000x27_S100000x1_0_5 (a9 m ρ c) :=
  (next4 (W13 m ρ c)).trans (congrArg _ (reads13 m ρ c).a9)

theorem reads15 (c : Dev nD) : Reads (W3 m ρ c) (W15 m ρ c) :=
  (reads14 m ρ c).after hostOps2_11 take5_W take5_writes (by decide)

theorem rows5_at (c : Dev nD) :
    W15 m ρ c (Proc.devRef .tc main_v82) = Val.takeFill (h2 m ρ c) (col ![0, 5] slices_S100000x27_S100000x1_0_5 (a9 m ρ c)) :=
  (take5 (W14 m ρ c)).trans (congrArg₂ Val.takeFill (reads14 m ρ c).h2 (col5_at m ρ c))

theorem acc5_kept (c : Dev nD) : W15 m ρ c (Proc.devRef .tc main_v79) = Val.accN 5 (by decide) (h2 m ρ c) (a5 m ρ c) (a9 m ρ c) (mf m ρ c) :=
  (take5_keep (W14 m ρ c) main_v79 (by decide)).trans (acc5_at m ρ c)
theorem reads16 (c : Dev nD) : Reads (W3 m ρ c) (W16 m ρ c) :=
  (reads15 m ρ c).after hostOps2_12 upd5_W upd5_writes (by decide)

theorem acc6_at (c : Dev nD) : W16 m ρ c (Proc.devRef .tc main_v91) = Val.accN 6 (by decide) (h2 m ρ c) (a5 m ρ c) (a9 m ρ c) (mf m ρ c) :=
  (upd5 (W15 m ρ c)).trans ((upd_congr (acc5_kept m ρ c) (rows5_at m ρ c) (reads15 m ρ c).mf (reads15 m ρ c).a5).trans
    (step_eq_upd _ _ _ _ _ _ _ _ _).symm)

theorem col6_at (c : Dev nD) :
    W16 m ρ c (Proc.devRef .tc main_v93) = col ![0, 6] slices_S100000x27_S100000x1_0_6 (a9 m ρ c) :=
  (next5 (W15 m ρ c)).trans (congrArg _ (reads15 m ρ c).a9)

theorem reads17 (c : Dev nD) : Reads (W3 m ρ c) (W17 m ρ c) :=
  (reads16 m ρ c).after hostOps2_13 take6_W take6_writes (by decide)

theorem rows6_at (c : Dev nD) :
    W17 m ρ c (Proc.devRef .tc main_v94) = Val.takeFill (h2 m ρ c) (col ![0, 6] slices_S100000x27_S100000x1_0_6 (a9 m ρ c)) :=
  (take6 (W16 m ρ c)).trans (congrArg₂ Val.takeFill (reads16 m ρ c).h2 (col6_at m ρ c))

theorem acc6_kept (c : Dev nD) : W17 m ρ c (Proc.devRef .tc main_v91) = Val.accN 6 (by decide) (h2 m ρ c) (a5 m ρ c) (a9 m ρ c) (mf m ρ c) :=
  (take6_keep (W16 m ρ c) main_v91 (by decide)).trans (acc6_at m ρ c)
theorem reads18 (c : Dev nD) : Reads (W3 m ρ c) (W18 m ρ c) :=
  (reads17 m ρ c).after hostOps2_14 upd6_W upd6_writes (by decide)

theorem acc7_at (c : Dev nD) : W18 m ρ c (Proc.devRef .tc main_v103) = Val.accN 7 (by decide) (h2 m ρ c) (a5 m ρ c) (a9 m ρ c) (mf m ρ c) :=
  (upd6 (W17 m ρ c)).trans ((upd_congr (acc6_kept m ρ c) (rows6_at m ρ c) (reads17 m ρ c).mf (reads17 m ρ c).a5).trans
    (step_eq_upd _ _ _ _ _ _ _ _ _).symm)

theorem col7_at (c : Dev nD) :
    W18 m ρ c (Proc.devRef .tc main_v105) = col ![0, 7] slices_S100000x27_S100000x1_0_7 (a9 m ρ c) :=
  (next6 (W17 m ρ c)).trans (congrArg _ (reads17 m ρ c).a9)

theorem reads19 (c : Dev nD) : Reads (W3 m ρ c) (W19 m ρ c) :=
  (reads18 m ρ c).after hostOps2_15 take7_W take7_writes (by decide)

theorem rows7_at (c : Dev nD) :
    W19 m ρ c (Proc.devRef .tc main_v106) = Val.takeFill (h2 m ρ c) (col ![0, 7] slices_S100000x27_S100000x1_0_7 (a9 m ρ c)) :=
  (take7 (W18 m ρ c)).trans (congrArg₂ Val.takeFill (reads18 m ρ c).h2 (col7_at m ρ c))

theorem acc7_kept (c : Dev nD) : W19 m ρ c (Proc.devRef .tc main_v103) = Val.accN 7 (by decide) (h2 m ρ c) (a5 m ρ c) (a9 m ρ c) (mf m ρ c) :=
  (take7_keep (W18 m ρ c) main_v103 (by decide)).trans (acc7_at m ρ c)
theorem reads20 (c : Dev nD) : Reads (W3 m ρ c) (W20 m ρ c) :=
  (reads19 m ρ c).after hostOps2_16 upd7_W upd7_writes (by decide)

theorem acc8_at (c : Dev nD) : W20 m ρ c (Proc.devRef .tc main_v115) = Val.accN 8 (by decide) (h2 m ρ c) (a5 m ρ c) (a9 m ρ c) (mf m ρ c) :=
  (upd7 (W19 m ρ c)).trans ((upd_congr (acc7_kept m ρ c) (rows7_at m ρ c) (reads19 m ρ c).mf (reads19 m ρ c).a5).trans
    (step_eq_upd _ _ _ _ _ _ _ _ _).symm)

theorem col8_at (c : Dev nD) :
    W20 m ρ c (Proc.devRef .tc main_v117) = col ![0, 8] slices_S100000x27_S100000x1_0_8 (a9 m ρ c) :=
  (next7 (W19 m ρ c)).trans (congrArg _ (reads19 m ρ c).a9)

theorem reads21 (c : Dev nD) : Reads (W3 m ρ c) (W21 m ρ c) :=
  (reads20 m ρ c).after hostOps2_17 take8_W take8_writes (by decide)

theorem rows8_at (c : Dev nD) :
    W21 m ρ c (Proc.devRef .tc main_v118) = Val.takeFill (h2 m ρ c) (col ![0, 8] slices_S100000x27_S100000x1_0_8 (a9 m ρ c)) :=
  (take8 (W20 m ρ c)).trans (congrArg₂ Val.takeFill (reads20 m ρ c).h2 (col8_at m ρ c))

theorem acc8_kept (c : Dev nD) : W21 m ρ c (Proc.devRef .tc main_v115) = Val.accN 8 (by decide) (h2 m ρ c) (a5 m ρ c) (a9 m ρ c) (mf m ρ c) :=
  (take8_keep (W20 m ρ c) main_v115 (by decide)).trans (acc8_at m ρ c)
theorem reads22 (c : Dev nD) : Reads (W3 m ρ c) (W22 m ρ c) :=
  (reads21 m ρ c).after hostOps2_18 upd8_W upd8_writes (by decide)

theorem acc9_at (c : Dev nD) : W22 m ρ c (Proc.devRef .tc main_v127) = Val.accN 9 (by decide) (h2 m ρ c) (a5 m ρ c) (a9 m ρ c) (mf m ρ c) :=
  (upd8 (W21 m ρ c)).trans ((upd_congr (acc8_kept m ρ c) (rows8_at m ρ c) (reads21 m ρ c).mf (reads21 m ρ c).a5).trans
    (step_eq_upd _ _ _ _ _ _ _ _ _).symm)

theorem col9_at (c : Dev nD) :
    W22 m ρ c (Proc.devRef .tc main_v129) = col ![0, 9] slices_S100000x27_S100000x1_0_9 (a9 m ρ c) :=
  (next8 (W21 m ρ c)).trans (congrArg _ (reads21 m ρ c).a9)

theorem reads23 (c : Dev nD) : Reads (W3 m ρ c) (W23 m ρ c) :=
  (reads22 m ρ c).after hostOps2_19 take9_W take9_writes (by decide)

theorem rows9_at (c : Dev nD) :
    W23 m ρ c (Proc.devRef .tc main_v130) = Val.takeFill (h2 m ρ c) (col ![0, 9] slices_S100000x27_S100000x1_0_9 (a9 m ρ c)) :=
  (take9 (W22 m ρ c)).trans (congrArg₂ Val.takeFill (reads22 m ρ c).h2 (col9_at m ρ c))

theorem acc9_kept (c : Dev nD) : W23 m ρ c (Proc.devRef .tc main_v127) = Val.accN 9 (by decide) (h2 m ρ c) (a5 m ρ c) (a9 m ρ c) (mf m ρ c) :=
  (take9_keep (W22 m ρ c) main_v127 (by decide)).trans (acc9_at m ρ c)
theorem reads24 (c : Dev nD) : Reads (W3 m ρ c) (W24 m ρ c) :=
  (reads23 m ρ c).after hostOps2_20 upd9_W upd9_writes (by decide)

theorem acc10_at (c : Dev nD) : W24 m ρ c (Proc.devRef .tc main_v139) = Val.accN 10 (by decide) (h2 m ρ c) (a5 m ρ c) (a9 m ρ c) (mf m ρ c) :=
  (upd9 (W23 m ρ c)).trans ((upd_congr (acc9_kept m ρ c) (rows9_at m ρ c) (reads23 m ρ c).mf (reads23 m ρ c).a5).trans
    (step_eq_upd _ _ _ _ _ _ _ _ _).symm)

theorem col10_at (c : Dev nD) :
    W24 m ρ c (Proc.devRef .tc main_v141) = col ![0, 10] slices_S100000x27_S100000x1_0_10 (a9 m ρ c) :=
  (next9 (W23 m ρ c)).trans (congrArg _ (reads23 m ρ c).a9)

theorem reads25 (c : Dev nD) : Reads (W3 m ρ c) (W25 m ρ c) :=
  (reads24 m ρ c).after hostOps2_21 take10_W take10_writes (by decide)

theorem rows10_at (c : Dev nD) :
    W25 m ρ c (Proc.devRef .tc main_v142) = Val.takeFill (h2 m ρ c) (col ![0, 10] slices_S100000x27_S100000x1_0_10 (a9 m ρ c)) :=
  (take10 (W24 m ρ c)).trans (congrArg₂ Val.takeFill (reads24 m ρ c).h2 (col10_at m ρ c))

theorem acc10_kept (c : Dev nD) : W25 m ρ c (Proc.devRef .tc main_v139) = Val.accN 10 (by decide) (h2 m ρ c) (a5 m ρ c) (a9 m ρ c) (mf m ρ c) :=
  (take10_keep (W24 m ρ c) main_v139 (by decide)).trans (acc10_at m ρ c)
theorem reads26 (c : Dev nD) : Reads (W3 m ρ c) (W26 m ρ c) :=
  (reads25 m ρ c).after hostOps2_22 upd10_W upd10_writes (by decide)

theorem acc11_at (c : Dev nD) : W26 m ρ c (Proc.devRef .tc main_v151) = Val.accN 11 (by decide) (h2 m ρ c) (a5 m ρ c) (a9 m ρ c) (mf m ρ c) :=
  (upd10 (W25 m ρ c)).trans ((upd_congr (acc10_kept m ρ c) (rows10_at m ρ c) (reads25 m ρ c).mf (reads25 m ρ c).a5).trans
    (step_eq_upd _ _ _ _ _ _ _ _ _).symm)

theorem col11_at (c : Dev nD) :
    W26 m ρ c (Proc.devRef .tc main_v153) = col ![0, 11] slices_S100000x27_S100000x1_0_11 (a9 m ρ c) :=
  (next10 (W25 m ρ c)).trans (congrArg _ (reads25 m ρ c).a9)

theorem reads27 (c : Dev nD) : Reads (W3 m ρ c) (W27 m ρ c) :=
  (reads26 m ρ c).after hostOps2_23 take11_W take11_writes (by decide)

theorem rows11_at (c : Dev nD) :
    W27 m ρ c (Proc.devRef .tc main_v154) = Val.takeFill (h2 m ρ c) (col ![0, 11] slices_S100000x27_S100000x1_0_11 (a9 m ρ c)) :=
  (take11 (W26 m ρ c)).trans (congrArg₂ Val.takeFill (reads26 m ρ c).h2 (col11_at m ρ c))

theorem acc11_kept (c : Dev nD) : W27 m ρ c (Proc.devRef .tc main_v151) = Val.accN 11 (by decide) (h2 m ρ c) (a5 m ρ c) (a9 m ρ c) (mf m ρ c) :=
  (take11_keep (W26 m ρ c) main_v151 (by decide)).trans (acc11_at m ρ c)
theorem reads28 (c : Dev nD) : Reads (W3 m ρ c) (W28 m ρ c) :=
  (reads27 m ρ c).after hostOps2_24 upd11_W upd11_writes (by decide)

theorem acc12_at (c : Dev nD) : W28 m ρ c (Proc.devRef .tc main_v163) = Val.accN 12 (by decide) (h2 m ρ c) (a5 m ρ c) (a9 m ρ c) (mf m ρ c) :=
  (upd11 (W27 m ρ c)).trans ((upd_congr (acc11_kept m ρ c) (rows11_at m ρ c) (reads27 m ρ c).mf (reads27 m ρ c).a5).trans
    (step_eq_upd _ _ _ _ _ _ _ _ _).symm)

theorem col12_at (c : Dev nD) :
    W28 m ρ c (Proc.devRef .tc main_v165) = col ![0, 12] slices_S100000x27_S100000x1_0_12 (a9 m ρ c) :=
  (next11 (W27 m ρ c)).trans (congrArg _ (reads27 m ρ c).a9)

theorem reads29 (c : Dev nD) : Reads (W3 m ρ c) (W29 m ρ c) :=
  (reads28 m ρ c).after hostOps2_25 take12_W take12_writes (by decide)

theorem rows12_at (c : Dev nD) :
    W29 m ρ c (Proc.devRef .tc main_v166) = Val.takeFill (h2 m ρ c) (col ![0, 12] slices_S100000x27_S100000x1_0_12 (a9 m ρ c)) :=
  (take12 (W28 m ρ c)).trans (congrArg₂ Val.takeFill (reads28 m ρ c).h2 (col12_at m ρ c))

theorem acc12_kept (c : Dev nD) : W29 m ρ c (Proc.devRef .tc main_v163) = Val.accN 12 (by decide) (h2 m ρ c) (a5 m ρ c) (a9 m ρ c) (mf m ρ c) :=
  (take12_keep (W28 m ρ c) main_v163 (by decide)).trans (acc12_at m ρ c)
theorem reads30 (c : Dev nD) : Reads (W3 m ρ c) (W30 m ρ c) :=
  (reads29 m ρ c).after hostOps2_26 upd12_W upd12_writes (by decide)

theorem acc13_at (c : Dev nD) : W30 m ρ c (Proc.devRef .tc main_v175) = Val.accN 13 (by decide) (h2 m ρ c) (a5 m ρ c) (a9 m ρ c) (mf m ρ c) :=
  (upd12 (W29 m ρ c)).trans ((upd_congr (acc12_kept m ρ c) (rows12_at m ρ c) (reads29 m ρ c).mf (reads29 m ρ c).a5).trans
    (step_eq_upd _ _ _ _ _ _ _ _ _).symm)

theorem col13_at (c : Dev nD) :
    W30 m ρ c (Proc.devRef .tc main_v177) = col ![0, 13] slices_S100000x27_S100000x1_0_13 (a9 m ρ c) :=
  (next12 (W29 m ρ c)).trans (congrArg _ (reads29 m ρ c).a9)

theorem reads31 (c : Dev nD) : Reads (W3 m ρ c) (W31 m ρ c) :=
  (reads30 m ρ c).after hostOps2_27 take13_W take13_writes (by decide)

theorem rows13_at (c : Dev nD) :
    W31 m ρ c (Proc.devRef .tc main_v178) = Val.takeFill (h2 m ρ c) (col ![0, 13] slices_S100000x27_S100000x1_0_13 (a9 m ρ c)) :=
  (take13 (W30 m ρ c)).trans (congrArg₂ Val.takeFill (reads30 m ρ c).h2 (col13_at m ρ c))

theorem acc13_kept (c : Dev nD) : W31 m ρ c (Proc.devRef .tc main_v175) = Val.accN 13 (by decide) (h2 m ρ c) (a5 m ρ c) (a9 m ρ c) (mf m ρ c) :=
  (take13_keep (W30 m ρ c) main_v175 (by decide)).trans (acc13_at m ρ c)
theorem reads32 (c : Dev nD) : Reads (W3 m ρ c) (W32 m ρ c) :=
  (reads31 m ρ c).after hostOps2_28 upd13_W upd13_writes (by decide)

theorem acc14_at (c : Dev nD) : W32 m ρ c (Proc.devRef .tc main_v187) = Val.accN 14 (by decide) (h2 m ρ c) (a5 m ρ c) (a9 m ρ c) (mf m ρ c) :=
  (upd13 (W31 m ρ c)).trans ((upd_congr (acc13_kept m ρ c) (rows13_at m ρ c) (reads31 m ρ c).mf (reads31 m ρ c).a5).trans
    (step_eq_upd _ _ _ _ _ _ _ _ _).symm)

theorem col14_at (c : Dev nD) :
    W32 m ρ c (Proc.devRef .tc main_v189) = col ![0, 14] slices_S100000x27_S100000x1_0_14 (a9 m ρ c) :=
  (next13 (W31 m ρ c)).trans (congrArg _ (reads31 m ρ c).a9)

theorem reads33 (c : Dev nD) : Reads (W3 m ρ c) (W33 m ρ c) :=
  (reads32 m ρ c).after hostOps2_29 take14_W take14_writes (by decide)

theorem rows14_at (c : Dev nD) :
    W33 m ρ c (Proc.devRef .tc main_v190) = Val.takeFill (h2 m ρ c) (col ![0, 14] slices_S100000x27_S100000x1_0_14 (a9 m ρ c)) :=
  (take14 (W32 m ρ c)).trans (congrArg₂ Val.takeFill (reads32 m ρ c).h2 (col14_at m ρ c))

theorem acc14_kept (c : Dev nD) : W33 m ρ c (Proc.devRef .tc main_v187) = Val.accN 14 (by decide) (h2 m ρ c) (a5 m ρ c) (a9 m ρ c) (mf m ρ c) :=
  (take14_keep (W32 m ρ c) main_v187 (by decide)).trans (acc14_at m ρ c)
theorem reads34 (c : Dev nD) : Reads (W3 m ρ c) (W34 m ρ c) :=
  (reads33 m ρ c).after hostOps2_30 upd14_W upd14_writes (by decide)

theorem acc15_at (c : Dev nD) : W34 m ρ c (Proc.devRef .tc main_v199) = Val.accN 15 (by decide) (h2 m ρ c) (a5 m ρ c) (a9 m ρ c) (mf m ρ c) :=
  (upd14 (W33 m ρ c)).trans ((upd_congr (acc14_kept m ρ c) (rows14_at m ρ c) (reads33 m ρ c).mf (reads33 m ρ c).a5).trans
    (step_eq_upd _ _ _ _ _ _ _ _ _).symm)

theorem col15_at (c : Dev nD) :
    W34 m ρ c (Proc.devRef .tc main_v201) = col ![0, 15] slices_S100000x27_S100000x1_0_15 (a9 m ρ c) :=
  (next14 (W33 m ρ c)).trans (congrArg _ (reads33 m ρ c).a9)

theorem reads35 (c : Dev nD) : Reads (W3 m ρ c) (W35 m ρ c) :=
  (reads34 m ρ c).after hostOps2_31 take15_W take15_writes (by decide)

theorem rows15_at (c : Dev nD) :
    W35 m ρ c (Proc.devRef .tc main_v202) = Val.takeFill (h2 m ρ c) (col ![0, 15] slices_S100000x27_S100000x1_0_15 (a9 m ρ c)) :=
  (take15 (W34 m ρ c)).trans (congrArg₂ Val.takeFill (reads34 m ρ c).h2 (col15_at m ρ c))

theorem acc15_kept (c : Dev nD) : W35 m ρ c (Proc.devRef .tc main_v199) = Val.accN 15 (by decide) (h2 m ρ c) (a5 m ρ c) (a9 m ρ c) (mf m ρ c) :=
  (take15_keep (W34 m ρ c) main_v199 (by decide)).trans (acc15_at m ρ c)
theorem reads36 (c : Dev nD) : Reads (W3 m ρ c) (W36 m ρ c) :=
  (reads35 m ρ c).after hostOps2_32 upd15_W upd15_writes (by decide)

theorem acc16_at (c : Dev nD) : W36 m ρ c (Proc.devRef .tc main_v211) = Val.accN 16 (by decide) (h2 m ρ c) (a5 m ρ c) (a9 m ρ c) (mf m ρ c) :=
  (upd15 (W35 m ρ c)).trans ((upd_congr (acc15_kept m ρ c) (rows15_at m ρ c) (reads35 m ρ c).mf (reads35 m ρ c).a5).trans
    (step_eq_upd _ _ _ _ _ _ _ _ _).symm)

theorem col16_at (c : Dev nD) :
    W36 m ρ c (Proc.devRef .tc main_v213) = col ![0, 16] slices_S100000x27_S100000x1_0_16 (a9 m ρ c) :=
  (next15 (W35 m ρ c)).trans (congrArg _ (reads35 m ρ c).a9)

theorem reads37 (c : Dev nD) : Reads (W3 m ρ c) (W37 m ρ c) :=
  (reads36 m ρ c).after hostOps2_33 take16_W take16_writes (by decide)

theorem rows16_at (c : Dev nD) :
    W37 m ρ c (Proc.devRef .tc main_v214) = Val.takeFill (h2 m ρ c) (col ![0, 16] slices_S100000x27_S100000x1_0_16 (a9 m ρ c)) :=
  (take16 (W36 m ρ c)).trans (congrArg₂ Val.takeFill (reads36 m ρ c).h2 (col16_at m ρ c))

theorem acc16_kept (c : Dev nD) : W37 m ρ c (Proc.devRef .tc main_v211) = Val.accN 16 (by decide) (h2 m ρ c) (a5 m ρ c) (a9 m ρ c) (mf m ρ c) :=
  (take16_keep (W36 m ρ c) main_v211 (by decide)).trans (acc16_at m ρ c)
theorem reads38 (c : Dev nD) : Reads (W3 m ρ c) (W38 m ρ c) :=
  (reads37 m ρ c).after hostOps2_34 upd16_W upd16_writes (by decide)

theorem acc17_at (c : Dev nD) : W38 m ρ c (Proc.devRef .tc main_v223) = Val.accN 17 (by decide) (h2 m ρ c) (a5 m ρ c) (a9 m ρ c) (mf m ρ c) :=
  (upd16 (W37 m ρ c)).trans ((upd_congr (acc16_kept m ρ c) (rows16_at m ρ c) (reads37 m ρ c).mf (reads37 m ρ c).a5).trans
    (step_eq_upd _ _ _ _ _ _ _ _ _).symm)

theorem col17_at (c : Dev nD) :
    W38 m ρ c (Proc.devRef .tc main_v225) = col ![0, 17] slices_S100000x27_S100000x1_0_17 (a9 m ρ c) :=
  (next16 (W37 m ρ c)).trans (congrArg _ (reads37 m ρ c).a9)

theorem reads39 (c : Dev nD) : Reads (W3 m ρ c) (W39 m ρ c) :=
  (reads38 m ρ c).after hostOps2_35 take17_W take17_writes (by decide)

theorem rows17_at (c : Dev nD) :
    W39 m ρ c (Proc.devRef .tc main_v226) = Val.takeFill (h2 m ρ c) (col ![0, 17] slices_S100000x27_S100000x1_0_17 (a9 m ρ c)) :=
  (take17 (W38 m ρ c)).trans (congrArg₂ Val.takeFill (reads38 m ρ c).h2 (col17_at m ρ c))

theorem acc17_kept (c : Dev nD) : W39 m ρ c (Proc.devRef .tc main_v223) = Val.accN 17 (by decide) (h2 m ρ c) (a5 m ρ c) (a9 m ρ c) (mf m ρ c) :=
  (take17_keep (W38 m ρ c) main_v223 (by decide)).trans (acc17_at m ρ c)
theorem reads40 (c : Dev nD) : Reads (W3 m ρ c) (W40 m ρ c) :=
  (reads39 m ρ c).after hostOps2_36 upd17_W upd17_writes (by decide)

theorem acc18_at (c : Dev nD) : W40 m ρ c (Proc.devRef .tc main_v235) = Val.accN 18 (by decide) (h2 m ρ c) (a5 m ρ c) (a9 m ρ c) (mf m ρ c) :=
  (upd17 (W39 m ρ c)).trans ((upd_congr (acc17_kept m ρ c) (rows17_at m ρ c) (reads39 m ρ c).mf (reads39 m ρ c).a5).trans
    (step_eq_upd _ _ _ _ _ _ _ _ _).symm)

theorem col18_at (c : Dev nD) :
    W40 m ρ c (Proc.devRef .tc main_v237) = col ![0, 18] slices_S100000x27_S100000x1_0_18 (a9 m ρ c) :=
  (next17 (W39 m ρ c)).trans (congrArg _ (reads39 m ρ c).a9)

theorem reads41 (c : Dev nD) : Reads (W3 m ρ c) (W41 m ρ c) :=
  (reads40 m ρ c).after hostOps2_37 take18_W take18_writes (by decide)

theorem rows18_at (c : Dev nD) :
    W41 m ρ c (Proc.devRef .tc main_v238) = Val.takeFill (h2 m ρ c) (col ![0, 18] slices_S100000x27_S100000x1_0_18 (a9 m ρ c)) :=
  (take18 (W40 m ρ c)).trans (congrArg₂ Val.takeFill (reads40 m ρ c).h2 (col18_at m ρ c))

theorem acc18_kept (c : Dev nD) : W41 m ρ c (Proc.devRef .tc main_v235) = Val.accN 18 (by decide) (h2 m ρ c) (a5 m ρ c) (a9 m ρ c) (mf m ρ c) :=
  (take18_keep (W40 m ρ c) main_v235 (by decide)).trans (acc18_at m ρ c)
theorem reads42 (c : Dev nD) : Reads (W3 m ρ c) (W42 m ρ c) :=
  (reads41 m ρ c).after hostOps2_38 upd18_W upd18_writes (by decide)

theorem acc19_at (c : Dev nD) : W42 m ρ c (Proc.devRef .tc main_v247) = Val.accN 19 (by decide) (h2 m ρ c) (a5 m ρ c) (a9 m ρ c) (mf m ρ c) :=
  (upd18 (W41 m ρ c)).trans ((upd_congr (acc18_kept m ρ c) (rows18_at m ρ c) (reads41 m ρ c).mf (reads41 m ρ c).a5).trans
    (step_eq_upd _ _ _ _ _ _ _ _ _).symm)

theorem col19_at (c : Dev nD) :
    W42 m ρ c (Proc.devRef .tc main_v249) = col ![0, 19] slices_S100000x27_S100000x1_0_19 (a9 m ρ c) :=
  (next18 (W41 m ρ c)).trans (congrArg _ (reads41 m ρ c).a9)

theorem reads43 (c : Dev nD) : Reads (W3 m ρ c) (W43 m ρ c) :=
  (reads42 m ρ c).after hostOps2_39 take19_W take19_writes (by decide)

theorem rows19_at (c : Dev nD) :
    W43 m ρ c (Proc.devRef .tc main_v250) = Val.takeFill (h2 m ρ c) (col ![0, 19] slices_S100000x27_S100000x1_0_19 (a9 m ρ c)) :=
  (take19 (W42 m ρ c)).trans (congrArg₂ Val.takeFill (reads42 m ρ c).h2 (col19_at m ρ c))

theorem acc19_kept (c : Dev nD) : W43 m ρ c (Proc.devRef .tc main_v247) = Val.accN 19 (by decide) (h2 m ρ c) (a5 m ρ c) (a9 m ρ c) (mf m ρ c) :=
  (take19_keep (W42 m ρ c) main_v247 (by decide)).trans (acc19_at m ρ c)
theorem reads44 (c : Dev nD) : Reads (W3 m ρ c) (W44 m ρ c) :=
  (reads43 m ρ c).after hostOps2_40 upd19_W upd19_writes (by decide)

theorem acc20_at (c : Dev nD) : W44 m ρ c (Proc.devRef .tc main_v259) = Val.accN 20 (by decide) (h2 m ρ c) (a5 m ρ c) (a9 m ρ c) (mf m ρ c) :=
  (upd19 (W43 m ρ c)).trans ((upd_congr (acc19_kept m ρ c) (rows19_at m ρ c) (reads43 m ρ c).mf (reads43 m ρ c).a5).trans
    (step_eq_upd _ _ _ _ _ _ _ _ _).symm)

theorem col20_at (c : Dev nD) :
    W44 m ρ c (Proc.devRef .tc main_v261) = col ![0, 20] slices_S100000x27_S100000x1_0_20 (a9 m ρ c) :=
  (next19 (W43 m ρ c)).trans (congrArg _ (reads43 m ρ c).a9)

theorem reads45 (c : Dev nD) : Reads (W3 m ρ c) (W45 m ρ c) :=
  (reads44 m ρ c).after hostOps2_41 take20_W take20_writes (by decide)

theorem rows20_at (c : Dev nD) :
    W45 m ρ c (Proc.devRef .tc main_v262) = Val.takeFill (h2 m ρ c) (col ![0, 20] slices_S100000x27_S100000x1_0_20 (a9 m ρ c)) :=
  (take20 (W44 m ρ c)).trans (congrArg₂ Val.takeFill (reads44 m ρ c).h2 (col20_at m ρ c))

theorem acc20_kept (c : Dev nD) : W45 m ρ c (Proc.devRef .tc main_v259) = Val.accN 20 (by decide) (h2 m ρ c) (a5 m ρ c) (a9 m ρ c) (mf m ρ c) :=
  (take20_keep (W44 m ρ c) main_v259 (by decide)).trans (acc20_at m ρ c)
theorem reads46 (c : Dev nD) : Reads (W3 m ρ c) (W46 m ρ c) :=
  (reads45 m ρ c).after hostOps2_42 upd20_W upd20_writes (by decide)

theorem acc21_at (c : Dev nD) : W46 m ρ c (Proc.devRef .tc main_v271) = Val.accN 21 (by decide) (h2 m ρ c) (a5 m ρ c) (a9 m ρ c) (mf m ρ c) :=
  (upd20 (W45 m ρ c)).trans ((upd_congr (acc20_kept m ρ c) (rows20_at m ρ c) (reads45 m ρ c).mf (reads45 m ρ c).a5).trans
    (step_eq_upd _ _ _ _ _ _ _ _ _).symm)

theorem col21_at (c : Dev nD) :
    W46 m ρ c (Proc.devRef .tc main_v273) = col ![0, 21] slices_S100000x27_S100000x1_0_21 (a9 m ρ c) :=
  (next20 (W45 m ρ c)).trans (congrArg _ (reads45 m ρ c).a9)

theorem reads47 (c : Dev nD) : Reads (W3 m ρ c) (W47 m ρ c) :=
  (reads46 m ρ c).after hostOps2_43 take21_W take21_writes (by decide)

theorem rows21_at (c : Dev nD) :
    W47 m ρ c (Proc.devRef .tc main_v274) = Val.takeFill (h2 m ρ c) (col ![0, 21] slices_S100000x27_S100000x1_0_21 (a9 m ρ c)) :=
  (take21 (W46 m ρ c)).trans (congrArg₂ Val.takeFill (reads46 m ρ c).h2 (col21_at m ρ c))

theorem acc21_kept (c : Dev nD) : W47 m ρ c (Proc.devRef .tc main_v271) = Val.accN 21 (by decide) (h2 m ρ c) (a5 m ρ c) (a9 m ρ c) (mf m ρ c) :=
  (take21_keep (W46 m ρ c) main_v271 (by decide)).trans (acc21_at m ρ c)
theorem reads48 (c : Dev nD) : Reads (W3 m ρ c) (W48 m ρ c) :=
  (reads47 m ρ c).after hostOps2_44 upd21_W upd21_writes (by decide)

theorem acc22_at (c : Dev nD) : W48 m ρ c (Proc.devRef .tc main_v283) = Val.accN 22 (by decide) (h2 m ρ c) (a5 m ρ c) (a9 m ρ c) (mf m ρ c) :=
  (upd21 (W47 m ρ c)).trans ((upd_congr (acc21_kept m ρ c) (rows21_at m ρ c) (reads47 m ρ c).mf (reads47 m ρ c).a5).trans
    (step_eq_upd _ _ _ _ _ _ _ _ _).symm)

theorem col22_at (c : Dev nD) :
    W48 m ρ c (Proc.devRef .tc main_v285) = col ![0, 22] slices_S100000x27_S100000x1_0_22 (a9 m ρ c) :=
  (next21 (W47 m ρ c)).trans (congrArg _ (reads47 m ρ c).a9)

theorem reads49 (c : Dev nD) : Reads (W3 m ρ c) (W49 m ρ c) :=
  (reads48 m ρ c).after hostOps2_45 take22_W take22_writes (by decide)

theorem rows22_at (c : Dev nD) :
    W49 m ρ c (Proc.devRef .tc main_v286) = Val.takeFill (h2 m ρ c) (col ![0, 22] slices_S100000x27_S100000x1_0_22 (a9 m ρ c)) :=
  (take22 (W48 m ρ c)).trans (congrArg₂ Val.takeFill (reads48 m ρ c).h2 (col22_at m ρ c))

theorem acc22_kept (c : Dev nD) : W49 m ρ c (Proc.devRef .tc main_v283) = Val.accN 22 (by decide) (h2 m ρ c) (a5 m ρ c) (a9 m ρ c) (mf m ρ c) :=
  (take22_keep (W48 m ρ c) main_v283 (by decide)).trans (acc22_at m ρ c)
theorem reads50 (c : Dev nD) : Reads (W3 m ρ c) (W50 m ρ c) :=
  (reads49 m ρ c).after hostOps2_46 upd22_W upd22_writes (by decide)

theorem acc23_at (c : Dev nD) : W50 m ρ c (Proc.devRef .tc main_v295) = Val.accN 23 (by decide) (h2 m ρ c) (a5 m ρ c) (a9 m ρ c) (mf m ρ c) :=
  (upd22 (W49 m ρ c)).trans ((upd_congr (acc22_kept m ρ c) (rows22_at m ρ c) (reads49 m ρ c).mf (reads49 m ρ c).a5).trans
    (step_eq_upd _ _ _ _ _ _ _ _ _).symm)

theorem col23_at (c : Dev nD) :
    W50 m ρ c (Proc.devRef .tc main_v297) = col ![0, 23] slices_S100000x27_S100000x1_0_23 (a9 m ρ c) :=
  (next22 (W49 m ρ c)).trans (congrArg _ (reads49 m ρ c).a9)

theorem reads51 (c : Dev nD) : Reads (W3 m ρ c) (W51 m ρ c) :=
  (reads50 m ρ c).after hostOps2_47 take23_W take23_writes (by decide)

theorem rows23_at (c : Dev nD) :
    W51 m ρ c (Proc.devRef .tc main_v298) = Val.takeFill (h2 m ρ c) (col ![0, 23] slices_S100000x27_S100000x1_0_23 (a9 m ρ c)) :=
  (take23 (W50 m ρ c)).trans (congrArg₂ Val.takeFill (reads50 m ρ c).h2 (col23_at m ρ c))

theorem acc23_kept (c : Dev nD) : W51 m ρ c (Proc.devRef .tc main_v295) = Val.accN 23 (by decide) (h2 m ρ c) (a5 m ρ c) (a9 m ρ c) (mf m ρ c) :=
  (take23_keep (W50 m ρ c) main_v295 (by decide)).trans (acc23_at m ρ c)
theorem reads52 (c : Dev nD) : Reads (W3 m ρ c) (W52 m ρ c) :=
  (reads51 m ρ c).after hostOps2_48 upd23_W upd23_writes (by decide)

theorem acc24_at (c : Dev nD) : W52 m ρ c (Proc.devRef .tc main_v307) = Val.accN 24 (by decide) (h2 m ρ c) (a5 m ρ c) (a9 m ρ c) (mf m ρ c) :=
  (upd23 (W51 m ρ c)).trans ((upd_congr (acc23_kept m ρ c) (rows23_at m ρ c) (reads51 m ρ c).mf (reads51 m ρ c).a5).trans
    (step_eq_upd _ _ _ _ _ _ _ _ _).symm)

theorem col24_at (c : Dev nD) :
    W52 m ρ c (Proc.devRef .tc main_v309) = col ![0, 24] slices_S100000x27_S100000x1_0_24 (a9 m ρ c) :=
  (next23 (W51 m ρ c)).trans (congrArg _ (reads51 m ρ c).a9)

theorem reads53 (c : Dev nD) : Reads (W3 m ρ c) (W53 m ρ c) :=
  (reads52 m ρ c).after hostOps2_49 take24_W take24_writes (by decide)

theorem rows24_at (c : Dev nD) :
    W53 m ρ c (Proc.devRef .tc main_v310) = Val.takeFill (h2 m ρ c) (col ![0, 24] slices_S100000x27_S100000x1_0_24 (a9 m ρ c)) :=
  (take24 (W52 m ρ c)).trans (congrArg₂ Val.takeFill (reads52 m ρ c).h2 (col24_at m ρ c))

theorem acc24_kept (c : Dev nD) : W53 m ρ c (Proc.devRef .tc main_v307) = Val.accN 24 (by decide) (h2 m ρ c) (a5 m ρ c) (a9 m ρ c) (mf m ρ c) :=
  (take24_keep (W52 m ρ c) main_v307 (by decide)).trans (acc24_at m ρ c)
theorem reads54 (c : Dev nD) : Reads (W3 m ρ c) (W54 m ρ c) :=
  (reads53 m ρ c).after hostOps2_50 upd24_W upd24_writes (by decide)

theorem acc25_at (c : Dev nD) : W54 m ρ c (Proc.devRef .tc main_v319) = Val.accN 25 (by decide) (h2 m ρ c) (a5 m ρ c) (a9 m ρ c) (mf m ρ c) :=
  (upd24 (W53 m ρ c)).trans ((upd_congr (acc24_kept m ρ c) (rows24_at m ρ c) (reads53 m ρ c).mf (reads53 m ρ c).a5).trans
    (step_eq_upd _ _ _ _ _ _ _ _ _).symm)

theorem col25_at (c : Dev nD) :
    W54 m ρ c (Proc.devRef .tc main_v321) = col ![0, 25] slices_S100000x27_S100000x1_0_25 (a9 m ρ c) :=
  (next24 (W53 m ρ c)).trans (congrArg _ (reads53 m ρ c).a9)

theorem reads55 (c : Dev nD) : Reads (W3 m ρ c) (W55 m ρ c) :=
  (reads54 m ρ c).after hostOps2_51 take25_W take25_writes (by decide)

theorem rows25_at (c : Dev nD) :
    W55 m ρ c (Proc.devRef .tc main_v322) = Val.takeFill (h2 m ρ c) (col ![0, 25] slices_S100000x27_S100000x1_0_25 (a9 m ρ c)) :=
  (take25 (W54 m ρ c)).trans (congrArg₂ Val.takeFill (reads54 m ρ c).h2 (col25_at m ρ c))

theorem acc25_kept (c : Dev nD) : W55 m ρ c (Proc.devRef .tc main_v319) = Val.accN 25 (by decide) (h2 m ρ c) (a5 m ρ c) (a9 m ρ c) (mf m ρ c) :=
  (take25_keep (W54 m ρ c) main_v319 (by decide)).trans (acc25_at m ρ c)
theorem reads56 (c : Dev nD) : Reads (W3 m ρ c) (W56 m ρ c) :=
  (reads55 m ρ c).after hostOps2_52 upd25_W upd25_writes (by decide)

theorem acc26_at (c : Dev nD) : W56 m ρ c (Proc.devRef .tc main_v331) = Val.accN 26 (by decide) (h2 m ρ c) (a5 m ρ c) (a9 m ρ c) (mf m ρ c) :=
  (upd25 (W55 m ρ c)).trans ((upd_congr (acc25_kept m ρ c) (rows25_at m ρ c) (reads55 m ρ c).mf (reads55 m ρ c).a5).trans
    (step_eq_upd _ _ _ _ _ _ _ _ _).symm)

theorem col26_at (c : Dev nD) :
    W56 m ρ c (Proc.devRef .tc main_v333) = col ![0, 26] slices_S100000x27_S100000x1_0_26 (a9 m ρ c) :=
  (next25 (W55 m ρ c)).trans (congrArg _ (reads55 m ρ c).a9)

theorem reads57 (c : Dev nD) : Reads (W3 m ρ c) (W57 m ρ c) :=
  (reads56 m ρ c).after hostOps2_53 take26_W take26_writes (by decide)

theorem rows26_at (c : Dev nD) :
    W57 m ρ c (Proc.devRef .tc main_v334) = Val.takeFill (h2 m ρ c) (col ![0, 26] slices_S100000x27_S100000x1_0_26 (a9 m ρ c)) :=
  (take26 (W56 m ρ c)).trans (congrArg₂ Val.takeFill (reads56 m ρ c).h2 (col26_at m ρ c))

theorem acc26_kept (c : Dev nD) : W57 m ρ c (Proc.devRef .tc main_v331) = Val.accN 26 (by decide) (h2 m ρ c) (a5 m ρ c) (a9 m ρ c) (mf m ρ c) :=
  (take26_keep (W56 m ρ c) main_v331 (by decide)).trans (acc26_at m ρ c)

end Cert.KernelIdeal.Host

end
-- ==== Proof.KHost.lean ====
import proofs.«410615_j21474836480482_3_alg».proof.Proof.KernelIdealFrameP
import proofs.«410615_j21474836480482_3_alg».proof.Proof.KTerms
import proofs.«410615_j21474836480482_3_alg».proof.Proof.KHostG

noncomputable section

namespace Cert.KernelIdeal.Host

open Idealize.ShloMosaic Idealize.ShloMosaic.TcCoe Idealize.ShloMosaic.StableHlo Cert.KernelIdeal Cert.KernelIdeal.Gen Cert.KernelIdeal.GenP

variable {F : FTy → Type} [FloatOps F]

variable (m : (ℓ : Loc nD τ sig) → Buf (Elt F) ℓ) (ρ : Dev nD → PrngReg)

theorem stats_mean_at (c : Dev nD) :
    W2 m ρ c (Proc.devRef .tc main_v13) = Val.row (Val.mean1 (W1 m ρ c (Proc.devRef .tc main_v0_1))) := stats_mean (W1 m ρ c)
theorem stats_var_at (c : Dev nD) :
    W2 m ρ c (Proc.devRef .tc main_v14) = Val.row (Val.var1 (W1 m ρ c (Proc.devRef .tc main_v0_1))) := stats_var (W1 m ρ c)
theorem stats_scale_at (c : Dev nD) :
    W2 m ρ c (Proc.devRef .tc main_v15) = Val.row (W1 m ρ c (Proc.devRef .tc main_arg2)) := stats_scale (W1 m ρ c)
theorem stats_shift_at (c : Dev nD) :
    W2 m ρ c (Proc.devRef .tc main_v16) = Val.row (W1 m ρ c (Proc.devRef .tc main_arg3)) := stats_shift (W1 m ρ c)
theorem stats_v0_0_at (c : Dev nD) :
    W2 m ρ c (Proc.devRef .tc main_v0_0) = W1 m ρ c (Proc.devRef .tc main_v0_0) := stats_keep (W1 m ρ c) main_v0_0 (by decide)
theorem stats_arg4_at (c : Dev nD) :
    W2 m ρ c (Proc.devRef .tc main_arg4) = W1 m ρ c (Proc.devRef .tc main_arg4) := stats_keep (W1 m ρ c) main_arg4 (by decide)

theorem reads58 (c : Dev nD) : Reads (W3 m ρ c) (W58 m ρ c) :=
  (reads57 m ρ c).after hostOps2_54 close_W close_writes (by decide)

theorem acc27_eq (c : Dev nD) :
    upd ![0, 26] slices_S100000x27_S100000x1_0_26 ![26, 0] slices_S27x128_S1x128_26_0
        (W57 m ρ c (Proc.devRef .tc main_v331)) (W57 m ρ c (Proc.devRef .tc main_v334)) (W57 m ρ c (Proc.devRef .tc main_v18)) (W57 m ρ c (Proc.devRef .tc main_arg5))
      = Val.accN 27 (by decide) (W3 m ρ c (Proc.devRef .tc main_v17)) (W3 m ρ c (Proc.devRef .tc main_arg5)) (W3 m ρ c (Proc.devRef .tc main_arg9)) (uitofp .f32 (W3 m ρ c (Proc.devRef .tc main_arg10))) :=
  (upd_congr (acc26_kept m ρ c) (rows26_at m ρ c) (reads57 m ρ c).mf (reads57 m ρ c).a5).trans
    (step_eq_upd _ _ _ _ _ _ _ _ _).symm

/-- After the 27 offsets the running sum is the specification's sum over all of them. -/
theorem walk_acc (c : Dev nD) :
    W58 m ρ c (Proc.devRef .tc main_v343) = Val.accN 27 (by decide) (W3 m ρ c (Proc.devRef .tc main_v17)) (W3 m ρ c (Proc.devRef .tc main_arg5)) (W3 m ρ c (Proc.devRef .tc main_arg9)) (uitofp .f32 (W3 m ρ c (Proc.devRef .tc main_arg10))) :=
  (close_acc (W57 m ρ c)).trans (acc27_eq m ρ c)
theorem walk_mean (c : Dev nD) :
    W58 m ρ c (Proc.devRef .tc main_v353) = Val.row (Val.mean2 (Val.accN 27 (by decide) (W3 m ρ c (Proc.devRef .tc main_v17)) (W3 m ρ c (Proc.devRef .tc main_arg5)) (W3 m ρ c (Proc.devRef .tc main_arg9)) (uitofp .f32 (W3 m ρ c (Proc.devRef .tc main_arg10))))) :=
  (close_mean (W57 m ρ c)).trans (congrArg (fun x => Val.row (Val.mean2 x)) (acc27_eq m ρ c))
theorem walk_var (c : Dev nD) :
    W58 m ρ c (Proc.devRef .tc main_v354) = Val.row (Val.var2 (Val.accN 27 (by decide) (W3 m ρ c (Proc.devRef .tc main_v17)) (W3 m ρ c (Proc.devRef .tc main_arg5)) (W3 m ρ c (Proc.devRef .tc main_arg9)) (uitofp .f32 (W3 m ρ c (Proc.devRef .tc main_arg10))))) :=
  (close_var (W57 m ρ c)).trans (congrArg (fun x => Val.row (Val.var2 x)) (acc27_eq m ρ c))
theorem walk_scale (c : Dev nD) :
    W58 m ρ c (Proc.devRef .tc main_v355) = Val.row (W3 m ρ c (Proc.devRef .tc main_arg6)) :=
  (close_scale (W57 m ρ c)).trans (congrArg Val.row (reads57 m ρ c).a6)
theorem walk_shift (c : Dev nD) :
    W58 m ρ c (Proc.devRef .tc main_v356) = Val.row (W3 m ρ c (Proc.devRef .tc main_arg7)) :=
  (close_shift (W57 m ρ c)).trans (congrArg Val.row (reads57 m ρ c).a7)
theorem walk_arg0 (c : Dev nD) : W58 m ρ c (Proc.devRef .tc main_arg0) = W3 m ρ c (Proc.devRef .tc main_arg0) := (reads58 m ρ c).a0
theorem walk_arg8 (c : Dev nD) : W58 m ρ c (Proc.devRef .tc main_arg8) = W3 m ρ c (Proc.devRef .tc main_arg8) := (reads58 m ρ c).a8

theorem launch_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := stats_keep (W1 m ρ c) main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem launch_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := stats_keep (W1 m ρ c) main_arg5 (by decide)
    _ = W0 m ρ c (Proc.devRef .tc main_arg5) := W1_of_ne m ρ c main_arg5 (by decide)
    _ = m ((c : Thread nD τ).loc main_arg5) := rfl
theorem launch_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := stats_keep (W1 m ρ c) main_arg6 (by decide)
    _ = W0 m ρ c (Proc.devRef .tc main_arg6) := W1_of_ne m ρ c main_arg6 (by decide)
    _ = m ((c : Thread nD τ).loc main_arg6) := rfl
theorem launch_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := stats_keep (W1 m ρ c) main_arg7 (by decide)
    _ = W0 m ρ c (Proc.devRef .tc main_arg7) := W1_of_ne m ρ c main_arg7 (by decide)
    _ = m ((c : Thread nD τ).loc main_arg7) := rfl
theorem launch_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := stats_keep (W1 m ρ c) main_arg8 (by decide)
    _ = W0 m ρ c (Proc.devRef .tc main_arg8) := W1_of_ne m ρ c main_arg8 (by decide)
    _ = m ((c : Thread nD τ).loc main_arg8) := rfl
theorem launch_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := stats_keep (W1 m ρ c) main_arg9 (by decide)
    _ = W0 m ρ c (Proc.devRef .tc main_arg9) := W1_of_ne m ρ c main_arg9 (by decide)
    _ = m ((c : Thread nD τ).loc main_arg9) := rfl
theorem launch_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := stats_keep (W1 m ρ c) main_arg10 (by decide)
    _ = W0 m ρ c (Proc.devRef .tc main_arg10) := W1_of_ne m ρ c main_arg10 (by decide)
    _ = m ((c : Thread nD τ).loc main_arg10) := rfl
theorem launch_arg2 (c : Dev nD) : W1 m ρ c (Proc.devRef .tc main_arg2) = m ((c : Thread nD τ).loc main_arg2) :=
  calc W1 m ρ c (Proc.devRef .tc main_arg2)
    _ = W0 m ρ c (Proc.devRef .tc main_arg2) := W1_of_ne m ρ c main_arg2 (by decide)
    _ = m ((c : Thread nD τ).loc main_arg2) := rfl
theorem launch_arg3 (c : Dev nD) : W1 m ρ c (Proc.devRef .tc main_arg3) = m ((c : Thread nD τ).loc main_arg3) :=
  calc W1 m ρ c (Proc.devRef .tc main_arg3)
    _ = W0 m ρ c (Proc.devRef .tc main_arg3) := W1_of_ne m ρ c main_arg3 (by decide)
    _ = m ((c : Thread nD τ).loc main_arg3) := rfl
theorem launch_arg4 (c : Dev nD) : W1 m ρ c (Proc.devRef .tc main_arg4) = m ((c : Thread nD τ).loc main_arg4) :=
  calc W1 m ρ c (Proc.devRef .tc main_arg4)
    _ = W0 m ρ c (Proc.devRef .tc main_arg4) := W1_of_ne m ρ c main_arg4 (by decide)
    _ = m ((c : Thread nD τ).loc main_arg4) := rfl

end Cert.KernelIdeal.Host

end
-- ==== Proof.KRead.lean ====
import proofs.«410615_j21474836480482_3_alg».proof.Proof.KTerms
import Idealize.ShloMosaic.Lib.IdealHost
import Idealize.ShloMosaic.Lib.ValueLayout

noncomputable section

open scoped BigOperators

namespace Cert.KernelIdeal.Read

open Idealize.ShloMosaic Idealize.ShloMosaic.ValueIdx Cert.KernelIdeal Cert.KernelIdeal.Facts₀

variable [Cert.KernelIdeal.Facts]

abbrev c1e5 : EReal := Ideal.ofBits .f32 0x47C35000#32

theorem row_apply (y : FVec Ideal S128 .f32) (j : Fin 128) : Val.row y (ix2 (0 : Fin 1) j) = y (ix1 j) :=
  shapeCast_a_1a_apply y shapeCasts_S128_S1x128 0 j

theorem colSum_apply {n : Nat} (x : FVec Ideal ⟨2, ![n, 128]⟩ .f32) (hr : (⟨2, ![n, 128]⟩ : Shape).ReducesTo [0] S128)
    (j : Fin 128) :
    Host.reduceAdd (F := Ideal) x (constant (F := Ideal) S_ .f32 0x00000000#32) hr h_S_ (ix1 j) = ∑ r : Fin n, x (ix2 r j) := by
  have hred : (⟨2, ![n, 128]⟩ : Shape).Reduces [0] S128 := ⟨hr.1, Nat.one_pos, hr.2⟩
  rw [hostReduceAdd_apply, Ideal.hostReduceAdd_single hr hred, constant_apply, Ideal.ofBits_zero_f32, zero_add]
  refine Finset.sum_congr rfl fun k _ => congrArg x ?_
  funext c
  match c with
  | ⟨0, _⟩ => rfl
  | ⟨1, _⟩ => rfl

theorem colMean_apply {n : Nat} (x : FVec Ideal ⟨2, ![n, 128]⟩ .f32) (hr : (⟨2, ![n, 128]⟩ : Shape).ReducesTo [0] S128)
    (j : Fin 128) :
    Host.divf (F := Ideal) (Host.reduceAdd (F := Ideal) x (constant (F := Ideal) S_ .f32 0x00000000#32) hr h_S_)
        (broadcastInDim S128 ![] bcast_S_S128 (constant (F := Ideal) S_ .f32 0x47C35000#32)) (ix1 j)
      = Ideal.div (∑ r : Fin n, x (ix2 r j)) c1e5 := by
  rw [hostDivf_apply, colSum_apply, broadcastInDim_scalar_apply, constant_apply]

theorem stat_apply (o : Fin 3 → Nat) (e : S25x2x128.Slices o S25x1x128) (c : Fin 2) (h0 : o 0 = 0) (h1 : o 1 = c.val)
    (h2 : o 2 = 0) (st : FVec Ideal S25x2x128 .f32) (j : Fin 128) :
    Val.stat o e st (ix1 j) = Ideal.div (∑ b : Fin 25, st (ix3 b c j)) c1e5 := by
  unfold Val.stat
  rw [colMean_apply]
  refine congrArg (fun s => Ideal.div s c1e5) (Finset.sum_congr rfl fun b _ => ?_)

  refine (shapeCast_apply _ _ (ix2 b j) (ix3 b (0 : Fin 1) j) (by
    rw [Shape.rowMajor_val_three, Shape.rowMajor_val_two]
    show (b.val * 1 + 0) * 128 + j.val = b.val * 128 + j.val
    omega)).trans ?_

  exact extractStridedSlice_apply o st e (ix3 b (0 : Fin 1) j) (ix3 b c j) (fun a => by
    match a with
    | ⟨0, _⟩ => show b.val = o 0 + b.val; omega
    | ⟨1, _⟩ => show c.val = o 1 + 0; omega
    | ⟨2, _⟩ => show j.val = o 2 + j.val; omega)

/-- The first mean at column j: the block sums added over the 25 blocks, divided by 100000. -/
theorem mean1_apply (st : FVec Ideal S25x2x128 .f32) (j : Fin 128) :
    Val.mean1 st (ix1 j) = Ideal.div (∑ b : Fin 25, st (ix3 b (0 : Fin 2) j)) c1e5 :=
  stat_apply ![0, 0, 0] slices_S25x2x128_S25x1x128_0_0_0 0 rfl rfl rfl st j

theorem var1_apply (st : FVec Ideal S25x2x128 .f32) (j : Fin 128) :
    Val.var1 st (ix1 j)
      = Ideal.div (∑ b : Fin 25, st (ix3 b (1 : Fin 2) j)) c1e5 - Val.mean1 st (ix1 j) * Val.mean1 st (ix1 j) := by
  unfold Val.var1
  rw [subf_apply, mulf_apply, stat_apply ![0, 1, 0] slices_S25x2x128_S25x1x128_0_1_0 1 rfl rfl rfl]

theorem mean2_apply (x : FVec Ideal S100000x128 .f32) (j : Fin 128) :
    Val.mean2 x (ix1 j) = Ideal.div (∑ r : Fin 100000, x (ix2 r j)) c1e5 := by
  unfold Val.mean2
  exact colMean_apply x reducesTo_S100000x128_S128_d0 j

theorem var2_apply (x : FVec Ideal S100000x128 .f32) (j : Fin 128) :
    Val.var2 x (ix1 j)
      = Ideal.div (∑ r : Fin 100000, x (ix2 r j) * x (ix2 r j)) c1e5 - Val.mean2 x (ix1 j) * Val.mean2 x (ix1 j) := by
  unfold Val.var2
  rw [subf_apply, mulf_apply, colMean_apply]
  refine congrArg (fun s => Ideal.div s c1e5 - Val.mean2 x (ix1 j) * Val.mean2 x (ix1 j)) (Finset.sum_congr rfl fun r _ => ?_)
  exact mulf_apply x x (ix2 r j)

end Cert.KernelIdeal.Read

end
-- ==== Proof.LibBatchNormStats.lean ====
import Idealize.ShloMosaic.PureOps.Ideal
import Idealize.ShloMosaic.PureOps.Ideal.Laws
import proofs.«410615_j21474836480482_3_alg».proof.Proof.BNSpec
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Group.Finset
import Mathlib.Logic.Equiv.Fin.Basic
import Mathlib.Tactic.Ring
import Mathlib.Tactic.Linarith
import Mathlib.Tactic.NormNum
import Mathlib.Tactic.Positivity

noncomputable section

namespace Cert.BNStats

open Idealize.ShloMosaic

def c1e5 : EReal := Ideal.ofBits .f32 0x47C35000#32

theorem c1e5_eq : Ideal.ofBits .f32 0x47C35000#32 = ((100000 : ℝ) : EReal) := by
  simp [Ideal.ofBits, Ideal.ieee, -EReal.coe_mul]; norm_num

theorem c1e5_val : c1e5 = ((100000 : ℝ) : EReal) := c1e5_eq

theorem eps_pos : ∃ e : ℝ, 0 < e ∧ Cert.BN.eps = (e : EReal) := by
  refine ⟨(10995116 : ℝ) * (2 : ℝ) ^ (-40 : Int), by positivity, ?_⟩
  unfold Cert.BN.eps
  simp [Ideal.ofBits, Ideal.ieee, -EReal.coe_mul]

theorem sitofp_zero : FloatOps.sitofp (F := Ideal) .f32 (0#32) = (0 : EReal) := by
  show (((0#32 : BitVec 32).toInt : ℝ) : EReal) = 0
  simp

theorem dofs_eq : (c1e5 - (0 : EReal)) = ((100000 : ℝ) : EReal) := by
  rw [sub_zero, c1e5_val]

theorem cmp_dofs_pos : Ideal.cmp .ogt ((100000 : ℝ) : EReal) (0 : EReal) = 1#1 := by
  have h : (0 : EReal) < ((100000 : ℝ) : EReal) := EReal.coe_pos.2 (by norm_num)
  simp [Ideal.cmp, h]

theorem cmpf_dofs_words :
    FloatOps.cmpf (F := Ideal) (φ := .f32) .ogt (c1e5 - (0 : EReal)) (Ideal.ofBits .f32 0x00000000#32) = 1#1 := by
  rw [dofs_eq, Ideal.ofBits_zero_f32]; exact cmp_dofs_pos

theorem coe_sum {ι : Type*} [Fintype ι] (a : ι → ℝ) :
    (∑ i, ((a i : ℝ) : EReal)) = ((∑ i, a i : ℝ) : EReal) := by
  classical
  refine Finset.induction_on (Finset.univ : Finset ι) (by simp) ?_
  intro i s hi ih
  rw [Finset.sum_insert hi, Finset.sum_insert hi, ih, EReal.coe_add]

theorem div_c1e5 (x : ℝ) : Ideal.div ((x : ℝ) : EReal) c1e5 = ((x / 100000 : ℝ) : EReal) := by
  rw [c1e5_val, Ideal.div_coe (by norm_num), ← EReal.coe_mul, mul_one_div]

theorem mean_coe {ι : Type*} [Fintype ι] (a : ι → ℝ) :
    Ideal.div (∑ i, ((a i : ℝ) : EReal)) c1e5 = (((∑ i, a i) / 100000 : ℝ) : EReal) := by
  rw [coe_sum, div_c1e5]

theorem meansq_coe {ι : Type*} [Fintype ι] (a : ι → ℝ) :
    Ideal.div (∑ i, ((a i : ℝ) : EReal) * (a i : EReal)) c1e5 = (((∑ i, a i * a i) / 100000 : ℝ) : EReal) := by
  simp only [← EReal.coe_mul]
  rw [coe_sum, div_c1e5]

theorem var_two_forms {ι : Type*} [Fintype ι] (a : ι → ℝ) :
    Ideal.div (∑ i, ((a i : ℝ) : EReal) * (a i : EReal)) c1e5
        - Ideal.div (∑ i, (a i : EReal)) c1e5 * Ideal.div (∑ i, (a i : EReal)) c1e5
      = (((∑ i, a i * a i) / 100000 - ((∑ i, a i) / 100000) * ((∑ i, a i) / 100000) : ℝ) : EReal) := by
  rw [meansq_coe, mean_coe, ← EReal.coe_mul, ← EReal.coe_sub]

theorem real_var_identity {ι : Type*} [Fintype ι] (a : ι → ℝ) (hcard : (Fintype.card ι : ℝ) = 100000) :
    (∑ i, (a i - (∑ i', a i') / 100000) * (a i - (∑ i', a i') / 100000)) / 100000
      = (∑ i, a i * a i) / 100000 - ((∑ i, a i) / 100000) * ((∑ i, a i) / 100000) := by
  set S : ℝ := ∑ i, a i with hS
  set m : ℝ := S / 100000 with hm
  have hsq : ∀ i, (a i - m) * (a i - m) = a i * a i - 2 * m * a i + m * m := fun i => by ring
  have hsum : (∑ i, (a i - m) * (a i - m)) = (∑ i, a i * a i) - 2 * m * S + 100000 * (m * m) := by
    simp only [hsq, Finset.sum_add_distrib, Finset.sum_sub_distrib, ← Finset.mul_sum, Finset.sum_const,
      Finset.card_univ, nsmul_eq_mul, hcard, ← hS]
    ring
  rw [hsum, hm]; ring

theorem var_dev_form {ι : Type*} [Fintype ι] (a : ι → ℝ) (hcard : (Fintype.card ι : ℝ) = 100000) :
    Ideal.div (∑ i, ((a i : EReal) - Ideal.div (∑ i', (a i' : EReal)) c1e5)
        * ((a i : EReal) - Ideal.div (∑ i', (a i' : EReal)) c1e5)) c1e5
      = (((∑ i, a i * a i) / 100000 - ((∑ i, a i) / 100000) * ((∑ i, a i) / 100000) : ℝ) : EReal) := by
  rw [mean_coe]
  simp only [← EReal.coe_sub, ← EReal.coe_mul]
  rw [coe_sum, div_c1e5, real_var_identity a hcard]

/-- Over 100000 reals, mean of squares minus squared mean is the mean of squared deviations. -/
theorem var_forms_agree {ι : Type*} [Fintype ι] (a : ι → ℝ) (hcard : (Fintype.card ι : ℝ) = 100000) :
    Ideal.div (∑ i, ((a i : ℝ) : EReal) * (a i : EReal)) c1e5
        - Ideal.div (∑ i, (a i : EReal)) c1e5 * Ideal.div (∑ i, (a i : EReal)) c1e5
      = Ideal.div (∑ i, ((a i : EReal) - Ideal.div (∑ i', (a i' : EReal)) c1e5)
        * ((a i : EReal) - Ideal.div (∑ i', (a i' : EReal)) c1e5)) c1e5 := by
  rw [var_two_forms, var_dev_form a hcard]

theorem var_nonneg {ι : Type*} [Fintype ι] (a : ι → ℝ) :
    0 ≤ (∑ i, (a i - (∑ i', a i') / 100000) * (a i - (∑ i', a i') / 100000)) / 100000 :=
  div_nonneg (Finset.sum_nonneg fun i _ => mul_self_nonneg _) (by norm_num)

theorem var_two_forms_nonneg {ι : Type*} [Fintype ι] (a : ι → ℝ) (hcard : (Fintype.card ι : ℝ) = 100000) :
    0 ≤ (∑ i, a i * a i) / 100000 - ((∑ i, a i) / 100000) * ((∑ i, a i) / 100000) := by
  rw [← real_var_identity a hcard]; exact var_nonneg a

theorem rsqrt_real (v : ℝ) (hv : 0 ≤ v) : ∃ s : ℝ, Ideal.rsqrt ((v : EReal) + Cert.BN.eps) = (s : EReal) := by
  obtain ⟨e, he, heq⟩ := eps_pos
  have hpos : 0 < v + e := by linarith
  rw [heq, ← EReal.coe_add, Ideal.rsqrt_coe, if_neg (not_lt.2 hpos.le), if_neg hpos.ne']
  exact ⟨_, rfl⟩

/-- A normalised entry of real data with nonnegative variance is real. -/
theorem bnrelu_real (x mu v g b : ℝ) (hv : 0 ≤ v) :
    ∃ y : ℝ, Cert.BN.bnrelu (x : EReal) (mu : EReal) (v : EReal) (g : EReal) (b : EReal) = (y : EReal) := by
  obtain ⟨s, hs⟩ := rsqrt_real v hv
  refine ⟨max (((x - mu) * s) * g + b) 0, ?_⟩
  unfold Cert.BN.bnrelu
  rw [hs, ← EReal.coe_sub, ← EReal.coe_mul, ← EReal.coe_mul, ← EReal.coe_add,
    EReal.coe_strictMono.monotone.map_max, EReal.coe_zero]

/-- A sum over 100000 rows is the sum over 25 blocks of their 4000-row sums. -/
theorem sum_blocks (f : Fin 100000 → EReal) :
    (∑ b : Fin 25, ∑ q : Fin 4000, f ⟨4000 * b.val + q.val, by omega⟩) = ∑ r : Fin 100000, f r := by
  rw [← Fintype.sum_prod_type']
  exact Fintype.sum_equiv (finProdFinEquiv (m := 25) (n := 4000)) _ _
    (fun x => congrArg f (Fin.ext (by simp only [finProdFinEquiv_apply_val]; omega)))

end Cert.BNStats

end
-- ==== Proof.BridgeStat1.lean ====
import proofs.«410615_j21474836480482_3_alg».proof.Proof.KRead
import proofs.«410615_j21474836480482_3_alg».proof.Proof.LibBatchNormStats

noncomputable section

open scoped BigOperators

namespace Cert.KernelIdeal.Read

open Idealize.ShloMosaic Idealize.ShloMosaic.ValueIdx Cert.KernelIdeal Cert.KernelIdeal.Facts₀

variable [Cert.KernelIdeal.Facts]

/-- A block statistic added over the 25 blocks is the statistic over all rows: every r is 4000 b + q exactly once. -/
theorem blocks_sum (st : FVec Ideal S25x2x128 .f32) (c : Fin 2) (j : Fin 128) (g : Fin 100000 → EReal)
    (h : ∀ b : Fin 25, st (ix3 b c j) = ∑ q : Fin 4000, g ⟨4000 * b.val + q.val, by omega⟩) :
    ∑ b : Fin 25, st (ix3 b c j) = ∑ r : Fin 100000, g r :=
  (Finset.sum_congr rfl fun b _ => h b).trans (Cert.BNStats.sum_blocks g)

theorem mean1_blocks (st : FVec Ideal S25x2x128 .f32) (Hf : Fin 100000 → Fin 128 → EReal)
    (h0 : ∀ (b : Fin 25) (j : Fin 128), st (ix3 b (0 : Fin 2) j) = ∑ q : Fin 4000, Hf ⟨4000 * b.val + q.val, by omega⟩ j)
    (j : Fin 128) :
    Val.mean1 st (ix1 j) = Ideal.div (∑ r : Fin 100000, Hf r j) Cert.BNStats.c1e5 := by
  rw [mean1_apply, blocks_sum st 0 j (fun r => Hf r j) (fun b => h0 b j)]
  rfl

theorem var1_blocks (st : FVec Ideal S25x2x128 .f32) (Hf : Fin 100000 → Fin 128 → EReal)
    (h0 : ∀ (b : Fin 25) (j : Fin 128), st (ix3 b (0 : Fin 2) j) = ∑ q : Fin 4000, Hf ⟨4000 * b.val + q.val, by omega⟩ j)
    (h1 : ∀ (b : Fin 25) (j : Fin 128), st (ix3 b (1 : Fin 2) j)
      = ∑ q : Fin 4000, Hf ⟨4000 * b.val + q.val, by omega⟩ j * Hf ⟨4000 * b.val + q.val, by omega⟩ j)
    (j : Fin 128) :
    Val.var1 st (ix1 j)
      = Ideal.div (∑ r : Fin 100000, Hf r j * Hf r j) Cert.BNStats.c1e5
        - Ideal.div (∑ r : Fin 100000, Hf r j) Cert.BNStats.c1e5 * Ideal.div (∑ r : Fin 100000, Hf r j) Cert.BNStats.c1e5 := by
  rw [var1_apply, mean1_blocks st Hf h0 j, blocks_sum st 1 j (fun r => Hf r j * Hf r j) (fun b => h1 b j)]
  rfl

end Cert.KernelIdeal.Read

end
-- ==== Proof.RRead.lean ====
import proofs.«410615_j21474836480482_3_alg».proof.Proof.RTerms
import proofs.«410615_j21474836480482_3_alg».proof.Proof.BNSpec
import Idealize.ShloMosaic.PureOps.Ideal.Laws
import Idealize.ShloMosaic.Lib.ValueIdx
import Idealize.ShloMosaic.Lib.Pipeline.Value

noncomputable section

namespace Cert.ReferenceIdeal.Read

open Idealize.ShloMosaic Idealize.ShloMosaic.ValueIdx Cert.ReferenceIdeal Cert.ReferenceIdeal.Facts₀

variable [Cert.ReferenceIdeal.Facts]

abbrev c1e5 : EReal := Ideal.ofBits .f32 0x47C35000#32

theorem lhs96_0 (j : S100000x128.Idx) (k : dot_S100000x96_S96x128_S100000x128_1_0_0_1_n_n.contr.Idx) :
    (dot_S100000x96_S96x128_S100000x128_1_0_0_1_n_n.lhsIdx j k 0).val = (j 0).val := by
  unfold DotDims.lhsIdx
  rw [dif_neg (show ¬ (0 : Fin S100000x96.rank) ∈ dot_S100000x96_S96x128_S100000x128_1_0_0_1_n_n.lhsBatch from List.not_mem_nil),
    dif_pos (show (0 : Fin S100000x96.rank) ∈ dot_S100000x96_S96x128_S100000x128_1_0_0_1_n_n.lhsNonContracting from List.mem_singleton.mpr rfl)]
  rfl

theorem lhs96_1 (j : S100000x128.Idx) (k : dot_S100000x96_S96x128_S100000x128_1_0_0_1_n_n.contr.Idx) :
    (dot_S100000x96_S96x128_S100000x128_1_0_0_1_n_n.lhsIdx j k 1).val = (k ⟨0, Nat.one_pos⟩).val :=
  dot_S100000x96_S96x128_S100000x128_1_0_0_1_n_n.lhsIdx_val_of_single rfl j k

theorem rhs96_0 (j : S100000x128.Idx) (k : dot_S100000x96_S96x128_S100000x128_1_0_0_1_n_n.contr.Idx) :
    (dot_S100000x96_S96x128_S100000x128_1_0_0_1_n_n.rhsIdx j k 0).val = (k ⟨0, Nat.one_pos⟩).val :=
  dot_S100000x96_S96x128_S100000x128_1_0_0_1_n_n.rhsIdx_val_of_single rfl j k

theorem rhs96_1 (j : S100000x128.Idx) (k : dot_S100000x96_S96x128_S100000x128_1_0_0_1_n_n.contr.Idx) :
    (dot_S100000x96_S96x128_S100000x128_1_0_0_1_n_n.rhsIdx j k 1).val = (j 1).val := by
  unfold DotDims.rhsIdx
  rw [dif_neg (show ¬ (1 : Fin S96x128.rank) ∈ dot_S100000x96_S96x128_S100000x128_1_0_0_1_n_n.rhsBatch from List.not_mem_nil),
    dif_pos (show (1 : Fin S96x128.rank) ∈ dot_S100000x96_S96x128_S100000x128_1_0_0_1_n_n.rhsNonContracting from List.mem_singleton.mpr rfl)]
  rfl

theorem lhs128_0 (j : S100000x128.Idx) (k : dot_S100000x128_S128x128_S100000x128_1_0_0_1_n_n.contr.Idx) :
    (dot_S100000x128_S128x128_S100000x128_1_0_0_1_n_n.lhsIdx j k 0).val = (j 0).val := by
  unfold DotDims.lhsIdx
  rw [dif_neg (show ¬ (0 : Fin S100000x128.rank) ∈ dot_S100000x128_S128x128_S100000x128_1_0_0_1_n_n.lhsBatch from List.not_mem_nil),
    dif_pos (show (0 : Fin S100000x128.rank) ∈ dot_S100000x128_S128x128_S100000x128_1_0_0_1_n_n.lhsNonContracting from List.mem_singleton.mpr rfl)]
  rfl

theorem lhs128_1 (j : S100000x128.Idx) (k : dot_S100000x128_S128x128_S100000x128_1_0_0_1_n_n.contr.Idx) :
    (dot_S100000x128_S128x128_S100000x128_1_0_0_1_n_n.lhsIdx j k 1).val = (k ⟨0, Nat.one_pos⟩).val :=
  dot_S100000x128_S128x128_S100000x128_1_0_0_1_n_n.lhsIdx_val_of_single rfl j k

theorem rhs128_0 (j : S100000x128.Idx) (k : dot_S100000x128_S128x128_S100000x128_1_0_0_1_n_n.contr.Idx) :
    (dot_S100000x128_S128x128_S100000x128_1_0_0_1_n_n.rhsIdx j k 0).val = (k ⟨0, Nat.one_pos⟩).val :=
  dot_S100000x128_S128x128_S100000x128_1_0_0_1_n_n.rhsIdx_val_of_single rfl j k

theorem rhs128_1 (j : S100000x128.Idx) (k : dot_S100000x128_S128x128_S100000x128_1_0_0_1_n_n.contr.Idx) :
    (dot_S100000x128_S128x128_S100000x128_1_0_0_1_n_n.rhsIdx j k 1).val = (j 1).val := by
  unfold DotDims.rhsIdx
  rw [dif_neg (show ¬ (1 : Fin S128x128.rank) ∈ dot_S100000x128_S128x128_S100000x128_1_0_0_1_n_n.rhsBatch from List.not_mem_nil),
    dif_pos (show (1 : Fin S128x128.rank) ∈ dot_S100000x128_S128x128_S100000x128_1_0_0_1_n_n.rhsNonContracting from List.mem_singleton.mpr rfl)]
  rfl

theorem dot96_apply (a : FVec Ideal S100000x96 .f32) (w : FVec Ideal S96x128 .f32) (r : Fin 100000) (j : Fin 128) :
    Host.dotGeneral dot_S100000x96_S96x128_S100000x128_1_0_0_1_n_n none a w (ix2 r j)
      = ∑ k : Fin 96, a (ix2 r k) * w (ix2 k j) := by
  show FloatOps.dotGeneral _ none _ a w (ix2 r j) = _
  rw [Ideal.dotGeneral_apply, ← Equiv.sum_comp (contrEquiv1 dot_S100000x96_S96x128_S100000x128_1_0_0_1_n_n 96 rfl rfl).symm]
  refine Finset.sum_congr rfl fun c _ => ?_
  have hc := contrEquiv1_symm_val dot_S100000x96_S96x128_S100000x128_1_0_0_1_n_n 96 rfl rfl c
  have hl : dot_S100000x96_S96x128_S100000x128_1_0_0_1_n_n.lhsIdx (ix2 r j) ((contrEquiv1 dot_S100000x96_S96x128_S100000x128_1_0_0_1_n_n 96 rfl rfl).symm c) = ix2 r c := by
    funext ax; apply Fin.ext
    match ax with
    | ⟨0, _⟩ => exact lhs96_0 _ _
    | ⟨1, _⟩ => exact (lhs96_1 _ _).trans hc
  have hr : dot_S100000x96_S96x128_S100000x128_1_0_0_1_n_n.rhsIdx (ix2 r j) ((contrEquiv1 dot_S100000x96_S96x128_S100000x128_1_0_0_1_n_n 96 rfl rfl).symm c) = ix2 c j := by
    funext ax; apply Fin.ext
    match ax with
    | ⟨0, _⟩ => exact (rhs96_0 _ _).trans hc
    | ⟨1, _⟩ => exact rhs96_1 _ _
  rw [hl, hr]

theorem dot128_apply (a : FVec Ideal S100000x128 .f32) (w : FVec Ideal S128x128 .f32) (r : Fin 100000) (j : Fin 128) :
    Host.dotGeneral dot_S100000x128_S128x128_S100000x128_1_0_0_1_n_n none a w (ix2 r j)
      = ∑ k : Fin 128, a (ix2 r k) * w (ix2 k j) := by
  show FloatOps.dotGeneral _ none _ a w (ix2 r j) = _
  rw [Ideal.dotGeneral_apply, ← Equiv.sum_comp (contrEquiv1 dot_S100000x128_S128x128_S100000x128_1_0_0_1_n_n 128 rfl rfl).symm]
  refine Finset.sum_congr rfl fun c _ => ?_
  have hc := contrEquiv1_symm_val dot_S100000x128_S128x128_S100000x128_1_0_0_1_n_n 128 rfl rfl c
  have hl : dot_S100000x128_S128x128_S100000x128_1_0_0_1_n_n.lhsIdx (ix2 r j) ((contrEquiv1 dot_S100000x128_S128x128_S100000x128_1_0_0_1_n_n 128 rfl rfl).symm c) = ix2 r c := by
    funext ax; apply Fin.ext
    match ax with
    | ⟨0, _⟩ => exact lhs128_0 _ _
    | ⟨1, _⟩ => exact (lhs128_1 _ _).trans hc
  have hr : dot_S100000x128_S128x128_S100000x128_1_0_0_1_n_n.rhsIdx (ix2 r j) ((contrEquiv1 dot_S100000x128_S128x128_S100000x128_1_0_0_1_n_n 128 rfl rfl).symm c) = ix2 c j := by
    funext ax; apply Fin.ext
    match ax with
    | ⟨0, _⟩ => exact (rhs128_0 _ _).trans hc
    | ⟨1, _⟩ => exact rhs128_1 _ _
  rw [hl, hr]

theorem x1_apply (a0 : FVec Ideal S100000x96 .f32) (a1 : FVec Ideal S96x128 .f32) (r : Fin 100000) (j : Fin 128) :
    Val.x1 a0 a1 (ix2 r j) = ∑ k : Fin 96, a0 (ix2 r k) * a1 (ix2 k j) := by
  unfold Val.x1
  exact dot96_apply a0 a1 r j

theorem reduces_rows : S100000x128.Reduces [0] S128 := by decide

theorem lift_rows (j : Fin 128) (k : Fin 100000) : reduces_rows.lift (ix1 j) k = ix2 k j := by
  funext c; apply Fin.ext
  match c with
  | ⟨0, _⟩ => rfl
  | ⟨1, _⟩ => rfl

theorem colsum_apply (x : FVec Ideal S100000x128 .f32) (j : Fin 128) :
    Host.reduceAdd (F := Ideal) x (constant S_ .f32 0x00000000#32) reducesTo_S100000x128_S128_d0 h_S_ (ix1 j)
      = ∑ r : Fin 100000, x (ix2 r j) := by
  show Ideal.hostReduceAdd reducesTo_S100000x128_S128_d0 x (Ideal.ofBits .f32 0x00000000#32) (ix1 j) = _
  rw [Ideal.hostReduceAdd_single _ reduces_rows, Ideal.ofBits_zero_f32, zero_add]
  exact Finset.sum_congr rfl fun k _ => congrArg x (lift_rows j k)

theorem mean_apply (x : FVec Ideal S100000x128 .f32) (j : Fin 128) :
    Val.mean x (ix1 j) = Ideal.div (∑ r : Fin 100000, x (ix2 r j)) c1e5 := by
  unfold Val.mean
  show Ideal.div (Host.reduceAdd (F := Ideal) x (constant S_ .f32 0x00000000#32) reducesTo_S100000x128_S128_d0 h_S_ (ix1 j)) _ = _
  rw [colsum_apply]
  rfl

section Bcast
variable {α : Type}

theorem bcast_row_apply (y : S1x128.Idx → α) (r : Fin 100000) (j : Fin 128) :
    broadcastInDim S100000x128 ![0, 1] bcast_S1x128_S100000x128_0_1 y (ix2 r j) = y (ix2 (0 : Fin 1) j) :=
  broadcastInDim_apply _ _ y (ix2 r j) (ix2 (0 : Fin 1) j) fun a => match a with
    | ⟨0, _⟩ => rfl
    | ⟨1, _⟩ => rfl

theorem bcast_unit_apply (y : S128.Idx → α) (j : Fin 128) :
    broadcastInDim S1x128 ![1] bcast_S128_S1x128_1 y (ix2 (0 : Fin 1) j) = y (ix1 j) :=
  broadcastInDim_apply _ _ y (ix2 (0 : Fin 1) j) (ix1 j) fun a => match a with
    | ⟨0, _⟩ => rfl

theorem bcast_scalar_S128 (y : S_.Idx → α) (j : Fin 128) :
    broadcastInDim S128 ![] bcast_S_S128 y (ix1 j) = y ix0 :=
  broadcastInDim_apply _ _ y (ix1 j) ix0 fun a => a.elim0

theorem bcast_scalar_S1x128 (y : S_.Idx → α) (j : Fin 128) :
    broadcastInDim S1x128 ![] bcast_S_S1x128 y (ix2 (0 : Fin 1) j) = y ix0 :=
  broadcastInDim_apply _ _ y (ix2 (0 : Fin 1) j) ix0 fun a => a.elim0

theorem bcast_scalar_S100000x128 (y : S_.Idx → α) (r : Fin 100000) (j : Fin 128) :
    broadcastInDim S100000x128 ![] bcast_S_S100000x128 y (ix2 r j) = y ix0 :=
  broadcastInDim_apply _ _ y (ix2 r j) ix0 fun a => a.elim0

end Bcast

theorem rows_apply (y : FVec Ideal S128 .f32) (r : Fin 100000) (j : Fin 128) : Val.rows y (ix2 r j) = y (ix1 j) := by
  unfold Val.rows
  rw [bcast_row_apply, bcast_unit_apply]

theorem hostDivf_apply {s : Shape} {φ : FTy} (a b : FVec Ideal s φ) (i : s.Idx) :
    Host.divf a b i = Ideal.div (a i) (b i) := rfl

theorem hostRsqrt_apply {s : Shape} {φ : FTy} (a : FVec Ideal s φ) (i : s.Idx) :
    Host.rsqrt a i = Ideal.rsqrt (a i) := rfl

theorem relu_apply (y : FVec Ideal S100000x128 .f32) (r : Fin 100000) (j : Fin 128) :
    Val.relu y (ix2 r j) = max (y (ix2 r j)) 0 := by
  unfold Val.relu
  rw [maximumf_apply, bcast_scalar_S100000x128, constant_apply, Ideal.ofBits_zero_f32]

theorem dev_apply (x : FVec Ideal S100000x128 .f32) (r : Fin 100000) (j : Fin 128) :
    Val.dev x (ix2 r j) = x (ix2 r j) - Ideal.div (∑ r' : Fin 100000, x (ix2 r' j)) c1e5 := by
  unfold Val.dev
  rw [subf_apply, bcast_row_apply, hostDivf_apply, bcast_unit_apply, colsum_apply, bcast_scalar_S1x128, constant_apply]

theorem var_apply (x : FVec Ideal S100000x128 .f32) (j : Fin 128) :
    Val.var x (ix1 j) = Scalar.select (Ideal.cmp .ogt (Val.dofs (F := Ideal) ix0) 0)
      (Ideal.div (∑ r : Fin 100000, Val.dev x (ix2 r j) * Val.dev x (ix2 r j)) (Val.dofs (F := Ideal) ix0))
      (Ideal.ofBits .f32 0x7FC00000#32) := by
  unfold Val.var
  rw [select_apply, bcast_scalar_S128, bcast_scalar_S128, hostDivf_apply, colsum_apply, bcast_scalar_S128, cmpf_apply,
    constant_apply, Ideal.ofBits_zero_f32, Ideal.cmpf_def]
  rfl

theorem bn_relu_apply (x : FVec Ideal S100000x128 .f32) (g b : FVec Ideal S128 .f32) (r : Fin 100000) (j : Fin 128) :
    Val.relu (Val.bn x g b) (ix2 r j)
      = Cert.BN.bnrelu (x (ix2 r j)) (Val.mean x (ix1 j)) (Val.var x (ix1 j)) (g (ix1 j)) (b (ix1 j)) := by
  rw [relu_apply]
  unfold Val.bn Cert.BN.bnrelu Cert.BN.eps
  rw [addf_apply, mulf_apply, mulf_apply, subf_apply, rows_apply, rows_apply, rows_apply, rows_apply, hostRsqrt_apply,
    addf_apply, bcast_scalar_S128, constant_apply]

theorem h2_apply (a0 : FVec Ideal S100000x96 .f32) (a1 : FVec Ideal S96x128 .f32) (a2 a3 : FVec Ideal S128 .f32)
    (a4 : FVec Ideal S128x128 .f32) (r : Fin 100000) (j : Fin 128) :
    Val.h2 a0 a1 a2 a3 a4 (ix2 r j)
      = ∑ k : Fin 128, Cert.BN.bnrelu (Val.x1 a0 a1 (ix2 r k)) (Val.mean (Val.x1 a0 a1) (ix1 k))
          (Val.var (Val.x1 a0 a1) (ix1 k)) (a2 (ix1 k)) (a3 (ix1 k)) * a4 (ix2 k j) := by
  unfold Val.h2
  rw [dot128_apply]
  exact Finset.sum_congr rfl fun k _ => by rw [bn_relu_apply]

theorem sum_relu_apply (A : FVec Ideal S100000x128 .f32) (g b : FVec Ideal S128 .f32) (a0 : FVec Ideal S100000x96 .f32)
    (w : FVec Ideal S96x128 .f32) (r : Fin 100000) (j : Fin 128) :
    Val.relu (addf (Val.relu (Val.bn A g b))
        (Host.dotGeneral dot_S100000x96_S96x128_S100000x128_1_0_0_1_n_n none a0 w)) (ix2 r j)
      = max (Cert.BN.bnrelu (A (ix2 r j)) (Val.mean A (ix1 j)) (Val.var A (ix1 j)) (g (ix1 j)) (b (ix1 j))
          + ∑ k : Fin 96, a0 (ix2 r k) * w (ix2 k j)) 0 := by
  rw [relu_apply, addf_apply, bn_relu_apply, dot96_apply]

/-- The reference's result at row r, column j. -/
theorem out_apply (a0 : FVec Ideal S100000x96 .f32) (a1 : FVec Ideal S96x128 .f32) (a2 a3 : FVec Ideal S128 .f32)
    (a4 : FVec Ideal S128x128 .f32) (a5 : FVec Ideal S27x128 .f32) (a6 a7 : FVec Ideal S128 .f32)
    (a8 : FVec Ideal S96x128 .f32) (a9 : IVec S100000x27 32) (a10 : IVec S100000x27 1) (r : Fin 100000) (j : Fin 128) :
    Val.out a0 a1 a2 a3 a4 a5 a6 a7 a8 a9 a10 (ix2 r j)
      = max (Cert.BN.bnrelu (Val.accN 27 (by decide) (Val.h2 a0 a1 a2 a3 a4) a5 a9 (uitofp .f32 a10) (ix2 r j))
            (Val.mean (Val.accN 27 (by decide) (Val.h2 a0 a1 a2 a3 a4) a5 a9 (uitofp .f32 a10)) (ix1 j))
            (Val.var (Val.accN 27 (by decide) (Val.h2 a0 a1 a2 a3 a4) a5 a9 (uitofp .f32 a10)) (ix1 j)) (a6 (ix1 j)) (a7 (ix1 j))
          + ∑ k : Fin 96, a0 (ix2 r k) * a8 (ix2 k j)) 0 := by
  unfold Val.out
  exact sum_relu_apply _ a6 a7 a0 a8 r j

end Cert.ReferenceIdeal.Read

end
-- ==== Proof.BridgeStats.lean ====
import Idealize.ShloMosaic.PureOps.Ideal
import Idealize.ShloMosaic.Lib.ValueIdx
import proofs.«410615_j21474836480482_3_alg».proof.Proof.BNSpec
import proofs.«410615_j21474836480482_3_alg».proof.Proof.LibBatchNormStats
import Mathlib.Data.EReal.Basic
import Mathlib.Data.EReal.Operations
import Mathlib.Data.Fintype.Card
import Mathlib.Algebra.BigOperators.Group.Finset.Basic

noncomputable section

namespace Cert.BridgeStats

open Idealize.ShloMosaic Cert.BNStats

theorem exists_real_fun {ι : Type*} (x : ι → EReal) (hx : ∀ r, ∃ y : ℝ, x r = (y : EReal)) :
    ∃ a : ι → ℝ, x = fun r => (a r : EReal) := by
  choose a ha using hx
  exact ⟨a, funext ha⟩

/-- On a real column the two variance formulas give one nonnegative real. -/
theorem var_forms (x : Fin 100000 → EReal) (hx : ∀ r, ∃ y : ℝ, x r = (y : EReal)) :
    Ideal.div (∑ r, x r * x r) c1e5 - Ideal.div (∑ r, x r) c1e5 * Ideal.div (∑ r, x r) c1e5
      = Scalar.select
          (FloatOps.cmpf (F := Ideal) (φ := .f32) .ogt (c1e5 - FloatOps.sitofp (F := Ideal) .f32 (0#32))
            (Ideal.ofBits .f32 0x00000000#32))
          (Ideal.div (∑ r, (x r - Ideal.div (∑ r', x r') c1e5) * (x r - Ideal.div (∑ r', x r') c1e5))
            (c1e5 - FloatOps.sitofp (F := Ideal) .f32 (0#32)))
          (Ideal.ofBits .f32 0x7FC00000#32) := by
  obtain ⟨a, rfl⟩ := exists_real_fun x hx
  rw [sitofp_zero, cmpf_dofs_words, ValueIdx.select_one, sub_zero]
  exact var_forms_agree a (by simp)

theorem var_real (x : Fin 100000 → EReal) (hx : ∀ r, ∃ y : ℝ, x r = (y : EReal)) :
    ∃ v : ℝ, 0 ≤ v ∧
      (Ideal.div (∑ r, x r * x r) c1e5 - Ideal.div (∑ r, x r) c1e5 * Ideal.div (∑ r, x r) c1e5) = (v : EReal) := by
  obtain ⟨a, rfl⟩ := exists_real_fun x hx
  exact ⟨_, var_two_forms_nonneg a (by simp), var_two_forms a⟩

theorem mean_real (x : Fin 100000 → EReal) (hx : ∀ r, ∃ y : ℝ, x r = (y : EReal)) :
    ∃ mu : ℝ, Ideal.div (∑ r, x r) c1e5 = (mu : EReal) := by
  obtain ⟨a, rfl⟩ := exists_real_fun x hx
  exact ⟨_, mean_coe a⟩

theorem mul_real (x y : EReal) (hx : ∃ a : ℝ, x = (a : EReal)) (hy : ∃ b : ℝ, y = (b : EReal)) :
    ∃ s : ℝ, x * y = (s : EReal) := by
  obtain ⟨a, rfl⟩ := hx; obtain ⟨b, rfl⟩ := hy; exact ⟨a * b, (EReal.coe_mul a b).symm⟩

theorem sum_real {n : Nat} (u : Fin n → EReal) (hu : ∀ k, ∃ y : ℝ, u k = (y : EReal)) :
    ∃ s : ℝ, (∑ k, u k) = (s : EReal) := by
  obtain ⟨a, rfl⟩ := exists_real_fun u hu
  exact ⟨_, coe_sum a⟩

theorem sum_mul_real {n : Nat} (u v : Fin n → EReal) (hu : ∀ k, ∃ y : ℝ, u k = (y : EReal))
    (hv : ∀ k, ∃ y : ℝ, v k = (y : EReal)) : ∃ s : ℝ, (∑ k, u k * v k) = (s : EReal) :=
  sum_real (fun k => u k * v k) (fun k => mul_real _ _ (hu k) (hv k))

theorem bnrelu_real' (x mu v g b : EReal) (hx : ∃ y : ℝ, x = (y : EReal)) (hmu : ∃ y : ℝ, mu = (y : EReal))
    (hv : ∃ y : ℝ, 0 ≤ y ∧ v = (y : EReal)) (hg : ∃ y : ℝ, g = (y : EReal)) (hb : ∃ y : ℝ, b = (y : EReal)) :
    ∃ y : ℝ, Cert.BN.bnrelu x mu v g b = (y : EReal) := by
  obtain ⟨x, rfl⟩ := hx; obtain ⟨mu, rfl⟩ := hmu; obtain ⟨v, hv0, rfl⟩ := hv
  obtain ⟨g, rfl⟩ := hg; obtain ⟨b, rfl⟩ := hb
  exact bnrelu_real x mu v g b hv0

end Cert.BridgeStats

end
-- ==== Proof.BridgeVar.lean ====
import proofs.«410615_j21474836480482_3_alg».proof.Proof.RRead
import proofs.«410615_j21474836480482_3_alg».proof.Proof.BridgeStats

noncomputable section

namespace Cert.ReferenceIdeal.Read

open Idealize.ShloMosaic Idealize.ShloMosaic.ValueIdx Cert.ReferenceIdeal Cert.ReferenceIdeal.Facts₀

variable [Cert.ReferenceIdeal.Facts]

theorem dofs_apply :
    Val.dofs (F := Ideal) ix0 = Cert.BNStats.c1e5 - FloatOps.sitofp (F := Ideal) .f32 (0#32) := rfl

theorem dofs_val : Val.dofs (F := Ideal) ix0 = Cert.BNStats.c1e5 := by
  rw [dofs_apply, Cert.BNStats.sitofp_zero, sub_zero]

theorem dofs_guard : Ideal.cmp .ogt (Val.dofs (F := Ideal) ix0) 0 = 1#1 := by
  rw [dofs_val, Cert.BNStats.c1e5_val]; exact Cert.BNStats.cmp_dofs_pos

theorem var_dev_read (x : FVec Ideal S100000x128 .f32) (j : Fin 128) :
    Val.var x (ix1 j)
      = Ideal.div (∑ r : Fin 100000, (x (ix2 r j) - Ideal.div (∑ r' : Fin 100000, x (ix2 r' j)) Cert.BNStats.c1e5)
          * (x (ix2 r j) - Ideal.div (∑ r' : Fin 100000, x (ix2 r' j)) Cert.BNStats.c1e5)) Cert.BNStats.c1e5 := by
  rw [var_apply, dofs_guard, select_one, dofs_val]
  simp only [dev_apply]
  rfl

/-- The guarded variance of a real column, rewritten as mean of squares minus squared mean. -/
theorem var_two_forms_read (x : FVec Ideal S100000x128 .f32) (hx : ∀ i, ∃ y : ℝ, x i = (y : EReal)) (j : Fin 128) :
    Val.var x (ix1 j)
      = Ideal.div (∑ r : Fin 100000, x (ix2 r j) * x (ix2 r j)) Cert.BNStats.c1e5
        - Ideal.div (∑ r : Fin 100000, x (ix2 r j)) Cert.BNStats.c1e5
          * Ideal.div (∑ r : Fin 100000, x (ix2 r j)) Cert.BNStats.c1e5 := by
  rw [var_dev_read]
  obtain ⟨a, ha⟩ := Cert.BridgeStats.exists_real_fun (fun r : Fin 100000 => x (ix2 r j)) (fun r => hx _)
  have ha' : ∀ r : Fin 100000, x (ix2 r j) = (a r : EReal) := fun r => congrFun ha r
  simp only [ha']
  exact (Cert.BNStats.var_forms_agree a (by simp)).symm

theorem var_read_real (x : FVec Ideal S100000x128 .f32) (hx : ∀ i, ∃ y : ℝ, x i = (y : EReal)) (j : Fin 128) :
    ∃ v : ℝ, 0 ≤ v ∧ Val.var x (ix1 j) = (v : EReal) := by
  rw [var_two_forms_read x hx j]
  exact Cert.BridgeStats.var_real (fun r : Fin 100000 => x (ix2 r j)) (fun r => hx _)

theorem mean_read_real (x : FVec Ideal S100000x128 .f32) (hx : ∀ i, ∃ y : ℝ, x i = (y : EReal)) (j : Fin 128) :
    ∃ mu : ℝ, Val.mean x (ix1 j) = (mu : EReal) := by
  rw [mean_apply]
  exact Cert.BridgeStats.mean_real (fun r : Fin 100000 => x (ix2 r j)) (fun r => hx _)

end Cert.ReferenceIdeal.Read

end
-- ==== Proof.BridgeReal.lean ====
import proofs.«410615_j21474836480482_3_alg».proof.Proof.RRead
import proofs.«410615_j21474836480482_3_alg».proof.Proof.BridgeStats

noncomputable section

namespace Cert.ReferenceIdeal.Read

open Idealize.ShloMosaic Idealize.ShloMosaic.ValueIdx Cert.ReferenceIdeal Cert.BridgeStats

variable [Cert.ReferenceIdeal.Facts]

theorem x1_real (a0 : FVec Ideal S100000x96 .f32) (a1 : FVec Ideal S96x128 .f32)
    (h0 : ∀ i, ∃ y : ℝ, a0 i = (y : EReal)) (h1 : ∀ i, ∃ y : ℝ, a1 i = (y : EReal)) :
    ∀ i, ∃ y : ℝ, Val.x1 a0 a1 i = (y : EReal) := by
  intro i
  obtain ⟨r, j, rfl⟩ : ∃ (r : Fin 100000) (j : Fin 128), i = ix2 r j := ⟨i 0, i 1, eq_ix2 i⟩
  rw [x1_apply]
  exact sum_mul_real (fun k => a0 (ix2 r k)) (fun k => a1 (ix2 k j)) (fun k => h0 _) (fun k => h1 _)

/-- The second product of real inputs is real. -/
theorem h2_real
    (hvar : ∀ (x : FVec Ideal S100000x128 .f32), (∀ i, ∃ y : ℝ, x i = (y : EReal)) →
      ∀ j : Fin 128, ∃ v : ℝ, 0 ≤ v ∧ Val.var x (ix1 j) = (v : EReal))
    (hmean : ∀ (x : FVec Ideal S100000x128 .f32), (∀ i, ∃ y : ℝ, x i = (y : EReal)) →
      ∀ j : Fin 128, ∃ mu : ℝ, Val.mean x (ix1 j) = (mu : EReal))
    (a0 : FVec Ideal S100000x96 .f32) (a1 : FVec Ideal S96x128 .f32) (a2 a3 : FVec Ideal S128 .f32)
    (a4 : FVec Ideal S128x128 .f32)
    (h0 : ∀ i, ∃ y : ℝ, a0 i = (y : EReal)) (h1 : ∀ i, ∃ y : ℝ, a1 i = (y : EReal))
    (h2 : ∀ i, ∃ y : ℝ, a2 i = (y : EReal)) (h3 : ∀ i, ∃ y : ℝ, a3 i = (y : EReal))
    (h4 : ∀ i, ∃ y : ℝ, a4 i = (y : EReal)) :
    ∀ i, ∃ y : ℝ, Val.h2 a0 a1 a2 a3 a4 i = (y : EReal) := by
  intro i
  obtain ⟨r, j, rfl⟩ : ∃ (r : Fin 100000) (j : Fin 128), i = ix2 r j := ⟨i 0, i 1, eq_ix2 i⟩
  have hx := x1_real a0 a1 h0 h1
  rw [h2_apply]
  exact sum_mul_real
    (fun k => Cert.BN.bnrelu (Val.x1 a0 a1 (ix2 r k)) (Val.mean (Val.x1 a0 a1) (ix1 k))
      (Val.var (Val.x1 a0 a1) (ix1 k)) (a2 (ix1 k)) (a3 (ix1 k)))
    (fun k => a4 (ix2 k j))
    (fun k => bnrelu_real' _ _ _ _ _ (hx _) (hmean _ hx k) (hvar _ hx k) (h2 _) (h3 _))
    (fun k => h4 _)

end Cert.ReferenceIdeal.Read

end
-- ==== Proof.StepReal.lean ====
import proofs.«410615_j21474836480482_3_alg».proof.Proof.RTerms
import Idealize.ShloMosaic.PureOps.Ideal.Laws

noncomputable section

namespace Cert.ReferenceIdeal.Real

open Idealize.ShloMosaic Cert.ReferenceIdeal

/-- Every entry is the coercion of a real. -/
def IsReal {s : Shape} (x : s.Idx → EReal) : Prop := ∀ i, ∃ y : ℝ, x i = (y : EReal)

theorem IsReal.reindex {s t : Shape} {x : s.Idx → EReal} (hx : IsReal x) (f : t.Idx → s.Idx) : IsReal (fun j => x (f j)) :=
  fun j => hx (f j)

theorem IsReal.add {s : Shape} {x y : FVec Ideal s .f32} (hx : IsReal x) (hy : IsReal y) : IsReal (addf x y) := fun i => by
  obtain ⟨a, ha⟩ := hx i
  obtain ⟨b, hb⟩ := hy i
  exact ⟨a + b, by show x i + y i = _; rw [ha, hb, EReal.coe_add]⟩

theorem IsReal.mul {s : Shape} {x y : FVec Ideal s .f32} (hx : IsReal x) (hy : IsReal y) : IsReal (mulf x y) := fun i => by
  obtain ⟨a, ha⟩ := hx i
  obtain ⟨b, hb⟩ := hy i
  exact ⟨a * b, by show x i * y i = _; rw [ha, hb, EReal.coe_mul]⟩

theorem IsReal.broadcast {s : Shape} {x : s.Idx → EReal} (hx : IsReal x) (t : Shape) (dims : Fin s.rank → Fin t.rank)
    (h : s.BroadcastsInDim t dims) : IsReal (broadcastInDim t dims h x) := by
  unfold broadcastInDim; exact hx.reindex _

theorem IsReal.slice {s : Shape} {x : s.Idx → EReal} (hx : IsReal x) (t : Shape) (off : Fin s.rank → Nat)
    (h : s.Slices off t) : IsReal (extractStridedSlice t off x h) := by
  unfold extractStridedSlice; exact hx.reindex _

theorem IsReal.cast {s : Shape} {x : s.Idx → EReal} (hx : IsReal x) (t : Shape) (h : s.ShapeCasts t) :
    IsReal (shapeCast t x h) := by
  unfold shapeCast; exact hx.reindex _

theorem IsReal.gather {s si t : Shape} {w : Nat} {x : s.Idx → EReal} (hx : IsReal x) (d : GatherDims s si t) (idx : IVec si w) :
    IsReal (Host.gather d x idx) := by
  unfold Host.gather; exact hx.reindex _

theorem mask_real (a10 : IVec S100000x27 1) : IsReal (uitofp (F := Ideal) .f32 a10) := fun i =>
  ⟨((a10 i).toNat : ℝ), rfl⟩

variable [Cert.ReferenceIdeal.Facts]

theorem rows_real {y : FVec Ideal S128 .f32} (hy : IsReal y) : IsReal (Val.rows y) := by
  unfold Val.rows; exact (hy.broadcast _ _ _).broadcast _ _ _

theorem acc0_real : IsReal (Val.acc0 (F := Ideal)) := fun i =>
  ⟨0, by show Ideal.ofBits .f32 0x00000000#32 = _; rw [Ideal.ofBits_zero_f32, EReal.coe_zero]⟩

/-- One neighbour step keeps a real accumulator real. -/
theorem step_real (o9 : Fin 2 → Nat) (e9 : S100000x27.Slices o9 S100000x1) (o5 : Fin 2 → Nat) (e5 : S27x128.Slices o5 S1x128)
    (h2 acc : FVec Ideal S100000x128 .f32) (a5 : FVec Ideal S27x128 .f32) (a9 : IVec S100000x27 32)
    (mf : FVec Ideal S100000x27 .f32) (hh : IsReal h2) (hacc : IsReal acc) (h5 : IsReal a5) (hm : IsReal mf) :
    IsReal (Val.step o9 e9 o5 e5 h2 acc a5 a9 mf) := by
  unfold Val.step
  exact hacc.add (((hh.gather _ _).mul ((hm.slice _ _ _).broadcast _ _ _)).mul (rows_real ((h5.slice _ _ _).cast _ _)))

/-- The running sum of real arrays is real after every number of offsets. -/
theorem accN_real (h2 : FVec Ideal S100000x128 .f32) (a5 : FVec Ideal S27x128 .f32) (a9 : IVec S100000x27 32)
    (mf : FVec Ideal S100000x27 .f32) (hh : IsReal h2) (h5 : IsReal a5) (hm : IsReal mf) :
    ∀ (k : Nat) (hk : k ≤ 27), IsReal (Val.accN k hk h2 a5 a9 mf)
  | 0, _ => acc0_real
  | k + 1, hk => by
    unfold Val.accN
    exact step_real _ _ _ _ h2 _ a5 a9 mf hh (accN_real h2 a5 a9 mf hh h5 hm k (Nat.le_of_succ_le hk)) h5 hm

end Cert.ReferenceIdeal.Real

end
-- ==== Proof.TakeFill.lean ====
import proofs.«410615_j21474836480482_3_alg».proof.Proof.KTerms
import proofs.«410615_j21474836480482_3_alg».proof.Proof.RTerms
import Idealize.ShloMosaic.Lib.ReduceAll
import Idealize.ShloMosaic.Lib.ValueIdx

noncomputable section

namespace Cert.LoopBridge

open Idealize.ShloMosaic Idealize.ShloMosaic.ValueIdx

variable {F : FTy → Type} [FloatOps F] [Cert.KernelIdeal.Facts] [Cert.ReferenceIdeal.Facts]

theorem foldl_andi_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_all_one f hf l

theorem word_inRange (x : BitVec 32) (h0 : 0 ≤ x.toInt) (h1 : x.toInt < 100000) :
    IntOp.andi
      (IntOp.cmpi .sge (Scalar.select (IntOp.cmpi .slt x 0#32) (IntOp.addi x 100000#32) x) 0#32)
      (IntOp.cmpi .sle (Scalar.select (IntOp.cmpi .slt x 0#32) (IntOp.addi x 100000#32) x) 99999#32) = 1#1 := by
  have hz : (0#32 : BitVec 32).toInt = 0 := by decide
  have hm : (99999#32 : BitVec 32).toInt = 99999 := by decide
  have hs : IntOp.cmpi .slt x 0#32 = 0#1 :=
    eq_zero_of_ne_one fun h => by have := IntOp.cmpi_slt.1 h; rw [hz] at this; omega
  rw [hs, select_zero]
  exact IntOp.andi_eq_one.2 ⟨IntOp.cmpi_sge.2 (by rw [hz]; exact h0), IntOp.cmpi_sle.2 (by rw [hm]; omega)⟩

theorem inRange_wrapIdx (col : IVec Cert.KernelIdeal.S100000 32)
    (hcol : ∀ i, 0 ≤ (col i).toInt ∧ (col i).toInt < 100000) (i : Cert.KernelIdeal.S100000.Idx) :
    Cert.KernelIdeal.Val.inRange (Cert.KernelIdeal.Val.wrapIdx col) i = 1#1 := by
  unfold Cert.KernelIdeal.Val.inRange
  rw [Host.reduce_eq_foldl]
  refine foldl_andi_all_one _ (fun n => ?_) _
  exact word_inRange _ (hcol _).1 (hcol _).2

/-- When every index is a row number, the gather that fills out-of-range rows is the plain gather. -/
theorem takeFill_eq (h2 : FVec F Cert.KernelIdeal.S100000x128 .f32) (col : IVec Cert.KernelIdeal.S100000 32)
    (hcol : ∀ i, 0 ≤ (col i).toInt ∧ (col i).toInt < 100000) :
    Cert.KernelIdeal.Val.takeFill h2 col
      = Host.gather Cert.KernelIdeal.gather_S100000x128_S100000x1_S100000x128_1_0_n_n_0_1_1128 h2
          (Cert.KernelIdeal.Val.wrapIdx col) := by
  funext j
  unfold Cert.KernelIdeal.Val.takeFill
  rw [select_apply]
  have hc : broadcastInDim Cert.KernelIdeal.S100000x128 ![0] Cert.KernelIdeal.Facts₀.bcast_S100000_S100000x128_0
      (Cert.KernelIdeal.Val.inRange (Cert.KernelIdeal.Val.wrapIdx col)) j = 1#1 := inRange_wrapIdx col hcol _
  rw [hc, select_one]

theorem col_inRange (a9 : IVec Cert.KernelIdeal.S100000x27 32) (h9 : ∀ i, 0 ≤ (a9 i).toInt ∧ (a9 i).toInt < 100000)
    (o9 : Fin 2 → Nat) (e9 : Cert.KernelIdeal.S100000x27.Slices o9 Cert.KernelIdeal.S100000x1) :
    ∀ i, 0 ≤ ((shapeCast Cert.KernelIdeal.S100000 (extractStridedSlice Cert.KernelIdeal.S100000x1 o9 a9 e9)
          Cert.KernelIdeal.Facts₀.shapeCasts_S100000x1_S100000) i).toInt
      ∧ ((shapeCast Cert.KernelIdeal.S100000 (extractStridedSlice Cert.KernelIdeal.S100000x1 o9 a9 e9)
          Cert.KernelIdeal.Facts₀.shapeCasts_S100000x1_S100000) i).toInt < 100000 := by
  intro i
  obtain ⟨i', hi'⟩ : ∃ i', (shapeCast Cert.KernelIdeal.S100000 (extractStridedSlice Cert.KernelIdeal.S100000x1 o9 a9 e9)
      Cert.KernelIdeal.Facts₀.shapeCasts_S100000x1_S100000) i = a9 i' := ⟨_, rfl⟩
  rw [hi']
  exact h9 i'

theorem step_eq (o9 : Fin 2 → Nat) (e9 : Cert.KernelIdeal.S100000x27.Slices o9 Cert.KernelIdeal.S100000x1)
    (e9' : Cert.ReferenceIdeal.S100000x27.Slices o9 Cert.ReferenceIdeal.S100000x1)
    (o5 : Fin 2 → Nat) (e5 : Cert.KernelIdeal.S27x128.Slices o5 Cert.KernelIdeal.S1x128)
    (e5' : Cert.ReferenceIdeal.S27x128.Slices o5 Cert.ReferenceIdeal.S1x128)
    (h2 acc : FVec F Cert.KernelIdeal.S100000x128 .f32) (a5 : FVec F Cert.KernelIdeal.S27x128 .f32)
    (a9 : IVec Cert.KernelIdeal.S100000x27 32) (mf : FVec F Cert.KernelIdeal.S100000x27 .f32)
    (h9 : ∀ i, 0 ≤ (a9 i).toInt ∧ (a9 i).toInt < 100000) :
    Cert.KernelIdeal.Val.step o9 e9 o5 e5 h2 acc a5 a9 mf = Cert.ReferenceIdeal.Val.step o9 e9' o5 e5' h2 acc a5 a9 mf := by
  unfold Cert.KernelIdeal.Val.step Cert.ReferenceIdeal.Val.step
  rw [takeFill_eq h2 _ (col_inRange a9 h9 o9 e9)]
  rfl

theorem step_congr (o9 : Fin 2 → Nat) (e9 : Cert.KernelIdeal.S100000x27.Slices o9 Cert.KernelIdeal.S100000x1)
    (e9' : Cert.ReferenceIdeal.S100000x27.Slices o9 Cert.ReferenceIdeal.S100000x1)
    (o5 : Fin 2 → Nat) (e5 : Cert.KernelIdeal.S27x128.Slices o5 Cert.KernelIdeal.S1x128)
    (e5' : Cert.ReferenceIdeal.S27x128.Slices o5 Cert.ReferenceIdeal.S1x128)
    (h2 acc acc' : FVec F Cert.KernelIdeal.S100000x128 .f32) (a5 : FVec F Cert.KernelIdeal.S27x128 .f32)
    (a9 : IVec Cert.KernelIdeal.S100000x27 32) (mf : FVec F Cert.KernelIdeal.S100000x27 .f32)
    (h9 : ∀ i, 0 ≤ (a9 i).toInt ∧ (a9 i).toInt < 100000) (hacc : acc = acc') :
    Cert.KernelIdeal.Val.step o9 e9 o5 e5 h2 acc a5 a9 mf = Cert.ReferenceIdeal.Val.step o9 e9' o5 e5' h2 acc' a5 a9 mf := by
  subst hacc
  exact step_eq o9 e9 e9' o5 e5 e5' h2 acc a5 a9 mf h9

theorem acc0_eq : (Cert.KernelIdeal.Val.acc0 : FVec F Cert.KernelIdeal.S100000x128 .f32) = Cert.ReferenceIdeal.Val.acc0 := rfl

section Offsets
variable (h2 : FVec F Cert.KernelIdeal.S100000x128 .f32) (a5 : FVec F Cert.KernelIdeal.S27x128 .f32)
  (a9 : IVec Cert.KernelIdeal.S100000x27 32) (mf : FVec F Cert.KernelIdeal.S100000x27 .f32)
  (h9 : ∀ i, 0 ≤ (a9 i).toInt ∧ (a9 i).toInt < 100000)
include h9

/-- With every index a row number, the two programs' running sums agree after every number of offsets. -/
theorem accN_eq : ∀ (k : Nat) (hk : k ≤ 27),
    Cert.KernelIdeal.Val.accN k hk h2 a5 a9 mf = Cert.ReferenceIdeal.Val.accN k hk h2 a5 a9 mf
  | 0, _ => acc0_eq
  | k + 1, hk => by
    unfold Cert.KernelIdeal.Val.accN Cert.ReferenceIdeal.Val.accN
    exact step_congr _ _ _ _ _ _ h2 _ _ a5 a9 mf h9 (accN_eq k (Nat.le_of_succ_le hk))

end Offsets

end Cert.LoopBridge

end
-- ==== Proof.BridgeCore.lean ====
import proofs.«410615_j21474836480482_3_alg».proof.Proof.KRead
import proofs.«410615_j21474836480482_3_alg».proof.Proof.BridgeStat1
import proofs.«410615_j21474836480482_3_alg».proof.Proof.RRead
import proofs.«410615_j21474836480482_3_alg».proof.Proof.BridgeVar
import proofs.«410615_j21474836480482_3_alg».proof.Proof.BridgeReal
import proofs.«410615_j21474836480482_3_alg».proof.Proof.StepReal
import proofs.«410615_j21474836480482_3_alg».proof.Proof.TakeFill

noncomputable section

namespace Cert.Bridge

open Idealize.ShloMosaic Idealize.ShloMosaic.ValueIdx
open Cert.KernelIdeal (S100000x96 S96x128 S128 S128x128 S27x128 S100000x27 S100000x128 S25x2x128)
open Cert.ReferenceIdeal.Real (IsReal)

variable [Cert.KernelIdeal.Facts] [Cert.ReferenceIdeal.Facts]

def Hf (a0 : FVec Ideal S100000x96 .f32) (a1 : FVec Ideal S96x128 .f32) (r : Fin 100000) (j : Fin 128) : EReal :=
  ∑ k : Fin 96, a0 (ix2 r k) * a1 (ix2 k j)

section
variable (a0 : FVec Ideal S100000x96 .f32) (a1 : FVec Ideal S96x128 .f32) (a2 a3 : FVec Ideal S128 .f32)
  (a4 : FVec Ideal S128x128 .f32) (a5 : FVec Ideal S27x128 .f32) (a6 a7 : FVec Ideal S128 .f32) (a8 : FVec Ideal S96x128 .f32)
  (a9 : IVec S100000x27 32) (a10 : IVec S100000x27 1)
  (st : FVec Ideal S25x2x128 .f32) (h2K outK : FVec Ideal S100000x128 .f32)

theorem mean1_eq
    (hst0 : ∀ (b : Fin 25) (j : Fin 128), st (ix3 b (0 : Fin 2) j) = ∑ q : Fin 4000, Hf a0 a1 ⟨4000 * b.val + q.val, by omega⟩ j)
    (j : Fin 128) : Cert.KernelIdeal.Val.mean1 st (ix1 j) = Cert.ReferenceIdeal.Val.mean (Cert.ReferenceIdeal.Val.x1 a0 a1) (ix1 j) := by
  rw [Cert.KernelIdeal.Read.mean1_blocks st (Hf a0 a1) hst0 j, Cert.ReferenceIdeal.Read.mean_apply]
  simp only [Cert.ReferenceIdeal.Read.x1_apply]
  rfl

theorem var1_eq (hr0 : IsReal a0) (hr1 : IsReal a1)
    (hst0 : ∀ (b : Fin 25) (j : Fin 128), st (ix3 b (0 : Fin 2) j) = ∑ q : Fin 4000, Hf a0 a1 ⟨4000 * b.val + q.val, by omega⟩ j)
    (hst1 : ∀ (b : Fin 25) (j : Fin 128), st (ix3 b (1 : Fin 2) j) = ∑ q : Fin 4000, Hf a0 a1 ⟨4000 * b.val + q.val, by omega⟩ j * Hf a0 a1 ⟨4000 * b.val + q.val, by omega⟩ j)
    (j : Fin 128) : Cert.KernelIdeal.Val.var1 st (ix1 j) = Cert.ReferenceIdeal.Val.var (Cert.ReferenceIdeal.Val.x1 a0 a1) (ix1 j) := by
  rw [Cert.KernelIdeal.Read.var1_blocks st (Hf a0 a1) hst0 hst1 j,
    Cert.ReferenceIdeal.Read.var_two_forms_read (Cert.ReferenceIdeal.Val.x1 a0 a1) (Cert.ReferenceIdeal.Read.x1_real a0 a1 hr0 hr1) j]
  simp only [Cert.ReferenceIdeal.Read.x1_apply]
  rfl

theorem h2_eq (hr0 : IsReal a0) (hr1 : IsReal a1)
    (hst0 : ∀ (b : Fin 25) (j : Fin 128), st (ix3 b (0 : Fin 2) j) = ∑ q : Fin 4000, Hf a0 a1 ⟨4000 * b.val + q.val, by omega⟩ j)
    (hst1 : ∀ (b : Fin 25) (j : Fin 128), st (ix3 b (1 : Fin 2) j) = ∑ q : Fin 4000, Hf a0 a1 ⟨4000 * b.val + q.val, by omega⟩ j * Hf a0 a1 ⟨4000 * b.val + q.val, by omega⟩ j)
    (hh2 : ∀ (r : Fin 100000) (j : Fin 128), h2K (ix2 r j) = ∑ k : Fin 128,
      Cert.BN.bnrelu (Hf a0 a1 r k) (Cert.KernelIdeal.Val.mean1 st (ix1 k)) (Cert.KernelIdeal.Val.var1 st (ix1 k)) (a2 (ix1 k)) (a3 (ix1 k)) * a4 (ix2 k j)) :
    h2K = Cert.ReferenceIdeal.Val.h2 a0 a1 a2 a3 a4 := by
  funext i
  obtain ⟨r, j, rfl⟩ : ∃ (r : Fin 100000) (j : Fin 128), i = ix2 r j := ⟨i 0, i 1, eq_ix2 i⟩
  rw [hh2 r j, Cert.ReferenceIdeal.Read.h2_apply]
  refine Finset.sum_congr rfl fun k _ => ?_
  rw [mean1_eq a0 a1 st hst0 k, var1_eq a0 a1 st hr0 hr1 hst0 hst1 k, Cert.ReferenceIdeal.Read.x1_apply]
  rfl

theorem mean2_eq (A : FVec Ideal S100000x128 .f32) (j : Fin 128) :
    Cert.KernelIdeal.Val.mean2 A (ix1 j) = Cert.ReferenceIdeal.Val.mean A (ix1 j) := by
  rw [Cert.KernelIdeal.Read.mean2_apply, Cert.ReferenceIdeal.Read.mean_apply]

theorem var2_eq (A : FVec Ideal S100000x128 .f32) (hA : IsReal A) (j : Fin 128) :
    Cert.KernelIdeal.Val.var2 A (ix1 j) = Cert.ReferenceIdeal.Val.var A (ix1 j) := by
  rw [Cert.KernelIdeal.Read.var2_apply, Cert.KernelIdeal.Read.mean2_apply, Cert.ReferenceIdeal.Read.var_two_forms_read A hA j]
  rfl

/-- Given the kernel's arrays entry by entry, finite inputs and in-range indices make its result the reference's. -/
theorem out_eq (hr0 : IsReal a0) (hr1 : IsReal a1) (hr2 : IsReal a2) (hr3 : IsReal a3) (hr4 : IsReal a4) (hr5 : IsReal a5)
    (h9 : ∀ i, 0 ≤ (a9 i).toInt ∧ (a9 i).toInt < 100000)
    (hst0 : ∀ (b : Fin 25) (j : Fin 128), st (ix3 b (0 : Fin 2) j) = ∑ q : Fin 4000, Hf a0 a1 ⟨4000 * b.val + q.val, by omega⟩ j)
    (hst1 : ∀ (b : Fin 25) (j : Fin 128), st (ix3 b (1 : Fin 2) j) = ∑ q : Fin 4000, Hf a0 a1 ⟨4000 * b.val + q.val, by omega⟩ j * Hf a0 a1 ⟨4000 * b.val + q.val, by omega⟩ j)
    (hh2 : ∀ (r : Fin 100000) (j : Fin 128), h2K (ix2 r j) = ∑ k : Fin 128,
      Cert.BN.bnrelu (Hf a0 a1 r k) (Cert.KernelIdeal.Val.mean1 st (ix1 k)) (Cert.KernelIdeal.Val.var1 st (ix1 k)) (a2 (ix1 k)) (a3 (ix1 k)) * a4 (ix2 k j))
    (hout : ∀ (r : Fin 100000) (j : Fin 128), outK (ix2 r j) = max (Cert.BN.bnrelu
        (Cert.KernelIdeal.Val.accN 27 (by decide) h2K a5 a9 (uitofp .f32 a10) (ix2 r j))
        (Cert.KernelIdeal.Val.mean2 (Cert.KernelIdeal.Val.accN 27 (by decide) h2K a5 a9 (uitofp .f32 a10)) (ix1 j))
        (Cert.KernelIdeal.Val.var2 (Cert.KernelIdeal.Val.accN 27 (by decide) h2K a5 a9 (uitofp .f32 a10)) (ix1 j))
        (a6 (ix1 j)) (a7 (ix1 j)) + ∑ k : Fin 96, a0 (ix2 r k) * a8 (ix2 k j)) 0) :
    outK = Cert.ReferenceIdeal.Val.out a0 a1 a2 a3 a4 a5 a6 a7 a8 a9 a10 := by
  have e2 : h2K = Cert.ReferenceIdeal.Val.h2 a0 a1 a2 a3 a4 := h2_eq a0 a1 a2 a3 a4 st h2K hr0 hr1 hst0 hst1 hh2
  have hh : IsReal (Cert.ReferenceIdeal.Val.h2 a0 a1 a2 a3 a4) :=
    Cert.ReferenceIdeal.Read.h2_real (fun x hx j => Cert.ReferenceIdeal.Read.var_read_real x hx j)
      (fun x hx j => Cert.ReferenceIdeal.Read.mean_read_real x hx j) a0 a1 a2 a3 a4 hr0 hr1 hr2 hr3 hr4
  have eA : Cert.KernelIdeal.Val.accN 27 (by decide) h2K a5 a9 (uitofp .f32 a10)
      = Cert.ReferenceIdeal.Val.accN 27 (by decide) (Cert.ReferenceIdeal.Val.h2 a0 a1 a2 a3 a4) a5 a9 (uitofp .f32 a10) := by
    rw [e2]; exact Cert.LoopBridge.accN_eq _ a5 a9 _ h9 27 (by decide)
  have hA : IsReal (Cert.ReferenceIdeal.Val.accN 27 (by decide) (Cert.ReferenceIdeal.Val.h2 a0 a1 a2 a3 a4) a5 a9 (uitofp .f32 a10)) :=
    Cert.ReferenceIdeal.Real.accN_real _ a5 a9 _ hh hr5 (Cert.ReferenceIdeal.Real.mask_real a10) 27 (by decide)
  funext i
  obtain ⟨r, j, rfl⟩ : ∃ (r : Fin 100000) (j : Fin 128), i = ix2 r j := ⟨i 0, i 1, eq_ix2 i⟩
  rw [hout r j, eA, mean2_eq _ j, var2_eq _ hA j, Cert.ReferenceIdeal.Read.out_apply]

end

end Cert.Bridge

end
-- ==== Proof.PreRead.lean ====
import proofs.«410615_j21474836480482_3_alg».proof.Pre_finite_inputs
import Idealize.ShloMosaic.PureOps.Ideal
import Idealize.ShloMosaic.Lib.ReduceAll
import Idealize.ShloMosaic.Lib.ValueIdx

noncomputable section

namespace Cert.PreRead

open Idealize.ShloMosaic Cert.Pre_finite_inputs

instance subsingleton_scalar_idx : Subsingleton S_.Idx := ⟨fun a b => funext fun d => d.elim0⟩

theorem inf_word : Ideal.ofBits .f32 0x7F800000#32 = (⊤ : EReal) := by
  simp [Ideal.ofBits, Ideal.ieee]

theorem bit_eq_one (b : Bool) : BitVec.ofBool b = 1#1 ↔ b = true := by cases b <;> decide

/-- An extended real whose absolute value lies below ⊤ is real. -/
theorem real_of_abs_lt_top (x : EReal) (h : max x (-x) < ⊤) : ∃ r : ℝ, x = (r : EReal) := by
  induction x using EReal.rec with
  | bot => simp at h
  | coe r => exact ⟨r, rfl⟩
  | top => simp at h

abbrev allLtInf {s : Shape} {axes : List (Fin s.rank)} (hb : S_.BroadcastsInDim s (![] : Fin 0 → Fin s.rank))
    (hr : s.ReducesTo axes S_) (hu : 0 < S_.numel) (x : FVec Ideal s .f32) : BitVec 1 :=
  Host.reduce IntOp.andi (cmpf .olt (Host.absf x) (broadcastInDim s ![] hb (constant (F := Ideal) S_ .f32 0x7F800000#32)))
    (constantI S_ 1 1#1) hr hu ValueIdx.ix0

abbrev allSge {s : Shape} {axes : List (Fin s.rank)} (hb : S_.BroadcastsInDim s (![] : Fin 0 → Fin s.rank))
    (hr : s.ReducesTo axes S_) (hu : 0 < S_.numel) (c : BitVec 32) (n : IVec s 32) : BitVec 1 :=
  Host.reduce IntOp.andi (cmpi .sge n (broadcastInDim s ![] hb (constantI S_ 32 c))) (constantI S_ 1 1#1) hr hu ValueIdx.ix0

abbrev allSlt {s : Shape} {axes : List (Fin s.rank)} (hb : S_.BroadcastsInDim s (![] : Fin 0 → Fin s.rank))
    (hr : s.ReducesTo axes S_) (hu : 0 < S_.numel) (c : BitVec 32) (n : IVec s 32) : BitVec 1 :=
  Host.reduce IntOp.andi (cmpi .slt n (broadcastInDim s ![] hb (constantI S_ 32 c))) (constantI S_ 1 1#1) hr hu ValueIdx.ix0

theorem all_real {s : Shape} {axes : List (Fin s.rank)} (hb : S_.BroadcastsInDim s (![] : Fin 0 → Fin s.rank))
    (hr : s.ReducesTo axes S_) (hu : 0 < S_.numel) (x : FVec Ideal s .f32) (e : allLtInf hb hr hu x = 1#1) (i : s.Idx) :
    ∃ r : ℝ, x i = (r : EReal) := by
  have hi := Host.reduce_andi_all _ _ hr hu ValueIdx.ix0 e i
  simp only [cmpf, Host.absf, broadcastInDim, constant] at hi
  change Ideal.cmp .olt (max (x i) (-(x i))) (Ideal.ofBits .f32 0x7F800000#32) = 1#1 at hi
  rw [inf_word] at hi
  simp only [Ideal.cmp, bit_eq_one, decide_eq_true_eq] at hi
  exact real_of_abs_lt_top _ hi

theorem all_sge {s : Shape} {axes : List (Fin s.rank)} (hb : S_.BroadcastsInDim s (![] : Fin 0 → Fin s.rank))
    (hr : s.ReducesTo axes S_) (hu : 0 < S_.numel) (c : BitVec 32) (n : IVec s 32) (e : allSge hb hr hu c n = 1#1) (i : s.Idx) :
    c.toInt ≤ (n i).toInt := by
  have hi := Host.reduce_andi_all _ _ hr hu ValueIdx.ix0 e i
  simp only [cmpi, broadcastInDim, constantI] at hi
  exact IntOp.cmpi_sge.1 hi

theorem all_slt {s : Shape} {axes : List (Fin s.rank)} (hb : S_.BroadcastsInDim s (![] : Fin 0 → Fin s.rank))
    (hr : s.ReducesTo axes S_) (hu : 0 < S_.numel) (c : BitVec 32) (n : IVec s 32) (e : allSlt hb hr hu c n = 1#1) (i : s.Idx) :
    (n i).toInt < c.toInt := by
  have hi := Host.reduce_andi_all _ _ hr hu ValueIdx.ix0 e i
  simp only [cmpi, broadcastInDim, constantI] at hi
  exact IntOp.cmpi_slt.1 hi

variable [Cert.Pre_finite_inputs.Facts]

open Cert.Pre_finite_inputs.Facts

/-- The predicate is a conjunction of eleven all-entries tests; its being 1 gives each of them. -/
theorem tests (a0 : FVec Ideal S100000x96 .f32) (a1 : FVec Ideal S96x128 .f32) (a2 a3 : FVec Ideal S128 .f32)
    (a4 : FVec Ideal S128x128 .f32) (a5 : FVec Ideal S27x128 .f32) (a6 a7 : FVec Ideal S128 .f32) (a8 : FVec Ideal S96x128 .f32)
    (a9 : IVec S100000x27 32) (a10 : IVec S100000x27 1)
    (h : Cert.Pre_finite_inputs.fn (F := Ideal) a0 a1 a2 a3 a4 a5 a6 a7 a8 a9 a10 = fun _ => 1#1) :
    allLtInf bcast_S_S100000x96 reducesTo_S100000x96_S_d0_1 h_S_ a0 = 1#1
    ∧ allLtInf bcast_S_S96x128 reducesTo_S96x128_S_d0_1 h_S_ a1 = 1#1
    ∧ allLtInf bcast_S_S128 reducesTo_S128_S_d0 h_S_ a2 = 1#1
    ∧ allLtInf bcast_S_S128 reducesTo_S128_S_d0 h_S_ a3 = 1#1
    ∧ allLtInf bcast_S_S128x128 reducesTo_S128x128_S_d0_1 h_S_ a4 = 1#1
    ∧ allLtInf bcast_S_S27x128 reducesTo_S27x128_S_d0_1 h_S_ a5 = 1#1
    ∧ allLtInf bcast_S_S128 reducesTo_S128_S_d0 h_S_ a6 = 1#1
    ∧ allLtInf bcast_S_S128 reducesTo_S128_S_d0 h_S_ a7 = 1#1
    ∧ allLtInf bcast_S_S96x128 reducesTo_S96x128_S_d0_1 h_S_ a8 = 1#1
    ∧ allSge bcast_S_S100000x27 reducesTo_S100000x27_S_d0_1 h_S_ 0#32 a9 = 1#1
    ∧ allSlt bcast_S_S100000x27 reducesTo_S100000x27_S_d0_1 h_S_ 100000#32 a9 = 1#1 := by
  have e := congrFun h ValueIdx.ix0
  dsimp only [fn, fn_part1, fn_part2, fn_part3, andi] at e
  simp only [IntOp.andi_eq_one] at e
  obtain ⟨⟨⟨⟨⟨⟨⟨⟨⟨⟨h0, h1⟩, h2⟩, h3⟩, h4⟩, h5⟩, h6⟩, h7⟩, h8⟩, hge⟩, hlt⟩ := e
  exact ⟨h0, h1, h2, h3, h4, h5, h6, h7, h8, hge, hlt⟩

theorem idx_range (a0 : FVec Ideal S100000x96 .f32) (a1 : FVec Ideal S96x128 .f32) (a2 a3 : FVec Ideal S128 .f32)
    (a4 : FVec Ideal S128x128 .f32) (a5 : FVec Ideal S27x128 .f32) (a6 a7 : FVec Ideal S128 .f32) (a8 : FVec Ideal S96x128 .f32)
    (a9 : IVec S100000x27 32) (a10 : IVec S100000x27 1)
    (h : Cert.Pre_finite_inputs.fn (F := Ideal) a0 a1 a2 a3 a4 a5 a6 a7 a8 a9 a10 = fun _ => 1#1) :
    ∀ i, 0 ≤ (a9 i).toInt ∧ (a9 i).toInt < 100000 := by
  obtain ⟨-, -, -, -, -, -, -, -, -, hge, hlt⟩ := tests a0 a1 a2 a3 a4 a5 a6 a7 a8 a9 a10 h
  intro i
  have h0 : (0#32 : BitVec 32).toInt = 0 := by decide
  have h1 : (100000#32 : BitVec 32).toInt = 100000 := by decide
  exact ⟨h0 ▸ all_sge _ _ _ _ a9 hge i, h1 ▸ all_slt _ _ _ _ a9 hlt i⟩

theorem real0 (a0 : FVec Ideal S100000x96 .f32) (a1 : FVec Ideal S96x128 .f32) (a2 a3 : FVec Ideal S128 .f32)
    (a4 : FVec Ideal S128x128 .f32) (a5 : FVec Ideal S27x128 .f32) (a6 a7 : FVec Ideal S128 .f32) (a8 : FVec Ideal S96x128 .f32)
    (a9 : IVec S100000x27 32) (a10 : IVec S100000x27 1)
    (h : Cert.Pre_finite_inputs.fn (F := Ideal) a0 a1 a2 a3 a4 a5 a6 a7 a8 a9 a10 = fun _ => 1#1) :
    ∀ i, ∃ x : ℝ, a0 i = (x : EReal) := by
  obtain ⟨e, -, -, -, -, -, -, -, -, -, -⟩ := tests a0 a1 a2 a3 a4 a5 a6 a7 a8 a9 a10 h
  exact all_real _ _ _ a0 e

theorem real1 (a0 : FVec Ideal S100000x96 .f32) (a1 : FVec Ideal S96x128 .f32) (a2 a3 : FVec Ideal S128 .f32)
    (a4 : FVec Ideal S128x128 .f32) (a5 : FVec Ideal S27x128 .f32) (a6 a7 : FVec Ideal S128 .f32) (a8 : FVec Ideal S96x128 .f32)
    (a9 : IVec S100000x27 32) (a10 : IVec S100000x27 1)
    (h : Cert.Pre_finite_inputs.fn (F := Ideal) a0 a1 a2 a3 a4 a5 a6 a7 a8 a9 a10 = fun _ => 1#1) :
    ∀ i, ∃ x : ℝ, a1 i = (x : EReal) := by
  obtain ⟨-, e, -, -, -, -, -, -, -, -, -⟩ := tests a0 a1 a2 a3 a4 a5 a6 a7 a8 a9 a10 h
  exact all_real _ _ _ a1 e

theorem real4 (a0 : FVec Ideal S100000x96 .f32) (a1 : FVec Ideal S96x128 .f32) (a2 a3 : FVec Ideal S128 .f32)
    (a4 : FVec Ideal S128x128 .f32) (a5 : FVec Ideal S27x128 .f32) (a6 a7 : FVec Ideal S128 .f32) (a8 : FVec Ideal S96x128 .f32)
    (a9 : IVec S100000x27 32) (a10 : IVec S100000x27 1)
    (h : Cert.Pre_finite_inputs.fn (F := Ideal) a0 a1 a2 a3 a4 a5 a6 a7 a8 a9 a10 = fun _ => 1#1) :
    ∀ i, ∃ x : ℝ, a4 i = (x : EReal) := by
  obtain ⟨-, -, -, -, e, -, -, -, -, -, -⟩ := tests a0 a1 a2 a3 a4 a5 a6 a7 a8 a9 a10 h
  exact all_real _ _ _ a4 e

theorem real5 (a0 : FVec Ideal S100000x96 .f32) (a1 : FVec Ideal S96x128 .f32) (a2 a3 : FVec Ideal S128 .f32)
    (a4 : FVec Ideal S128x128 .f32) (a5 : FVec Ideal S27x128 .f32) (a6 a7 : FVec Ideal S128 .f32) (a8 : FVec Ideal S96x128 .f32)
    (a9 : IVec S100000x27 32) (a10 : IVec S100000x27 1)
    (h : Cert.Pre_finite_inputs.fn (F := Ideal) a0 a1 a2 a3 a4 a5 a6 a7 a8 a9 a10 = fun _ => 1#1) :
    ∀ i, ∃ x : ℝ, a5 i = (x : EReal) := by
  obtain ⟨-, -, -, -, -, e, -, -, -, -, -⟩ := tests a0 a1 a2 a3 a4 a5 a6 a7 a8 a9 a10 h
  exact all_real _ _ _ a5 e

theorem real2 (a0 : FVec Ideal S100000x96 .f32) (a1 : FVec Ideal S96x128 .f32) (a2 a3 : FVec Ideal S128 .f32)
    (a4 : FVec Ideal S128x128 .f32) (a5 : FVec Ideal S27x128 .f32) (a6 a7 : FVec Ideal S128 .f32) (a8 : FVec Ideal S96x128 .f32)
    (a9 : IVec S100000x27 32) (a10 : IVec S100000x27 1)
    (h : Cert.Pre_finite_inputs.fn (F := Ideal) a0 a1 a2 a3 a4 a5 a6 a7 a8 a9 a10 = fun _ => 1#1) :
    ∀ i, ∃ x : ℝ, a2 i = (x : EReal) := by
  obtain ⟨-, -, e, -, -, -, -, -, -, -, -⟩ := tests a0 a1 a2 a3 a4 a5 a6 a7 a8 a9 a10 h
  exact all_real _ _ _ a2 e

theorem real3 (a0 : FVec Ideal S100000x96 .f32) (a1 : FVec Ideal S96x128 .f32) (a2 a3 : FVec Ideal S128 .f32)
    (a4 : FVec Ideal S128x128 .f32) (a5 : FVec Ideal S27x128 .f32) (a6 a7 : FVec Ideal S128 .f32) (a8 : FVec Ideal S96x128 .f32)
    (a9 : IVec S100000x27 32) (a10 : IVec S100000x27 1)
    (h : Cert.Pre_finite_inputs.fn (F := Ideal) a0 a1 a2 a3 a4 a5 a6 a7 a8 a9 a10 = fun _ => 1#1) :
    ∀ i, ∃ x : ℝ, a3 i = (x : EReal) := by
  obtain ⟨-, -, -, e, -, -, -, -, -, -, -⟩ := tests a0 a1 a2 a3 a4 a5 a6 a7 a8 a9 a10 h
  exact all_real _ _ _ a3 e

end Cert.PreRead

end
-- ==== Proof.BridgeK.lean ====
import proofs.«410615_j21474836480482_3_alg».proof.Proof.KRegion0
import proofs.«410615_j21474836480482_3_alg».proof.Proof.KRegion1
import proofs.«410615_j21474836480482_3_alg».proof.Proof.KRegion2
import proofs.«410615_j21474836480482_3_alg».proof.Proof.KHost
import proofs.«410615_j21474836480482_3_alg».proof.Proof.BridgeCore
import proofs.«410615_j21474836480482_3_alg».proof.Proof.PreRead

noncomputable section

namespace Cert.Bridge

open Idealize.ShloMosaic Idealize.ShloMosaic.TcCoe Idealize.ShloMosaic.ValueIdx Idealize.SL.Sem
open Cert.KernelIdeal Cert.KernelIdeal.Gen Cert.KernelIdeal.GenP
open Cert.ReferenceIdeal.Real (IsReal)

variable (m : (ℓ : Loc nD τ sig) → Buf (Elt Ideal) ℓ) (ρ : Dev nD → PrngReg) (c : Dev nD)

abbrev A0 : FVec Ideal S100000x96 .f32 := m ((c : Thread nD τ).loc main_arg0)
abbrev A1 : FVec Ideal S96x128 .f32 := m ((c : Thread nD τ).loc main_arg1)
abbrev A2 : FVec Ideal S128 .f32 := m ((c : Thread nD τ).loc main_arg2)
abbrev A3 : FVec Ideal S128 .f32 := m ((c : Thread nD τ).loc main_arg3)
abbrev A4 : FVec Ideal S128x128 .f32 := m ((c : Thread nD τ).loc main_arg4)
abbrev A5 : FVec Ideal S27x128 .f32 := m ((c : Thread nD τ).loc main_arg5)
abbrev A6 : FVec Ideal S128 .f32 := m ((c : Thread nD τ).loc main_arg6)
abbrev A7 : FVec Ideal S128 .f32 := m ((c : Thread nD τ).loc main_arg7)
abbrev A8 : FVec Ideal S96x128 .f32 := m ((c : Thread nD τ).loc main_arg8)
abbrev A9 : IVec S100000x27 32 := m ((c : Thread nD τ).loc main_arg9)
abbrev A10 : IVec S100000x27 1 := m ((c : Thread nD τ).loc main_arg10)

abbrev ST : FVec Ideal S25x2x128 .f32 := W1 m ρ c (Proc.devRef .tc main_v0_1)

abbrev H2K : FVec Ideal S100000x128 .f32 := W3 m ρ c (Proc.devRef .tc main_v17)

variable [Cert.ReferenceIdeal.Facts]

theorem prod_at (r : Fin 100000) (j : Fin 128) :
    (W1 m ρ c (Proc.devRef .tc main_v0_0) : FVec Ideal S100000x128 .bf16) (ix2 r j) = Hf (A0 m c) (A1 m c) r j :=
  (congrFun (W1_arr m ρ c 2) (ix2 r j)).trans (Cert.KernelIdeal.Reg0.arr2 (V0 m ρ) c r j)

theorem st_sum (b : Fin 25) (j : Fin 128) :
    ST m ρ c (ix3 b (0 : Fin 2) j) = ∑ q : Fin 4000, Hf (A0 m c) (A1 m c) ⟨4000 * b.val + q.val, by omega⟩ j :=
  (congrFun (W1_arr m ρ c 3) (ix3 b (0 : Fin 2) j)).trans (Cert.KernelIdeal.Reg0.arr3_sum (V0 m ρ) c b j)

theorem st_sumsq (b : Fin 25) (j : Fin 128) :
    ST m ρ c (ix3 b (1 : Fin 2) j) = ∑ q : Fin 4000, Hf (A0 m c) (A1 m c) ⟨4000 * b.val + q.val, by omega⟩ j * Hf (A0 m c) (A1 m c) ⟨4000 * b.val + q.val, by omega⟩ j :=
  (congrFun (W1_arr m ρ c 3) (ix3 b (1 : Fin 2) j)).trans (Cert.KernelIdeal.Reg0.arr3_sumsq (V0 m ρ) c b j)

theorem h2K_at (r : Fin 100000) (j : Fin 128) :
    H2K m ρ c (ix2 r j) = ∑ k : Fin 128, Cert.BN.bnrelu (Hf (A0 m c) (A1 m c) r k) (Cert.KernelIdeal.Val.mean1 (ST m ρ c) (ix1 k))
      (Cert.KernelIdeal.Val.var1 (ST m ρ c) (ix1 k)) (A2 m c (ix1 k)) (A3 m c (ix1 k)) * A4 m c (ix2 k j) := by
  have e0 : ∀ k : Fin 128, (V2 m ρ c main_v0_0 : FVec Ideal S100000x128 .bf16) (ix2 r k) = Hf (A0 m c) (A1 m c) r k := fun k =>
    (congrFun (Cert.KernelIdeal.Host.stats_v0_0_at m ρ c) (ix2 r k)).trans (prod_at m ρ c r k)
  have e13 : ∀ k : Fin 128, (V2 m ρ c main_v13 : FVec Ideal S1x128 .f32) (ix2 (0 : Fin 1) k) = Cert.KernelIdeal.Val.mean1 (ST m ρ c) (ix1 k) := fun k =>
    (congrFun (Cert.KernelIdeal.Host.stats_mean_at m ρ c) (ix2 (0 : Fin 1) k)).trans (Cert.KernelIdeal.Read.row_apply _ k)
  have e14 : ∀ k : Fin 128, (V2 m ρ c main_v14 : FVec Ideal S1x128 .f32) (ix2 (0 : Fin 1) k) = Cert.KernelIdeal.Val.var1 (ST m ρ c) (ix1 k) := fun k =>
    (congrFun (Cert.KernelIdeal.Host.stats_var_at m ρ c) (ix2 (0 : Fin 1) k)).trans (Cert.KernelIdeal.Read.row_apply _ k)
  have e15 : ∀ k : Fin 128, (V2 m ρ c main_v15 : FVec Ideal S1x128 .f32) (ix2 (0 : Fin 1) k) = A2 m c (ix1 k) := fun k =>
    (congrFun ((Cert.KernelIdeal.Host.stats_scale_at m ρ c).trans (congrArg Cert.KernelIdeal.Val.row (Cert.KernelIdeal.Host.launch_arg2 m ρ c))) (ix2 (0 : Fin 1) k)).trans (Cert.KernelIdeal.Read.row_apply _ k)
  have e16 : ∀ k : Fin 128, (V2 m ρ c main_v16 : FVec Ideal S1x128 .f32) (ix2 (0 : Fin 1) k) = A3 m c (ix1 k) := fun k =>
    (congrFun ((Cert.KernelIdeal.Host.stats_shift_at m ρ c).trans (congrArg Cert.KernelIdeal.Val.row (Cert.KernelIdeal.Host.launch_arg3 m ρ c))) (ix2 (0 : Fin 1) k)).trans (Cert.KernelIdeal.Read.row_apply _ k)
  have e4 : ∀ k : Fin 128, (V2 m ρ c main_arg4 : FVec Ideal S128x128 .f32) (ix2 k j) = A4 m c (ix2 k j) := fun k =>
    congrFun ((Cert.KernelIdeal.Host.stats_arg4_at m ρ c).trans (Cert.KernelIdeal.Host.launch_arg4 m ρ c)) (ix2 k j)
  have hsum : (∑ k : Fin 128, Cert.BN.bnrelu ((V2 m ρ c main_v0_0 : FVec Ideal S100000x128 .bf16) (ix2 r k))
        ((V2 m ρ c main_v13 : FVec Ideal S1x128 .f32) (ix2 (0 : Fin 1) k)) ((V2 m ρ c main_v14 : FVec Ideal S1x128 .f32) (ix2 (0 : Fin 1) k))
        ((V2 m ρ c main_v15 : FVec Ideal S1x128 .f32) (ix2 (0 : Fin 1) k)) ((V2 m ρ c main_v16 : FVec Ideal S1x128 .f32) (ix2 (0 : Fin 1) k))
        * (V2 m ρ c main_arg4 : FVec Ideal S128x128 .f32) (ix2 k j))
      = ∑ k : Fin 128, Cert.BN.bnrelu (Hf (A0 m c) (A1 m c) r k) (Cert.KernelIdeal.Val.mean1 (ST m ρ c) (ix1 k))
        (Cert.KernelIdeal.Val.var1 (ST m ρ c) (ix1 k)) (A2 m c (ix1 k)) (A3 m c (ix1 k)) * A4 m c (ix2 k j) :=
    Finset.sum_congr rfl fun k _ => by rw [e0 k, e13 k, e14 k, e15 k, e16 k, e4 k]
  exact (congrFun (W3_arr m ρ c 6) (ix2 r j)).trans ((Cert.KernelIdeal.Reg1.arr6 (V2 m ρ) c r j).trans hsum)

theorem acc_at : (W58 m ρ c (Proc.devRef .tc main_v343) : FVec Ideal S100000x128 .f32)
    = Cert.KernelIdeal.Val.accN 27 (by decide) (H2K m ρ c) (A5 m c) (A9 m c) (uitofp .f32 (A10 m c)) := by
  rw [Cert.KernelIdeal.Host.walk_acc m ρ c, Cert.KernelIdeal.Host.launch_arg5 m ρ c, Cert.KernelIdeal.Host.launch_arg9 m ρ c,
    Cert.KernelIdeal.Host.launch_arg10 m ρ c]

theorem out_at (r : Fin 100000) (j : Fin 128) :
    (W59 m ρ c (Proc.devRef .tc main_v357) : FVec Ideal S100000x128 .f32) (ix2 r j) = max (Cert.BN.bnrelu
        (Cert.KernelIdeal.Val.accN 27 (by decide) (H2K m ρ c) (A5 m c) (A9 m c) (uitofp .f32 (A10 m c)) (ix2 r j))
        (Cert.KernelIdeal.Val.mean2 (Cert.KernelIdeal.Val.accN 27 (by decide) (H2K m ρ c) (A5 m c) (A9 m c) (uitofp .f32 (A10 m c))) (ix1 j))
        (Cert.KernelIdeal.Val.var2 (Cert.KernelIdeal.Val.accN 27 (by decide) (H2K m ρ c) (A5 m c) (A9 m c) (uitofp .f32 (A10 m c))) (ix1 j))
        (A6 m c (ix1 j)) (A7 m c (ix1 j)) + ∑ k : Fin 96, A0 m c (ix2 r k) * A8 m c (ix2 k j)) 0 := by
  refine (congrFun (W59_arr m ρ c 7) (ix2 r j)).trans ((Cert.KernelIdeal.Reg2.arr7 (V58 m ρ) c r j).trans ?_)
  have ex : Cert.KernelIdeal.Reg2.xArr (V58 m ρ) c = Cert.KernelIdeal.Val.accN 27 (by decide) (H2K m ρ c) (A5 m c) (A9 m c) (uitofp .f32 (A10 m c)) := acc_at m ρ c
  have em : Cert.KernelIdeal.Reg2.meanRow (V58 m ρ) c = Cert.KernelIdeal.Val.row (Cert.KernelIdeal.Val.mean2 (Cert.KernelIdeal.Val.accN 27 (by decide) (H2K m ρ c) (A5 m c) (A9 m c) (uitofp .f32 (A10 m c)))) := by
    show (W58 m ρ c (Proc.devRef .tc main_v353) : FVec Ideal S1x128 .f32) = _
    rw [Cert.KernelIdeal.Host.walk_mean m ρ c, Cert.KernelIdeal.Host.launch_arg5 m ρ c, Cert.KernelIdeal.Host.launch_arg9 m ρ c, Cert.KernelIdeal.Host.launch_arg10 m ρ c]
  have ev : Cert.KernelIdeal.Reg2.varRow (V58 m ρ) c = Cert.KernelIdeal.Val.row (Cert.KernelIdeal.Val.var2 (Cert.KernelIdeal.Val.accN 27 (by decide) (H2K m ρ c) (A5 m c) (A9 m c) (uitofp .f32 (A10 m c)))) := by
    show (W58 m ρ c (Proc.devRef .tc main_v354) : FVec Ideal S1x128 .f32) = _
    rw [Cert.KernelIdeal.Host.walk_var m ρ c, Cert.KernelIdeal.Host.launch_arg5 m ρ c, Cert.KernelIdeal.Host.launch_arg9 m ρ c, Cert.KernelIdeal.Host.launch_arg10 m ρ c]
  have eg : Cert.KernelIdeal.Reg2.gammaRow (V58 m ρ) c = Cert.KernelIdeal.Val.row (A6 m c) :=
    (Cert.KernelIdeal.Host.walk_scale m ρ c).trans (congrArg Cert.KernelIdeal.Val.row (Cert.KernelIdeal.Host.launch_arg6 m ρ c))
  have eb : Cert.KernelIdeal.Reg2.betaRow (V58 m ρ) c = Cert.KernelIdeal.Val.row (A7 m c) :=
    (Cert.KernelIdeal.Host.walk_shift m ρ c).trans (congrArg Cert.KernelIdeal.Val.row (Cert.KernelIdeal.Host.launch_arg7 m ρ c))
  have ef : Cert.KernelIdeal.Reg2.featArr (V58 m ρ) c = A0 m c :=
    (Cert.KernelIdeal.Host.walk_arg0 m ρ c).trans (Cert.KernelIdeal.Host.launch_arg0 m ρ c)
  have ew : Cert.KernelIdeal.Reg2.weightArr (V58 m ρ) c = A8 m c :=
    (Cert.KernelIdeal.Host.walk_arg8 m ρ c).trans (Cert.KernelIdeal.Host.launch_arg8 m ρ c)
  rw [ex, em, ev, eg, eb, ef, ew, Cert.KernelIdeal.Read.row_apply, Cert.KernelIdeal.Read.row_apply, Cert.KernelIdeal.Read.row_apply,
    Cert.KernelIdeal.Read.row_apply]

theorem kernel_value [Cert.Pre_finite_inputs.Facts]
    (hpre : Cert.Pre_finite_inputs.fn (F := Ideal) (A0 m c) (A1 m c) (A2 m c) (A3 m c) (A4 m c) (A5 m c) (A6 m c) (A7 m c) (A8 m c) (A9 m c) (A10 m c) = fun _ => 1#1) :
    (W59 m ρ c (Proc.devRef .tc main_v357) : FVec Ideal S100000x128 .f32)
      = Cert.ReferenceIdeal.Val.out (A0 m c) (A1 m c) (A2 m c) (A3 m c) (A4 m c) (A5 m c) (A6 m c) (A7 m c) (A8 m c) (A9 m c) (A10 m c) :=
  out_eq (A0 m c) (A1 m c) (A2 m c) (A3 m c) (A4 m c) (A5 m c) (A6 m c) (A7 m c) (A8 m c) (A9 m c) (A10 m c) (ST m ρ c) (H2K m ρ c) _
    (Cert.PreRead.real0 _ _ _ _ _ _ _ _ _ _ _ hpre) (Cert.PreRead.real1 _ _ _ _ _ _ _ _ _ _ _ hpre) (Cert.PreRead.real2 _ _ _ _ _ _ _ _ _ _ _ hpre)
    (Cert.PreRead.real3 _ _ _ _ _ _ _ _ _ _ _ hpre) (Cert.PreRead.real4 _ _ _ _ _ _ _ _ _ _ _ hpre) (Cert.PreRead.real5 _ _ _ _ _ _ _ _ _ _ _ hpre)
    (Cert.PreRead.idx_range _ _ _ _ _ _ _ _ _ _ _ hpre)
    (st_sum m ρ c) (st_sumsq m ρ c) (h2K_at m ρ c) (out_at m ρ c)

end Cert.Bridge

end
-- ==== Proof.lean ====
import proofs.«410615_j21474836480482_3_alg».proof.Defs
import proofs.«410615_j21474836480482_3_alg».proof.Proof.Gen.Kernel
import proofs.«410615_j21474836480482_3_alg».proof.Proof.Gen.KernelIdeal
import proofs.«410615_j21474836480482_3_alg».proof.Proof.Gen.ReferenceIdeal
import proofs.«410615_j21474836480482_3_alg».proof.Proof.Gen.Pre_finite_inputs
import proofs.«410615_j21474836480482_3_alg».proof.Proof.KernelFrameP
import proofs.«410615_j21474836480482_3_alg».proof.Proof.KernelIdealFrameP
import proofs.«410615_j21474836480482_3_alg».proof.Proof.RValC
import proofs.«410615_j21474836480482_3_alg».proof.Proof.BridgeK
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.Run.run (F := Ideal) m ρ)

/-- Both runs end at the reference's result term of the arguments they agree on. -/
theorem algebraic : Cert.algebraic_KernelIdeal_ReferenceIdeal := by
  intro m ρ m' ρ' hpre hagree
  refine ⟨fun c => (show FVec Ideal Cert.KernelIdeal.S100000x128 .f32 from
      Cert.ReferenceIdeal.Val.out (Cert.Bridge.A0 m c) (Cert.Bridge.A1 m c) (Cert.Bridge.A2 m c) (Cert.Bridge.A3 m c) (Cert.Bridge.A4 m c) (Cert.Bridge.A5 m c) (Cert.Bridge.A6 m c) (Cert.Bridge.A7 m c) (Cert.Bridge.A8 m c) (Cert.Bridge.A9 m c) (Cert.Bridge.A10 m c)), ?_, ?_⟩
  · exact (θ_run Cert.KernelIdeal.defs _ _).mono
      (fun r h c => ⟨(h c).1.trans (Cert.Bridge.kernel_value m ρ c (hpre c)), (h c).2⟩)
      (Cert.KernelIdeal.GenP.run_value m ρ)
  · refine (θ_run Cert.ReferenceIdeal.defs _ _).mono (fun r h c => ⟨?_, (h c).2⟩)
      (Cert.ReferenceIdeal.Run.run (F := Ideal) m' ρ')
    obtain ⟨e0, e1, e2, e3, e4, e5, e6, e7, e8, e9, e10⟩ := hagree c
    rw [(h c).1, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
